-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v428) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x24x32x32 : Shape := ⟨4, ![2, 24, 32, 32]⟩
abbrev S2x32x32x16 : Shape := ⟨4, ![2, 32, 32, 16]⟩
abbrev S16x16 : Shape := ⟨2, ![16, 16]⟩
abbrev S16 : Shape := ⟨1, ![16]⟩
abbrev S_ : Shape := ⟨0, ![]⟩

class Facts : Prop where
  bcast_S_S2x24x32x32 : S_.BroadcastsInDim S2x24x32x32 (![] : Fin 0 → Fin S2x24x32x32.rank)
  reducesTo_S2x24x32x32_S_d0_1_2_3 : S2x24x32x32.ReducesTo [0, 1, 2, 3] S_
  h_S_ : 0 < S_.numel
  bcast_S_S2x32x32x16 : S_.BroadcastsInDim S2x32x32x16 (![] : Fin 0 → Fin S2x32x32x16.rank)
  reducesTo_S2x32x32x16_S_d0_1_2_3 : S2x32x32x16.ReducesTo [0, 1, 2, 3] S_
  bcast_S_S16x16 : S_.BroadcastsInDim S16x16 (![] : Fin 0 → Fin S16x16.rank)
  reducesTo_S16x16_S_d0_1 : S16x16.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg0 : FVec F S2x24x32x32 .f32) (main_arg7 : FVec F S16 .f32) (main_v33 : IVec S_ 1) : IVec S_ 1 :=
  let main_v34 : FVec F S16 .f32 := Host.absf main_arg7
  let main_cst_12 : FVec F S_ .f32 := constant S_ .f32 0x7F800000#32
  let main_v35 : FVec F S16 .f32 := broadcastInDim S16 ![] bcast_S_S16 main_cst_12
  let main_v36 : IVec S16 1 := cmpf .olt main_v34 main_v35
  let main_c_13 : IVec S_ 1 := constantI S_ 1 1#1
  let main_v37 : IVec S_ 1 := (fun x v => Host.reduce IntOp.andi x v reducesTo_S16_S_d0 h_S_) main_v36 main_c_13
  let main_v38 : IVec S_ 1 := andi main_v33 main_v37
  let main_cst_14 : FVec F S_ .f32 := constant S_ .f32 0x00000000#32
  let main_v39 : FVec F S2x24x32x32 .f32 := broadcastInDim S2x24x32x32 ![] bcast_S_S2x24x32x32 main_cst_14
  let main_v40 : IVec S2x24x32x32 1 := cmpf .ogt main_arg0 main_v39
  let main_c_15 : IVec S_ 1 := constantI S_ 1 1#1
  let main_v41 : IVec S_ 1 := (fun x v => Host.reduce IntOp.andi x v reducesTo_S2x24x32x32_S_d0_1_2_3 h_S_) main_v40 main_c_15
  let main_v42 : IVec S_ 1 := andi main_v38 main_v41
  main_v42

def fn_part1 {F : FTy → Type} [FloatOps F] (main_arg0 : FVec F S2x24x32x32 .f32) (main_arg4 : FVec F S16x16 .f32) (main_arg5 : FVec F S16 .f32) (main_arg6 : FVec F S16x16 .f32) (main_arg7 : FVec F S16 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x16 .f32 := Host.absf main_arg4
  let main_cst_6 : FVec F S_ .f32 := constant S_ .f32 0x7F800000#32
  let main_v20 : FVec F S16x16 .f32 := broadcastInDim S16x16 ![] bcast_S_S16x16 main_cst_6
  let main_v21 : IVec S16x16 1 := cmpf .olt main_v19 main_v20
  let main_c_7 : IVec S_ 1 := constantI S_ 1 1#1
  let main_v22 : IVec S_ 1 := (fun x v => Host.reduce IntOp.andi x v reducesTo_S16x16_S_d0_1 h_S_) main_v21 main_c_7
  let main_v23 : IVec S_ 1 := andi main_v18 main_v22
  let main_v24 : FVec F S16 .f32 := Host.absf main_arg5
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S16x16 .f32 := Host.absf main_arg6
  let main_cst_10 : FVec F S_ .f32 := constant S_ .f32 0x7F800000#32
  let main_v30 : FVec F S16x16 .f32 := broadcastInDim S16x16 ![] bcast_S_S16x16 main_cst_10
  let main_v31 : IVec S16x16 1 := cmpf .olt main_v29 main_v30
  let main_c_11 : IVec S_ 1 := constantI S_ 1 1#1
  let main_v32 : IVec S_ 1 := (fun x v => Host.reduce IntOp.andi x v reducesTo_S16x16_S_d0_1 h_S_) main_v31 main_c_11
  let main_v33 : IVec S_ 1 := andi main_v28 main_v32
  fn_part2 (F := F) main_arg0 main_arg7 main_v33

def fn {F : FTy → Type} [FloatOps F] (main_arg0 : FVec F S2x24x32x32 .f32) (main_arg1 : FVec F S2x32x32x16 .f32) (main_arg2 : FVec F S16x16 .f32) (main_arg3 : FVec F S16 .f32) (main_arg4 : FVec F S16x16 .f32) (main_arg5 : FVec F S16 .f32) (main_arg6 : FVec F S16x16 .f32) (main_arg7 : FVec F S16 .f32) : IVec S_ 1 :=
  let main_v0 : FVec F S2x24x32x32 .f32 := Host.absf main_arg0
  let main_cst : FVec F S_ .f32 := constant S_ .f32 0x7F800000#32
  let main_v1 : FVec F S2x24x32x32 .f32 := broadcastInDim S2x24x32x32 ![] bcast_S_S2x24x32x32 main_cst
  let main_v2 : IVec S2x24x32x32 1 := cmpf .olt main_v0 main_v1
  let main_c : IVec S_ 1 := constantI S_ 1 1#1
  let main_v3 : IVec S_ 1 := (fun x v => Host.reduce IntOp.andi x v reducesTo_S2x24x32x32_S_d0_1_2_3 h_S_) main_v2 main_c
  let main_v4 : FVec F S2x32x32x16 .f32 := Host.absf main_arg1
  let main_cst_0 : FVec F S_ .f32 := constant S_ .f32 0x7F800000#32
  let main_v5 : FVec F S2x32x32x16 .f32 := broadcastInDim S2x32x32x16 ![] bcast_S_S2x32x32x16 main_cst_0
  let main_v6 : IVec S2x32x32x16 1 := cmpf .olt main_v4 main_v5
  let main_c_1 : IVec S_ 1 := constantI S_ 1 1#1
  let main_v7 : IVec S_ 1 := (fun x v => Host.reduce IntOp.andi x v reducesTo_S2x32x32x16_S_d0_1_2_3 h_S_) main_v6 main_c_1
  let main_v8 : IVec S_ 1 := andi main_v3 main_v7
  let main_v9 : FVec F S16x16 .f32 := Host.absf main_arg2
  let main_cst_2 : FVec F S_ .f32 := constant S_ .f32 0x7F800000#32
  let main_v10 : FVec F S16x16 .f32 := broadcastInDim S16x16 ![] bcast_S_S16x16 main_cst_2
  let main_v11 : IVec S16x16 1 := cmpf .olt main_v9 main_v10
  let main_c_3 : IVec S_ 1 := constantI S_ 1 1#1
  let main_v12 : IVec S_ 1 := (fun x v => Host.reduce IntOp.andi x v reducesTo_S16x16_S_d0_1 h_S_) main_v11 main_c_3
  let main_v13 : IVec S_ 1 := andi main_v8 main_v12
  let main_v14 : FVec F S16 .f32 := Host.absf main_arg3
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg0 main_arg4 main_arg5 main_arg6 main_arg7 main_v13 main_v16
-- ==== Kernel.lean ====
abbrev S2x24x32x32 : Shape := ⟨4, ![2, 24, 32, 32]⟩
abbrev S2x32x32x16 : Shape := ⟨4, ![2, 32, 32, 16]⟩
abbrev S16x16 : Shape := ⟨2, ![16, 16]⟩
abbrev S16 : Shape := ⟨1, ![16]⟩
abbrev S2x24x1024 : Shape := ⟨3, ![2, 24, 1024]⟩
abbrev S2x1024x16 : Shape := ⟨3, ![2, 1024, 16]⟩
abbrev S1x16 : Shape := ⟨2, ![1, 16]⟩
abbrev S1x24x1024 : Shape := ⟨3, ![1, 24, 1024]⟩
abbrev S1x1024x16 : Shape := ⟨3, ![1, 1024, 16]⟩
abbrev S24x1024 : Shape := ⟨2, ![24, 1024]⟩
abbrev S24 : Shape := ⟨1, ![24]⟩
abbrev S24x1 : Shape := ⟨2, ![24, 1]⟩
abbrev S1024x1 : Shape := ⟨2, ![1024, 1]⟩
abbrev S1024x16 : Shape := ⟨2, ![1024, 16]⟩
abbrev S24x16 : Shape := ⟨2, ![24, 16]⟩

abbrev nBuf : Space → Nat
  | .hbm => 15
  | .vmem => 12
  | .smem => 0
  | _ => 0

abbrev bufTy : (tb : Table) → Fin (tcTables nBuf tb) → BufTy
  | .hbm, ⟨0, _⟩ => ⟨S2x24x32x32, .f32⟩
  | .hbm, ⟨1, _⟩ => ⟨S2x32x32x16, .f32⟩
  | .hbm, ⟨2, _⟩ => ⟨S16x16, .f32⟩
  | .hbm, ⟨3, _⟩ => ⟨S16, .f32⟩
  | .hbm, ⟨4, _⟩ => ⟨S16x16, .f32⟩
  | .hbm, ⟨5, _⟩ => ⟨S16, .f32⟩
  | .hbm, ⟨6, _⟩ => ⟨S16x16, .f32⟩
  | .hbm, ⟨7, _⟩ => ⟨S16, .f32⟩
  | .hbm, ⟨8, _⟩ => ⟨S2x24x1024, .f32⟩
  | .hbm, ⟨9, _⟩ => ⟨S2x1024x16, .f32⟩
  | .hbm, ⟨10, _⟩ => ⟨S1x16, .f32⟩
  | .hbm, ⟨11, _⟩ => ⟨S1x16, .f32⟩
  | .hbm, ⟨12, _⟩ => ⟨S1x16, .f32⟩
  | .hbm, ⟨13, _⟩ => ⟨S2x1024x16, .f32⟩
  | .hbm, ⟨14, _⟩ => ⟨S2x32x32x16, .f32⟩
  | .local _ .vmem, ⟨0, _⟩ => ⟨S1x24x1024, .f32⟩
  | .local _ .vmem, ⟨1, _⟩ => ⟨S1x24x1024, .f32⟩
  | .local _ .vmem, ⟨2, _⟩ => ⟨S1x1024x16, .f32⟩
  | .local _ .vmem, ⟨3, _⟩ => ⟨S1x1024x16, .f32⟩
  | .local _ .vmem, ⟨4, _⟩ => ⟨S16x16, .f32⟩
  | .local _ .vmem, ⟨5, _⟩ => ⟨S1x16, .f32⟩
  | .local _ .vmem, ⟨6, _⟩ => ⟨S16x16, .f32⟩
  | .local _ .vmem, ⟨7, _⟩ => ⟨S1x16, .f32⟩
  | .local _ .vmem, ⟨8, _⟩ => ⟨S16x16, .f32⟩
  | .local _ .vmem, ⟨9, _⟩ => ⟨S1x16, .f32⟩
  | .local _ .vmem, ⟨10, _⟩ => ⟨S1x1024x16, .f32⟩
  | .local _ .vmem, ⟨11, _⟩ => ⟨S1x1024x16, .f32⟩
  | _, _ => ⟨S2x24x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x24x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x1024x16 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  shapeCasts_S2x24x32x32_S2x24x1024 : S2x24x32x32.ShapeCasts S2x24x1024
  shapeCasts_S2x32x32x16_S2x1024x16 : S2x32x32x16.ShapeCasts S2x1024x16
  shapeCasts_S16_S1x16 : S16.ShapeCasts S1x16
  inb_S1x24x1024_S1x24x1024_0_0_0 : ∀ a, (![0, 0, 0] : Fin 3 → Nat) a + S1x24x1024.size a ≤ S1x24x1024.size a
  h_S1x24x1024 : 0 < S1x24x1024.numel
  shapeCasts_S1x24x1024_S24x1024 : S1x24x1024.ShapeCasts S24x1024
  reduces_S24x1024_S24 : S24x1024.Reduces [1] S24
  shapeCasts_S24_S24x1 : S24.ShapeCasts S24x1
  broadcasts_S24x1_S24x1024 : S24x1.Broadcasts S24x1024
  inb_S1x1024x16_S1x1024x16_0_0_0 : ∀ a, (![0, 0, 0] : Fin 3 → Nat) a + S1x1024x16.size a ≤ S1x1024x16.size a
  h_S1x1024x16 : 0 < S1x1024x16.numel
  shapeCasts_S1x1024x16_S1024x16 : S1x1024x16.ShapeCasts S1024x16
  inb_S16x16_S16x16_0_0 : ∀ a, (![0, 0] : Fin 2 → Nat) a + S16x16.size a ≤ S16x16.size a
  h_S16x16 : 0 < S16x16.numel
  broadcasts_S1024x1_S1024x16 : S1024x1.Broadcasts S1024x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S1024x16 : S1x16.Broadcasts S1024x16
  shapeCasts_S1024x16_S1x1024x16 : S1024x16.ShapeCasts S1x1024x16
  shapeCasts_S2x1024x16_S2x32x32x16 : S2x1024x16.ShapeCasts S2x32x32x16
  dot_S24x1024_S24x1_S1024x1_0_0_1_1_n_n_wf : DotDims.WF S24x1024 S24x1 S1024x1 [0] [0] [1] [1] [] []
  dot_S1024x16_S16x16_S1024x16_1_0_0_1_n_n_wf : DotDims.WF S1024x16 S16x16 S1024x16 [1] [0] [0] [1] [] []
  dot_S24x1024_S1024x16_S24x16_1_0_0_1_n_n_wf : DotDims.WF S24x1024 S1024x16 S24x16 [1] [0] [0] [1] [] []
  dot_S24x1024_S24x16_S1024x16_0_0_1_1_n_n_wf : DotDims.WF S24x1024 S24x16 S1024x16 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x24x1024.size a ≤ S2x24x1024.size a
  hwx0_0 : ∀ i : grid0.Coords, EltTy.bits .f32 = 32 ∨ (Rect.block (s := S2x24x1024) S1x24x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x16.size a ≤ S2x1024x16.size a
  hwx0_1 : ∀ i : grid0.Coords, EltTy.bits .f32 = 32 ∨ (Rect.block (s := S2x1024x16) S1x1024x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x16.size a ≤ S16x16.size a
  hwx0_2 : ∀ i : grid0.Coords, EltTy.bits .f32 = 32 ∨ (Rect.block (s := S16x16) S16x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x16.size a ≤ S1x16.size a
  hwx0_3 : ∀ i : grid0.Coords, EltTy.bits .f32 = 32 ∨ (Rect.block (s := S1x16) S1x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x16.size a ≤ S16x16.size a
  hwx0_4 : ∀ i : grid0.Coords, EltTy.bits .f32 = 32 ∨ (Rect.block (s := S16x16) S16x16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x16.size a ≤ S1x16.size a
  hwx0_5 : ∀ i : grid0.Coords, EltTy.bits .f32 = 32 ∨ (Rect.block (s := S1x16) S1x16.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S16x16.size a ≤ S16x16.size a
  hwx0_6 : ∀ i : grid0.Coords, EltTy.bits .f32 = 32 ∨ (Rect.block (s := S16x16) S16x16.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x16.size a ≤ S1x16.size a
  hwx0_7 : ∀ i : grid0.Coords, EltTy.bits .f32 = 32 ∨ (Rect.block (s := S1x16) S1x16.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1024x16.size a ≤ S2x1024x16.size a
  hwx0_8 : ∀ i : grid0.Coords, EltTy.bits .f32 = 32 ∨ (Rect.block (s := S2x1024x16) S1x1024x16.size (cc0_transform_8 i) (hinb0_8 i)).WholeWords (EltTy.packing .f32)

variable [Facts₀]

def dot_S24x1024_S24x1_S1024x1_0_0_1_1_n_n : DotDims S24x1024 S24x1 S1024x1 where
  lhsContracting := [0]
  rhsContracting := [0]
  lhsNonContracting := [1]
  rhsNonContracting := [1]
  lhsBatch := []
  rhsBatch := []
  wf := dot_S24x1024_S24x1_S1024x1_0_0_1_1_n_n_wf
def dot_S1024x16_S16x16_S1024x16_1_0_0_1_n_n : DotDims S1024x16 S16x16 S1024x16 where
  lhsContracting := [1]
  rhsContracting := [0]
  lhsNonContracting := [0]
  rhsNonContracting := [1]
  lhsBatch := []
  rhsBatch := []
  wf := dot_S1024x16_S16x16_S1024x16_1_0_0_1_n_n_wf
def dot_S24x1024_S1024x16_S24x16_1_0_0_1_n_n : DotDims S24x1024 S1024x16 S24x16 where
  lhsContracting := [1]
  rhsContracting := [0]
  lhsNonContracting := [0]
  rhsNonContracting := [1]
  lhsBatch := []
  rhsBatch := []
  wf := dot_S24x1024_S1024x16_S24x16_1_0_0_1_n_n_wf
def dot_S24x1024_S24x16_S1024x16_0_0_1_1_n_n : DotDims S24x1024 S24x16 S1024x16 where
  lhsContracting := [0]
  rhsContracting := [0]
  lhsNonContracting := [1]
  rhsNonContracting := [1]
  lhsBatch := []
  rhsBatch := []
  wf := dot_S24x1024_S24x16_S1024x16_0_0_1_1_n_n_wf

abbrev win0_0 : Pipeline.Window sig grid0 :=
  Pipeline.Window.ofSpec (Memref.whole main_v0) S1x24x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S16x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S16x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S16x16.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S1x16.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5) S1x1024x16.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S2x24x32x32 : Shape := ⟨4, ![2, 24, 32, 32]⟩
abbrev S2x32x32x16 : Shape := ⟨4, ![2, 32, 32, 16]⟩
abbrev S16x16 : Shape := ⟨2, ![16, 16]⟩
abbrev S16 : Shape := ⟨1, ![16]⟩
abbrev S1x24x32x32 : Shape := ⟨4, ![1, 24, 32, 32]⟩
abbrev S24x32x32 : Shape := ⟨3, ![24, 32, 32]⟩
abbrev S24x1024 : Shape := ⟨2, ![24, 1024]⟩
abbrev S_ : Shape := ⟨0, ![]⟩
abbrev S24 : Shape := ⟨1, ![24]⟩
abbrev S24x1 : Shape := ⟨2, ![24, 1]⟩
abbrev S1024x24 : Shape := ⟨2, ![1024, 24]⟩
abbrev S1024x1024 : Shape := ⟨2, ![1024, 1024]⟩
abbrev S1048576 : Shape := ⟨1, ![1048576]⟩
abbrev S1048576x1 : Shape := ⟨2, ![1048576, 1]⟩
abbrev S1048576x2 : Shape := ⟨2, ![1048576, 2]⟩
abbrev S1x32x32x16 : Shape := ⟨4, ![1, 32, 32, 16]⟩
abbrev S32x32x16 : Shape := ⟨3, ![32, 32, 16]⟩
abbrev S1024x16 : Shape := ⟨2, ![1024, 16]⟩
abbrev S1024 : Shape := ⟨1, ![1024]⟩
abbrev S1049600 : Shape := ⟨1, ![1049600]⟩
abbrev S1049600x1 : Shape := ⟨2, ![1049600, 1]⟩
abbrev S1049600x16 : Shape := ⟨2, ![1049600, 16]⟩
abbrev S1x16 : Shape := ⟨2, ![1, 16]⟩

abbrev nBuf : Space → Nat
  | .hbm => 745
  | .vmem => 0
  | .smem => 0
  | _ => 0

abbrev hbmTy0_0 (i : Nat) : BufTy := match i % 128 with
  | 0 => ⟨S2x24x32x32, .f32⟩
  | 1 => ⟨S2x32x32x16, .f32⟩
  | 2 => ⟨S16x16, .f32⟩
  | 3 => ⟨S16, .f32⟩
  | 4 => ⟨S16x16, .f32⟩
  | 5 => ⟨S16, .f32⟩
  | 6 => ⟨S16x16, .f32⟩
  | 7 => ⟨S16, .f32⟩
  | 8 => ⟨S1x24x32x32, .f32⟩
  | 9 => ⟨S24x32x32, .f32⟩
  | 10 => ⟨S24x1024, .f32⟩
  | 11 => ⟨S24x1024, .f32⟩
  | 12 => ⟨S_, .f32⟩
  | 13 => ⟨S24, .f32⟩
  | 14 => ⟨S24x1, .f32⟩
  | 15 => ⟨S24x1, .f32⟩
  | 16 => ⟨S_, .f32⟩
  | 17 => ⟨S24x1, .f32⟩
  | 18 => ⟨S24x1, .f32⟩
  | 19 => ⟨S24x1024, .f32⟩
  | 20 => ⟨S24x1024, .f32⟩
  | 21 => ⟨S1024x24, .f32⟩
  | 22 => ⟨S1024x1024, .f32⟩
  | 23 => ⟨S_, .f32⟩
  | 24 => ⟨S1024x1024, .f32⟩
  | 25 => ⟨S1024x1024, .i1⟩
  | 26 => ⟨S1048576, .i1⟩
  | 27 => ⟨S1048576, .i32⟩
  | 28 => ⟨S_, .i32⟩
  | 29 => ⟨S_, .i32⟩
  | 30 => ⟨S1048576, .i32⟩
  | 31 => ⟨S_, .i32⟩
  | 32 => ⟨S1048576, .i32⟩
  | 33 => ⟨S_, .i32⟩
  | 34 => ⟨S_, .i32⟩
  | 35 => ⟨S1048576, .i32⟩
  | 36 => ⟨S1048576, .i32⟩
  | 37 => ⟨S_, .i32⟩
  | 38 => ⟨S1048576, .i32⟩
  | 39 => ⟨S1048576, .i1⟩
  | 40 => ⟨S_, .i32⟩
  | 41 => ⟨S1048576, .i32⟩
  | 42 => ⟨S1048576, .i32⟩
  | 43 => ⟨S1048576, .i32⟩
  | 44 => ⟨S1048576x1, .i32⟩
  | 45 => ⟨S_, .i32⟩
  | 46 => ⟨S1048576, .i32⟩
  | 47 => ⟨S1048576, .i32⟩
  | 48 => ⟨S_, .i32⟩
  | 49 => ⟨S_, .i32⟩
  | 50 => ⟨S1048576, .i32⟩
  | 51 => ⟨S_, .i32⟩
  | 52 => ⟨S1048576, .i32⟩
  | 53 => ⟨S1048576, .i32⟩
  | 54 => ⟨S1048576, .i32⟩
  | 55 => ⟨S_, .i32⟩
  | 56 => ⟨S1048576, .i32⟩
  | 57 => ⟨S1048576, .i1⟩
  | 58 => ⟨S1048576, .i32⟩
  | 59 => ⟨S1048576, .i32⟩
  | 60 => ⟨S_, .i32⟩
  | 61 => ⟨S1048576, .i32⟩
  | 62 => ⟨S1048576, .i1⟩
  | 63 => ⟨S1048576, .i1⟩
  | 64 => ⟨S_, .i32⟩
  | 65 => ⟨S1048576, .i32⟩
  | 66 => ⟨S1048576, .i32⟩
  | 67 => ⟨S1048576, .i32⟩
  | 68 => ⟨S_, .i32⟩
  | 69 => ⟨S_, .i32⟩
  | 70 => ⟨S_, .i32⟩
  | 71 => ⟨S_, .i1⟩
  | 72 => ⟨S_, .i32⟩
  | 73 => ⟨S_, .i32⟩
  | 74 => ⟨S1048576, .i32⟩
  | 75 => ⟨S1048576, .i32⟩
  | 76 => ⟨S_, .i32⟩
  | 77 => ⟨S1048576, .i32⟩
  | 78 => ⟨S1048576, .i1⟩
  | 79 => ⟨S_, .i32⟩
  | 80 => ⟨S1048576, .i32⟩
  | 81 => ⟨S1048576, .i1⟩
  | 82 => ⟨S_, .i32⟩
  | 83 => ⟨S_, .i1⟩
  | 84 => ⟨S1048576, .i1⟩
  | 85 => ⟨S1048576, .i1⟩
  | 86 => ⟨S1048576, .i1⟩
  | 87 => ⟨S1048576, .i32⟩
  | 88 => ⟨S1048576, .i32⟩
  | 89 => ⟨S1048576, .i32⟩
  | 90 => ⟨S_, .i32⟩
  | 91 => ⟨S1048576, .i32⟩
  | 92 => ⟨S1048576, .i32⟩
  | 93 => ⟨S1048576, .i32⟩
  | 94 => ⟨S_, .i32⟩
  | 95 => ⟨S1048576, .i32⟩
  | 96 => ⟨S1048576, .i1⟩
  | 97 => ⟨S1048576, .i32⟩
  | 98 => ⟨S1048576, .i32⟩
  | 99 => ⟨S_, .i32⟩
  | 100 => ⟨S1048576, .i32⟩
  | 101 => ⟨S1048576, .i1⟩
  | 102 => ⟨S1048576, .i1⟩
  | 103 => ⟨S_, .i32⟩
  | 104 => ⟨S1048576, .i32⟩
  | 105 => ⟨S1048576, .i32⟩
  | 106 => ⟨S1048576, .i32⟩
  | 107 => ⟨S_, .i32⟩
  | 108 => ⟨S_, .i32⟩
  | 109 => ⟨S_, .i32⟩
  | 110 => ⟨S_, .i1⟩
  | 111 => ⟨S_, .i32⟩
  | 112 => ⟨S_, .i32⟩
  | 113 => ⟨S1048576, .i32⟩
  | 114 => ⟨S1048576, .i32⟩
  | 115 => ⟨S_, .i32⟩
  | 116 => ⟨S1048576, .i32⟩
  | 117 => ⟨S1048576, .i1⟩
  | 118 => ⟨S_, .i32⟩
  | 119 => ⟨S1048576, .i32⟩
  | 120 => ⟨S1048576, .i1⟩
  | 121 => ⟨S_, .i32⟩
  | 122 => ⟨S_, .i1⟩
  | 123 => ⟨S1048576, .i1⟩
  | 124 => ⟨S1048576, .i1⟩
  | 125 => ⟨S1048576, .i1⟩
  | 126 => ⟨S1048576, .i32⟩
  | 127 => ⟨S1048576, .i32⟩
  | _ => ⟨S2x24x32x32, .f32⟩

abbrev hbmTy0_1 (i : Nat) : BufTy := match i % 128 with
  | 0 => ⟨S1048576, .i32⟩
  | 1 => ⟨S_, .i32⟩
  | 2 => ⟨S1048576, .i32⟩
  | 3 => ⟨S1048576, .i1⟩
  | 4 => ⟨S_, .i32⟩
  | 5 => ⟨S1048576, .i32⟩
  | 6 => ⟨S1048576, .i32⟩
  | 7 => ⟨S1048576, .i32⟩
  | 8 => ⟨S_, .i32⟩
  | 9 => ⟨S1048576, .i32⟩
  | 10 => ⟨S1048576, .i1⟩
  | 11 => ⟨S_, .i32⟩
  | 12 => ⟨S1048576, .i32⟩
  | 13 => ⟨S1048576, .i32⟩
  | 14 => ⟨S1048576, .i32⟩
  | 15 => ⟨S1048576x1, .i32⟩
  | 16 => ⟨S1048576x1, .i32⟩
  | 17 => ⟨S1048576x2, .i32⟩
  | 18 => ⟨S1048576, .f32⟩
  | 19 => ⟨S1x32x32x16, .f32⟩
  | 20 => ⟨S32x32x16, .f32⟩
  | 21 => ⟨S1024x16, .f32⟩
  | 22 => ⟨S1024, .i32⟩
  | 23 => ⟨S1049600, .i32⟩
  | 24 => ⟨S1049600, .i32⟩
  | 25 => ⟨S_, .f32⟩
  | 26 => ⟨S1024, .f32⟩
  | 27 => ⟨S1049600, .f32⟩
  | 28 => ⟨S_, .f32⟩
  | 29 => ⟨S1024, .f32⟩
  | 30 => ⟨S_, .i32⟩
  | 31 => ⟨S1049600, .i32⟩
  | 32 => ⟨S1049600, .i1⟩
  | 33 => ⟨S_, .i32⟩
  | 34 => ⟨S1049600, .i32⟩
  | 35 => ⟨S1049600, .i32⟩
  | 36 => ⟨S1049600, .i32⟩
  | 37 => ⟨S1049600x1, .i32⟩
  | 38 => ⟨S1024, .f32⟩
  | 39 => ⟨S_, .f32⟩
  | 40 => ⟨S1024, .f32⟩
  | 41 => ⟨S1024, .i1⟩
  | 42 => ⟨S1024, .f32⟩
  | 43 => ⟨S_, .f32⟩
  | 44 => ⟨S_, .f32⟩
  | 45 => ⟨S1024, .f32⟩
  | 46 => ⟨S1024, .f32⟩
  | 47 => ⟨S_, .i32⟩
  | 48 => ⟨S1049600, .i32⟩
  | 49 => ⟨S1049600, .i1⟩
  | 50 => ⟨S_, .i32⟩
  | 51 => ⟨S1049600, .i32⟩
  | 52 => ⟨S1049600, .i32⟩
  | 53 => ⟨S1049600, .i32⟩
  | 54 => ⟨S1049600x1, .i32⟩
  | 55 => ⟨S1049600, .f32⟩
  | 56 => ⟨S1049600, .f32⟩
  | 57 => ⟨S_, .i32⟩
  | 58 => ⟨S1049600, .i32⟩
  | 59 => ⟨S1049600, .i1⟩
  | 60 => ⟨S_, .i32⟩
  | 61 => ⟨S1049600, .i32⟩
  | 62 => ⟨S1049600, .i32⟩
  | 63 => ⟨S1049600, .i32⟩
  | 64 => ⟨S1049600x1, .i32⟩
  | 65 => ⟨S1049600, .f32⟩
  | 66 => ⟨S1049600, .f32⟩
  | 67 => ⟨S1024x16, .f32⟩
  | 68 => ⟨S_, .f32⟩
  | 69 => ⟨S1024x16, .f32⟩
  | 70 => ⟨S_, .i32⟩
  | 71 => ⟨S1049600, .i32⟩
  | 72 => ⟨S1049600, .i1⟩
  | 73 => ⟨S_, .i32⟩
  | 74 => ⟨S1049600, .i32⟩
  | 75 => ⟨S1049600, .i32⟩
  | 76 => ⟨S1049600, .i32⟩
  | 77 => ⟨S1049600x1, .i32⟩
  | 78 => ⟨S1049600x16, .f32⟩
  | 79 => ⟨S1049600x1, .f32⟩
  | 80 => ⟨S1049600x16, .f32⟩
  | 81 => ⟨S1049600x16, .f32⟩
  | 82 => ⟨S_, .i32⟩
  | 83 => ⟨S1049600, .i32⟩
  | 84 => ⟨S1049600, .i1⟩
  | 85 => ⟨S_, .i32⟩
  | 86 => ⟨S1049600, .i32⟩
  | 87 => ⟨S1049600, .i32⟩
  | 88 => ⟨S1049600, .i32⟩
  | 89 => ⟨S1049600x1, .i32⟩
  | 90 => ⟨S1024x16, .f32⟩
  | 91 => ⟨S1x16, .f32⟩
  | 92 => ⟨S1024x16, .f32⟩
  | 93 => ⟨S1024x16, .f32⟩
  | 94 => ⟨S_, .f32⟩
  | 95 => ⟨S1024x16, .f32⟩
  | 96 => ⟨S1024x16, .f32⟩
  | 97 => ⟨S1024, .i32⟩
  | 98 => ⟨S1049600, .i32⟩
  | 99 => ⟨S1049600, .i32⟩
  | 100 => ⟨S_, .f32⟩
  | 101 => ⟨S1024, .f32⟩
  | 102 => ⟨S1049600, .f32⟩
  | 103 => ⟨S_, .f32⟩
  | 104 => ⟨S1024, .f32⟩
  | 105 => ⟨S_, .i32⟩
  | 106 => ⟨S1049600, .i32⟩
  | 107 => ⟨S1049600, .i1⟩
  | 108 => ⟨S_, .i32⟩
  | 109 => ⟨S1049600, .i32⟩
  | 110 => ⟨S1049600, .i32⟩
  | 111 => ⟨S1049600, .i32⟩
  | 112 => ⟨S1049600x1, .i32⟩
  | 113 => ⟨S1024, .f32⟩
  | 114 => ⟨S_, .f32⟩
  | 115 => ⟨S1024, .f32⟩
  | 116 => ⟨S1024, .i1⟩
  | 117 => ⟨S1024, .f32⟩
  | 118 => ⟨S_, .f32⟩
  | 119 => ⟨S_, .f32⟩
  | 120 => ⟨S1024, .f32⟩
  | 121 => ⟨S1024, .f32⟩
  | 122 => ⟨S_, .i32⟩
  | 123 => ⟨S1049600, .i32⟩
  | 124 => ⟨S1049600, .i1⟩
  | 125 => ⟨S_, .i32⟩
  | 126 => ⟨S1049600, .i32⟩
  | 127 => ⟨S1049600, .i32⟩
  | _ => ⟨S2x24x32x32, .f32⟩

abbrev hbmTy0_2 (i : Nat) : BufTy := match i % 128 with
  | 0 => ⟨S1049600, .i32⟩
  | 1 => ⟨S1049600x1, .i32⟩
  | 2 => ⟨S1049600, .f32⟩
  | 3 => ⟨S1049600, .f32⟩
  | 4 => ⟨S_, .i32⟩
  | 5 => ⟨S1049600, .i32⟩
  | 6 => ⟨S1049600, .i1⟩
  | 7 => ⟨S_, .i32⟩
  | 8 => ⟨S1049600, .i32⟩
  | 9 => ⟨S1049600, .i32⟩
  | 10 => ⟨S1049600, .i32⟩
  | 11 => ⟨S1049600x1, .i32⟩
  | 12 => ⟨S1049600, .f32⟩
  | 13 => ⟨S1049600, .f32⟩
  | 14 => ⟨S1024x16, .f32⟩
  | 15 => ⟨S_, .f32⟩
  | 16 => ⟨S1024x16, .f32⟩
  | 17 => ⟨S_, .i32⟩
  | 18 => ⟨S1049600, .i32⟩
  | 19 => ⟨S1049600, .i1⟩
  | 20 => ⟨S_, .i32⟩
  | 21 => ⟨S1049600, .i32⟩
  | 22 => ⟨S1049600, .i32⟩
  | 23 => ⟨S1049600, .i32⟩
  | 24 => ⟨S1049600x1, .i32⟩
  | 25 => ⟨S1049600x16, .f32⟩
  | 26 => ⟨S1049600x1, .f32⟩
  | 27 => ⟨S1049600x16, .f32⟩
  | 28 => ⟨S1049600x16, .f32⟩
  | 29 => ⟨S_, .i32⟩
  | 30 => ⟨S1049600, .i32⟩
  | 31 => ⟨S1049600, .i1⟩
  | 32 => ⟨S_, .i32⟩
  | 33 => ⟨S1049600, .i32⟩
  | 34 => ⟨S1049600, .i32⟩
  | 35 => ⟨S1049600, .i32⟩
  | 36 => ⟨S1049600x1, .i32⟩
  | 37 => ⟨S1024x16, .f32⟩
  | 38 => ⟨S1x16, .f32⟩
  | 39 => ⟨S1024x16, .f32⟩
  | 40 => ⟨S1024x16, .f32⟩
  | 41 => ⟨S_, .f32⟩
  | 42 => ⟨S1024x16, .f32⟩
  | 43 => ⟨S1024x16, .f32⟩
  | 44 => ⟨S1024, .i32⟩
  | 45 => ⟨S1049600, .i32⟩
  | 46 => ⟨S1049600, .i32⟩
  | 47 => ⟨S_, .f32⟩
  | 48 => ⟨S1024, .f32⟩
  | 49 => ⟨S1049600, .f32⟩
  | 50 => ⟨S_, .f32⟩
  | 51 => ⟨S1024, .f32⟩
  | 52 => ⟨S_, .i32⟩
  | 53 => ⟨S1049600, .i32⟩
  | 54 => ⟨S1049600, .i1⟩
  | 55 => ⟨S_, .i32⟩
  | 56 => ⟨S1049600, .i32⟩
  | 57 => ⟨S1049600, .i32⟩
  | 58 => ⟨S1049600, .i32⟩
  | 59 => ⟨S1049600x1, .i32⟩
  | 60 => ⟨S1024, .f32⟩
  | 61 => ⟨S_, .f32⟩
  | 62 => ⟨S1024, .f32⟩
  | 63 => ⟨S1024, .i1⟩
  | 64 => ⟨S1024, .f32⟩
  | 65 => ⟨S_, .f32⟩
  | 66 => ⟨S_, .f32⟩
  | 67 => ⟨S1024, .f32⟩
  | 68 => ⟨S1024, .f32⟩
  | 69 => ⟨S_, .i32⟩
  | 70 => ⟨S1049600, .i32⟩
  | 71 => ⟨S1049600, .i1⟩
  | 72 => ⟨S_, .i32⟩
  | 73 => ⟨S1049600, .i32⟩
  | 74 => ⟨S1049600, .i32⟩
  | 75 => ⟨S1049600, .i32⟩
  | 76 => ⟨S1049600x1, .i32⟩
  | 77 => ⟨S1049600, .f32⟩
  | 78 => ⟨S1049600, .f32⟩
  | 79 => ⟨S_, .i32⟩
  | 80 => ⟨S1049600, .i32⟩
  | 81 => ⟨S1049600, .i1⟩
  | 82 => ⟨S_, .i32⟩
  | 83 => ⟨S1049600, .i32⟩
  | 84 => ⟨S1049600, .i32⟩
  | 85 => ⟨S1049600, .i32⟩
  | 86 => ⟨S1049600x1, .i32⟩
  | 87 => ⟨S1049600, .f32⟩
  | 88 => ⟨S1049600, .f32⟩
  | 89 => ⟨S1024x16, .f32⟩
  | 90 => ⟨S_, .f32⟩
  | 91 => ⟨S1024x16, .f32⟩
  | 92 => ⟨S_, .i32⟩
  | 93 => ⟨S1049600, .i32⟩
  | 94 => ⟨S1049600, .i1⟩
  | 95 => ⟨S_, .i32⟩
  | 96 => ⟨S1049600, .i32⟩
  | 97 => ⟨S1049600, .i32⟩
  | 98 => ⟨S1049600, .i32⟩
  | 99 => ⟨S1049600x1, .i32⟩
  | 100 => ⟨S1049600x16, .f32⟩
  | 101 => ⟨S1049600x1, .f32⟩
  | 102 => ⟨S1049600x16, .f32⟩
  | 103 => ⟨S1049600x16, .f32⟩
  | 104 => ⟨S_, .i32⟩
  | 105 => ⟨S1049600, .i32⟩
  | 106 => ⟨S1049600, .i1⟩
  | 107 => ⟨S_, .i32⟩
  | 108 => ⟨S1049600, .i32⟩
  | 109 => ⟨S1049600, .i32⟩
  | 110 => ⟨S1049600, .i32⟩
  | 111 => ⟨S1049600x1, .i32⟩
  | 112 => ⟨S1024x16, .f32⟩
  | 113 => ⟨S1x16, .f32⟩
  | 114 => ⟨S1024x16, .f32⟩
  | 115 => ⟨S1024x16, .f32⟩
  | 116 => ⟨S_, .f32⟩
  | 117 => ⟨S1024x16, .f32⟩
  | 118 => ⟨S1024x16, .f32⟩
  | 119 => ⟨S1x32x32x16, .f32⟩
  | 120 => ⟨S1x24x32x32, .f32⟩
  | 121 => ⟨S24x32x32, .f32⟩
  | 122 => ⟨S24x1024, .f32⟩
  | 123 => ⟨S24x1024, .f32⟩
  | 124 => ⟨S_, .f32⟩
  | 125 => ⟨S24, .f32⟩
  | 126 => ⟨S24x1, .f32⟩
  | 127 => ⟨S24x1, .f32⟩
  | _ => ⟨S2x24x32x32, .f32⟩

abbrev hbmTy0_3 (i : Nat) : BufTy := match i % 128 with
  | 0 => ⟨S_, .f32⟩
  | 1 => ⟨S24x1, .f32⟩
  | 2 => ⟨S24x1, .f32⟩
  | 3 => ⟨S24x1024, .f32⟩
  | 4 => ⟨S24x1024, .f32⟩
  | 5 => ⟨S1024x24, .f32⟩
  | 6 => ⟨S1024x1024, .f32⟩
  | 7 => ⟨S_, .f32⟩
  | 8 => ⟨S1024x1024, .f32⟩
  | 9 => ⟨S1024x1024, .i1⟩
  | 10 => ⟨S1048576, .i1⟩
  | 11 => ⟨S1048576, .i32⟩
  | 12 => ⟨S_, .i32⟩
  | 13 => ⟨S_, .i32⟩
  | 14 => ⟨S1048576, .i32⟩
  | 15 => ⟨S_, .i32⟩
  | 16 => ⟨S1048576, .i32⟩
  | 17 => ⟨S_, .i32⟩
  | 18 => ⟨S_, .i32⟩
  | 19 => ⟨S1048576, .i32⟩
  | 20 => ⟨S1048576, .i32⟩
  | 21 => ⟨S_, .i32⟩
  | 22 => ⟨S1048576, .i32⟩
  | 23 => ⟨S1048576, .i1⟩
  | 24 => ⟨S_, .i32⟩
  | 25 => ⟨S1048576, .i32⟩
  | 26 => ⟨S1048576, .i32⟩
  | 27 => ⟨S1048576, .i32⟩
  | 28 => ⟨S1048576x1, .i32⟩
  | 29 => ⟨S_, .i32⟩
  | 30 => ⟨S1048576, .i32⟩
  | 31 => ⟨S1048576, .i32⟩
  | 32 => ⟨S_, .i32⟩
  | 33 => ⟨S_, .i32⟩
  | 34 => ⟨S1048576, .i32⟩
  | 35 => ⟨S_, .i32⟩
  | 36 => ⟨S1048576, .i32⟩
  | 37 => ⟨S1048576, .i32⟩
  | 38 => ⟨S1048576, .i32⟩
  | 39 => ⟨S_, .i32⟩
  | 40 => ⟨S1048576, .i32⟩
  | 41 => ⟨S1048576, .i1⟩
  | 42 => ⟨S1048576, .i32⟩
  | 43 => ⟨S1048576, .i32⟩
  | 44 => ⟨S_, .i32⟩
  | 45 => ⟨S1048576, .i32⟩
  | 46 => ⟨S1048576, .i1⟩
  | 47 => ⟨S1048576, .i1⟩
  | 48 => ⟨S_, .i32⟩
  | 49 => ⟨S1048576, .i32⟩
  | 50 => ⟨S1048576, .i32⟩
  | 51 => ⟨S1048576, .i32⟩
  | 52 => ⟨S_, .i32⟩
  | 53 => ⟨S_, .i32⟩
  | 54 => ⟨S_, .i32⟩
  | 55 => ⟨S_, .i1⟩
  | 56 => ⟨S_, .i32⟩
  | 57 => ⟨S_, .i32⟩
  | 58 => ⟨S1048576, .i32⟩
  | 59 => ⟨S1048576, .i32⟩
  | 60 => ⟨S_, .i32⟩
  | 61 => ⟨S1048576, .i32⟩
  | 62 => ⟨S1048576, .i1⟩
  | 63 => ⟨S_, .i32⟩
  | 64 => ⟨S1048576, .i32⟩
  | 65 => ⟨S1048576, .i1⟩
  | 66 => ⟨S_, .i32⟩
  | 67 => ⟨S_, .i1⟩
  | 68 => ⟨S1048576, .i1⟩
  | 69 => ⟨S1048576, .i1⟩
  | 70 => ⟨S1048576, .i1⟩
  | 71 => ⟨S1048576, .i32⟩
  | 72 => ⟨S1048576, .i32⟩
  | 73 => ⟨S1048576, .i32⟩
  | 74 => ⟨S_, .i32⟩
  | 75 => ⟨S1048576, .i32⟩
  | 76 => ⟨S1048576, .i32⟩
  | 77 => ⟨S1048576, .i32⟩
  | 78 => ⟨S_, .i32⟩
  | 79 => ⟨S1048576, .i32⟩
  | 80 => ⟨S1048576, .i1⟩
  | 81 => ⟨S1048576, .i32⟩
  | 82 => ⟨S1048576, .i32⟩
  | 83 => ⟨S_, .i32⟩
  | 84 => ⟨S1048576, .i32⟩
  | 85 => ⟨S1048576, .i1⟩
  | 86 => ⟨S1048576, .i1⟩
  | 87 => ⟨S_, .i32⟩
  | 88 => ⟨S1048576, .i32⟩
  | 89 => ⟨S1048576, .i32⟩
  | 90 => ⟨S1048576, .i32⟩
  | 91 => ⟨S_, .i32⟩
  | 92 => ⟨S_, .i32⟩
  | 93 => ⟨S_, .i32⟩
  | 94 => ⟨S_, .i1⟩
  | 95 => ⟨S_, .i32⟩
  | 96 => ⟨S_, .i32⟩
  | 97 => ⟨S1048576, .i32⟩
  | 98 => ⟨S1048576, .i32⟩
  | 99 => ⟨S_, .i32⟩
  | 100 => ⟨S1048576, .i32⟩
  | 101 => ⟨S1048576, .i1⟩
  | 102 => ⟨S_, .i32⟩
  | 103 => ⟨S1048576, .i32⟩
  | 104 => ⟨S1048576, .i1⟩
  | 105 => ⟨S_, .i32⟩
  | 106 => ⟨S_, .i1⟩
  | 107 => ⟨S1048576, .i1⟩
  | 108 => ⟨S1048576, .i1⟩
  | 109 => ⟨S1048576, .i1⟩
  | 110 => ⟨S1048576, .i32⟩
  | 111 => ⟨S1048576, .i32⟩
  | 112 => ⟨S1048576, .i32⟩
  | 113 => ⟨S_, .i32⟩
  | 114 => ⟨S1048576, .i32⟩
  | 115 => ⟨S1048576, .i1⟩
  | 116 => ⟨S_, .i32⟩
  | 117 => ⟨S1048576, .i32⟩
  | 118 => ⟨S1048576, .i32⟩
  | 119 => ⟨S1048576, .i32⟩
  | 120 => ⟨S_, .i32⟩
  | 121 => ⟨S1048576, .i32⟩
  | 122 => ⟨S1048576, .i1⟩
  | 123 => ⟨S_, .i32⟩
  | 124 => ⟨S1048576, .i32⟩
  | 125 => ⟨S1048576, .i32⟩
  | 126 => ⟨S1048576, .i32⟩
  | 127 => ⟨S1048576x1, .i32⟩
  | _ => ⟨S2x24x32x32, .f32⟩

abbrev hbmTy0_4 (i : Nat) : BufTy := match i % 128 with
  | 0 => ⟨S1048576x1, .i32⟩
  | 1 => ⟨S1048576x2, .i32⟩
  | 2 => ⟨S1048576, .f32⟩
  | 3 => ⟨S1x32x32x16, .f32⟩
  | 4 => ⟨S32x32x16, .f32⟩
  | 5 => ⟨S1024x16, .f32⟩
  | 6 => ⟨S1024, .i32⟩
  | 7 => ⟨S1049600, .i32⟩
  | 8 => ⟨S1049600, .i32⟩
  | 9 => ⟨S_, .f32⟩
  | 10 => ⟨S1024, .f32⟩
  | 11 => ⟨S1049600, .f32⟩
  | 12 => ⟨S_, .f32⟩
  | 13 => ⟨S1024, .f32⟩
  | 14 => ⟨S_, .i32⟩
  | 15 => ⟨S1049600, .i32⟩
  | 16 => ⟨S1049600, .i1⟩
  | 17 => ⟨S_, .i32⟩
  | 18 => ⟨S1049600, .i32⟩
  | 19 => ⟨S1049600, .i32⟩
  | 20 => ⟨S1049600, .i32⟩
  | 21 => ⟨S1049600x1, .i32⟩
  | 22 => ⟨S1024, .f32⟩
  | 23 => ⟨S_, .f32⟩
  | 24 => ⟨S1024, .f32⟩
  | 25 => ⟨S1024, .i1⟩
  | 26 => ⟨S1024, .f32⟩
  | 27 => ⟨S_, .f32⟩
  | 28 => ⟨S_, .f32⟩
  | 29 => ⟨S1024, .f32⟩
  | 30 => ⟨S1024, .f32⟩
  | 31 => ⟨S_, .i32⟩
  | 32 => ⟨S1049600, .i32⟩
  | 33 => ⟨S1049600, .i1⟩
  | 34 => ⟨S_, .i32⟩
  | 35 => ⟨S1049600, .i32⟩
  | 36 => ⟨S1049600, .i32⟩
  | 37 => ⟨S1049600, .i32⟩
  | 38 => ⟨S1049600x1, .i32⟩
  | 39 => ⟨S1049600, .f32⟩
  | 40 => ⟨S1049600, .f32⟩
  | 41 => ⟨S_, .i32⟩
  | 42 => ⟨S1049600, .i32⟩
  | 43 => ⟨S1049600, .i1⟩
  | 44 => ⟨S_, .i32⟩
  | 45 => ⟨S1049600, .i32⟩
  | 46 => ⟨S1049600, .i32⟩
  | 47 => ⟨S1049600, .i32⟩
  | 48 => ⟨S1049600x1, .i32⟩
  | 49 => ⟨S1049600, .f32⟩
  | 50 => ⟨S1049600, .f32⟩
  | 51 => ⟨S1024x16, .f32⟩
  | 52 => ⟨S_, .f32⟩
  | 53 => ⟨S1024x16, .f32⟩
  | 54 => ⟨S_, .i32⟩
  | 55 => ⟨S1049600, .i32⟩
  | 56 => ⟨S1049600, .i1⟩
  | 57 => ⟨S_, .i32⟩
  | 58 => ⟨S1049600, .i32⟩
  | 59 => ⟨S1049600, .i32⟩
  | 60 => ⟨S1049600, .i32⟩
  | 61 => ⟨S1049600x1, .i32⟩
  | 62 => ⟨S1049600x16, .f32⟩
  | 63 => ⟨S1049600x1, .f32⟩
  | 64 => ⟨S1049600x16, .f32⟩
  | 65 => ⟨S1049600x16, .f32⟩
  | 66 => ⟨S_, .i32⟩
  | 67 => ⟨S1049600, .i32⟩
  | 68 => ⟨S1049600, .i1⟩
  | 69 => ⟨S_, .i32⟩
  | 70 => ⟨S1049600, .i32⟩
  | 71 => ⟨S1049600, .i32⟩
  | 72 => ⟨S1049600, .i32⟩
  | 73 => ⟨S1049600x1, .i32⟩
  | 74 => ⟨S1024x16, .f32⟩
  | 75 => ⟨S1x16, .f32⟩
  | 76 => ⟨S1024x16, .f32⟩
  | 77 => ⟨S1024x16, .f32⟩
  | 78 => ⟨S_, .f32⟩
  | 79 => ⟨S1024x16, .f32⟩
  | 80 => ⟨S1024x16, .f32⟩
  | 81 => ⟨S1024, .i32⟩
  | 82 => ⟨S1049600, .i32⟩
  | 83 => ⟨S1049600, .i32⟩
  | 84 => ⟨S_, .f32⟩
  | 85 => ⟨S1024, .f32⟩
  | 86 => ⟨S1049600, .f32⟩
  | 87 => ⟨S_, .f32⟩
  | 88 => ⟨S1024, .f32⟩
  | 89 => ⟨S_, .i32⟩
  | 90 => ⟨S1049600, .i32⟩
  | 91 => ⟨S1049600, .i1⟩
  | 92 => ⟨S_, .i32⟩
  | 93 => ⟨S1049600, .i32⟩
  | 94 => ⟨S1049600, .i32⟩
  | 95 => ⟨S1049600, .i32⟩
  | 96 => ⟨S1049600x1, .i32⟩
  | 97 => ⟨S1024, .f32⟩
  | 98 => ⟨S_, .f32⟩
  | 99 => ⟨S1024, .f32⟩
  | 100 => ⟨S1024, .i1⟩
  | 101 => ⟨S1024, .f32⟩
  | 102 => ⟨S_, .f32⟩
  | 103 => ⟨S_, .f32⟩
  | 104 => ⟨S1024, .f32⟩
  | 105 => ⟨S1024, .f32⟩
  | 106 => ⟨S_, .i32⟩
  | 107 => ⟨S1049600, .i32⟩
  | 108 => ⟨S1049600, .i1⟩
  | 109 => ⟨S_, .i32⟩
  | 110 => ⟨S1049600, .i32⟩
  | 111 => ⟨S1049600, .i32⟩
  | 112 => ⟨S1049600, .i32⟩
  | 113 => ⟨S1049600x1, .i32⟩
  | 114 => ⟨S1049600, .f32⟩
  | 115 => ⟨S1049600, .f32⟩
  | 116 => ⟨S_, .i32⟩
  | 117 => ⟨S1049600, .i32⟩
  | 118 => ⟨S1049600, .i1⟩
  | 119 => ⟨S_, .i32⟩
  | 120 => ⟨S1049600, .i32⟩
  | 121 => ⟨S1049600, .i32⟩
  | 122 => ⟨S1049600, .i32⟩
  | 123 => ⟨S1049600x1, .i32⟩
  | 124 => ⟨S1049600, .f32⟩
  | 125 => ⟨S1049600, .f32⟩
  | 126 => ⟨S1024x16, .f32⟩
  | 127 => ⟨S_, .f32⟩
  | _ => ⟨S2x24x32x32, .f32⟩

abbrev hbmTy0_5 (i : Nat) : BufTy := match i % 128 with
  | 0 => ⟨S1024x16, .f32⟩
  | 1 => ⟨S_, .i32⟩
  | 2 => ⟨S1049600, .i32⟩
  | 3 => ⟨S1049600, .i1⟩
  | 4 => ⟨S_, .i32⟩
  | 5 => ⟨S1049600, .i32⟩
  | 6 => ⟨S1049600, .i32⟩
  | 7 => ⟨S1049600, .i32⟩
  | 8 => ⟨S1049600x1, .i32⟩
  | 9 => ⟨S1049600x16, .f32⟩
  | 10 => ⟨S1049600x1, .f32⟩
  | 11 => ⟨S1049600x16, .f32⟩
  | 12 => ⟨S1049600x16, .f32⟩
  | 13 => ⟨S_, .i32⟩
  | 14 => ⟨S1049600, .i32⟩
  | 15 => ⟨S1049600, .i1⟩
  | 16 => ⟨S_, .i32⟩
  | 17 => ⟨S1049600, .i32⟩
  | 18 => ⟨S1049600, .i32⟩
  | 19 => ⟨S1049600, .i32⟩
  | 20 => ⟨S1049600x1, .i32⟩
  | 21 => ⟨S1024x16, .f32⟩
  | 22 => ⟨S1x16, .f32⟩
  | 23 => ⟨S1024x16, .f32⟩
  | 24 => ⟨S1024x16, .f32⟩
  | 25 => ⟨S_, .f32⟩
  | 26 => ⟨S1024x16, .f32⟩
  | 27 => ⟨S1024x16, .f32⟩
  | 28 => ⟨S1024, .i32⟩
  | 29 => ⟨S1049600, .i32⟩
  | 30 => ⟨S1049600, .i32⟩
  | 31 => ⟨S_, .f32⟩
  | 32 => ⟨S1024, .f32⟩
  | 33 => ⟨S1049600, .f32⟩
  | 34 => ⟨S_, .f32⟩
  | 35 => ⟨S1024, .f32⟩
  | 36 => ⟨S_, .i32⟩
  | 37 => ⟨S1049600, .i32⟩
  | 38 => ⟨S1049600, .i1⟩
  | 39 => ⟨S_, .i32⟩
  | 40 => ⟨S1049600, .i32⟩
  | 41 => ⟨S1049600, .i32⟩
  | 42 => ⟨S1049600, .i32⟩
  | 43 => ⟨S1049600x1, .i32⟩
  | 44 => ⟨S1024, .f32⟩
  | 45 => ⟨S_, .f32⟩
  | 46 => ⟨S1024, .f32⟩
  | 47 => ⟨S1024, .i1⟩
  | 48 => ⟨S1024, .f32⟩
  | 49 => ⟨S_, .f32⟩
  | 50 => ⟨S_, .f32⟩
  | 51 => ⟨S1024, .f32⟩
  | 52 => ⟨S1024, .f32⟩
  | 53 => ⟨S_, .i32⟩
  | 54 => ⟨S1049600, .i32⟩
  | 55 => ⟨S1049600, .i1⟩
  | 56 => ⟨S_, .i32⟩
  | 57 => ⟨S1049600, .i32⟩
  | 58 => ⟨S1049600, .i32⟩
  | 59 => ⟨S1049600, .i32⟩
  | 60 => ⟨S1049600x1, .i32⟩
  | 61 => ⟨S1049600, .f32⟩
  | 62 => ⟨S1049600, .f32⟩
  | 63 => ⟨S_, .i32⟩
  | 64 => ⟨S1049600, .i32⟩
  | 65 => ⟨S1049600, .i1⟩
  | 66 => ⟨S_, .i32⟩
  | 67 => ⟨S1049600, .i32⟩
  | 68 => ⟨S1049600, .i32⟩
  | 69 => ⟨S1049600, .i32⟩
  | 70 => ⟨S1049600x1, .i32⟩
  | 71 => ⟨S1049600, .f32⟩
  | 72 => ⟨S1049600, .f32⟩
  | 73 => ⟨S1024x16, .f32⟩
  | 74 => ⟨S_, .f32⟩
  | 75 => ⟨S1024x16, .f32⟩
  | 76 => ⟨S_, .i32⟩
  | 77 => ⟨S1049600, .i32⟩
  | 78 => ⟨S1049600, .i1⟩
  | 79 => ⟨S_, .i32⟩
  | 80 => ⟨S1049600, .i32⟩
  | 81 => ⟨S1049600, .i32⟩
  | 82 => ⟨S1049600, .i32⟩
  | 83 => ⟨S1049600x1, .i32⟩
  | 84 => ⟨S1049600x16, .f32⟩
  | 85 => ⟨S1049600x1, .f32⟩
  | 86 => ⟨S1049600x16, .f32⟩
  | 87 => ⟨S1049600x16, .f32⟩
  | 88 => ⟨S_, .i32⟩
  | 89 => ⟨S1049600, .i32⟩
  | 90 => ⟨S1049600, .i1⟩
  | 91 => ⟨S_, .i32⟩
  | 92 => ⟨S1049600, .i32⟩
  | 93 => ⟨S1049600, .i32⟩
  | 94 => ⟨S1049600, .i32⟩
  | 95 => ⟨S1049600x1, .i32⟩
  | 96 => ⟨S1024x16, .f32⟩
  | 97 => ⟨S1x16, .f32⟩
  | 98 => ⟨S1024x16, .f32⟩
  | 99 => ⟨S1024x16, .f32⟩
  | 100 => ⟨S_, .f32⟩
  | 101 => ⟨S1024x16, .f32⟩
  | 102 => ⟨S1024x16, .f32⟩
  | 103 => ⟨S1x32x32x16, .f32⟩
  | 104 => ⟨S2x32x32x16, .f32⟩
  | _ => ⟨S2x24x32x32, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S2x24x32x32, .f32⟩

abbrev bufTy : (tb : Table) → Fin (tcTables nBuf tb) → BufTy
  | .hbm, ⟨i, _⟩ => hbmTy i
  | _, _ => ⟨S2x24x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_call0_v0 : Ref sig .tc := ⟨.hbm, 11, rfl⟩
abbrev main_call0_cst : Ref sig .tc := ⟨.hbm, 12, rfl⟩
abbrev main_call0_v1 : Ref sig .tc := ⟨.hbm, 13, rfl⟩
abbrev main_call0_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_0 : Ref sig .tc := ⟨.hbm, 23, rfl⟩
abbrev main_v10 : Ref sig .tc := ⟨.hbm, 24, rfl⟩
abbrev main_v11 : Ref sig .tc := ⟨.hbm, 25, rfl⟩
abbrev main_call1_v0 : Ref sig .tc := ⟨.hbm, 26, rfl⟩
abbrev main_call1_v1 : Ref sig .tc := ⟨.hbm, 27, rfl⟩
abbrev main_call1_call0_c : Ref sig .tc := ⟨.hbm, 28, rfl⟩
abbrev main_call1_call0_v0 : Ref sig .tc := ⟨.hbm, 29, rfl⟩
abbrev main_v12 : Ref sig .tc := ⟨.hbm, 30, rfl⟩
abbrev main_c : Ref sig .tc := ⟨.hbm, 31, rfl⟩
abbrev main_v13 : Ref sig .tc := ⟨.hbm, 32, rfl⟩
abbrev main_c_1 : Ref sig .tc := ⟨.hbm, 33, rfl⟩
abbrev main_call2_v0 : Ref sig .tc := ⟨.hbm, 34, rfl⟩
abbrev main_call2_v1 : Ref sig .tc := ⟨.hbm, 35, rfl⟩
abbrev main_v14 : Ref sig .tc := ⟨.hbm, 36, rfl⟩
abbrev main_c_2 : Ref sig .tc := ⟨.hbm, 37, rfl⟩
abbrev main_v15 : Ref sig .tc := ⟨.hbm, 38, rfl⟩
abbrev main_v16 : Ref sig .tc := ⟨.hbm, 39, rfl⟩
abbrev main_c_3 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_c_4 : Ref sig .tc := ⟨.hbm, 45, rfl⟩
abbrev main_v21 : Ref sig .tc := ⟨.hbm, 46, rfl⟩
abbrev main_v22 : Ref sig .tc := ⟨.hbm, 47, rfl⟩
abbrev main_call3_call0_c : Ref sig .tc := ⟨.hbm, 48, rfl⟩
abbrev main_call3_call0_v0 : Ref sig .tc := ⟨.hbm, 49, rfl⟩
abbrev main_v23 : Ref sig .tc := ⟨.hbm, 50, rfl⟩
abbrev main_c_5 : Ref sig .tc := ⟨.hbm, 51, rfl⟩
abbrev main_call4_v0 : Ref sig .tc := ⟨.hbm, 52, rfl⟩
abbrev main_call4_v1 : Ref sig .tc := ⟨.hbm, 53, rfl⟩
abbrev main_call4_v2 : Ref sig .tc := ⟨.hbm, 54, rfl⟩
abbrev main_call4_v3 : Ref sig .tc := ⟨.hbm, 55, rfl⟩
abbrev main_call4_v4 : Ref sig .tc := ⟨.hbm, 56, rfl⟩
abbrev main_call4_v5 : Ref sig .tc := ⟨.hbm, 57, rfl⟩
abbrev main_call4_v6 : Ref sig .tc := ⟨.hbm, 58, rfl⟩
abbrev main_call4_v7 : Ref sig .tc := ⟨.hbm, 59, rfl⟩
abbrev main_call4_c : Ref sig .tc := ⟨.hbm, 60, rfl⟩
abbrev main_call4_v8 : Ref sig .tc := ⟨.hbm, 61, rfl⟩
abbrev main_call4_v9 : Ref sig .tc := ⟨.hbm, 62, rfl⟩
abbrev main_call4_v10 : Ref sig .tc := ⟨.hbm, 63, rfl⟩
abbrev main_call4_c_0 : Ref sig .tc := ⟨.hbm, 64, rfl⟩
abbrev main_call4_v11 : Ref sig .tc := ⟨.hbm, 65, rfl⟩
abbrev main_call4_v12 : Ref sig .tc := ⟨.hbm, 66, rfl⟩
abbrev main_v24 : Ref sig .tc := ⟨.hbm, 67, rfl⟩
abbrev main_c_6 : Ref sig .tc := ⟨.hbm, 68, rfl⟩
abbrev main_call5_v0 : Ref sig .tc := ⟨.hbm, 69, rfl⟩
abbrev main_call5_c : Ref sig .tc := ⟨.hbm, 70, rfl⟩
abbrev main_call5_v1 : Ref sig .tc := ⟨.hbm, 71, rfl⟩
abbrev main_call5_c_0 : Ref sig .tc := ⟨.hbm, 72, rfl⟩
abbrev main_call5_v2 : Ref sig .tc := ⟨.hbm, 73, rfl⟩
abbrev main_call5_v3 : Ref sig .tc := ⟨.hbm, 74, rfl⟩
abbrev main_call5_v4 : Ref sig .tc := ⟨.hbm, 75, rfl⟩
abbrev main_call5_c_1 : Ref sig .tc := ⟨.hbm, 76, rfl⟩
abbrev main_call5_v5 : Ref sig .tc := ⟨.hbm, 77, rfl⟩
abbrev main_call5_v6 : Ref sig .tc := ⟨.hbm, 78, rfl⟩
abbrev main_call5_c_2 : Ref sig .tc := ⟨.hbm, 79, rfl⟩
abbrev main_call5_v7 : Ref sig .tc := ⟨.hbm, 80, rfl⟩
abbrev main_call5_v8 : Ref sig .tc := ⟨.hbm, 81, rfl⟩
abbrev main_call5_c_3 : Ref sig .tc := ⟨.hbm, 82, rfl⟩
abbrev main_call5_v9 : Ref sig .tc := ⟨.hbm, 83, rfl⟩
abbrev main_call5_v10 : Ref sig .tc := ⟨.hbm, 84, rfl⟩
abbrev main_call5_v11 : Ref sig .tc := ⟨.hbm, 85, rfl⟩
abbrev main_call5_v12 : Ref sig .tc := ⟨.hbm, 86, rfl⟩
abbrev main_call5_v13 : Ref sig .tc := ⟨.hbm, 87, rfl⟩
abbrev main_call5_v14 : Ref sig .tc := ⟨.hbm, 88, rfl⟩
abbrev main_v25 : Ref sig .tc := ⟨.hbm, 89, rfl⟩
abbrev main_c_7 : Ref sig .tc := ⟨.hbm, 90, rfl⟩
abbrev main_call6_v0 : Ref sig .tc := ⟨.hbm, 91, rfl⟩
abbrev main_call6_v1 : Ref sig .tc := ⟨.hbm, 92, rfl⟩
abbrev main_call6_v2 : Ref sig .tc := ⟨.hbm, 93, rfl⟩
abbrev main_call6_v3 : Ref sig .tc := ⟨.hbm, 94, rfl⟩
abbrev main_call6_v4 : Ref sig .tc := ⟨.hbm, 95, rfl⟩
abbrev main_call6_v5 : Ref sig .tc := ⟨.hbm, 96, rfl⟩
abbrev main_call6_v6 : Ref sig .tc := ⟨.hbm, 97, rfl⟩
abbrev main_call6_v7 : Ref sig .tc := ⟨.hbm, 98, rfl⟩
abbrev main_call6_c : Ref sig .tc := ⟨.hbm, 99, rfl⟩
abbrev main_call6_v8 : Ref sig .tc := ⟨.hbm, 100, rfl⟩
abbrev main_call6_v9 : Ref sig .tc := ⟨.hbm, 101, rfl⟩
abbrev main_call6_v10 : Ref sig .tc := ⟨.hbm, 102, rfl⟩
abbrev main_call6_c_0 : Ref sig .tc := ⟨.hbm, 103, rfl⟩
abbrev main_call6_v11 : Ref sig .tc := ⟨.hbm, 104, rfl⟩
abbrev main_call6_v12 : Ref sig .tc := ⟨.hbm, 105, rfl⟩
abbrev main_v26 : Ref sig .tc := ⟨.hbm, 106, rfl⟩
abbrev main_c_8 : Ref sig .tc := ⟨.hbm, 107, rfl⟩
abbrev main_call7_v0 : Ref sig .tc := ⟨.hbm, 108, rfl⟩
abbrev main_call7_c : Ref sig .tc := ⟨.hbm, 109, rfl⟩
abbrev main_call7_v1 : Ref sig .tc := ⟨.hbm, 110, rfl⟩
abbrev main_call7_c_0 : Ref sig .tc := ⟨.hbm, 111, rfl⟩
abbrev main_call7_v2 : Ref sig .tc := ⟨.hbm, 112, rfl⟩
abbrev main_call7_v3 : Ref sig .tc := ⟨.hbm, 113, rfl⟩
abbrev main_call7_v4 : Ref sig .tc := ⟨.hbm, 114, rfl⟩
abbrev main_call7_c_1 : Ref sig .tc := ⟨.hbm, 115, rfl⟩
abbrev main_call7_v5 : Ref sig .tc := ⟨.hbm, 116, rfl⟩
abbrev main_call7_v6 : Ref sig .tc := ⟨.hbm, 117, rfl⟩
abbrev main_call7_c_2 : Ref sig .tc := ⟨.hbm, 118, rfl⟩
abbrev main_call7_v7 : Ref sig .tc := ⟨.hbm, 119, rfl⟩
abbrev main_call7_v8 : Ref sig .tc := ⟨.hbm, 120, rfl⟩
abbrev main_call7_c_3 : Ref sig .tc := ⟨.hbm, 121, rfl⟩
abbrev main_call7_v9 : Ref sig .tc := ⟨.hbm, 122, rfl⟩
abbrev main_call7_v10 : Ref sig .tc := ⟨.hbm, 123, rfl⟩
abbrev main_call7_v11 : Ref sig .tc := ⟨.hbm, 124, rfl⟩
abbrev main_call7_v12 : Ref sig .tc := ⟨.hbm, 125, rfl⟩
abbrev main_call7_v13 : Ref sig .tc := ⟨.hbm, 126, rfl⟩
abbrev main_call7_v14 : Ref sig .tc := ⟨.hbm, 127, rfl⟩
abbrev main_v27 : Ref sig .tc := ⟨.hbm, 128, rfl⟩
abbrev main_c_9 : Ref sig .tc := ⟨.hbm, 129, rfl⟩
abbrev main_v28 : Ref sig .tc := ⟨.hbm, 130, rfl⟩
abbrev main_v29 : Ref sig .tc := ⟨.hbm, 131, rfl⟩
abbrev main_c_10 : Ref sig .tc := ⟨.hbm, 132, rfl⟩
abbrev main_v30 : Ref sig .tc := ⟨.hbm, 133, rfl⟩
abbrev main_v31 : Ref sig .tc := ⟨.hbm, 134, rfl⟩
abbrev main_v32 : Ref sig .tc := ⟨.hbm, 135, rfl⟩
abbrev main_c_11 : Ref sig .tc := ⟨.hbm, 136, rfl⟩
abbrev main_v33 : Ref sig .tc := ⟨.hbm, 137, rfl⟩
abbrev main_v34 : Ref sig .tc := ⟨.hbm, 138, rfl⟩
abbrev main_c_12 : Ref sig .tc := ⟨.hbm, 139, rfl⟩
abbrev main_v35 : Ref sig .tc := ⟨.hbm, 140, rfl⟩
abbrev main_v36 : Ref sig .tc := ⟨.hbm, 141, rfl⟩
abbrev main_v37 : Ref sig .tc := ⟨.hbm, 142, rfl⟩
abbrev main_v38 : Ref sig .tc := ⟨.hbm, 143, rfl⟩
abbrev main_v39 : Ref sig .tc := ⟨.hbm, 144, rfl⟩
abbrev main_v40 : Ref sig .tc := ⟨.hbm, 145, rfl⟩
abbrev main_v41 : Ref sig .tc := ⟨.hbm, 146, rfl⟩
abbrev main_v42 : Ref sig .tc := ⟨.hbm, 147, rfl⟩
abbrev main_v43 : Ref sig .tc := ⟨.hbm, 148, rfl⟩
abbrev main_v44 : Ref sig .tc := ⟨.hbm, 149, rfl⟩
abbrev main_v45 : Ref sig .tc := ⟨.hbm, 150, rfl⟩
abbrev main_v46 : Ref sig .tc := ⟨.hbm, 151, rfl⟩
abbrev main_v47 : Ref sig .tc := ⟨.hbm, 152, rfl⟩
abbrev main_cst_13 : Ref sig .tc := ⟨.hbm, 153, rfl⟩
abbrev main_v48 : Ref sig .tc := ⟨.hbm, 154, rfl⟩
abbrev main_v49 : Ref sig .tc := ⟨.hbm, 155, rfl⟩
abbrev main_cst_14 : Ref sig .tc := ⟨.hbm, 156, rfl⟩
abbrev main_v50 : Ref sig .tc := ⟨.hbm, 157, rfl⟩
abbrev main_c_15 : Ref sig .tc := ⟨.hbm, 158, rfl⟩
abbrev main_v51 : Ref sig .tc := ⟨.hbm, 159, rfl⟩
abbrev main_v52 : Ref sig .tc := ⟨.hbm, 160, rfl⟩
abbrev main_c_16 : Ref sig .tc := ⟨.hbm, 161, rfl⟩
abbrev main_v53 : Ref sig .tc := ⟨.hbm, 162, rfl⟩
abbrev main_v54 : Ref sig .tc := ⟨.hbm, 163, rfl⟩
abbrev main_v55 : Ref sig .tc := ⟨.hbm, 164, rfl⟩
abbrev main_v56 : Ref sig .tc := ⟨.hbm, 165, rfl⟩
abbrev main_v57 : Ref sig .tc := ⟨.hbm, 166, rfl⟩
abbrev main_cst_17 : Ref sig .tc := ⟨.hbm, 167, rfl⟩
abbrev main_v58 : Ref sig .tc := ⟨.hbm, 168, rfl⟩
abbrev main_v59 : Ref sig .tc := ⟨.hbm, 169, rfl⟩
abbrev main_v60 : Ref sig .tc := ⟨.hbm, 170, rfl⟩
abbrev main_cst_18 : Ref sig .tc := ⟨.hbm, 171, rfl⟩
abbrev main_call8_v0 : Ref sig .tc := ⟨.hbm, 172, rfl⟩
abbrev main_call8_v1 : Ref sig .tc := ⟨.hbm, 173, rfl⟩
abbrev main_v61 : Ref sig .tc := ⟨.hbm, 174, rfl⟩
abbrev main_c_19 : Ref sig .tc := ⟨.hbm, 175, rfl⟩
abbrev main_v62 : Ref sig .tc := ⟨.hbm, 176, rfl⟩
abbrev main_v63 : Ref sig .tc := ⟨.hbm, 177, rfl⟩
abbrev main_c_20 : Ref sig .tc := ⟨.hbm, 178, rfl⟩
abbrev main_v64 : Ref sig .tc := ⟨.hbm, 179, rfl⟩
abbrev main_v65 : Ref sig .tc := ⟨.hbm, 180, rfl⟩
abbrev main_v66 : Ref sig .tc := ⟨.hbm, 181, rfl⟩
abbrev main_v67 : Ref sig .tc := ⟨.hbm, 182, rfl⟩
abbrev main_v68 : Ref sig .tc := ⟨.hbm, 183, rfl⟩
abbrev main_v69 : Ref sig .tc := ⟨.hbm, 184, rfl⟩
abbrev main_c_21 : Ref sig .tc := ⟨.hbm, 185, rfl⟩
abbrev main_v70 : Ref sig .tc := ⟨.hbm, 186, rfl⟩
abbrev main_v71 : Ref sig .tc := ⟨.hbm, 187, rfl⟩
abbrev main_c_22 : Ref sig .tc := ⟨.hbm, 188, rfl⟩
abbrev main_v72 : Ref sig .tc := ⟨.hbm, 189, rfl⟩
abbrev main_v73 : Ref sig .tc := ⟨.hbm, 190, rfl⟩
abbrev main_v74 : Ref sig .tc := ⟨.hbm, 191, rfl⟩
abbrev main_v75 : Ref sig .tc := ⟨.hbm, 192, rfl⟩
abbrev main_v76 : Ref sig .tc := ⟨.hbm, 193, rfl⟩
abbrev main_v77 : Ref sig .tc := ⟨.hbm, 194, rfl⟩
abbrev main_v78 : Ref sig .tc := ⟨.hbm, 195, rfl⟩
abbrev main_cst_23 : Ref sig .tc := ⟨.hbm, 196, rfl⟩
abbrev main_v79 : Ref sig .tc := ⟨.hbm, 197, rfl⟩
abbrev main_c_24 : Ref sig .tc := ⟨.hbm, 198, rfl⟩
abbrev main_v80 : Ref sig .tc := ⟨.hbm, 199, rfl⟩
abbrev main_v81 : Ref sig .tc := ⟨.hbm, 200, rfl⟩
abbrev main_c_25 : Ref sig .tc := ⟨.hbm, 201, rfl⟩
abbrev main_v82 : Ref sig .tc := ⟨.hbm, 202, rfl⟩
abbrev main_v83 : Ref sig .tc := ⟨.hbm, 203, rfl⟩
abbrev main_v84 : Ref sig .tc := ⟨.hbm, 204, rfl⟩
abbrev main_v85 : Ref sig .tc := ⟨.hbm, 205, rfl⟩
abbrev main_v86 : Ref sig .tc := ⟨.hbm, 206, rfl⟩
abbrev main_v87 : Ref sig .tc := ⟨.hbm, 207, rfl⟩
abbrev main_v88 : Ref sig .tc := ⟨.hbm, 208, rfl⟩
abbrev main_v89 : Ref sig .tc := ⟨.hbm, 209, rfl⟩
abbrev main_c_26 : Ref sig .tc := ⟨.hbm, 210, rfl⟩
abbrev main_v90 : Ref sig .tc := ⟨.hbm, 211, rfl⟩
abbrev main_v91 : Ref sig .tc := ⟨.hbm, 212, rfl⟩
abbrev main_c_27 : Ref sig .tc := ⟨.hbm, 213, rfl⟩
abbrev main_v92 : Ref sig .tc := ⟨.hbm, 214, rfl⟩
abbrev main_v93 : Ref sig .tc := ⟨.hbm, 215, rfl⟩
abbrev main_v94 : Ref sig .tc := ⟨.hbm, 216, rfl⟩
abbrev main_v95 : Ref sig .tc := ⟨.hbm, 217, rfl⟩
abbrev main_v96 : Ref sig .tc := ⟨.hbm, 218, rfl⟩
abbrev main_v97 : Ref sig .tc := ⟨.hbm, 219, rfl⟩
abbrev main_v98 : Ref sig .tc := ⟨.hbm, 220, rfl⟩
abbrev main_v99 : Ref sig .tc := ⟨.hbm, 221, rfl⟩
abbrev main_call9_cst : Ref sig .tc := ⟨.hbm, 222, rfl⟩
abbrev main_call9_v0 : Ref sig .tc := ⟨.hbm, 223, rfl⟩
abbrev main_v100 : Ref sig .tc := ⟨.hbm, 224, rfl⟩
abbrev main_v101 : Ref sig .tc := ⟨.hbm, 225, rfl⟩
abbrev main_v102 : Ref sig .tc := ⟨.hbm, 226, rfl⟩
abbrev main_v103 : Ref sig .tc := ⟨.hbm, 227, rfl⟩
abbrev main_cst_28 : Ref sig .tc := ⟨.hbm, 228, rfl⟩
abbrev main_v104 : Ref sig .tc := ⟨.hbm, 229, rfl⟩
abbrev main_v105 : Ref sig .tc := ⟨.hbm, 230, rfl⟩
abbrev main_cst_29 : Ref sig .tc := ⟨.hbm, 231, rfl⟩
abbrev main_v106 : Ref sig .tc := ⟨.hbm, 232, rfl⟩
abbrev main_c_30 : Ref sig .tc := ⟨.hbm, 233, rfl⟩
abbrev main_v107 : Ref sig .tc := ⟨.hbm, 234, rfl⟩
abbrev main_v108 : Ref sig .tc := ⟨.hbm, 235, rfl⟩
abbrev main_c_31 : Ref sig .tc := ⟨.hbm, 236, rfl⟩
abbrev main_v109 : Ref sig .tc := ⟨.hbm, 237, rfl⟩
abbrev main_v110 : Ref sig .tc := ⟨.hbm, 238, rfl⟩
abbrev main_v111 : Ref sig .tc := ⟨.hbm, 239, rfl⟩
abbrev main_v112 : Ref sig .tc := ⟨.hbm, 240, rfl⟩
abbrev main_v113 : Ref sig .tc := ⟨.hbm, 241, rfl⟩
abbrev main_cst_32 : Ref sig .tc := ⟨.hbm, 242, rfl⟩
abbrev main_v114 : Ref sig .tc := ⟨.hbm, 243, rfl⟩
abbrev main_v115 : Ref sig .tc := ⟨.hbm, 244, rfl⟩
abbrev main_v116 : Ref sig .tc := ⟨.hbm, 245, rfl⟩
abbrev main_cst_33 : Ref sig .tc := ⟨.hbm, 246, rfl⟩
abbrev main_call10_v0 : Ref sig .tc := ⟨.hbm, 247, rfl⟩
abbrev main_call10_v1 : Ref sig .tc := ⟨.hbm, 248, rfl⟩
abbrev main_v117 : Ref sig .tc := ⟨.hbm, 249, rfl⟩
abbrev main_c_34 : Ref sig .tc := ⟨.hbm, 250, rfl⟩
abbrev main_v118 : Ref sig .tc := ⟨.hbm, 251, rfl⟩
abbrev main_v119 : Ref sig .tc := ⟨.hbm, 252, rfl⟩
abbrev main_c_35 : Ref sig .tc := ⟨.hbm, 253, rfl⟩
abbrev main_v120 : Ref sig .tc := ⟨.hbm, 254, rfl⟩
abbrev main_v121 : Ref sig .tc := ⟨.hbm, 255, rfl⟩
abbrev main_v122 : Ref sig .tc := ⟨.hbm, 256, rfl⟩
abbrev main_v123 : Ref sig .tc := ⟨.hbm, 257, rfl⟩
abbrev main_v124 : Ref sig .tc := ⟨.hbm, 258, rfl⟩
abbrev main_v125 : Ref sig .tc := ⟨.hbm, 259, rfl⟩
abbrev main_c_36 : Ref sig .tc := ⟨.hbm, 260, rfl⟩
abbrev main_v126 : Ref sig .tc := ⟨.hbm, 261, rfl⟩
abbrev main_v127 : Ref sig .tc := ⟨.hbm, 262, rfl⟩
abbrev main_c_37 : Ref sig .tc := ⟨.hbm, 263, rfl⟩
abbrev main_v128 : Ref sig .tc := ⟨.hbm, 264, rfl⟩
abbrev main_v129 : Ref sig .tc := ⟨.hbm, 265, rfl⟩
abbrev main_v130 : Ref sig .tc := ⟨.hbm, 266, rfl⟩
abbrev main_v131 : Ref sig .tc := ⟨.hbm, 267, rfl⟩
abbrev main_v132 : Ref sig .tc := ⟨.hbm, 268, rfl⟩
abbrev main_v133 : Ref sig .tc := ⟨.hbm, 269, rfl⟩
abbrev main_v134 : Ref sig .tc := ⟨.hbm, 270, rfl⟩
abbrev main_cst_38 : Ref sig .tc := ⟨.hbm, 271, rfl⟩
abbrev main_v135 : Ref sig .tc := ⟨.hbm, 272, rfl⟩
abbrev main_c_39 : Ref sig .tc := ⟨.hbm, 273, rfl⟩
abbrev main_v136 : Ref sig .tc := ⟨.hbm, 274, rfl⟩
abbrev main_v137 : Ref sig .tc := ⟨.hbm, 275, rfl⟩
abbrev main_c_40 : Ref sig .tc := ⟨.hbm, 276, rfl⟩
abbrev main_v138 : Ref sig .tc := ⟨.hbm, 277, rfl⟩
abbrev main_v139 : Ref sig .tc := ⟨.hbm, 278, rfl⟩
abbrev main_v140 : Ref sig .tc := ⟨.hbm, 279, rfl⟩
abbrev main_v141 : Ref sig .tc := ⟨.hbm, 280, rfl⟩
abbrev main_v142 : Ref sig .tc := ⟨.hbm, 281, rfl⟩
abbrev main_v143 : Ref sig .tc := ⟨.hbm, 282, rfl⟩
abbrev main_v144 : Ref sig .tc := ⟨.hbm, 283, rfl⟩
abbrev main_v145 : Ref sig .tc := ⟨.hbm, 284, rfl⟩
abbrev main_c_41 : Ref sig .tc := ⟨.hbm, 285, rfl⟩
abbrev main_v146 : Ref sig .tc := ⟨.hbm, 286, rfl⟩
abbrev main_v147 : Ref sig .tc := ⟨.hbm, 287, rfl⟩
abbrev main_c_42 : Ref sig .tc := ⟨.hbm, 288, rfl⟩
abbrev main_v148 : Ref sig .tc := ⟨.hbm, 289, rfl⟩
abbrev main_v149 : Ref sig .tc := ⟨.hbm, 290, rfl⟩
abbrev main_v150 : Ref sig .tc := ⟨.hbm, 291, rfl⟩
abbrev main_v151 : Ref sig .tc := ⟨.hbm, 292, rfl⟩
abbrev main_v152 : Ref sig .tc := ⟨.hbm, 293, rfl⟩
abbrev main_v153 : Ref sig .tc := ⟨.hbm, 294, rfl⟩
abbrev main_v154 : Ref sig .tc := ⟨.hbm, 295, rfl⟩
abbrev main_v155 : Ref sig .tc := ⟨.hbm, 296, rfl⟩
abbrev main_call11_cst : Ref sig .tc := ⟨.hbm, 297, rfl⟩
abbrev main_call11_v0 : Ref sig .tc := ⟨.hbm, 298, rfl⟩
abbrev main_v156 : Ref sig .tc := ⟨.hbm, 299, rfl⟩
abbrev main_v157 : Ref sig .tc := ⟨.hbm, 300, rfl⟩
abbrev main_v158 : Ref sig .tc := ⟨.hbm, 301, rfl⟩
abbrev main_v159 : Ref sig .tc := ⟨.hbm, 302, rfl⟩
abbrev main_cst_43 : Ref sig .tc := ⟨.hbm, 303, rfl⟩
abbrev main_v160 : Ref sig .tc := ⟨.hbm, 304, rfl⟩
abbrev main_v161 : Ref sig .tc := ⟨.hbm, 305, rfl⟩
abbrev main_cst_44 : Ref sig .tc := ⟨.hbm, 306, rfl⟩
abbrev main_v162 : Ref sig .tc := ⟨.hbm, 307, rfl⟩
abbrev main_c_45 : Ref sig .tc := ⟨.hbm, 308, rfl⟩
abbrev main_v163 : Ref sig .tc := ⟨.hbm, 309, rfl⟩
abbrev main_v164 : Ref sig .tc := ⟨.hbm, 310, rfl⟩
abbrev main_c_46 : Ref sig .tc := ⟨.hbm, 311, rfl⟩
abbrev main_v165 : Ref sig .tc := ⟨.hbm, 312, rfl⟩
abbrev main_v166 : Ref sig .tc := ⟨.hbm, 313, rfl⟩
abbrev main_v167 : Ref sig .tc := ⟨.hbm, 314, rfl⟩
abbrev main_v168 : Ref sig .tc := ⟨.hbm, 315, rfl⟩
abbrev main_v169 : Ref sig .tc := ⟨.hbm, 316, rfl⟩
abbrev main_cst_47 : Ref sig .tc := ⟨.hbm, 317, rfl⟩
abbrev main_v170 : Ref sig .tc := ⟨.hbm, 318, rfl⟩
abbrev main_v171 : Ref sig .tc := ⟨.hbm, 319, rfl⟩
abbrev main_v172 : Ref sig .tc := ⟨.hbm, 320, rfl⟩
abbrev main_cst_48 : Ref sig .tc := ⟨.hbm, 321, rfl⟩
abbrev main_call12_v0 : Ref sig .tc := ⟨.hbm, 322, rfl⟩
abbrev main_call12_v1 : Ref sig .tc := ⟨.hbm, 323, rfl⟩
abbrev main_v173 : Ref sig .tc := ⟨.hbm, 324, rfl⟩
abbrev main_c_49 : Ref sig .tc := ⟨.hbm, 325, rfl⟩
abbrev main_v174 : Ref sig .tc := ⟨.hbm, 326, rfl⟩
abbrev main_v175 : Ref sig .tc := ⟨.hbm, 327, rfl⟩
abbrev main_c_50 : Ref sig .tc := ⟨.hbm, 328, rfl⟩
abbrev main_v176 : Ref sig .tc := ⟨.hbm, 329, rfl⟩
abbrev main_v177 : Ref sig .tc := ⟨.hbm, 330, rfl⟩
abbrev main_v178 : Ref sig .tc := ⟨.hbm, 331, rfl⟩
abbrev main_v179 : Ref sig .tc := ⟨.hbm, 332, rfl⟩
abbrev main_v180 : Ref sig .tc := ⟨.hbm, 333, rfl⟩
abbrev main_v181 : Ref sig .tc := ⟨.hbm, 334, rfl⟩
abbrev main_c_51 : Ref sig .tc := ⟨.hbm, 335, rfl⟩
abbrev main_v182 : Ref sig .tc := ⟨.hbm, 336, rfl⟩
abbrev main_v183 : Ref sig .tc := ⟨.hbm, 337, rfl⟩
abbrev main_c_52 : Ref sig .tc := ⟨.hbm, 338, rfl⟩
abbrev main_v184 : Ref sig .tc := ⟨.hbm, 339, rfl⟩
abbrev main_v185 : Ref sig .tc := ⟨.hbm, 340, rfl⟩
abbrev main_v186 : Ref sig .tc := ⟨.hbm, 341, rfl⟩
abbrev main_v187 : Ref sig .tc := ⟨.hbm, 342, rfl⟩
abbrev main_v188 : Ref sig .tc := ⟨.hbm, 343, rfl⟩
abbrev main_v189 : Ref sig .tc := ⟨.hbm, 344, rfl⟩
abbrev main_v190 : Ref sig .tc := ⟨.hbm, 345, rfl⟩
abbrev main_cst_53 : Ref sig .tc := ⟨.hbm, 346, rfl⟩
abbrev main_v191 : Ref sig .tc := ⟨.hbm, 347, rfl⟩
abbrev main_c_54 : Ref sig .tc := ⟨.hbm, 348, rfl⟩
abbrev main_v192 : Ref sig .tc := ⟨.hbm, 349, rfl⟩
abbrev main_v193 : Ref sig .tc := ⟨.hbm, 350, rfl⟩
abbrev main_c_55 : Ref sig .tc := ⟨.hbm, 351, rfl⟩
abbrev main_v194 : Ref sig .tc := ⟨.hbm, 352, rfl⟩
abbrev main_v195 : Ref sig .tc := ⟨.hbm, 353, rfl⟩
abbrev main_v196 : Ref sig .tc := ⟨.hbm, 354, rfl⟩
abbrev main_v197 : Ref sig .tc := ⟨.hbm, 355, rfl⟩
abbrev main_v198 : Ref sig .tc := ⟨.hbm, 356, rfl⟩
abbrev main_v199 : Ref sig .tc := ⟨.hbm, 357, rfl⟩
abbrev main_v200 : Ref sig .tc := ⟨.hbm, 358, rfl⟩
abbrev main_v201 : Ref sig .tc := ⟨.hbm, 359, rfl⟩
abbrev main_c_56 : Ref sig .tc := ⟨.hbm, 360, rfl⟩
abbrev main_v202 : Ref sig .tc := ⟨.hbm, 361, rfl⟩
abbrev main_v203 : Ref sig .tc := ⟨.hbm, 362, rfl⟩
abbrev main_c_57 : Ref sig .tc := ⟨.hbm, 363, rfl⟩
abbrev main_v204 : Ref sig .tc := ⟨.hbm, 364, rfl⟩
abbrev main_v205 : Ref sig .tc := ⟨.hbm, 365, rfl⟩
abbrev main_v206 : Ref sig .tc := ⟨.hbm, 366, rfl⟩
abbrev main_v207 : Ref sig .tc := ⟨.hbm, 367, rfl⟩
abbrev main_v208 : Ref sig .tc := ⟨.hbm, 368, rfl⟩
abbrev main_v209 : Ref sig .tc := ⟨.hbm, 369, rfl⟩
abbrev main_v210 : Ref sig .tc := ⟨.hbm, 370, rfl⟩
abbrev main_v211 : Ref sig .tc := ⟨.hbm, 371, rfl⟩
abbrev main_call13_cst : Ref sig .tc := ⟨.hbm, 372, rfl⟩
abbrev main_call13_v0 : Ref sig .tc := ⟨.hbm, 373, rfl⟩
abbrev main_v212 : Ref sig .tc := ⟨.hbm, 374, rfl⟩
abbrev main_v213 : Ref sig .tc := ⟨.hbm, 375, rfl⟩
abbrev main_v214 : Ref sig .tc := ⟨.hbm, 376, rfl⟩
abbrev main_v215 : Ref sig .tc := ⟨.hbm, 377, rfl⟩
abbrev main_v216 : Ref sig .tc := ⟨.hbm, 378, rfl⟩
abbrev main_call14_v0 : Ref sig .tc := ⟨.hbm, 379, rfl⟩
abbrev main_call14_cst : Ref sig .tc := ⟨.hbm, 380, rfl⟩
abbrev main_call14_v1 : Ref sig .tc := ⟨.hbm, 381, rfl⟩
abbrev main_call14_v2 : Ref sig .tc := ⟨.hbm, 382, rfl⟩
abbrev main_v217 : Ref sig .tc := ⟨.hbm, 383, rfl⟩
abbrev main_cst_58 : Ref sig .tc := ⟨.hbm, 384, rfl⟩
abbrev main_v218 : Ref sig .tc := ⟨.hbm, 385, rfl⟩
abbrev main_v219 : Ref sig .tc := ⟨.hbm, 386, rfl⟩
abbrev main_v220 : Ref sig .tc := ⟨.hbm, 387, rfl⟩
abbrev main_v221 : Ref sig .tc := ⟨.hbm, 388, rfl⟩
abbrev main_v222 : Ref sig .tc := ⟨.hbm, 389, rfl⟩
abbrev main_v223 : Ref sig .tc := ⟨.hbm, 390, rfl⟩
abbrev main_cst_59 : Ref sig .tc := ⟨.hbm, 391, rfl⟩
abbrev main_v224 : Ref sig .tc := ⟨.hbm, 392, rfl⟩
abbrev main_v225 : Ref sig .tc := ⟨.hbm, 393, rfl⟩
abbrev main_call15_v0 : Ref sig .tc := ⟨.hbm, 394, rfl⟩
abbrev main_call15_v1 : Ref sig .tc := ⟨.hbm, 395, rfl⟩
abbrev main_call15_call0_c : Ref sig .tc := ⟨.hbm, 396, rfl⟩
abbrev main_call15_call0_v0 : Ref sig .tc := ⟨.hbm, 397, rfl⟩
abbrev main_v226 : Ref sig .tc := ⟨.hbm, 398, rfl⟩
abbrev main_c_60 : Ref sig .tc := ⟨.hbm, 399, rfl⟩
abbrev main_v227 : Ref sig .tc := ⟨.hbm, 400, rfl⟩
abbrev main_c_61 : Ref sig .tc := ⟨.hbm, 401, rfl⟩
abbrev main_call16_v0 : Ref sig .tc := ⟨.hbm, 402, rfl⟩
abbrev main_call16_v1 : Ref sig .tc := ⟨.hbm, 403, rfl⟩
abbrev main_v228 : Ref sig .tc := ⟨.hbm, 404, rfl⟩
abbrev main_c_62 : Ref sig .tc := ⟨.hbm, 405, rfl⟩
abbrev main_v229 : Ref sig .tc := ⟨.hbm, 406, rfl⟩
abbrev main_v230 : Ref sig .tc := ⟨.hbm, 407, rfl⟩
abbrev main_c_63 : Ref sig .tc := ⟨.hbm, 408, rfl⟩
abbrev main_v231 : Ref sig .tc := ⟨.hbm, 409, rfl⟩
abbrev main_v232 : Ref sig .tc := ⟨.hbm, 410, rfl⟩
abbrev main_v233 : Ref sig .tc := ⟨.hbm, 411, rfl⟩
abbrev main_v234 : Ref sig .tc := ⟨.hbm, 412, rfl⟩
abbrev main_c_64 : Ref sig .tc := ⟨.hbm, 413, rfl⟩
abbrev main_v235 : Ref sig .tc := ⟨.hbm, 414, rfl⟩
abbrev main_v236 : Ref sig .tc := ⟨.hbm, 415, rfl⟩
abbrev main_call17_call0_c : Ref sig .tc := ⟨.hbm, 416, rfl⟩
abbrev main_call17_call0_v0 : Ref sig .tc := ⟨.hbm, 417, rfl⟩
abbrev main_v237 : Ref sig .tc := ⟨.hbm, 418, rfl⟩
abbrev main_c_65 : Ref sig .tc := ⟨.hbm, 419, rfl⟩
abbrev main_call18_v0 : Ref sig .tc := ⟨.hbm, 420, rfl⟩
abbrev main_call18_v1 : Ref sig .tc := ⟨.hbm, 421, rfl⟩
abbrev main_call18_v2 : Ref sig .tc := ⟨.hbm, 422, rfl⟩
abbrev main_call18_v3 : Ref sig .tc := ⟨.hbm, 423, rfl⟩
abbrev main_call18_v4 : Ref sig .tc := ⟨.hbm, 424, rfl⟩
abbrev main_call18_v5 : Ref sig .tc := ⟨.hbm, 425, rfl⟩
abbrev main_call18_v6 : Ref sig .tc := ⟨.hbm, 426, rfl⟩
abbrev main_call18_v7 : Ref sig .tc := ⟨.hbm, 427, rfl⟩
abbrev main_call18_c : Ref sig .tc := ⟨.hbm, 428, rfl⟩
abbrev main_call18_v8 : Ref sig .tc := ⟨.hbm, 429, rfl⟩
abbrev main_call18_v9 : Ref sig .tc := ⟨.hbm, 430, rfl⟩
abbrev main_call18_v10 : Ref sig .tc := ⟨.hbm, 431, rfl⟩
abbrev main_call18_c_0 : Ref sig .tc := ⟨.hbm, 432, rfl⟩
abbrev main_call18_v11 : Ref sig .tc := ⟨.hbm, 433, rfl⟩
abbrev main_call18_v12 : Ref sig .tc := ⟨.hbm, 434, rfl⟩
abbrev main_v238 : Ref sig .tc := ⟨.hbm, 435, rfl⟩
abbrev main_c_66 : Ref sig .tc := ⟨.hbm, 436, rfl⟩
abbrev main_call19_v0 : Ref sig .tc := ⟨.hbm, 437, rfl⟩
abbrev main_call19_c : Ref sig .tc := ⟨.hbm, 438, rfl⟩
abbrev main_call19_v1 : Ref sig .tc := ⟨.hbm, 439, rfl⟩
abbrev main_call19_c_0 : Ref sig .tc := ⟨.hbm, 440, rfl⟩
abbrev main_call19_v2 : Ref sig .tc := ⟨.hbm, 441, rfl⟩
abbrev main_call19_v3 : Ref sig .tc := ⟨.hbm, 442, rfl⟩
abbrev main_call19_v4 : Ref sig .tc := ⟨.hbm, 443, rfl⟩
abbrev main_call19_c_1 : Ref sig .tc := ⟨.hbm, 444, rfl⟩
abbrev main_call19_v5 : Ref sig .tc := ⟨.hbm, 445, rfl⟩
abbrev main_call19_v6 : Ref sig .tc := ⟨.hbm, 446, rfl⟩
abbrev main_call19_c_2 : Ref sig .tc := ⟨.hbm, 447, rfl⟩
abbrev main_call19_v7 : Ref sig .tc := ⟨.hbm, 448, rfl⟩
abbrev main_call19_v8 : Ref sig .tc := ⟨.hbm, 449, rfl⟩
abbrev main_call19_c_3 : Ref sig .tc := ⟨.hbm, 450, rfl⟩
abbrev main_call19_v9 : Ref sig .tc := ⟨.hbm, 451, rfl⟩
abbrev main_call19_v10 : Ref sig .tc := ⟨.hbm, 452, rfl⟩
abbrev main_call19_v11 : Ref sig .tc := ⟨.hbm, 453, rfl⟩
abbrev main_call19_v12 : Ref sig .tc := ⟨.hbm, 454, rfl⟩
abbrev main_call19_v13 : Ref sig .tc := ⟨.hbm, 455, rfl⟩
abbrev main_call19_v14 : Ref sig .tc := ⟨.hbm, 456, rfl⟩
abbrev main_v239 : Ref sig .tc := ⟨.hbm, 457, rfl⟩
abbrev main_c_67 : Ref sig .tc := ⟨.hbm, 458, rfl⟩
abbrev main_call20_v0 : Ref sig .tc := ⟨.hbm, 459, rfl⟩
abbrev main_call20_v1 : Ref sig .tc := ⟨.hbm, 460, rfl⟩
abbrev main_call20_v2 : Ref sig .tc := ⟨.hbm, 461, rfl⟩
abbrev main_call20_v3 : Ref sig .tc := ⟨.hbm, 462, rfl⟩
abbrev main_call20_v4 : Ref sig .tc := ⟨.hbm, 463, rfl⟩
abbrev main_call20_v5 : Ref sig .tc := ⟨.hbm, 464, rfl⟩
abbrev main_call20_v6 : Ref sig .tc := ⟨.hbm, 465, rfl⟩
abbrev main_call20_v7 : Ref sig .tc := ⟨.hbm, 466, rfl⟩
abbrev main_call20_c : Ref sig .tc := ⟨.hbm, 467, rfl⟩
abbrev main_call20_v8 : Ref sig .tc := ⟨.hbm, 468, rfl⟩
abbrev main_call20_v9 : Ref sig .tc := ⟨.hbm, 469, rfl⟩
abbrev main_call20_v10 : Ref sig .tc := ⟨.hbm, 470, rfl⟩
abbrev main_call20_c_0 : Ref sig .tc := ⟨.hbm, 471, rfl⟩
abbrev main_call20_v11 : Ref sig .tc := ⟨.hbm, 472, rfl⟩
abbrev main_call20_v12 : Ref sig .tc := ⟨.hbm, 473, rfl⟩
abbrev main_v240 : Ref sig .tc := ⟨.hbm, 474, rfl⟩
abbrev main_c_68 : Ref sig .tc := ⟨.hbm, 475, rfl⟩
abbrev main_call21_v0 : Ref sig .tc := ⟨.hbm, 476, rfl⟩
abbrev main_call21_c : Ref sig .tc := ⟨.hbm, 477, rfl⟩
abbrev main_call21_v1 : Ref sig .tc := ⟨.hbm, 478, rfl⟩
abbrev main_call21_c_0 : Ref sig .tc := ⟨.hbm, 479, rfl⟩
abbrev main_call21_v2 : Ref sig .tc := ⟨.hbm, 480, rfl⟩
abbrev main_call21_v3 : Ref sig .tc := ⟨.hbm, 481, rfl⟩
abbrev main_call21_v4 : Ref sig .tc := ⟨.hbm, 482, rfl⟩
abbrev main_call21_c_1 : Ref sig .tc := ⟨.hbm, 483, rfl⟩
abbrev main_call21_v5 : Ref sig .tc := ⟨.hbm, 484, rfl⟩
abbrev main_call21_v6 : Ref sig .tc := ⟨.hbm, 485, rfl⟩
abbrev main_call21_c_2 : Ref sig .tc := ⟨.hbm, 486, rfl⟩
abbrev main_call21_v7 : Ref sig .tc := ⟨.hbm, 487, rfl⟩
abbrev main_call21_v8 : Ref sig .tc := ⟨.hbm, 488, rfl⟩
abbrev main_call21_c_3 : Ref sig .tc := ⟨.hbm, 489, rfl⟩
abbrev main_call21_v9 : Ref sig .tc := ⟨.hbm, 490, rfl⟩
abbrev main_call21_v10 : Ref sig .tc := ⟨.hbm, 491, rfl⟩
abbrev main_call21_v11 : Ref sig .tc := ⟨.hbm, 492, rfl⟩
abbrev main_call21_v12 : Ref sig .tc := ⟨.hbm, 493, rfl⟩
abbrev main_call21_v13 : Ref sig .tc := ⟨.hbm, 494, rfl⟩
abbrev main_call21_v14 : Ref sig .tc := ⟨.hbm, 495, rfl⟩
abbrev main_v241 : Ref sig .tc := ⟨.hbm, 496, rfl⟩
abbrev main_c_69 : Ref sig .tc := ⟨.hbm, 497, rfl⟩
abbrev main_v242 : Ref sig .tc := ⟨.hbm, 498, rfl⟩
abbrev main_v243 : Ref sig .tc := ⟨.hbm, 499, rfl⟩
abbrev main_c_70 : Ref sig .tc := ⟨.hbm, 500, rfl⟩
abbrev main_v244 : Ref sig .tc := ⟨.hbm, 501, rfl⟩
abbrev main_v245 : Ref sig .tc := ⟨.hbm, 502, rfl⟩
abbrev main_v246 : Ref sig .tc := ⟨.hbm, 503, rfl⟩
abbrev main_c_71 : Ref sig .tc := ⟨.hbm, 504, rfl⟩
abbrev main_v247 : Ref sig .tc := ⟨.hbm, 505, rfl⟩
abbrev main_v248 : Ref sig .tc := ⟨.hbm, 506, rfl⟩
abbrev main_c_72 : Ref sig .tc := ⟨.hbm, 507, rfl⟩
abbrev main_v249 : Ref sig .tc := ⟨.hbm, 508, rfl⟩
abbrev main_v250 : Ref sig .tc := ⟨.hbm, 509, rfl⟩
abbrev main_v251 : Ref sig .tc := ⟨.hbm, 510, rfl⟩
abbrev main_v252 : Ref sig .tc := ⟨.hbm, 511, rfl⟩
abbrev main_v253 : Ref sig .tc := ⟨.hbm, 512, rfl⟩
abbrev main_v254 : Ref sig .tc := ⟨.hbm, 513, rfl⟩
abbrev main_v255 : Ref sig .tc := ⟨.hbm, 514, rfl⟩
abbrev main_v256 : Ref sig .tc := ⟨.hbm, 515, rfl⟩
abbrev main_v257 : Ref sig .tc := ⟨.hbm, 516, rfl⟩
abbrev main_v258 : Ref sig .tc := ⟨.hbm, 517, rfl⟩
abbrev main_v259 : Ref sig .tc := ⟨.hbm, 518, rfl⟩
abbrev main_v260 : Ref sig .tc := ⟨.hbm, 519, rfl⟩
abbrev main_v261 : Ref sig .tc := ⟨.hbm, 520, rfl⟩
abbrev main_cst_73 : Ref sig .tc := ⟨.hbm, 521, rfl⟩
abbrev main_v262 : Ref sig .tc := ⟨.hbm, 522, rfl⟩
abbrev main_v263 : Ref sig .tc := ⟨.hbm, 523, rfl⟩
abbrev main_cst_74 : Ref sig .tc := ⟨.hbm, 524, rfl⟩
abbrev main_v264 : Ref sig .tc := ⟨.hbm, 525, rfl⟩
abbrev main_c_75 : Ref sig .tc := ⟨.hbm, 526, rfl⟩
abbrev main_v265 : Ref sig .tc := ⟨.hbm, 527, rfl⟩
abbrev main_v266 : Ref sig .tc := ⟨.hbm, 528, rfl⟩
abbrev main_c_76 : Ref sig .tc := ⟨.hbm, 529, rfl⟩
abbrev main_v267 : Ref sig .tc := ⟨.hbm, 530, rfl⟩
abbrev main_v268 : Ref sig .tc := ⟨.hbm, 531, rfl⟩
abbrev main_v269 : Ref sig .tc := ⟨.hbm, 532, rfl⟩
abbrev main_v270 : Ref sig .tc := ⟨.hbm, 533, rfl⟩
abbrev main_v271 : Ref sig .tc := ⟨.hbm, 534, rfl⟩
abbrev main_cst_77 : Ref sig .tc := ⟨.hbm, 535, rfl⟩
abbrev main_v272 : Ref sig .tc := ⟨.hbm, 536, rfl⟩
abbrev main_v273 : Ref sig .tc := ⟨.hbm, 537, rfl⟩
abbrev main_v274 : Ref sig .tc := ⟨.hbm, 538, rfl⟩
abbrev main_cst_78 : Ref sig .tc := ⟨.hbm, 539, rfl⟩
abbrev main_call22_v0 : Ref sig .tc := ⟨.hbm, 540, rfl⟩
abbrev main_call22_v1 : Ref sig .tc := ⟨.hbm, 541, rfl⟩
abbrev main_v275 : Ref sig .tc := ⟨.hbm, 542, rfl⟩
abbrev main_c_79 : Ref sig .tc := ⟨.hbm, 543, rfl⟩
abbrev main_v276 : Ref sig .tc := ⟨.hbm, 544, rfl⟩
abbrev main_v277 : Ref sig .tc := ⟨.hbm, 545, rfl⟩
abbrev main_c_80 : Ref sig .tc := ⟨.hbm, 546, rfl⟩
abbrev main_v278 : Ref sig .tc := ⟨.hbm, 547, rfl⟩
abbrev main_v279 : Ref sig .tc := ⟨.hbm, 548, rfl⟩
abbrev main_v280 : Ref sig .tc := ⟨.hbm, 549, rfl⟩
abbrev main_v281 : Ref sig .tc := ⟨.hbm, 550, rfl⟩
abbrev main_v282 : Ref sig .tc := ⟨.hbm, 551, rfl⟩
abbrev main_v283 : Ref sig .tc := ⟨.hbm, 552, rfl⟩
abbrev main_c_81 : Ref sig .tc := ⟨.hbm, 553, rfl⟩
abbrev main_v284 : Ref sig .tc := ⟨.hbm, 554, rfl⟩
abbrev main_v285 : Ref sig .tc := ⟨.hbm, 555, rfl⟩
abbrev main_c_82 : Ref sig .tc := ⟨.hbm, 556, rfl⟩
abbrev main_v286 : Ref sig .tc := ⟨.hbm, 557, rfl⟩
abbrev main_v287 : Ref sig .tc := ⟨.hbm, 558, rfl⟩
abbrev main_v288 : Ref sig .tc := ⟨.hbm, 559, rfl⟩
abbrev main_v289 : Ref sig .tc := ⟨.hbm, 560, rfl⟩
abbrev main_v290 : Ref sig .tc := ⟨.hbm, 561, rfl⟩
abbrev main_v291 : Ref sig .tc := ⟨.hbm, 562, rfl⟩
abbrev main_v292 : Ref sig .tc := ⟨.hbm, 563, rfl⟩
abbrev main_cst_83 : Ref sig .tc := ⟨.hbm, 564, rfl⟩
abbrev main_v293 : Ref sig .tc := ⟨.hbm, 565, rfl⟩
abbrev main_c_84 : Ref sig .tc := ⟨.hbm, 566, rfl⟩
abbrev main_v294 : Ref sig .tc := ⟨.hbm, 567, rfl⟩
abbrev main_v295 : Ref sig .tc := ⟨.hbm, 568, rfl⟩
abbrev main_c_85 : Ref sig .tc := ⟨.hbm, 569, rfl⟩
abbrev main_v296 : Ref sig .tc := ⟨.hbm, 570, rfl⟩
abbrev main_v297 : Ref sig .tc := ⟨.hbm, 571, rfl⟩
abbrev main_v298 : Ref sig .tc := ⟨.hbm, 572, rfl⟩
abbrev main_v299 : Ref sig .tc := ⟨.hbm, 573, rfl⟩
abbrev main_v300 : Ref sig .tc := ⟨.hbm, 574, rfl⟩
abbrev main_v301 : Ref sig .tc := ⟨.hbm, 575, rfl⟩
abbrev main_v302 : Ref sig .tc := ⟨.hbm, 576, rfl⟩
abbrev main_v303 : Ref sig .tc := ⟨.hbm, 577, rfl⟩
abbrev main_c_86 : Ref sig .tc := ⟨.hbm, 578, rfl⟩
abbrev main_v304 : Ref sig .tc := ⟨.hbm, 579, rfl⟩
abbrev main_v305 : Ref sig .tc := ⟨.hbm, 580, rfl⟩
abbrev main_c_87 : Ref sig .tc := ⟨.hbm, 581, rfl⟩
abbrev main_v306 : Ref sig .tc := ⟨.hbm, 582, rfl⟩
abbrev main_v307 : Ref sig .tc := ⟨.hbm, 583, rfl⟩
abbrev main_v308 : Ref sig .tc := ⟨.hbm, 584, rfl⟩
abbrev main_v309 : Ref sig .tc := ⟨.hbm, 585, rfl⟩
abbrev main_v310 : Ref sig .tc := ⟨.hbm, 586, rfl⟩
abbrev main_v311 : Ref sig .tc := ⟨.hbm, 587, rfl⟩
abbrev main_v312 : Ref sig .tc := ⟨.hbm, 588, rfl⟩
abbrev main_v313 : Ref sig .tc := ⟨.hbm, 589, rfl⟩
abbrev main_call23_cst : Ref sig .tc := ⟨.hbm, 590, rfl⟩
abbrev main_call23_v0 : Ref sig .tc := ⟨.hbm, 591, rfl⟩
abbrev main_v314 : Ref sig .tc := ⟨.hbm, 592, rfl⟩
abbrev main_v315 : Ref sig .tc := ⟨.hbm, 593, rfl⟩
abbrev main_v316 : Ref sig .tc := ⟨.hbm, 594, rfl⟩
abbrev main_v317 : Ref sig .tc := ⟨.hbm, 595, rfl⟩
abbrev main_cst_88 : Ref sig .tc := ⟨.hbm, 596, rfl⟩
abbrev main_v318 : Ref sig .tc := ⟨.hbm, 597, rfl⟩
abbrev main_v319 : Ref sig .tc := ⟨.hbm, 598, rfl⟩
abbrev main_cst_89 : Ref sig .tc := ⟨.hbm, 599, rfl⟩
abbrev main_v320 : Ref sig .tc := ⟨.hbm, 600, rfl⟩
abbrev main_c_90 : Ref sig .tc := ⟨.hbm, 601, rfl⟩
abbrev main_v321 : Ref sig .tc := ⟨.hbm, 602, rfl⟩
abbrev main_v322 : Ref sig .tc := ⟨.hbm, 603, rfl⟩
abbrev main_c_91 : Ref sig .tc := ⟨.hbm, 604, rfl⟩
abbrev main_v323 : Ref sig .tc := ⟨.hbm, 605, rfl⟩
abbrev main_v324 : Ref sig .tc := ⟨.hbm, 606, rfl⟩
abbrev main_v325 : Ref sig .tc := ⟨.hbm, 607, rfl⟩
abbrev main_v326 : Ref sig .tc := ⟨.hbm, 608, rfl⟩
abbrev main_v327 : Ref sig .tc := ⟨.hbm, 609, rfl⟩
abbrev main_cst_92 : Ref sig .tc := ⟨.hbm, 610, rfl⟩
abbrev main_v328 : Ref sig .tc := ⟨.hbm, 611, rfl⟩
abbrev main_v329 : Ref sig .tc := ⟨.hbm, 612, rfl⟩
abbrev main_v330 : Ref sig .tc := ⟨.hbm, 613, rfl⟩
abbrev main_cst_93 : Ref sig .tc := ⟨.hbm, 614, rfl⟩
abbrev main_call24_v0 : Ref sig .tc := ⟨.hbm, 615, rfl⟩
abbrev main_call24_v1 : Ref sig .tc := ⟨.hbm, 616, rfl⟩
abbrev main_v331 : Ref sig .tc := ⟨.hbm, 617, rfl⟩
abbrev main_c_94 : Ref sig .tc := ⟨.hbm, 618, rfl⟩
abbrev main_v332 : Ref sig .tc := ⟨.hbm, 619, rfl⟩
abbrev main_v333 : Ref sig .tc := ⟨.hbm, 620, rfl⟩
abbrev main_c_95 : Ref sig .tc := ⟨.hbm, 621, rfl⟩
abbrev main_v334 : Ref sig .tc := ⟨.hbm, 622, rfl⟩
abbrev main_v335 : Ref sig .tc := ⟨.hbm, 623, rfl⟩
abbrev main_v336 : Ref sig .tc := ⟨.hbm, 624, rfl⟩
abbrev main_v337 : Ref sig .tc := ⟨.hbm, 625, rfl⟩
abbrev main_v338 : Ref sig .tc := ⟨.hbm, 626, rfl⟩
abbrev main_v339 : Ref sig .tc := ⟨.hbm, 627, rfl⟩
abbrev main_c_96 : Ref sig .tc := ⟨.hbm, 628, rfl⟩
abbrev main_v340 : Ref sig .tc := ⟨.hbm, 629, rfl⟩
abbrev main_v341 : Ref sig .tc := ⟨.hbm, 630, rfl⟩
abbrev main_c_97 : Ref sig .tc := ⟨.hbm, 631, rfl⟩
abbrev main_v342 : Ref sig .tc := ⟨.hbm, 632, rfl⟩
abbrev main_v343 : Ref sig .tc := ⟨.hbm, 633, rfl⟩
abbrev main_v344 : Ref sig .tc := ⟨.hbm, 634, rfl⟩
abbrev main_v345 : Ref sig .tc := ⟨.hbm, 635, rfl⟩
abbrev main_v346 : Ref sig .tc := ⟨.hbm, 636, rfl⟩
abbrev main_v347 : Ref sig .tc := ⟨.hbm, 637, rfl⟩
abbrev main_v348 : Ref sig .tc := ⟨.hbm, 638, rfl⟩
abbrev main_cst_98 : Ref sig .tc := ⟨.hbm, 639, rfl⟩
abbrev main_v349 : Ref sig .tc := ⟨.hbm, 640, rfl⟩
abbrev main_c_99 : Ref sig .tc := ⟨.hbm, 641, rfl⟩
abbrev main_v350 : Ref sig .tc := ⟨.hbm, 642, rfl⟩
abbrev main_v351 : Ref sig .tc := ⟨.hbm, 643, rfl⟩
abbrev main_c_100 : Ref sig .tc := ⟨.hbm, 644, rfl⟩
abbrev main_v352 : Ref sig .tc := ⟨.hbm, 645, rfl⟩
abbrev main_v353 : Ref sig .tc := ⟨.hbm, 646, rfl⟩
abbrev main_v354 : Ref sig .tc := ⟨.hbm, 647, rfl⟩
abbrev main_v355 : Ref sig .tc := ⟨.hbm, 648, rfl⟩
abbrev main_v356 : Ref sig .tc := ⟨.hbm, 649, rfl⟩
abbrev main_v357 : Ref sig .tc := ⟨.hbm, 650, rfl⟩
abbrev main_v358 : Ref sig .tc := ⟨.hbm, 651, rfl⟩
abbrev main_v359 : Ref sig .tc := ⟨.hbm, 652, rfl⟩
abbrev main_c_101 : Ref sig .tc := ⟨.hbm, 653, rfl⟩
abbrev main_v360 : Ref sig .tc := ⟨.hbm, 654, rfl⟩
abbrev main_v361 : Ref sig .tc := ⟨.hbm, 655, rfl⟩
abbrev main_c_102 : Ref sig .tc := ⟨.hbm, 656, rfl⟩
abbrev main_v362 : Ref sig .tc := ⟨.hbm, 657, rfl⟩
abbrev main_v363 : Ref sig .tc := ⟨.hbm, 658, rfl⟩
abbrev main_v364 : Ref sig .tc := ⟨.hbm, 659, rfl⟩
abbrev main_v365 : Ref sig .tc := ⟨.hbm, 660, rfl⟩
abbrev main_v366 : Ref sig .tc := ⟨.hbm, 661, rfl⟩
abbrev main_v367 : Ref sig .tc := ⟨.hbm, 662, rfl⟩
abbrev main_v368 : Ref sig .tc := ⟨.hbm, 663, rfl⟩
abbrev main_v369 : Ref sig .tc := ⟨.hbm, 664, rfl⟩
abbrev main_call25_cst : Ref sig .tc := ⟨.hbm, 665, rfl⟩
abbrev main_call25_v0 : Ref sig .tc := ⟨.hbm, 666, rfl⟩
abbrev main_v370 : Ref sig .tc := ⟨.hbm, 667, rfl⟩
abbrev main_v371 : Ref sig .tc := ⟨.hbm, 668, rfl⟩
abbrev main_v372 : Ref sig .tc := ⟨.hbm, 669, rfl⟩
abbrev main_v373 : Ref sig .tc := ⟨.hbm, 670, rfl⟩
abbrev main_cst_103 : Ref sig .tc := ⟨.hbm, 671, rfl⟩
abbrev main_v374 : Ref sig .tc := ⟨.hbm, 672, rfl⟩
abbrev main_v375 : Ref sig .tc := ⟨.hbm, 673, rfl⟩
abbrev main_cst_104 : Ref sig .tc := ⟨.hbm, 674, rfl⟩
abbrev main_v376 : Ref sig .tc := ⟨.hbm, 675, rfl⟩
abbrev main_c_105 : Ref sig .tc := ⟨.hbm, 676, rfl⟩
abbrev main_v377 : Ref sig .tc := ⟨.hbm, 677, rfl⟩
abbrev main_v378 : Ref sig .tc := ⟨.hbm, 678, rfl⟩
abbrev main_c_106 : Ref sig .tc := ⟨.hbm, 679, rfl⟩
abbrev main_v379 : Ref sig .tc := ⟨.hbm, 680, rfl⟩
abbrev main_v380 : Ref sig .tc := ⟨.hbm, 681, rfl⟩
abbrev main_v381 : Ref sig .tc := ⟨.hbm, 682, rfl⟩
abbrev main_v382 : Ref sig .tc := ⟨.hbm, 683, rfl⟩
abbrev main_v383 : Ref sig .tc := ⟨.hbm, 684, rfl⟩
abbrev main_cst_107 : Ref sig .tc := ⟨.hbm, 685, rfl⟩
abbrev main_v384 : Ref sig .tc := ⟨.hbm, 686, rfl⟩
abbrev main_v385 : Ref sig .tc := ⟨.hbm, 687, rfl⟩
abbrev main_v386 : Ref sig .tc := ⟨.hbm, 688, rfl⟩
abbrev main_cst_108 : Ref sig .tc := ⟨.hbm, 689, rfl⟩
abbrev main_call26_v0 : Ref sig .tc := ⟨.hbm, 690, rfl⟩
abbrev main_call26_v1 : Ref sig .tc := ⟨.hbm, 691, rfl⟩
abbrev main_v387 : Ref sig .tc := ⟨.hbm, 692, rfl⟩
abbrev main_c_109 : Ref sig .tc := ⟨.hbm, 693, rfl⟩
abbrev main_v388 : Ref sig .tc := ⟨.hbm, 694, rfl⟩
abbrev main_v389 : Ref sig .tc := ⟨.hbm, 695, rfl⟩
abbrev main_c_110 : Ref sig .tc := ⟨.hbm, 696, rfl⟩
abbrev main_v390 : Ref sig .tc := ⟨.hbm, 697, rfl⟩
abbrev main_v391 : Ref sig .tc := ⟨.hbm, 698, rfl⟩
abbrev main_v392 : Ref sig .tc := ⟨.hbm, 699, rfl⟩
abbrev main_v393 : Ref sig .tc := ⟨.hbm, 700, rfl⟩
abbrev main_v394 : Ref sig .tc := ⟨.hbm, 701, rfl⟩
abbrev main_v395 : Ref sig .tc := ⟨.hbm, 702, rfl⟩
abbrev main_c_111 : Ref sig .tc := ⟨.hbm, 703, rfl⟩
abbrev main_v396 : Ref sig .tc := ⟨.hbm, 704, rfl⟩
abbrev main_v397 : Ref sig .tc := ⟨.hbm, 705, rfl⟩
abbrev main_c_112 : Ref sig .tc := ⟨.hbm, 706, rfl⟩
abbrev main_v398 : Ref sig .tc := ⟨.hbm, 707, rfl⟩
abbrev main_v399 : Ref sig .tc := ⟨.hbm, 708, rfl⟩
abbrev main_v400 : Ref sig .tc := ⟨.hbm, 709, rfl⟩
abbrev main_v401 : Ref sig .tc := ⟨.hbm, 710, rfl⟩
abbrev main_v402 : Ref sig .tc := ⟨.hbm, 711, rfl⟩
abbrev main_v403 : Ref sig .tc := ⟨.hbm, 712, rfl⟩
abbrev main_v404 : Ref sig .tc := ⟨.hbm, 713, rfl⟩
abbrev main_cst_113 : Ref sig .tc := ⟨.hbm, 714, rfl⟩
abbrev main_v405 : Ref sig .tc := ⟨.hbm, 715, rfl⟩
abbrev main_c_114 : Ref sig .tc := ⟨.hbm, 716, rfl⟩
abbrev main_v406 : Ref sig .tc := ⟨.hbm, 717, rfl⟩
abbrev main_v407 : Ref sig .tc := ⟨.hbm, 718, rfl⟩
abbrev main_c_115 : Ref sig .tc := ⟨.hbm, 719, rfl⟩
abbrev main_v408 : Ref sig .tc := ⟨.hbm, 720, rfl⟩
abbrev main_v409 : Ref sig .tc := ⟨.hbm, 721, rfl⟩
abbrev main_v410 : Ref sig .tc := ⟨.hbm, 722, rfl⟩
abbrev main_v411 : Ref sig .tc := ⟨.hbm, 723, rfl⟩
abbrev main_v412 : Ref sig .tc := ⟨.hbm, 724, rfl⟩
abbrev main_v413 : Ref sig .tc := ⟨.hbm, 725, rfl⟩
abbrev main_v414 : Ref sig .tc := ⟨.hbm, 726, rfl⟩
abbrev main_v415 : Ref sig .tc := ⟨.hbm, 727, rfl⟩
abbrev main_c_116 : Ref sig .tc := ⟨.hbm, 728, rfl⟩
abbrev main_v416 : Ref sig .tc := ⟨.hbm, 729, rfl⟩
abbrev main_v417 : Ref sig .tc := ⟨.hbm, 730, rfl⟩
abbrev main_c_117 : Ref sig .tc := ⟨.hbm, 731, rfl⟩
abbrev main_v418 : Ref sig .tc := ⟨.hbm, 732, rfl⟩
abbrev main_v419 : Ref sig .tc := ⟨.hbm, 733, rfl⟩
abbrev main_v420 : Ref sig .tc := ⟨.hbm, 734, rfl⟩
abbrev main_v421 : Ref sig .tc := ⟨.hbm, 735, rfl⟩
abbrev main_v422 : Ref sig .tc := ⟨.hbm, 736, rfl⟩
abbrev main_v423 : Ref sig .tc := ⟨.hbm, 737, rfl⟩
abbrev main_v424 : Ref sig .tc := ⟨.hbm, 738, rfl⟩
abbrev main_v425 : Ref sig .tc := ⟨.hbm, 739, rfl⟩
abbrev main_call27_cst : Ref sig .tc := ⟨.hbm, 740, rfl⟩
abbrev main_call27_v0 : Ref sig .tc := ⟨.hbm, 741, rfl⟩
abbrev main_v426 : Ref sig .tc := ⟨.hbm, 742, rfl⟩
abbrev main_v427 : Ref sig .tc := ⟨.hbm, 743, rfl⟩
abbrev main_v428 : Ref sig .tc := ⟨.hbm, 744, rfl⟩

abbrev nD : Nat := 1
abbrev τ : Topo := Topo.v7x

variable {F : FTy → Type} [FloatOps F]

class Facts₀ : Prop where
  slices_S2x24x32x32_S1x24x32x32_0_0_0_0 : S2x24x32x32.Slices ![0, 0, 0, 0] S1x24x32x32
  shapeCasts_S1x24x32x32_S24x32x32 : S1x24x32x32.ShapeCasts S24x32x32
  shapeCasts_S24x32x32_S24x1024 : S24x32x32.ShapeCasts S24x1024
  reducesTo_S24x1024_S24_d1 : S24x1024.ReducesTo [1] S24
  h_S_ : 0 < S_.numel
  bcast_S24_S24x1_0 : S24.BroadcastsInDim S24x1 (![0] : Fin 1 → Fin S24x1.rank)
  bcast_S_S24x1 : S_.BroadcastsInDim S24x1 (![] : Fin 0 → Fin S24x1.rank)
  bcast_S24x1_S24x1024_0_1 : S24x1.BroadcastsInDim S24x1024 (![0, 1] : Fin 2 → Fin S24x1024.rank)
  transposes_S24x1024_S1024x24_1_0 : S24x1024.Transposes [1, 0] S1024x24
  bcast_S_S1024x1024 : S_.BroadcastsInDim S1024x1024 (![] : Fin 0 → Fin S1024x1024.rank)
  shapeCasts_S1024x1024_S1048576 : S1024x1024.ShapeCasts S1048576
  natLt_1_32 : 1 < 32
  bcast_S_S_ : S_.BroadcastsInDim S_ (![] : Fin 0 → Fin S_.rank)
  reduceWindows_S1048576_S1048576_w1048576s1p1048575_0 : S1048576.ReduceWindows (![1048576] : Fin 1 → Nat) ![1] ![1048575] ![0] S1048576
  bcast_S_S1048576 : S_.BroadcastsInDim S1048576 (![] : Fin 0 → Fin S1048576.rank)
  bcast_S1048576_S1048576x1_0 : S1048576.BroadcastsInDim S1048576x1 (![0] : Fin 1 → Fin S1048576x1.rank)
  concatenates_S1048576x1_S1048576x1_S1048576x2_d1 : Shape.Concatenates [S1048576x1, S1048576x1] S1048576x2 1
  slices_S2x32x32x16_S1x32x32x16_0_0_0_0 : S2x32x32x16.Slices ![0, 0, 0, 0] S1x32x32x16
  shapeCasts_S1x32x32x16_S32x32x16 : S1x32x32x16.ShapeCasts S32x32x16
  shapeCasts_S32x32x16_S1024x16 : S32x32x16.ShapeCasts S1024x16
  concatenates_S1048576_S1024_S1049600_d0 : Shape.Concatenates [S1048576, S1024] S1049600 0
  bcast_S_S1024 : S_.BroadcastsInDim S1024 (![] : Fin 0 → Fin S1024.rank)
  bcast_S_S1049600 : S_.BroadcastsInDim S1049600 (![] : Fin 0 → Fin S1049600.rank)
  bcast_S1049600_S1049600x1_0 : S1049600.BroadcastsInDim S1049600x1 (![0] : Fin 1 → Fin S1049600x1.rank)
  bcast_S_S1024x16 : S_.BroadcastsInDim S1024x16 (![] : Fin 0 → Fin S1024x16.rank)
  bcast_S1049600x1_S1049600x16_0_1 : S1049600x1.BroadcastsInDim S1049600x16 (![0, 1] : Fin 2 → Fin S1049600x16.rank)
  bcast_S16_S1x16_1 : S16.BroadcastsInDim S1x16 (![1] : Fin 1 → Fin S1x16.rank)
  bcast_S1x16_S1024x16_0_1 : S1x16.BroadcastsInDim S1024x16 (![0, 1] : Fin 2 → Fin S1024x16.rank)
  shapeCasts_S1024x16_S1x32x32x16 : S1024x16.ShapeCasts S1x32x32x16
  slices_S2x24x32x32_S1x24x32x32_1_0_0_0 : S2x24x32x32.Slices ![1, 0, 0, 0] S1x24x32x32
  slices_S2x32x32x16_S1x32x32x16_1_0_0_0 : S2x32x32x16.Slices ![1, 0, 0, 0] S1x32x32x16
  concatenates_S1x32x32x16_S1x32x32x16_S2x32x32x16_d0 : Shape.Concatenates [S1x32x32x16, S1x32x32x16] S2x32x32x16 0
  dot_S1024x24_S24x1024_S1024x1024_1_0_0_1_n_n_wf : DotDims.WF S1024x24 S24x1024 S1024x1024 [1] [0] [0] [1] [] []
  scatter_S1048576_S1048576x1_S1048576_n_0_0_1_wf : ScatterDims.WF S1048576 S1048576x1 S1048576 [] [0] [0] 1
  gather_S1024x1024_S1048576x2_S1048576_n_01_n_n_01_1_11_wf : GatherDims.WF S1024x1024 S1048576x2 S1048576 [] [0, 1] [] [0, 1] [] 1 ![1, 1]
  scatter_S1024_S1049600x1_S1049600_n_0_0_1_wf : ScatterDims.WF S1024 S1049600x1 S1049600 [] [0] [0] 1
  gather_S1024_S1049600x1_S1049600_n_0_n_n_0_1_1_wf : GatherDims.WF S1024 S1049600x1 S1049600 [] [0] [] [0] [] 1 ![1]
  dot_S1024x16_S16x16_S1024x16_1_0_0_1_n_n_wf : DotDims.WF S1024x16 S16x16 S1024x16 [1] [0] [0] [1] [] []
  gather_S1024x16_S1049600x1_S1049600x16_1_0_n_n_0_1_116_wf : GatherDims.WF S1024x16 S1049600x1 S1049600x16 [1] [0] [] [0] [] 1 ![1, 16]
  scatter_S1024x16_S1049600x1_S1049600x16_1_0_0_1_wf : ScatterDims.WF S1024x16 S1049600x1 S1049600x16 [1] [0] [0] 1

variable [Facts₀]

def dot_S1024x24_S24x1024_S1024x1024_1_0_0_1_n_n : DotDims S1024x24 S24x1024 S1024x1024 where
  lhsContracting := [1]
  rhsContracting := [0]
  lhsNonContracting := [0]
  rhsNonContracting := [1]
  lhsBatch := []
  rhsBatch := []
  wf := dot_S1024x24_S24x1024_S1024x1024_1_0_0_1_n_n_wf
def scatter_S1048576_S1048576x1_S1048576_n_0_0_1 : ScatterDims S1048576 S1048576x1 S1048576 where
  updateWindowDims := []
  insertedWindowDims := [0]
  scatterDimsToOperandDims := [0]
  indexVectorDim := 1
  wf := scatter_S1048576_S1048576x1_S1048576_n_0_0_1_wf
def gather_S1024x1024_S1048576x2_S1048576_n_01_n_n_01_1_11 : GatherDims S1024x1024 S1048576x2 S1048576 where
  offsetDims := []
  collapsedSliceDims := [0, 1]
  operandBatchingDims := []
  startIndicesBatchingDims := []
  startIndexMap := [0, 1]
  indexVectorDim := 1
  sliceSizes := ![1, 1]
  wf := gather_S1024x1024_S1048576x2_S1048576_n_01_n_n_01_1_11_wf
def scatter_S1024_S1049600x1_S1049600_n_0_0_1 : ScatterDims S1024 S1049600x1 S1049600 where
  updateWindowDims := []
  insertedWindowDims := [0]
  scatterDimsToOperandDims := [0]
  indexVectorDim := 1
  wf := scatter_S1024_S1049600x1_S1049600_n_0_0_1_wf
def gather_S1024_S1049600x1_S1049600_n_0_n_n_0_1_1 : GatherDims S1024 S1049600x1 S1049600 where
  offsetDims := []
  collapsedSliceDims := [0]
  operandBatchingDims := []
  startIndicesBatchingDims := []
  startIndexMap := [0]
  indexVectorDim := 1
  sliceSizes := ![1]
  wf := gather_S1024_S1049600x1_S1049600_n_0_n_n_0_1_1_wf
def dot_S1024x16_S16x16_S1024x16_1_0_0_1_n_n : DotDims S1024x16 S16x16 S1024x16 where
  lhsContracting := [1]
  rhsContracting := [0]
  lhsNonContracting := [0]
  rhsNonContracting := [1]
  lhsBatch := []
  rhsBatch := []
  wf := dot_S1024x16_S16x16_S1024x16_1_0_0_1_n_n_wf
def gather_S1024x16_S1049600x1_S1049600x16_1_0_n_n_0_1_116 : GatherDims S1024x16 S1049600x1 S1049600x16 where
  offsetDims := [1]
  collapsedSliceDims := [0]
  operandBatchingDims := []
  startIndicesBatchingDims := []
  startIndexMap := [0]
  indexVectorDim := 1
  sliceSizes := ![1, 16]
  wf := gather_S1024x16_S1049600x1_S1049600x16_1_0_n_n_0_1_116_wf
def scatter_S1024x16_S1049600x1_S1049600x16_1_0_0_1 : ScatterDims S1024x16 S1049600x1 S1049600x16 where
  updateWindowDims := [1]
  insertedWindowDims := [0]
  scatterDimsToOperandDims := [0]
  indexVectorDim := 1
  wf := scatter_S1024x16_S1049600x1_S1049600x16_1_0_0_1_wf

class Facts : Prop extends Facts₀ where

variable [Facts]
-- ==== Proof.Spec.lean ====
import Mathlib.Analysis.SpecialFunctions.Pow.Real
import Mathlib.Analysis.SpecialFunctions.Sqrt
import Mathlib.Algebra.BigOperators.Group.Finset.Basic

noncomputable section

open scoped BigOperators

namespace Cert.Gcn

abbrev FlowM : Type := Fin 24 → Fin 1024 → ℝ

abbrev FeatM : Type := Fin 1024 → Fin 16 → ℝ

abbrev WtM : Type := Fin 16 → Fin 16 → ℝ

variable (c : ℝ) (f : FlowM)

def den (t : Fin 24) : ℝ := max (Real.sqrt (∑ i, f t i * f t i)) c

def nx (t : Fin 24) (i : Fin 1024) : ℝ := f t i / den c f t

def sim (i j : Fin 1024) : ℝ := ∑ t, nx c f t i * nx c f t j

def deg (j : Fin 1024) : ℝ := ∑ i, sim c f i j + 1

def dinv (j : Fin 1024) : ℝ := (Real.sqrt (deg c f j))⁻¹

def xw (x : FeatM) (W : WtM) (j : Fin 1024) (e : Fin 16) : ℝ := ∑ k, x j k * W k e

def layer (x : FeatM) (W : WtM) (b : Fin 16 → ℝ) : FeatM := fun i e =>
  max (dinv c f i * (∑ j, sim c f i j * (xw x W j e * dinv c f j) + xw x W i e * dinv c f i) + b e) 0

-- Three layers over the similarity graph of the flow's columns; `c` is the floor put under a row's length.
def gcn (x : FeatM) (W0 : WtM) (b0 : Fin 16 → ℝ) (W1 : WtM) (b1 : Fin 16 → ℝ) (W2 : WtM) (b2 : Fin 16 → ℝ) : FeatM :=
  layer c f (layer c f (layer c f x W0 b0) W1 b1) W2 b2

end Cert.Gcn

end
-- ==== Proof.KernelForm.lean ====
import proofs.«138489_g81887846466032_cont_9to1c4b_857_5_alg».proof.Proof.Spec

noncomputable section

open scoped BigOperators

namespace Cert.Gcn

variable (c : ℝ) (f : FlowM)

def kR (t : Fin 24) : ℝ := ∑ i, nx c f t i

def kdeg (j : Fin 1024) : ℝ := (∑ t, nx c f t j * kR c f t) + 1

def kdinv (j : Fin 1024) : ℝ := (Real.sqrt (kdeg c f j))⁻¹

def kv (x : FeatM) (W : WtM) (j : Fin 1024) (e : Fin 16) : ℝ := xw x W j e * kdinv c f j

def ku (x : FeatM) (W : WtM) (t : Fin 24) (e : Fin 16) : ℝ := ∑ j, nx c f t j * kv c f x W j e

def ky (x : FeatM) (W : WtM) (i : Fin 1024) (e : Fin 16) : ℝ := ∑ t, nx c f t i * ku c f x W t e

def klayer (x : FeatM) (W : WtM) (b : Fin 16 → ℝ) : FeatM := fun i e =>
  max ((ky c f x W i e + kv c f x W i e) * kdinv c f i + b e) 0

def kgcn (x : FeatM) (W0 : WtM) (b0 : Fin 16 → ℝ) (W1 : WtM) (b1 : Fin 16 → ℝ) (W2 : WtM) (b2 : Fin 16 → ℝ) : FeatM :=
  klayer c f (klayer c f (klayer c f x W0 b0) W1 b1) W2 b2

theorem kdeg_eq (j : Fin 1024) : kdeg c f j = deg c f j := by
  unfold kdeg deg
  congr 1
  unfold kR sim
  have h : ∀ t, nx c f t j * ∑ i, nx c f t i = ∑ i, nx c f t i * nx c f t j := by
    intro t
    rw [Finset.mul_sum]
    exact Finset.sum_congr rfl (fun i _ => mul_comm _ _)
  rw [Finset.sum_congr rfl (fun t _ => h t)]
  exact Finset.sum_comm

theorem kdinv_eq (j : Fin 1024) : kdinv c f j = dinv c f j := by
  unfold kdinv dinv
  rw [kdeg_eq]

theorem kv_eq (x : FeatM) (W : WtM) (j : Fin 1024) (e : Fin 16) :
    kv c f x W j e = xw x W j e * dinv c f j := by
  unfold kv
  rw [kdinv_eq]

-- Applying the similarity through its factor: S v = nxᵀ (nx v).
theorem ky_eq (x : FeatM) (W : WtM) (i : Fin 1024) (e : Fin 16) :
    ky c f x W i e = ∑ j, sim c f i j * kv c f x W j e := by
  unfold ky ku sim
  have hl : ∀ t, nx c f t i * ∑ j, nx c f t j * kv c f x W j e
      = ∑ j, nx c f t i * nx c f t j * kv c f x W j e := by
    intro t
    rw [Finset.mul_sum]
    exact Finset.sum_congr rfl (fun j _ => (mul_assoc _ _ _).symm)
  have hr : ∀ j, (∑ t, nx c f t i * nx c f t j) * kv c f x W j e
      = ∑ t, nx c f t i * nx c f t j * kv c f x W j e := by
    intro j
    rw [Finset.sum_mul]
  rw [Finset.sum_congr rfl (fun t _ => hl t), Finset.sum_congr rfl (fun j _ => hr j)]
  exact Finset.sum_comm

theorem klayer_eq (x : FeatM) (W : WtM) (b : Fin 16 → ℝ) : klayer c f x W b = layer c f x W b := by
  funext i e
  unfold klayer layer
  rw [ky_eq, kdinv_eq, kv_eq]
  rw [Finset.sum_congr rfl (fun j _ => by rw [kv_eq] :
    ∀ j ∈ Finset.univ, sim c f i j * kv c f x W j e = sim c f i j * (xw x W j e * dinv c f j))]
  rw [mul_comm]

theorem kgcn_eq (x : FeatM) (W0 : WtM) (b0 : Fin 16 → ℝ) (W1 : WtM) (b1 : Fin 16 → ℝ) (W2 : WtM) (b2 : Fin 16 → ℝ) :
    kgcn c f x W0 b0 W1 b1 W2 b2 = gcn c f x W0 b0 W1 b1 W2 b2 := by
  unfold kgcn gcn
  rw [klayer_eq, klayer_eq, klayer_eq]

end Cert.Gcn

end
-- ==== Proof.RefForm.lean ====
import proofs.«138489_g81887846466032_cont_9to1c4b_857_5_alg».proof.Proof.Spec

noncomputable section

open scoped BigOperators

namespace Cert.Gcn

variable (c : ℝ) (f : FlowM)

def rdeg (d : Fin 1024) : ℝ := 0 + ((∑ s, sim c f s d) + 1)

def rdinv (d : Fin 1024) : ℝ := if 0 < rdeg c f d then (Real.sqrt (rdeg c f d))⁻¹ else 0

def rlayer (x : FeatM) (W : WtM) (b : Fin 16 → ℝ) : FeatM := fun d e =>
  max ((0 + ((∑ s, xw x W s e * (rdinv c f s * sim c f s d * rdinv c f d))
        + xw x W d e * (rdinv c f d * 1 * rdinv c f d))) + b e) 0

def rgcn (x : FeatM) (W0 : WtM) (b0 : Fin 16 → ℝ) (W1 : WtM) (b1 : Fin 16 → ℝ) (W2 : WtM) (b2 : Fin 16 → ℝ) : FeatM :=
  rlayer c f (rlayer c f (rlayer c f x W0 b0) W1 b1) W2 b2

theorem den_pos (hc : 0 < c) (t : Fin 24) : 0 < den c f t :=
  lt_of_lt_of_le hc (le_max_right _ _)

theorem nx_pos (hc : 0 < c) (hf : ∀ t i, 0 < f t i) (t : Fin 24) (i : Fin 1024) : 0 < nx c f t i :=
  div_pos (hf t i) (den_pos c f hc t)

theorem sim_symm (i j : Fin 1024) : sim c f i j = sim c f j i := by
  unfold sim
  exact Finset.sum_congr rfl (fun t _ => mul_comm _ _)

theorem sim_pos (hc : 0 < c) (hf : ∀ t i, 0 < f t i) (i j : Fin 1024) : 0 < sim c f i j := by
  unfold sim
  exact Finset.sum_pos (fun t _ => mul_pos (nx_pos c f hc hf t i) (nx_pos c f hc hf t j)) Finset.univ_nonempty

theorem deg_pos (hc : 0 < c) (hf : ∀ t i, 0 < f t i) (j : Fin 1024) : 0 < deg c f j := by
  unfold deg
  exact add_pos (Finset.sum_pos (fun i _ => sim_pos c f hc hf i j) Finset.univ_nonempty) one_pos

theorem rdeg_eq (d : Fin 1024) : rdeg c f d = deg c f d := by
  unfold rdeg deg
  rw [zero_add]

-- The degrees are positive, so the sign guard on the inverse root never fires.
theorem rdinv_eq (hc : 0 < c) (hf : ∀ t i, 0 < f t i) (d : Fin 1024) : rdinv c f d = dinv c f d := by
  unfold rdinv dinv
  rw [rdeg_eq, if_pos (deg_pos c f hc hf d)]

theorem rlayer_eq (hc : 0 < c) (hf : ∀ t i, 0 < f t i) (x : FeatM) (W : WtM) (b : Fin 16 → ℝ) :
    rlayer c f x W b = layer c f x W b := by
  funext d e
  unfold rlayer layer
  have hs : ∀ s, xw x W s e * (rdinv c f s * sim c f s d * rdinv c f d)
      = dinv c f d * (sim c f d s * (xw x W s e * dinv c f s)) := by
    intro s
    rw [rdinv_eq c f hc hf s, rdinv_eq c f hc hf d, sim_symm c f s d]
    ring
  rw [Finset.sum_congr rfl (fun s _ => hs s), ← Finset.mul_sum, rdinv_eq c f hc hf d, zero_add]
  congr 2
  ring

theorem rgcn_eq (hc : 0 < c) (hf : ∀ t i, 0 < f t i) (x : FeatM) (W0 : WtM) (b0 : Fin 16 → ℝ) (W1 : WtM) (b1 : Fin 16 → ℝ)
    (W2 : WtM) (b2 : Fin 16 → ℝ) : rgcn c f x W0 b0 W1 b1 W2 b2 = gcn c f x W0 b0 W1 b1 W2 b2 := by
  unfold rgcn gcn
  rw [rlayer_eq c f hc hf, rlayer_eq c f hc hf, rlayer_eq c f hc hf]

end Cert.Gcn

end
-- ==== Proof.FormFacts.lean ====
import proofs.«138489_g81887846466032_cont_9to1c4b_857_5_alg».proof.Proof.KernelForm
import proofs.«138489_g81887846466032_cont_9to1c4b_857_5_alg».proof.Proof.RefForm

noncomputable section

open scoped BigOperators

namespace Cert.Gcn

theorem sumsq_nonneg (f : FlowM) (t : Fin 24) : 0 ≤ ∑ i, f t i * f t i :=
  Finset.sum_nonneg (fun i _ => mul_self_nonneg (f t i))

variable (c : ℝ) (f : FlowM)

theorem den_ne_zero (hc : 0 < c) (t : Fin 24) : den c f t ≠ 0 :=
  ne_of_gt (den_pos c f hc t)

theorem kdeg_pos (hc : 0 < c) (hf : ∀ t i, 0 < f t i) (j : Fin 1024) : 0 < kdeg c f j := by
  rw [kdeg_eq]
  exact deg_pos c f hc hf j

end Cert.Gcn

end
-- ==== Proof.LibIdealReal.lean ====
import Idealize.ShloMosaic.PureOps.Ideal
import Idealize.ShloMosaic.PureOps.Ideal.Laws
import Idealize.ShloMosaic.Lib.IdealHost
import Mathlib.Data.EReal.Basic
import Mathlib.Data.EReal.Operations
import Mathlib.Data.EReal.Inv

noncomputable section

open scoped BigOperators

namespace Cert.LibIdealReal

open Idealize.ShloMosaic

theorem coe_mul (a b : ℝ) : (a : EReal) * (b : EReal) = ((a * b : ℝ) : EReal) := (EReal.coe_mul a b).symm

theorem coe_add (a b : ℝ) : (a : EReal) + (b : EReal) = ((a + b : ℝ) : EReal) := (EReal.coe_add a b).symm

theorem coe_max (a b : ℝ) : max (a : EReal) (b : EReal) = ((max a b : ℝ) : EReal) :=
  (EReal.coe_strictMono.monotone.map_max (a := a) (b := b)).symm

theorem div_coe_coe (a : ℝ) {b : ℝ} (hb : b ≠ 0) : Ideal.div (a : EReal) (b : EReal) = ((a / b : ℝ) : EReal) := by
  rw [Ideal.div_coe hb, ← EReal.coe_mul, mul_one_div]

theorem sqrt_coe_of_nonneg {a : ℝ} (ha : 0 ≤ a) : Ideal.sqrt (a : EReal) = ((Real.sqrt a : ℝ) : EReal) := by
  rw [Ideal.sqrt_coe, if_neg (not_lt.mpr ha)]

theorem rsqrt_coe_of_pos {a : ℝ} (ha : 0 < a) : Ideal.rsqrt (a : EReal) = (((Real.sqrt a)⁻¹ : ℝ) : EReal) := by
  rw [Ideal.rsqrt_coe, if_neg (not_lt.mpr ha.le), if_neg ha.ne']

theorem cmp_une_iff (x y : EReal) : Ideal.cmp .une x y = 1#1 ↔ x ≠ y := by
  unfold Ideal.cmp
  by_cases h : x = y <;> simp [h]

theorem cmp_une_coe (a b : ℝ) : Ideal.cmp .une (a : EReal) (b : EReal) = 1#1 ↔ a ≠ b := by
  rw [cmp_une_iff, Ne, EReal.coe_eq_coe_iff]

theorem cmp_ogt_coe_eq (a b : ℝ) : Ideal.cmp .ogt (a : EReal) (b : EReal) = if b < a then 1#1 else 0#1 := by
  unfold Ideal.cmp
  by_cases h : b < a <;> simp [h]

section Apply

variable {s : Shape} {φ : FTy}

theorem sqrt_apply (x : FVec Ideal s φ) (i : s.Idx) : Idealize.ShloMosaic.sqrt x i = Ideal.sqrt (x i) := rfl

theorem rsqrt_apply (x : FVec Ideal s φ) (i : s.Idx) : Idealize.ShloMosaic.rsqrt x i = Ideal.rsqrt (x i) := rfl

theorem hostSqrt_apply (x : FVec Ideal s φ) (i : s.Idx) : Host.sqrt x i = Ideal.sqrt (x i) := rfl

theorem cmpf_apply (p : CmpFPredicate) (x y : FVec Ideal s φ) (i : s.Idx) :
    cmpf p x y i = Ideal.cmp p (x i) (y i) := rfl

end Apply

def cval : ℝ := 9223372 / 2 ^ 63

theorem cval_pos : 0 < cval := by unfold cval; positivity

theorem ofBits_c : Ideal.ofBits .f32 0x2B8CBCCC#32 = (cval : EReal) := by
  simp [Ideal.ofBits, Ideal.ieee, -EReal.coe_mul, cval]; norm_num

theorem ofBits_one : Ideal.ofBits .f32 0x3F800000#32 = ((1 : ℝ) : EReal) := by
  rw [Ideal.ofBits_one_f32, EReal.coe_one]

theorem ofBits_zero : Ideal.ofBits .f32 0x00000000#32 = ((0 : ℝ) : EReal) := by
  rw [Ideal.ofBits_zero_f32, EReal.coe_zero]

theorem scalar_ofBits_c : Scalar.ofBits (F := Ideal) .f32 0x2B8CBCCC#32 = (cval : EReal) := ofBits_c

theorem scalar_ofBits_one : Scalar.ofBits (F := Ideal) .f32 0x3F800000#32 = ((1 : ℝ) : EReal) := ofBits_one

theorem scalar_ofBits_zero : Scalar.ofBits (F := Ideal) .f32 0x00000000#32 = ((0 : ℝ) : EReal) := ofBits_zero

theorem constant_c_apply (s : Shape) (i : s.Idx) : constant (F := Ideal) s .f32 0x2B8CBCCC#32 i = (cval : EReal) :=
  ofBits_c

theorem constant_zero_apply (s : Shape) (i : s.Idx) :
    constant (F := Ideal) s .f32 0x00000000#32 i = ((0 : ℝ) : EReal) := ofBits_zero

theorem coe_finset_sum {ι : Type*} (s : Finset ι) (g : ι → ℝ) :
    ∑ i ∈ s, ((g i : ℝ) : EReal) = ((∑ i ∈ s, g i : ℝ) : EReal) := by
  classical
  induction s using Finset.induction_on with
  | empty => simp
  | insert a s ha ih => rw [Finset.sum_insert ha, Finset.sum_insert ha, ih, EReal.coe_add]

theorem coe_sum {ι : Type*} [Fintype ι] (g : ι → ℝ) : ∑ i, ((g i : ℝ) : EReal) = ((∑ i, g i : ℝ) : EReal) :=
  coe_finset_sum Finset.univ g

theorem eq_coe_toReal {x : EReal} (ht : x ≠ ⊤) (hb : x ≠ ⊥) : x = ((x.toReal : ℝ) : EReal) :=
  (EReal.coe_toReal ht hb).symm

end Cert.LibIdealReal

end
-- ==== Proof.Assembly.lean ====
import proofs.«138489_g81887846466032_cont_9to1c4b_857_5_alg».proof.Defs
import proofs.«138489_g81887846466032_cont_9to1c4b_857_5_alg».proof.Proof.Gen.Kernel.Frame
import proofs.«138489_g81887846466032_cont_9to1c4b_857_5_alg».proof.Proof.Gen.KernelIdeal.Frame
import proofs.«138489_g81887846466032_cont_9to1c4b_857_5_alg».proof.Proof.Gen.ReferenceIdeal
import proofs.«138489_g81887846466032_cont_9to1c4b_857_5_alg».proof.Proof.Gen.Pre_finite_inputs
import proofs.«138489_g81887846466032_cont_9to1c4b_857_5_alg».proof.Proof.KernelForm
import proofs.«138489_g81887846466032_cont_9to1c4b_857_5_alg».proof.Proof.RefForm
import proofs.«138489_g81887846466032_cont_9to1c4b_857_5_alg».proof.Proof.FormFacts
import proofs.«138489_g81887846466032_cont_9to1c4b_857_5_alg».proof.Proof.LibIdealReal
import Idealize.ShloMosaic.Lib.ValueIdx

noncomputable section
open Idealize.ShloMosaic Idealize.SL.Sem Idealize.ShloMosaic.ValueIdx

namespace Cert.Assembly

abbrev A0 : Type := (⟨4, ![2, 24, 32, 32]⟩ : Shape).Idx → EReal
abbrev A1 : Type := (⟨4, ![2, 32, 32, 16]⟩ : Shape).Idx → EReal
abbrev AW : Type := (⟨2, ![16, 16]⟩ : Shape).Idx → EReal
abbrev AB : Type := (⟨1, ![16]⟩ : Shape).Idx → EReal

theorem div32 (n : Fin 1024) : n.val / 32 < 32 := by omega
theorem mod32 (n : Fin 1024) : n.val % 32 < 32 := Nat.mod_lt _ (by decide)
theorem join32 (p q : Fin 32) : p.val * 32 + q.val < 1024 := by omega

def flowR (a0 : A0) (b : Fin 2) : Cert.Gcn.FlowM := fun t i => (a0 (ix4 b t ⟨i.val / 32, div32 i⟩ ⟨i.val % 32, mod32 i⟩)).toReal
def featR (a1 : A1) (b : Fin 2) : Cert.Gcn.FeatM := fun n k => (a1 (ix4 b ⟨n.val / 32, div32 n⟩ ⟨n.val % 32, mod32 n⟩ k)).toReal
def wtR (a : AW) : Cert.Gcn.WtM := fun k e => (a (ix2 k e)).toReal
def biasR (a : AB) : Fin 16 → ℝ := fun e => (a (ix1 e)).toReal

def specOut (a0 : A0) (a1 : A1) (a2 : AW) (a3 : AB) (a4 : AW) (a5 : AB) (a6 : AW) (a7 : AB) : A1 := fun j =>
  ((Cert.Gcn.gcn Cert.LibIdealReal.cval (flowR a0 (j 0)) (featR a1 (j 0)) (wtR a2) (biasR a3) (wtR a4) (biasR a5) (wtR a6) (biasR a7)
      ⟨(j 1).val * 32 + (j 2).val, join32 (j 1) (j 2)⟩ (j 3) : ℝ) : EReal)

structure Fin8 (a0 : A0) (a1 : A1) (a2 : AW) (a3 : AB) (a4 : AW) (a5 : AB) (a6 : AW) (a7 : AB) : Prop where
  h0 : ∀ i, a0 i ≠ ⊤ ∧ a0 i ≠ ⊥ ∧ 0 < a0 i
  h1 : ∀ i, a1 i ≠ ⊤ ∧ a1 i ≠ ⊥
  h2 : ∀ i, a2 i ≠ ⊤ ∧ a2 i ≠ ⊥
  h3 : ∀ i, a3 i ≠ ⊤ ∧ a3 i ≠ ⊥
  h4 : ∀ i, a4 i ≠ ⊤ ∧ a4 i ≠ ⊥
  h5 : ∀ i, a5 i ≠ ⊤ ∧ a5 i ≠ ⊥
  h6 : ∀ i, a6 i ≠ ⊤ ∧ a6 i ≠ ⊥
  h7 : ∀ i, a7 i ≠ ⊤ ∧ a7 i ≠ ⊥

variable {a0 : A0} {a1 : A1} {a2 : AW} {a3 : AB} {a4 : AW} {a5 : AB} {a6 : AW} {a7 : AB}

theorem flow_coe (H : Fin8 a0 a1 a2 a3 a4 a5 a6 a7) (b : Fin 2) (t : Fin 24) (i : Fin 1024) :
    a0 (ix4 b t ⟨i.val / 32, div32 i⟩ ⟨i.val % 32, mod32 i⟩) = ((flowR a0 b t i : ℝ) : EReal) :=
  Cert.LibIdealReal.eq_coe_toReal (H.h0 _).1 (H.h0 _).2.1

theorem flow_pos (H : Fin8 a0 a1 a2 a3 a4 a5 a6 a7) (b : Fin 2) (t : Fin 24) (i : Fin 1024) : 0 < flowR a0 b t i := by
  have h := (H.h0 (ix4 b t ⟨i.val / 32, div32 i⟩ ⟨i.val % 32, mod32 i⟩)).2.2
  rw [flow_coe H b t i] at h
  exact_mod_cast h

theorem feat_coe (H : Fin8 a0 a1 a2 a3 a4 a5 a6 a7) (b : Fin 2) (n : Fin 1024) (k : Fin 16) :
    a1 (ix4 b ⟨n.val / 32, div32 n⟩ ⟨n.val % 32, mod32 n⟩ k) = ((featR a1 b n k : ℝ) : EReal) :=
  Cert.LibIdealReal.eq_coe_toReal (H.h1 _).1 (H.h1 _).2

theorem wt_coe {a : AW} (h : ∀ i, a i ≠ ⊤ ∧ a i ≠ ⊥) (k e : Fin 16) : a (ix2 k e) = ((wtR a k e : ℝ) : EReal) :=
  Cert.LibIdealReal.eq_coe_toReal (h _).1 (h _).2

theorem bias_coe {a : AB} (h : ∀ i, a i ≠ ⊤ ∧ a i ≠ ⊥) (e : Fin 16) : a (ix1 e) = ((biasR a e : ℝ) : EReal) :=
  Cert.LibIdealReal.eq_coe_toReal (h _).1 (h _).2

theorem specOut_node (b : Fin 2) (n : Fin 1024) (e : Fin 16) :
    specOut a0 a1 a2 a3 a4 a5 a6 a7 (ix4 b ⟨n.val / 32, div32 n⟩ ⟨n.val % 32, mod32 n⟩ e)
      = ((Cert.Gcn.gcn Cert.LibIdealReal.cval (flowR a0 b) (featR a1 b) (wtR a2) (biasR a3) (wtR a4) (biasR a5) (wtR a6) (biasR a7) n e : ℝ) : EReal) := by
  unfold specOut
  have hn : (⟨(n.val / 32) * 32 + n.val % 32, join32 ⟨n.val / 32, div32 n⟩ ⟨n.val % 32, mod32 n⟩⟩ : Fin 1024) = n :=
    Fin.ext (by show n.val / 32 * 32 + n.val % 32 = n.val; omega)
  show ((Cert.Gcn.gcn _ _ _ _ _ _ _ _ _ ⟨(n.val / 32) * 32 + n.val % 32, _⟩ e : ℝ) : EReal) = _
  rw [hn]

end Cert.Assembly
end
-- ==== Proof.KernelBlocks.lean ====
import proofs.«138489_g81887846466032_cont_9to1c4b_857_5_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.KValue

open Cert.KernelIdeal Cert.KernelIdeal.Gen Idealize.ShloMosaic Idealize.ShloMosaic.TcCoe Idealize.SL.Sem
open Idealize.ShloMosaic.Pipeline (Dat)
open Idealize.ShloMosaic.ValueIdx

variable {F : FTy → Type} [FloatOps F]
variable (m : (ℓ : Loc nD τ sig) → Buf (Elt F) ℓ) (ρ : Dev nD → PrngReg)

theorem t_lt (t : Fin cfg0.N) : t.val < 2 := by
  have h := t.isLt
  have e : cfg0.N = 2 := N_0
  omega

def pt (b : Fin 2) : Fin cfg0.N := ⟨b.val, by have e : cfg0.N = 2 := N_0; have := b.isLt; omega⟩

theorem div32_lt (n : Fin 1024) : n.val / 32 < 32 := by omega
theorem mod32_lt (n : Fin 1024) : n.val % 32 < 32 := by omega

theorem idx0 : ∀ t : Fin cfg0.N, win0_0.index t (0 : Fin 3) = t.val ∧ win0_0.index t (1 : Fin 3) = 0 ∧ win0_0.index t (2 : Fin 3) = 0 :=
  (by decide +kernel : ∀ t : Fin grid0.N, _)
theorem idx1 : ∀ t : Fin cfg0.N, win0_1.index t (0 : Fin 3) = t.val ∧ win0_1.index t (1 : Fin 3) = 0 ∧ win0_1.index t (2 : Fin 3) = 0 :=
  (by decide +kernel : ∀ t : Fin grid0.N, _)
theorem idx8 : ∀ t : Fin cfg0.N, win0_8.index t (0 : Fin 3) = t.val ∧ win0_8.index t (1 : Fin 3) = 0 ∧ win0_8.index t (2 : Fin 3) = 0 :=
  (by decide +kernel : ∀ t : Fin grid0.N, _)

theorem V_main_v0 (c : Dev nD) :
    V m c main_v0 = fun i => shapeCast S2x24x1024 (m ((c : Thread nD τ).loc main_arg0)) shapeCasts_S2x24x32x32_S2x24x1024 i := by
  show StableHlo.after hostOps0 (fun b => m (c, b)) (Proc.devRef .tc main_v0) = _
  after_results
  rfl

theorem V_main_v1 (c : Dev nD) :
    V m c main_v1 = fun i => shapeCast S2x1024x16 (m ((c : Thread nD τ).loc main_arg1)) shapeCasts_S2x32x32x16_S2x1024x16 i := by
  show StableHlo.after hostOps0 (fun b => m (c, b)) (Proc.devRef .tc main_v1) = _
  after_results
  rfl

theorem V_main_v2 (c : Dev nD) :
    V m c main_v2 = fun i => shapeCast S1x16 (m ((c : Thread nD τ).loc main_arg3)) shapeCasts_S16_S1x16 i := by
  show StableHlo.after hostOps0 (fun b => m (c, b)) (Proc.devRef .tc main_v2) = _
  after_results
  rfl

theorem V_main_v3 (c : Dev nD) :
    V m c main_v3 = fun i => shapeCast S1x16 (m ((c : Thread nD τ).loc main_arg5)) shapeCasts_S16_S1x16 i := by
  show StableHlo.after hostOps0 (fun b => m (c, b)) (Proc.devRef .tc main_v3) = _
  after_results
  rfl

theorem V_main_v4 (c : Dev nD) :
    V m c main_v4 = fun i => shapeCast S1x16 (m ((c : Thread nD τ).loc main_arg7)) shapeCasts_S16_S1x16 i := by
  show StableHlo.after hostOps0 (fun b => m (c, b)) (Proc.devRef .tc main_v4) = _
  after_results
  rfl

theorem iblk0_apply (c : Dev nD) (t : Fin cfg0.N) (tt : Fin 24) (i : Fin 1024) :
    iblk m c 0 t (ix3 (0 : Fin 1) tt i)
      = m ((c : Thread nD τ).loc main_arg0) (ix4 (⟨t.val, t_lt t⟩ : Fin 2) tt (⟨i.val / 32, div32_lt i⟩ : Fin 32) (⟨i.val % 32, mod32_lt i⟩ : Fin 32)) := by
  show V m c main_v0 (((cfg0.win 0).blk t).view.emb (ix3 (0 : Fin 1) tt i)) = _
  rw [V_main_v0]
  obtain ⟨e0, e1, e2⟩ := idx0 t
  refine shapeCast_apply (s := S2x24x32x32) (t := S2x24x1024) _ _ _ _ ?_
  rw [Shape.rowMajor_val_four, Shape.rowMajor_val_three]
  show ((t.val * 24 + tt.val) * 32 + i.val / 32) * 32 + i.val % 32
    = ((win0_0.index t (0 : Fin 3) * 1 + 1 * 0) * 24 + (win0_0.index t (1 : Fin 3) * 24 + 1 * tt.val)) * 1024 + (win0_0.index t (2 : Fin 3) * 1024 + 1 * i.val)
  omega

theorem iblk1_apply (c : Dev nD) (t : Fin cfg0.N) (n : Fin 1024) (k : Fin 16) :
    iblk m c 1 t (ix3 (0 : Fin 1) n k)
      = m ((c : Thread nD τ).loc main_arg1) (ix4 (⟨t.val, t_lt t⟩ : Fin 2) (⟨n.val / 32, div32_lt n⟩ : Fin 32) (⟨n.val % 32, mod32_lt n⟩ : Fin 32) k) := by
  show V m c main_v1 (((cfg0.win 1).blk t).view.emb (ix3 (0 : Fin 1) n k)) = _
  rw [V_main_v1]
  obtain ⟨e0, e1, e2⟩ := idx1 t
  refine shapeCast_apply (s := S2x32x32x16) (t := S2x1024x16) _ _ _ _ ?_
  rw [Shape.rowMajor_val_four, Shape.rowMajor_val_three]
  show ((t.val * 32 + n.val / 32) * 32 + n.val % 32) * 16 + k.val
    = ((win0_1.index t (0 : Fin 3) * 1 + 1 * 0) * 1024 + (win0_1.index t (1 : Fin 3) * 1024 + 1 * n.val)) * 16 + (win0_1.index t (2 : Fin 3) * 16 + 1 * k.val)
  omega

theorem idxW2 : ∀ t : Fin cfg0.N, win0_2.index t (0 : Fin 2) = 0 ∧ win0_2.index t (1 : Fin 2) = 0 :=
  (by decide +kernel : ∀ t : Fin grid0.N, _)
theorem idxW4 : ∀ t : Fin cfg0.N, win0_4.index t (0 : Fin 2) = 0 ∧ win0_4.index t (1 : Fin 2) = 0 :=
  (by decide +kernel : ∀ t : Fin grid0.N, _)
theorem idxW6 : ∀ t : Fin cfg0.N, win0_6.index t (0 : Fin 2) = 0 ∧ win0_6.index t (1 : Fin 2) = 0 :=
  (by decide +kernel : ∀ t : Fin grid0.N, _)
theorem idxB3 : ∀ t : Fin cfg0.N, win0_3.index t (0 : Fin 2) = 0 ∧ win0_3.index t (1 : Fin 2) = 0 :=
  (by decide +kernel : ∀ t : Fin grid0.N, _)
theorem idxB5 : ∀ t : Fin cfg0.N, win0_5.index t (0 : Fin 2) = 0 ∧ win0_5.index t (1 : Fin 2) = 0 :=
  (by decide +kernel : ∀ t : Fin grid0.N, _)
theorem idxB7 : ∀ t : Fin cfg0.N, win0_7.index t (0 : Fin 2) = 0 ∧ win0_7.index t (1 : Fin 2) = 0 :=
  (by decide +kernel : ∀ t : Fin grid0.N, _)

theorem iblk2_apply (c : Dev nD) (t : Fin cfg0.N) (k e : Fin 16) :
    iblk m c 2 t (ix2 k e) = m ((c : Thread nD τ).loc main_arg2) (ix2 k e) := by
  show V m c main_arg2 (((cfg0.win 2).blk t).view.emb (ix2 k e)) = _
  rw [V_main_arg2]
  obtain ⟨e0, e1⟩ := idxW2 t
  refine congrArg (m ((c : Thread nD τ).loc main_arg2)) (funext fun a => Fin.ext ?_)
  match a with
  | ⟨0, _⟩ => show win0_2.index t (0 : Fin 2) * 16 + 1 * k.val = k.val; omega
  | ⟨1, _⟩ => show win0_2.index t (1 : Fin 2) * 16 + 1 * e.val = e.val; omega

theorem iblk4_apply (c : Dev nD) (t : Fin cfg0.N) (k e : Fin 16) :
    iblk m c 4 t (ix2 k e) = m ((c : Thread nD τ).loc main_arg4) (ix2 k e) := by
  show V m c main_arg4 (((cfg0.win 4).blk t).view.emb (ix2 k e)) = _
  rw [V_main_arg4]
  obtain ⟨e0, e1⟩ := idxW4 t
  refine congrArg (m ((c : Thread nD τ).loc main_arg4)) (funext fun a => Fin.ext ?_)
  match a with
  | ⟨0, _⟩ => show win0_4.index t (0 : Fin 2) * 16 + 1 * k.val = k.val; omega
  | ⟨1, _⟩ => show win0_4.index t (1 : Fin 2) * 16 + 1 * e.val = e.val; omega

theorem iblk6_apply (c : Dev nD) (t : Fin cfg0.N) (k e : Fin 16) :
    iblk m c 6 t (ix2 k e) = m ((c : Thread nD τ).loc main_arg6) (ix2 k e) := by
  show V m c main_arg6 (((cfg0.win 6).blk t).view.emb (ix2 k e)) = _
  rw [V_main_arg6]
  obtain ⟨e0, e1⟩ := idxW6 t
  refine congrArg (m ((c : Thread nD τ).loc main_arg6)) (funext fun a => Fin.ext ?_)
  match a with
  | ⟨0, _⟩ => show win0_6.index t (0 : Fin 2) * 16 + 1 * k.val = k.val; omega
  | ⟨1, _⟩ => show win0_6.index t (1 : Fin 2) * 16 + 1 * e.val = e.val; omega

theorem iblk3_apply (c : Dev nD) (t : Fin cfg0.N) (e : Fin 16) :
    iblk m c 3 t (ix2 (0 : Fin 1) e) = m ((c : Thread nD τ).loc main_arg3) (ix1 e) := by
  show V m c main_v2 (((cfg0.win 3).blk t).view.emb (ix2 (0 : Fin 1) e)) = _
  rw [V_main_v2]
  obtain ⟨e0, e1⟩ := idxB3 t
  refine shapeCast_apply (s := S16) (t := S1x16) _ _ _ _ ?_
  rw [Shape.rowMajor_val_one, Shape.rowMajor_val_two]
  show e.val = (win0_3.index t (0 : Fin 2) * 1 + 1 * 0) * 16 + (win0_3.index t (1 : Fin 2) * 16 + 1 * e.val)
  omega

theorem iblk5_apply (c : Dev nD) (t : Fin cfg0.N) (e : Fin 16) :
    iblk m c 5 t (ix2 (0 : Fin 1) e) = m ((c : Thread nD τ).loc main_arg5) (ix1 e) := by
  show V m c main_v3 (((cfg0.win 5).blk t).view.emb (ix2 (0 : Fin 1) e)) = _
  rw [V_main_v3]
  obtain ⟨e0, e1⟩ := idxB5 t
  refine shapeCast_apply (s := S16) (t := S1x16) _ _ _ _ ?_
  rw [Shape.rowMajor_val_one, Shape.rowMajor_val_two]
  show e.val = (win0_5.index t (0 : Fin 2) * 1 + 1 * 0) * 16 + (win0_5.index t (1 : Fin 2) * 16 + 1 * e.val)
  omega

theorem iblk7_apply (c : Dev nD) (t : Fin cfg0.N) (e : Fin 16) :
    iblk m c 7 t (ix2 (0 : Fin 1) e) = m ((c : Thread nD τ).loc main_arg7) (ix1 e) := by
  show V m c main_v4 (((cfg0.win 7).blk t).view.emb (ix2 (0 : Fin 1) e)) = _
  rw [V_main_v4]
  obtain ⟨e0, e1⟩ := idxB7 t
  refine shapeCast_apply (s := S16) (t := S1x16) _ _ _ _ ?_
  rw [Shape.rowMajor_val_one, Shape.rowMajor_val_two]
  show e.val = (win0_7.index t (0 : Fin 2) * 1 + 1 * 0) * 16 + (win0_7.index t (1 : Fin 2) * 16 + 1 * e.val)
  omega

end Cert.KernelIdeal.KValue

end
-- ==== Proof.PreFacts.lean ====
import Idealize.ShloMosaic.Lib.ReduceAll
import Idealize.ShloMosaic.Lib.ValueIdx
import Idealize.ShloMosaic.Lib.IdealHost
import Idealize.ShloMosaic.Lib.KernelVsHost
import Idealize.ShloMosaic.PureOps.Ideal.Laws
import Mathlib.Data.EReal.Basic
import Mathlib.Data.EReal.Operations
import proofs.«138489_g81887846466032_cont_9to1c4b_857_5_alg».proof.Pre_finite_inputs

noncomputable section

namespace Cert.PreFacts

open Idealize.ShloMosaic Idealize.ShloMosaic.ValueIdx
open Cert.Pre_finite_inputs

instance : Subsingleton S_.Idx := ⟨fun a b => funext fun d => d.elim0⟩

theorem of_ofBool_decide {p : Prop} [Decidable p] (h : BitVec.ofBool (decide p) = 1#1) : p := by
  by_contra hn
  rw [decide_eq_false hn] at h
  exact absurd h (by decide)

theorem ne_top_bot_of_abs_lt (x : EReal)
    (h : FloatOps.cmpf .olt (FloatOps.hostAbsf (x : Ideal .f32)) (FloatOps.ofBits (F := Ideal) .f32 0x7F800000#32) = 1#1) :
    x ≠ ⊤ ∧ x ≠ ⊥ := by
  have h' : IntOp.xori (BitVec.ofBool (decide (x = ⊤ ∨ x = ⊥))) 1#1 = 1#1 :=
    (Ideal.xori_weird_eq_hostAbsf_olt_inf x).trans h
  have hn : ¬ (x = ⊤ ∨ x = ⊥) := by
    intro hp
    rw [decide_eq_true hp] at h'
    exact absurd h' (by decide)
  exact ⟨fun e => hn (Or.inl e), fun e => hn (Or.inr e)⟩

theorem andi_at {s : Shape} {w : Nat} (x y : IVec s w) (i : s.Idx) : andi x y i = IntOp.andi (x i) (y i) := rfl

theorem all_finite {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi
          (cmpf .olt (Host.absf a) (broadcastInDim s ![] hb (constant (F := Ideal) S_ .f32 0x7F800000#32)))
          (constantI S_ 1 1#1) hr hu ix0 = 1#1) (i : s.Idx) : a i ≠ ⊤ ∧ a i ≠ ⊥ := by
  have h1 := Host.reduce_andi_all _ _ hr hu ix0 e i
  rw [cmpf_apply, broadcastInDim_scalar_apply] at h1
  exact ne_top_bot_of_abs_lt (a i) h1

theorem all_pos {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi
          (cmpf .ogt a (broadcastInDim s ![] hb (constant (F := Ideal) S_ .f32 0x00000000#32)))
          (constantI S_ 1 1#1) hr hu ix0 = 1#1) (i : s.Idx) : (0 : EReal) < a i := by
  have h1 := Host.reduce_andi_all _ _ hr hu ix0 e i
  rw [cmpf_apply, broadcastInDim_scalar_apply] at h1
  change Ideal.cmp .ogt (a i) (Ideal.ofBits .f32 0x00000000#32) = 1#1 at h1
  rw [Ideal.ofBits_zero_f32] at h1
  exact of_ofBool_decide h1

variable [Facts]

theorem of_pre (a0 : S2x24x32x32.Idx → EReal) (a1 : S2x32x32x16.Idx → EReal)
    (a2 : S16x16.Idx → EReal) (a3 : S16.Idx → EReal) (a4 : S16x16.Idx → EReal) (a5 : S16.Idx → EReal)
    (a6 : S16x16.Idx → EReal) (a7 : S16.Idx → EReal)
    (h : Cert.Pre_finite_inputs.fn (F := Ideal) a0 a1 a2 a3 a4 a5 a6 a7 = (fun _ => 1#1)) :
    (∀ i, a0 i ≠ ⊤ ∧ a0 i ≠ ⊥ ∧ 0 < a0 i) ∧ (∀ i, a1 i ≠ ⊤ ∧ a1 i ≠ ⊥) ∧ (∀ i, a2 i ≠ ⊤ ∧ a2 i ≠ ⊥)
      ∧ (∀ i, a3 i ≠ ⊤ ∧ a3 i ≠ ⊥) ∧ (∀ i, a4 i ≠ ⊤ ∧ a4 i ≠ ⊥) ∧ (∀ i, a5 i ≠ ⊤ ∧ a5 i ≠ ⊥)
      ∧ (∀ i, a6 i ≠ ⊤ ∧ a6 i ≠ ⊥) ∧ (∀ i, a7 i ≠ ⊤ ∧ a7 i ≠ ⊥) := by
  have h0 := congrFun h ix0
  dsimp only [fn, fn_part1, fn_part2] at h0
  simp only [andi_at, IntOp.andi_eq_one] at h0
  obtain ⟨⟨⟨⟨⟨⟨⟨⟨e0, e1⟩, e2⟩, e3⟩, e4⟩, e5⟩, e6⟩, e7⟩, ep⟩ := h0
  exact ⟨fun i => ⟨(all_finite a0 _ _ _ e0 i).1, (all_finite a0 _ _ _ e0 i).2, all_pos a0 _ _ _ ep i⟩,
    all_finite a1 _ _ _ e1, all_finite a2 _ _ _ e2, all_finite a3 _ _ _ e3, all_finite a4 _ _ _ e4,
    all_finite a5 _ _ _ e5, all_finite a6 _ _ _ e6, all_finite a7 _ _ _ e7⟩

end Cert.PreFacts

end
-- ==== Proof.LibRowDot.lean ====
import Idealize.ShloMosaic.Lib.ValueIdx
import Idealize.ShloMosaic.PureOps.Ideal.Laws

noncomputable section

open scoped BigOperators

namespace Cert.LibRowDot

open Idealize.ShloMosaic Idealize.ShloMosaic.ValueIdx

abbrev Mat (n d : ℕ) : Type := (⟨2, ![n, d]⟩ : Shape).Idx → EReal

def rowDot {n d h : ℕ} (a : Mat n d) (w : Mat d h) (r : Fin n) (q : Fin h) : EReal :=
  ∑ k : Fin d, a (ix2 r k) * w (ix2 k q)

section Plain

variable {n d h : ℕ} (D : DotDims ⟨2, ![n, d]⟩ ⟨2, ![d, h]⟩ ⟨2, ![n, h]⟩)

theorem contr_rank (hlc : D.lhsContracting = [1]) : D.contr.rank = 1 := by
  rw [D.rank_contr, hlc]; rfl

theorem contr_size (hlc : D.lhsContracting = [1]) :
    D.contr.size ⟨0, by rw [contr_rank D hlc]; exact Nat.one_pos⟩ = d := by
  have h := D.size_contr 0 (by rw [hlc]; exact Nat.one_pos)
  rw [h]
  simp only [hlc, List.getElem_cons_zero]
  rfl

private theorem coord_congr {m : ℕ} {sz : Fin m → ℕ} (j : (a : Fin m) → Fin (sz a)) :
    ∀ (p q : ℕ) (hp : p < m) (hq : q < m), p = q → (j ⟨p, hp⟩).val = (j ⟨q, hq⟩).val :=
  fun p q hp hq e => by subst e; rfl

theorem lhs_row (hln : D.lhsNonContracting = [0]) (hlb : D.lhsBatch = [])
    (j : (⟨2, ![n, h]⟩ : Shape).Idx) (k : D.contr.Idx) : (D.lhsIdx j k 0).val = (j 0).val := by
  have hb : (0 : Fin (⟨2, ![n, d]⟩ : Shape).rank) ∉ D.lhsBatch := by rw [hlb]; exact List.not_mem_nil
  have hn : (0 : Fin (⟨2, ![n, d]⟩ : Shape).rank) ∈ D.lhsNonContracting := by rw [hln]; exact List.mem_singleton.mpr rfl
  unfold DotDims.lhsIdx
  rw [dif_neg hb, dif_pos hn]
  simp only [Fin.val_cast]
  exact coord_congr j _ _ _ _ (by simp [hlb, hln])

theorem lhs_col (hlc : D.lhsContracting = [1]) (j : (⟨2, ![n, h]⟩ : Shape).Idx) (k : D.contr.Idx) :
    (D.lhsIdx j k 1).val = (k ⟨0, by rw [contr_rank D hlc]; exact Nat.one_pos⟩).val :=
  D.lhsIdx_val_of_single hlc j k

theorem rhs_row (hlc : D.lhsContracting = [1]) (hrc : D.rhsContracting = [0]) (j : (⟨2, ![n, h]⟩ : Shape).Idx)
    (k : D.contr.Idx) : (D.rhsIdx j k 0).val = (k ⟨0, by rw [contr_rank D hlc]; exact Nat.one_pos⟩).val :=
  D.rhsIdx_val_of_single hrc j k

theorem rhs_col (hln : D.lhsNonContracting = [0]) (hrn : D.rhsNonContracting = [1]) (hlb : D.lhsBatch = [])
    (hrb : D.rhsBatch = []) (j : (⟨2, ![n, h]⟩ : Shape).Idx) (k : D.contr.Idx) :
    (D.rhsIdx j k 1).val = (j 1).val := by
  have hb : (1 : Fin (⟨2, ![d, h]⟩ : Shape).rank) ∉ D.rhsBatch := by rw [hrb]; exact List.not_mem_nil
  have hn : (1 : Fin (⟨2, ![d, h]⟩ : Shape).rank) ∈ D.rhsNonContracting := by rw [hrn]; exact List.mem_singleton.mpr rfl
  unfold DotDims.rhsIdx
  rw [dif_neg hb, dif_pos hn]
  simp only [Fin.val_cast]
  exact coord_congr j _ _ _ _ (by simp [hlb, hln, hrn])

-- A product contracted over the left factor's columns, at an index, is the row-by-column sum.
theorem sum_contr_eq_rowDot (hlc : D.lhsContracting = [1]) (hrc : D.rhsContracting = [0])
    (hln : D.lhsNonContracting = [0]) (hrn : D.rhsNonContracting = [1]) (hlb : D.lhsBatch = [])
    (hrb : D.rhsBatch = []) (l : Mat n d) (r : Mat d h) (j : (⟨2, ![n, h]⟩ : Shape).Idx) :
    ∑ k : D.contr.Idx, l (D.lhsIdx j k) * r (D.rhsIdx j k) = rowDot l r (j 0) (j 1) := by
  unfold rowDot
  rw [← Equiv.sum_comp (contrEquiv1 D d (contr_rank D hlc) (contr_size D hlc)).symm]
  refine Finset.sum_congr rfl fun k _ => ?_
  have hk := contrEquiv1_symm_val D d (contr_rank D hlc) (contr_size D hlc) k
  have el : D.lhsIdx j ((contrEquiv1 D d (contr_rank D hlc) (contr_size D hlc)).symm k) = ix2 (j 0) k := by
    funext a; apply Fin.ext
    match a with
    | ⟨0, _⟩ => exact lhs_row D hln hlb _ _
    | ⟨1, _⟩ => exact (lhs_col D hlc _ _).trans hk
  have er : D.rhsIdx j ((contrEquiv1 D d (contr_rank D hlc) (contr_size D hlc)).symm k) = ix2 k (j 1) := by
    funext a; apply Fin.ext
    match a with
    | ⟨0, _⟩ => exact (rhs_row D hlc hrc _ _).trans hk
    | ⟨1, _⟩ => exact rhs_col D hln hrn hlb hrb _ _
  exact congrArg₂ (· * ·) (congrArg l el) (congrArg r er)

theorem matmul_zero_apply (hlc : D.lhsContracting = [1]) (hrc : D.rhsContracting = [0])
    (hln : D.lhsNonContracting = [0]) (hrn : D.rhsNonContracting = [1]) (hlb : D.lhsBatch = [])
    (hrb : D.rhsBatch = []) (prec : Option ContractPrecision) (l : FVec Ideal ⟨2, ![n, d]⟩ .f32)
    (r : FVec Ideal ⟨2, ![d, h]⟩ .f32) (j : (⟨2, ![n, h]⟩ : Shape).Idx) :
    FloatOps.matmul D prec l r (constant ⟨2, ![n, h]⟩ .f32 0x00000000#32) j = rowDot l r (j 0) (j 1) := by
  rw [Ideal.matmul_constant_zero_apply]
  exact sum_contr_eq_rowDot D hlc hrc hln hrn hlb hrb l r j

theorem dotGeneral_apply (hlc : D.lhsContracting = [1]) (hrc : D.rhsContracting = [0])
    (hln : D.lhsNonContracting = [0]) (hrn : D.rhsNonContracting = [1]) (hlb : D.lhsBatch = [])
    (hrb : D.rhsBatch = []) (prec : Option ContractPrecision) (sched : HostSchedule)
    (l : FVec Ideal ⟨2, ![n, d]⟩ .f32) (r : FVec Ideal ⟨2, ![d, h]⟩ .f32) (j : (⟨2, ![n, h]⟩ : Shape).Idx) :
    FloatOps.dotGeneral D prec sched l r j = rowDot l r (j 0) (j 1) := by
  rw [Ideal.dotGeneral_apply]
  exact sum_contr_eq_rowDot D hlc hrc hln hrn hlb hrb l r j

end Plain

end Cert.LibRowDot

end
-- ==== Proof.LibColDot.lean ====
import Idealize.ShloMosaic.Lib.ValueIdx
import Idealize.ShloMosaic.PureOps.Ideal.Laws

noncomputable section

open scoped BigOperators

namespace Cert.LibColDot

open Idealize.ShloMosaic Idealize.ShloMosaic.ValueIdx

abbrev Mat (n d : ℕ) : Type := (⟨2, ![n, d]⟩ : Shape).Idx → EReal

def colDot {d n h : ℕ} (a : Mat d n) (w : Mat d h) (p : Fin n) (q : Fin h) : EReal :=
  ∑ k : Fin d, a (ix2 k p) * w (ix2 k q)

section TransposedLeft

variable {d n h : ℕ} (D : DotDims ⟨2, ![d, n]⟩ ⟨2, ![d, h]⟩ ⟨2, ![n, h]⟩)

theorem contr_rank (hlc : D.lhsContracting = [0]) : D.contr.rank = 1 := by
  rw [D.rank_contr, hlc]; rfl

theorem contr_size (hlc : D.lhsContracting = [0]) :
    D.contr.size ⟨0, by rw [contr_rank D hlc]; exact Nat.one_pos⟩ = d := by
  have h := D.size_contr 0 (by rw [hlc]; exact Nat.one_pos)
  rw [h]
  simp only [hlc, List.getElem_cons_zero]
  rfl

private theorem coord_congr {m : ℕ} {sz : Fin m → ℕ} (j : (a : Fin m) → Fin (sz a)) :
    ∀ (p q : ℕ) (hp : p < m) (hq : q < m), p = q → (j ⟨p, hp⟩).val = (j ⟨q, hq⟩).val :=
  fun p q hp hq e => by subst e; rfl

theorem lhs_row (hlc : D.lhsContracting = [0]) (j : (⟨2, ![n, h]⟩ : Shape).Idx) (k : D.contr.Idx) :
    (D.lhsIdx j k 0).val = (k ⟨0, by rw [contr_rank D hlc]; exact Nat.one_pos⟩).val :=
  D.lhsIdx_val_of_single hlc j k

theorem lhs_col (hln : D.lhsNonContracting = [1]) (hlb : D.lhsBatch = [])
    (j : (⟨2, ![n, h]⟩ : Shape).Idx) (k : D.contr.Idx) : (D.lhsIdx j k 1).val = (j 0).val := by
  have hb : (1 : Fin (⟨2, ![d, n]⟩ : Shape).rank) ∉ D.lhsBatch := by rw [hlb]; exact List.not_mem_nil
  have hn : (1 : Fin (⟨2, ![d, n]⟩ : Shape).rank) ∈ D.lhsNonContracting := by rw [hln]; exact List.mem_singleton.mpr rfl
  unfold DotDims.lhsIdx
  rw [dif_neg hb, dif_pos hn]
  simp only [Fin.val_cast]
  exact coord_congr j _ _ _ _ (by simp [hlb, hln])

theorem rhs_row (hlc : D.lhsContracting = [0]) (hrc : D.rhsContracting = [0]) (j : (⟨2, ![n, h]⟩ : Shape).Idx)
    (k : D.contr.Idx) : (D.rhsIdx j k 0).val = (k ⟨0, by rw [contr_rank D hlc]; exact Nat.one_pos⟩).val :=
  D.rhsIdx_val_of_single hrc j k

theorem rhs_col (hln : D.lhsNonContracting = [1]) (hrn : D.rhsNonContracting = [1]) (hlb : D.lhsBatch = [])
    (hrb : D.rhsBatch = []) (j : (⟨2, ![n, h]⟩ : Shape).Idx) (k : D.contr.Idx) :
    (D.rhsIdx j k 1).val = (j 1).val := by
  have hb : (1 : Fin (⟨2, ![d, h]⟩ : Shape).rank) ∉ D.rhsBatch := by rw [hrb]; exact List.not_mem_nil
  have hn : (1 : Fin (⟨2, ![d, h]⟩ : Shape).rank) ∈ D.rhsNonContracting := by rw [hrn]; exact List.mem_singleton.mpr rfl
  unfold DotDims.rhsIdx
  rw [dif_neg hb, dif_pos hn]
  simp only [Fin.val_cast]
  exact coord_congr j _ _ _ _ (by simp [hlb, hln, hrn])

-- The same for a product contracted over the left factor's rows (a transposed left factor).
theorem sum_contr_eq_colDot (hlc : D.lhsContracting = [0]) (hrc : D.rhsContracting = [0])
    (hln : D.lhsNonContracting = [1]) (hrn : D.rhsNonContracting = [1]) (hlb : D.lhsBatch = [])
    (hrb : D.rhsBatch = []) (l : Mat d n) (r : Mat d h) (j : (⟨2, ![n, h]⟩ : Shape).Idx) :
    ∑ k : D.contr.Idx, l (D.lhsIdx j k) * r (D.rhsIdx j k) = colDot l r (j 0) (j 1) := by
  unfold colDot
  rw [← Equiv.sum_comp (contrEquiv1 D d (contr_rank D hlc) (contr_size D hlc)).symm]
  refine Finset.sum_congr rfl fun k _ => ?_
  have hk := contrEquiv1_symm_val D d (contr_rank D hlc) (contr_size D hlc) k
  have el : D.lhsIdx j ((contrEquiv1 D d (contr_rank D hlc) (contr_size D hlc)).symm k) = ix2 k (j 0) := by
    funext a; apply Fin.ext
    match a with
    | ⟨0, _⟩ => exact (lhs_row D hlc _ _).trans hk
    | ⟨1, _⟩ => exact lhs_col D hln hlb _ _
  have er : D.rhsIdx j ((contrEquiv1 D d (contr_rank D hlc) (contr_size D hlc)).symm k) = ix2 k (j 1) := by
    funext a; apply Fin.ext
    match a with
    | ⟨0, _⟩ => exact (rhs_row D hlc hrc _ _).trans hk
    | ⟨1, _⟩ => exact rhs_col D hln hrn hlb hrb _ _
  exact congrArg₂ (· * ·) (congrArg l el) (congrArg r er)

theorem matmul_zero_apply (hlc : D.lhsContracting = [0]) (hrc : D.rhsContracting = [0])
    (hln : D.lhsNonContracting = [1]) (hrn : D.rhsNonContracting = [1]) (hlb : D.lhsBatch = [])
    (hrb : D.rhsBatch = []) (prec : Option ContractPrecision) (l : FVec Ideal ⟨2, ![d, n]⟩ .f32)
    (r : FVec Ideal ⟨2, ![d, h]⟩ .f32) (j : (⟨2, ![n, h]⟩ : Shape).Idx) :
    FloatOps.matmul D prec l r (constant ⟨2, ![n, h]⟩ .f32 0x00000000#32) j = colDot l r (j 0) (j 1) := by
  rw [Ideal.matmul_constant_zero_apply]
  exact sum_contr_eq_colDot D hlc hrc hln hrn hlb hrb l r j

theorem dotGeneral_apply (hlc : D.lhsContracting = [0]) (hrc : D.rhsContracting = [0])
    (hln : D.lhsNonContracting = [1]) (hrn : D.rhsNonContracting = [1]) (hlb : D.lhsBatch = [])
    (hrb : D.rhsBatch = []) (prec : Option ContractPrecision) (sched : HostSchedule)
    (l : FVec Ideal ⟨2, ![d, n]⟩ .f32) (r : FVec Ideal ⟨2, ![d, h]⟩ .f32) (j : (⟨2, ![n, h]⟩ : Shape).Idx) :
    FloatOps.dotGeneral D prec sched l r j = colDot l r (j 0) (j 1) := by
  rw [Ideal.dotGeneral_apply]
  exact sum_contr_eq_colDot D hlc hrc hln hrn hlb hrb l r j

end TransposedLeft

end Cert.LibColDot

end
-- ==== Proof.KernelPayloadOps.lean ====
import proofs.«138489_g81887846466032_cont_9to1c4b_857_5_alg».proof.Proof.Gen.KernelIdeal
import proofs.«138489_g81887846466032_cont_9to1c4b_857_5_alg».proof.Proof.LibRowDot
import proofs.«138489_g81887846466032_cont_9to1c4b_857_5_alg».proof.Proof.LibColDot
import Idealize.ShloMosaic.Lib.ValueLayout
import Idealize.ShloMosaic.PureOps.Ideal.Laws

noncomputable section

open scoped BigOperators

namespace Cert.KernelIdeal.Payload

open Idealize.ShloMosaic Idealize.ShloMosaic.ValueIdx Cert.KernelIdeal Cert.KernelIdeal.Gen

section Layout
variable {α : Type}

theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

theorem rowSum_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ)
    (t : Fin a) :
    multiReduction (F := Ideal) .add [1] ⟨1, ![a]⟩ src acc h hφ hacc (ix1 t) = ∑ k : Fin b, src (ix2 t k) := by
  refine (Ideal.multiReduction_add_single src acc h hφ hacc (ix1 t)).trans ?_
  refine Finset.sum_congr rfl fun k _ => congrArg src (funext fun c => Fin.ext ?_)
  match c with
  | ⟨0, _⟩ => rfl
  | ⟨1, _⟩ => rfl

theorem matmul_xw_apply (l : FVec Ideal S1024x16 .f32) (r : FVec Ideal S16x16 .f32) (n : Fin 1024) (e : Fin 16) :
    matmul dot_S1024x16_S16x16_S1024x16_1_0_0_1_n_n none l r (constant S1024x16 .f32 0x00000000#32) (ix2 n e)
      = ∑ k : Fin 16, l (ix2 n k) * r (ix2 k e) :=
  Cert.LibRowDot.matmul_zero_apply dot_S1024x16_S16x16_S1024x16_1_0_0_1_n_n rfl rfl rfl rfl rfl rfl none l r (ix2 n e)

theorem matmul_u_apply (l : FVec Ideal S24x1024 .f32) (r : FVec Ideal S1024x16 .f32) (t : Fin 24) (e : Fin 16) :
    matmul dot_S24x1024_S1024x16_S24x16_1_0_0_1_n_n none l r (constant S24x16 .f32 0x00000000#32) (ix2 t e)
      = ∑ j : Fin 1024, l (ix2 t j) * r (ix2 j e) :=
  Cert.LibRowDot.matmul_zero_apply dot_S24x1024_S1024x16_S24x16_1_0_0_1_n_n rfl rfl rfl rfl rfl rfl none l r (ix2 t e)

theorem matmul_y_apply (l : FVec Ideal S24x1024 .f32) (r : FVec Ideal S24x16 .f32) (i : Fin 1024) (e : Fin 16) :
    matmul dot_S24x1024_S24x16_S1024x16_0_0_1_1_n_n none l r (constant S1024x16 .f32 0x00000000#32) (ix2 i e)
      = ∑ t : Fin 24, l (ix2 t i) * r (ix2 t e) :=
  Cert.LibColDot.matmul_zero_apply dot_S24x1024_S24x16_S1024x16_0_0_1_1_n_n rfl rfl rfl rfl rfl rfl none l r (ix2 i e)

theorem matmul_deg_apply (l : FVec Ideal S24x1024 .f32) (r : FVec Ideal S24x1 .f32) (j : Fin 1024) (u : Fin 1) :
    matmul dot_S24x1024_S24x1_S1024x1_0_0_1_1_n_n none l r (constant S1024x1 .f32 0x00000000#32) (ix2 j u)
      = ∑ t : Fin 24, l (ix2 t j) * r (ix2 t u) :=
  Cert.LibColDot.matmul_zero_apply dot_S24x1024_S24x1_S1024x1_0_0_1_1_n_n rfl rfl rfl rfl rfl rfl none l r (ix2 j u)

end Cert.KernelIdeal.Payload

end
-- ==== Proof.KernelPayload.lean ====
import proofs.«138489_g81887846466032_cont_9to1c4b_857_5_alg».proof.Proof.Gen.KernelIdeal.Frame
import proofs.«138489_g81887846466032_cont_9to1c4b_857_5_alg».proof.Proof.KernelPayloadOps
import proofs.«138489_g81887846466032_cont_9to1c4b_857_5_alg».proof.Proof.LibIdealReal
import proofs.«138489_g81887846466032_cont_9to1c4b_857_5_alg».proof.Proof.FormFacts
import Idealize.ShloMosaic.Lib.ValueLayout
import Idealize.ShloMosaic.Lib.Pipeline.Value

noncomputable section

open scoped BigOperators

namespace Cert.KernelIdeal.Payload

open Idealize.ShloMosaic Idealize.ShloMosaic.ValueIdx Cert.KernelIdeal Cert.KernelIdeal.Gen Cert.Gcn
open Cert.LibIdealReal (cval cval_pos coe_mul coe_add coe_max coe_sum div_coe_coe sqrt_coe_of_nonneg rsqrt_coe_of_pos
  scalar_ofBits_c scalar_ofBits_one scalar_ofBits_zero sqrt_apply rsqrt_apply)

def rowsq (v1 : FVec Ideal S24x1024 .f32) : FVec Ideal S24 .f32 :=
  multiReduction .add [1] S24 (mulf v1 v1) 0x00000000#32 reduces_S24x1024_S24 (.inl rfl) rfl

def floorNorm (v1 : FVec Ideal S24x1024 .f32) : FVec Ideal S24x1 .f32 :=
  maximumf (sqrt (shapeCast S24x1 (rowsq v1) shapeCasts_S24_S24x1)) (broadcast S24x1 (Scalar.ofBits .f32 0x2B8CBCCC#32))

def rownorm (v1 : FVec Ideal S24x1024 .f32) : FVec Ideal S24x1024 .f32 :=
  divf v1 (broadcastTo S24x1024 (floorNorm v1) broadcasts_S24x1_S24x1024)

def rowsums (v9 : FVec Ideal S24x1024 .f32) : FVec Ideal S24x1 .f32 :=
  shapeCast S24x1 (multiReduction .add [1] S24 v9 0x00000000#32 reduces_S24x1024_S24 (.inl rfl) rfl) shapeCasts_S24_S24x1

def degInv (v9 : FVec Ideal S24x1024 .f32) : FVec Ideal S1024x1 .f32 :=
  rsqrt (addf (matmul dot_S24x1024_S24x1_S1024x1_0_0_1_1_n_n none v9 (rowsums v9) (constant S1024x1 .f32 0x00000000#32))
    (broadcast S1024x1 (Scalar.ofBits .f32 0x3F800000#32)))

def scaled (xin : FVec Ideal S1024x16 .f32) (w : FVec Ideal S16x16 .f32) (v15 : FVec Ideal S1024x1 .f32) : FVec Ideal S1024x16 .f32 :=
  mulf (matmul dot_S1024x16_S16x16_S1024x16_1_0_0_1_n_n none xin w (constant S1024x16 .f32 0x00000000#32))
    (broadcastTo S1024x16 v15 broadcasts_S1024x1_S1024x16)

def agg (v9 : FVec Ideal S24x1024 .f32) (v15 : FVec Ideal S1024x1 .f32) (v : FVec Ideal S1024x16 .f32) (b : FVec Ideal S1x16 .f32) : FVec Ideal S1024x16 .f32 :=
  maximumf (addf (mulf (addf (matmul dot_S24x1024_S24x16_S1024x16_0_0_1_1_n_n none v9
      (matmul dot_S24x1024_S1024x16_S24x16_1_0_0_1_n_n none v9 v (constant S24x16 .f32 0x00000000#32)) (constant S1024x16 .f32 0x00000000#32)) v)
      (broadcastTo S1024x16 v15 broadcasts_S1024x1_S1024x16))
      (broadcastTo S1024x16 (shapeCast S1x16 b shapeCasts_S1x16_S1x16) broadcasts_S1x16_S1024x16))
    (broadcast S1024x16 (Scalar.ofBits .f32 0x00000000#32))

theorem pay2_eq (v0 : Vec Ideal S1x24x1024 .f32) :
    k0_pay2 (F := Ideal) v0 = rownorm (shapeCast S24x1024 v0 shapeCasts_S1x24x1024_S24x1024) := rfl

theorem pay3_eq (v0 : Vec Ideal S1x24x1024 .f32) : k0_pay3 (F := Ideal) v0 = degInv (k0_pay2 v0) := rfl

theorem pay4_eq (v0 : Vec Ideal S1x24x1024 .f32) (v16 : Vec Ideal S1x1024x16 .f32) (v18 : Vec Ideal S16x16 .f32) (v27 : Vec Ideal S1x16 .f32) (v33 : Vec Ideal S16x16 .f32) :
    k0_pay4 (F := Ideal) v0 v16 v18 v27 v33
      = scaled (agg (k0_pay2 v0) (k0_pay3 v0) (scaled (shapeCast S1024x16 v16 shapeCasts_S1x1024x16_S1024x16) v18 (k0_pay3 v0)) v27) v33 (k0_pay3 v0) := rfl

theorem pay1_eq (v9 : FVec Ideal S24x1024 .f32) (v15 : FVec Ideal S1024x1 .f32) (v36 : FVec Ideal S1024x16 .f32) (v42 : Vec Ideal S1x16 .f32) (v48 : Vec Ideal S16x16 .f32) (v57 : Vec Ideal S1x16 .f32) :
    k0_pay1 (F := Ideal) v9 v15 v36 v42 v48 v57
      = shapeCast S1x1024x16 (agg v9 v15 (scaled (agg v9 v15 v36 v42) v48 v15) v57) shapeCasts_S1024x16_S1x1024x16 := rfl

theorem rowsq_apply (v1 : FVec Ideal S24x1024 .f32) (f : FlowM) (h1 : ∀ t i, v1 (ix2 t i) = ((f t i : ℝ) : EReal)) (t : Fin 24) :
    rowsq v1 (ix1 t) = ((∑ i, f t i * f t i : ℝ) : EReal) := by
  unfold rowsq
  refine (rowSum_apply (mulf v1 v1) _ _ _ _ t).trans ?_
  exact (Finset.sum_congr rfl fun k _ => by rw [mulf_apply, h1, coe_mul]).trans (coe_sum fun k => f t k * f t k)

theorem floorNorm_apply (v1 : FVec Ideal S24x1024 .f32) (f : FlowM) (h1 : ∀ t i, v1 (ix2 t i) = ((f t i : ℝ) : EReal)) (t : Fin 24) (u : Fin 1) :
    floorNorm v1 (ix2 t u) = ((den cval f t : ℝ) : EReal) := by
  show _ = ((max (Real.sqrt (∑ i, f t i * f t i)) cval : ℝ) : EReal)
  unfold floorNorm
  rw [maximumf_apply, broadcast_apply, sqrt_apply, shapeCast_a_a1_apply, rowsq_apply v1 f h1, sqrt_coe_of_nonneg (sumsq_nonneg f t),
    scalar_ofBits_c, coe_max]

theorem rownorm_apply (v1 : FVec Ideal S24x1024 .f32) (f : FlowM) (h1 : ∀ t i, v1 (ix2 t i) = ((f t i : ℝ) : EReal)) (t : Fin 24) (i : Fin 1024) :
    rownorm v1 (ix2 t i) = ((nx cval f t i : ℝ) : EReal) := by
  show _ = ((f t i / den cval f t : ℝ) : EReal)
  unfold rownorm
  rw [divf_apply, broadcastTo_a1_ab_apply, floorNorm_apply v1 f h1, h1, div_coe_coe _ (den_ne_zero cval f cval_pos t)]

theorem rowsums_apply (v9 : FVec Ideal S24x1024 .f32) (f : FlowM)
    (h9 : ∀ t i, v9 (ix2 t i) = ((nx cval f t i : ℝ) : EReal)) (t : Fin 24) (u : Fin 1) :
    rowsums v9 (ix2 t u) = ((kR cval f t : ℝ) : EReal) := by
  unfold rowsums
  exact (shapeCast_a_a1_apply _ _ t u).trans ((rowSum_apply v9 _ _ _ _ t).trans
    ((Finset.sum_congr rfl fun k _ => h9 t k).trans (coe_sum fun k => nx cval f t k)))

theorem degInv_apply (v9 : FVec Ideal S24x1024 .f32) (f : FlowM) (hf : ∀ t i, 0 < f t i)
    (h9 : ∀ t i, v9 (ix2 t i) = ((nx cval f t i : ℝ) : EReal)) (j : Fin 1024) (u : Fin 1) :
    degInv v9 (ix2 j u) = ((kdinv cval f j : ℝ) : EReal) := by
  show _ = (((Real.sqrt (kdeg cval f j))⁻¹ : ℝ) : EReal)
  have hm : ∑ t : Fin 24, v9 (ix2 t j) * rowsums v9 (ix2 t u) = ((∑ t, nx cval f t j * kR cval f t : ℝ) : EReal) :=
    (Finset.sum_congr rfl fun t _ => by rw [h9, rowsums_apply v9 f h9, coe_mul]).trans
      (coe_sum fun t => nx cval f t j * kR cval f t)
  unfold degInv
  rw [rsqrt_apply, addf_apply, broadcast_apply, scalar_ofBits_one, matmul_deg_apply, hm, coe_add]
  exact rsqrt_coe_of_pos (kdeg_pos cval f cval_pos hf j)

theorem scaled_apply (xin : FVec Ideal S1024x16 .f32) (w : FVec Ideal S16x16 .f32) (v15 : FVec Ideal S1024x1 .f32)
    (X : FeatM) (W : WtM) (d : Fin 1024 → ℝ)
    (hx : ∀ n k, xin (ix2 n k) = ((X n k : ℝ) : EReal)) (hw : ∀ k e, w (ix2 k e) = ((W k e : ℝ) : EReal))
    (hd : ∀ n, v15 (ix2 n (0 : Fin 1)) = ((d n : ℝ) : EReal)) (n : Fin 1024) (e : Fin 16) :
    scaled xin w v15 (ix2 n e) = ((xw X W n e * d n : ℝ) : EReal) := by
  have hm : ∑ k : Fin 16, xin (ix2 n k) * w (ix2 k e) = ((xw X W n e : ℝ) : EReal) :=
    (Finset.sum_congr rfl fun k _ => by rw [hx, hw, coe_mul]).trans (coe_sum fun k => X n k * W k e)
  unfold scaled
  rw [mulf_apply, broadcastTo_a1_ab_apply, hd, matmul_xw_apply, hm, coe_mul]

theorem agg_apply (v9 : FVec Ideal S24x1024 .f32) (v15 : FVec Ideal S1024x1 .f32) (v : FVec Ideal S1024x16 .f32) (b : FVec Ideal S1x16 .f32)
    (f : FlowM) (V : FeatM) (B : Fin 16 → ℝ)
    (h9 : ∀ t i, v9 (ix2 t i) = ((nx cval f t i : ℝ) : EReal))
    (hd : ∀ n, v15 (ix2 n (0 : Fin 1)) = ((kdinv cval f n : ℝ) : EReal))
    (hv : ∀ j e, v (ix2 j e) = ((V j e : ℝ) : EReal)) (hb : ∀ e, b (ix2 (0 : Fin 1) e) = ((B e : ℝ) : EReal))
    (n : Fin 1024) (e : Fin 16) :
    agg v9 v15 v b (ix2 n e)
      = ((max ((∑ t, nx cval f t n * ∑ j, nx cval f t j * V j e + V n e) * kdinv cval f n + B e) 0 : ℝ) : EReal) := by
  have hu : ∀ t : Fin 24, matmul dot_S24x1024_S1024x16_S24x16_1_0_0_1_n_n none v9 v (constant S24x16 .f32 0x00000000#32) (ix2 t e)
      = ((∑ j, nx cval f t j * V j e : ℝ) : EReal) := fun t =>
    (matmul_u_apply v9 v t e).trans ((Finset.sum_congr rfl fun j _ => by rw [h9, hv, coe_mul]).trans
      (coe_sum fun j => nx cval f t j * V j e))
  have hy : matmul dot_S24x1024_S24x16_S1024x16_0_0_1_1_n_n none v9
      (matmul dot_S24x1024_S1024x16_S24x16_1_0_0_1_n_n none v9 v (constant S24x16 .f32 0x00000000#32)) (constant S1024x16 .f32 0x00000000#32) (ix2 n e)
      = ((∑ t, nx cval f t n * ∑ j, nx cval f t j * V j e : ℝ) : EReal) :=
    (matmul_y_apply v9 _ n e).trans ((Finset.sum_congr rfl fun t _ => by rw [h9, hu, coe_mul]).trans
      (coe_sum fun t => nx cval f t n * ∑ j, nx cval f t j * V j e))
  unfold agg
  rw [maximumf_apply, addf_apply, mulf_apply, addf_apply, hy, hv, broadcastTo_a1_ab_apply, hd, broadcastTo_1b_ab_apply,
    shapeCast_self, hb, broadcast_apply, scalar_ofBits_zero, coe_add, coe_mul, coe_add, coe_max]

theorem layer_apply (v9 : FVec Ideal S24x1024 .f32) (v15 : FVec Ideal S1024x1 .f32) (xin : FVec Ideal S1024x16 .f32)
    (w : FVec Ideal S16x16 .f32) (b : FVec Ideal S1x16 .f32) (f : FlowM) (X : FeatM) (W : WtM) (B : Fin 16 → ℝ)
    (h9 : ∀ t i, v9 (ix2 t i) = ((nx cval f t i : ℝ) : EReal))
    (hd : ∀ n, v15 (ix2 n (0 : Fin 1)) = ((kdinv cval f n : ℝ) : EReal))
    (hx : ∀ n k, xin (ix2 n k) = ((X n k : ℝ) : EReal)) (hw : ∀ k e, w (ix2 k e) = ((W k e : ℝ) : EReal))
    (hb : ∀ e, b (ix2 (0 : Fin 1) e) = ((B e : ℝ) : EReal)) (n : Fin 1024) (e : Fin 16) :
    agg v9 v15 (scaled xin w v15) b (ix2 n e) = ((klayer cval f X W B n e : ℝ) : EReal) :=
  agg_apply v9 v15 (scaled xin w v15) b f (kv cval f X W) B h9 hd
    (fun j e => scaled_apply xin w v15 X W (kdinv cval f) hx hw hd j e) hb n e

theorem offsets3_zero : (![0, 0, 0] : Fin 3 → Nat) = fun _ => 0 := funext fun a => by fin_cases a <;> rfl

theorem offsets2_zero : (![0, 0] : Fin 2 → Nat) = fun _ => 0 := funext fun a => by fin_cases a <;> rfl

theorem out0_8_eq (x0 : Vec Ideal S1x24x1024 .f32) (x1 : Vec Ideal S1x1024x16 .f32) (x2 : Vec Ideal S16x16 .f32) (x3 : Vec Ideal S1x16 .f32) (x4 : Vec Ideal S16x16 .f32) (x5 : Vec Ideal S1x16 .f32) (x6 : Vec Ideal S16x16 .f32) (x7 : Vec Ideal S1x16 .f32) :
    out0_8 (F := Ideal) x0 x1 x2 x3 x4 x5 x6 x7
      = shapeCast S1x1024x16 (agg (k0_pay2 x0) (k0_pay3 x0) (scaled (agg (k0_pay2 x0) (k0_pay3 x0)
          (scaled (agg (k0_pay2 x0) (k0_pay3 x0) (scaled (shapeCast S1024x16 x1 shapeCasts_S1x1024x16_S1024x16) x2 (k0_pay3 x0)) x3) x4 (k0_pay3 x0))
          x5) x6 (k0_pay3 x0)) x7) shapeCasts_S1024x16_S1x1024x16 := by
  unfold out0_8
  rw [View.canon_unit_zero offsets3_zero]
  simp only [View.ld_unit_zero (S := S1x24x1024) offsets3_zero, View.ld_unit_zero (S := S1x1024x16) offsets3_zero, View.ld_unit_zero (S := S16x16) offsets2_zero,
    View.ld_unit_zero (S := S1x16) offsets2_zero]
  rw [pay1_eq, pay4_eq]

theorem out0_8_apply (x0 : Vec Ideal S1x24x1024 .f32) (x1 : Vec Ideal S1x1024x16 .f32) (x2 : Vec Ideal S16x16 .f32) (x3 : Vec Ideal S1x16 .f32) (x4 : Vec Ideal S16x16 .f32) (x5 : Vec Ideal S1x16 .f32) (x6 : Vec Ideal S16x16 .f32) (x7 : Vec Ideal S1x16 .f32)
    (f : Cert.Gcn.FlowM) (x : Cert.Gcn.FeatM) (W0 W1 W2 : Cert.Gcn.WtM) (b0 b1 b2 : Fin 16 → ℝ)
    (h0 : ∀ t i, x0 (ix3 (0 : Fin 1) t i) = ((f t i : ℝ) : EReal)) (h1 : ∀ n k, x1 (ix3 (0 : Fin 1) n k) = ((x n k : ℝ) : EReal))
    (h2 : ∀ k e, x2 (ix2 k e) = ((W0 k e : ℝ) : EReal)) (h3 : ∀ e, x3 (ix2 (0 : Fin 1) e) = ((b0 e : ℝ) : EReal))
    (h4 : ∀ k e, x4 (ix2 k e) = ((W1 k e : ℝ) : EReal)) (h5 : ∀ e, x5 (ix2 (0 : Fin 1) e) = ((b1 e : ℝ) : EReal))
    (h6 : ∀ k e, x6 (ix2 k e) = ((W2 k e : ℝ) : EReal)) (h7 : ∀ e, x7 (ix2 (0 : Fin 1) e) = ((b2 e : ℝ) : EReal))
    (hf : ∀ t i, 0 < f t i) (n : Fin 1024) (e : Fin 16) :
    Cert.KernelIdeal.Gen.out0_8 (F := Ideal) x0 x1 x2 x3 x4 x5 x6 x7 (ix3 (0 : Fin 1) n e)
      = ((Cert.Gcn.kgcn Cert.LibIdealReal.cval f x W0 b0 W1 b1 W2 b2 n e : ℝ) : EReal) := by
  have h9 : ∀ t i, k0_pay2 (F := Ideal) x0 (ix2 t i) = ((nx cval f t i : ℝ) : EReal) := fun t i =>
    (congrFun (pay2_eq x0) (ix2 t i)).trans
      (rownorm_apply _ f (fun t i => (shapeCast_1ab_ab_apply x0 _ t i).trans (h0 t i)) t i)
  have hd : ∀ n, k0_pay3 (F := Ideal) x0 (ix2 n (0 : Fin 1)) = ((kdinv cval f n : ℝ) : EReal) := fun n =>
    (congrFun (pay3_eq x0) (ix2 n (0 : Fin 1))).trans (degInv_apply _ f hf h9 n 0)
  have hx1 : ∀ n k, shapeCast S1024x16 x1 shapeCasts_S1x1024x16_S1024x16 (ix2 n k) = ((x n k : ℝ) : EReal) := fun n k =>
    (shapeCast_1ab_ab_apply x1 _ n k).trans (h1 n k)
  rw [out0_8_eq]
  refine (shapeCast_ab_1ab_apply _ _ 0 n e).trans ?_
  exact layer_apply _ _ _ x6 x7 f _ W2 b2 h9 hd
    (fun n e => layer_apply _ _ _ x4 x5 f _ W1 b1 h9 hd
      (fun n e => layer_apply _ _ _ x2 x3 f x W0 b0 h9 hd hx1 h2 h3 n e) h4 h5 n e) h6 h7 n e

end Cert.KernelIdeal.Payload

end
-- ==== Proof.AssemblyKernel.lean ====
import proofs.«138489_g81887846466032_cont_9to1c4b_857_5_alg».proof.Proof.Assembly
import proofs.«138489_g81887846466032_cont_9to1c4b_857_5_alg».proof.Proof.KernelBlocks
import proofs.«138489_g81887846466032_cont_9to1c4b_857_5_alg».proof.Proof.PreFacts
import proofs.«138489_g81887846466032_cont_9to1c4b_857_5_alg».proof.Proof.KernelPayload

noncomputable section
open Idealize.ShloMosaic Idealize.SL.Sem Idealize.ShloMosaic.ValueIdx Idealize.ShloMosaic.TcCoe

namespace Cert.Assembly

open Cert.KernelIdeal Cert.KernelIdeal.Gen Cert.KernelIdeal.KValue

theorem fin8_of_pre [Cert.Pre_finite_inputs.Facts] {a0 : A0} {a1 : A1} {a2 : AW} {a3 : AB} {a4 : AW} {a5 : AB} {a6 : AW} {a7 : AB}
    (h : Cert.Pre_finite_inputs.fn (F := Ideal) a0 a1 a2 a3 a4 a5 a6 a7 = (fun _ => 1#1)) : Fin8 a0 a1 a2 a3 a4 a5 a6 a7 := by
  obtain ⟨f0, f1, f2, f3, f4, f5, f6, f7⟩ := Cert.PreFacts.of_pre a0 a1 a2 a3 a4 a5 a6 a7 h
  exact ⟨f0, f1, f2, f3, f4, f5, f6, f7⟩

variable (m : (ℓ : Loc nD τ sig) → Buf (Elt Ideal) ℓ)

-- What the kernel writes at one grid point is the specification's slab for that batch element.
theorem kernel_point (c : Dev nD)
    (H : Fin8 (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)))
    (t : Fin cfg0.N) (n : Fin 1024) (e : Fin 16) :
    out0_8 (F := Ideal) (iblk m c 0 t) (iblk m c 1 t) (iblk m c 2 t) (iblk m c 3 t) (iblk m c 4 t) (iblk m c 5 t) (iblk m c 6 t)
        (iblk m c 7 t) (ix3 (0 : Fin 1) n e)
      = specOut (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7))
          (ix4 (⟨t.val, t_lt t⟩ : Fin 2) (⟨n.val / 32, div32_lt n⟩ : Fin 32) (⟨n.val % 32, mod32_lt n⟩ : Fin 32) e) := by
  rw [specOut_node (⟨t.val, t_lt t⟩ : Fin 2) n e, ← Cert.Gcn.kgcn_eq]
  exact Cert.KernelIdeal.Payload.out0_8_apply _ _ _ _ _ _ _ _ _ _ _ _ _ _ _ _
    (fun tt i => (iblk0_apply m c t tt i).trans (flow_coe H _ tt i))
    (fun nn k => (iblk1_apply m c t nn k).trans (feat_coe H _ nn k))
    (fun k e' => (iblk2_apply m c t k e').trans (wt_coe H.h2 k e'))
    (fun e' => (iblk3_apply m c t e').trans (bias_coe H.h3 e'))
    (fun k e' => (iblk4_apply m c t k e').trans (wt_coe H.h4 k e'))
    (fun e' => (iblk5_apply m c t e').trans (bias_coe H.h5 e'))
    (fun k e' => (iblk6_apply m c t k e').trans (wt_coe H.h6 k e'))
    (fun e' => (iblk7_apply m c t e').trans (bias_coe H.h7 e'))
    (fun tt i => flow_pos H _ tt i) n e

end Cert.Assembly
end
-- ==== Proof.KernelValue.lean ====
import proofs.«138489_g81887846466032_cont_9to1c4b_857_5_alg».proof.Proof.KernelBlocks

noncomputable section

namespace Cert.KernelIdeal.KValue

open Cert.KernelIdeal Cert.KernelIdeal.Gen Idealize.ShloMosaic Idealize.ShloMosaic.TcCoe Idealize.SL.Sem
open Idealize.ShloMosaic.Pipeline (Dat)
open Idealize.ShloMosaic.ValueIdx

section Generic

variable {F : FTy → Type} [FloatOps F]
variable (m : (ℓ : Loc nD τ sig) → Buf (Elt F) ℓ) (ρ : Dev nD → PrngReg)

def kout (c : Dev nD) (t : Fin cfg0.N) : Vec F S1x1024x16 .f32 :=
  out0_8 (iblk m c 0 t) (iblk m c 1 t) (iblk m c 2 t) (iblk m c 3 t) (iblk m c 4 t) (iblk m c 5 t) (iblk m c 6 t) (iblk m c 7 t)

theorem kout_eq (c : Dev nD) (t : Fin cfg0.N) :
    kout m c t = out0_8 (iblk m c 0 t) (iblk m c 1 t) (iblk m c 2 t) (iblk m c 3 t) (iblk m c 4 t) (iblk m c 5 t) (iblk m c 6 t) (iblk m c 7 t) := rfl

def Gout (c : Dev nD) : S2x1024x16.Idx → Elt F .f32 := fun i =>
  kout m c (pt (i 0)) (ix3 (0 : Fin 1) (i 1) (i 2))

theorem Gout_apply (c : Dev nD) (t : Fin cfg0.N) (i : S2x1024x16.Idx) (h : (i 0).val = t.val) :
    Gout m c i = kout m c t (ix3 (0 : Fin 1) (i 1) (i 2)) := by
  have hp : pt (i 0) = t := Fin.ext h
  unfold Gout
  rw [hp]

theorem flushed8_eq (c : Dev nD) (t : Fin cfg0.N) :
    (dats m 0 c).flushed 8 t = ((cfg0.win 8).blk t).view.read (Elt F) (Gout m c) := by
  show (cfg0.win 8).cut (grid0.coords t) ((dats m 0 c).after 8 t) = _
  rw [after0_8, ← kout_eq]
  obtain ⟨e0, e1, e2⟩ := idx8 t
  funext j
  have hj0 : (j 0).val < 1 := (j 0).isLt
  rw [View.read_apply, Gout_apply m c t _ (by show win0_8.index t (0 : Fin 3) * 1 + 1 * (j 0).val = t.val; omega)]
  generalize kout m c t = K
  refine congrArg K (funext fun a => Fin.ext ?_)
  match a with
  | ⟨0, _⟩ => show (j 0).val = 0; omega
  | ⟨1, _⟩ => show (j 1).val = win0_8.index t (1 : Fin 3) * 1024 + 1 * (j 1).val; omega
  | ⟨2, _⟩ => show (j 2).val = win0_8.index t (2 : Fin 3) * 16 + 1 * (j 2).val; omega

theorem mem_blk8 (t : Fin cfg0.N) (i : S2x1024x16.Idx) :
    i ∈ ((cfg0.win 8).blk t).view.set ↔ ∀ a : Fin 3, win0_8.index t a * S1x1024x16.size a ≤ (i a).val ∧ (i a).val < win0_8.index t a * S1x1024x16.size a + S1x1024x16.size a := by
  show i ∈ ((View.whole main_v5).slice (win0_8.rect t)).set ↔ _
  rw [View.set_slice_whole, Rect.mem_set_unit]
  exact Iff.rfl

theorem cover8 (i : S2x1024x16.Idx) :
    ∃ t : Fin cfg0.N, (cfg0.win 8).flush t = true ∧ i ∈ ((cfg0.win 8).blk t).view.set := by
  refine ⟨pt (i 0), flush0_8 _, ?_⟩
  rw [mem_blk8]
  obtain ⟨e0, e1, e2⟩ := idx8 (pt (i 0))
  have h0 : (i 0).val < 2 := (i 0).isLt
  have h1 : (i 1).val < 1024 := (i 1).isLt
  have h2 : (i 2).val < 16 := (i 2).isLt
  have hp : (pt (i 0)).val = (i 0).val := rfl
  intro a
  match a with
  | ⟨0, _⟩ => show win0_8.index (pt (i 0)) (0 : Fin 3) * 1 ≤ (i 0).val ∧ (i 0).val < win0_8.index (pt (i 0)) (0 : Fin 3) * 1 + 1; omega
  | ⟨1, _⟩ => show win0_8.index (pt (i 0)) (1 : Fin 3) * 1024 ≤ (i 1).val ∧ (i 1).val < win0_8.index (pt (i 0)) (1 : Fin 3) * 1024 + 1024; omega
  | ⟨2, _⟩ => show win0_8.index (pt (i 0)) (2 : Fin 3) * 16 ≤ (i 2).val ∧ (i 2).val < win0_8.index (pt (i 0)) (2 : Fin 3) * 16 + 16; omega

theorem final8 (c : Dev nD) : (dats m 0 c).arrAt 8 cfg0.N = Gout m c :=
  (dats m 0 c).arrAt_eq_of_cover 8 (Gout m c) (fun t _ => flushed8_eq m c t) cover8

theorem tail_v6 (c : Dev nD) :
    Pipeline.afterTail₀ cfgs (dats m) 0 (V0 m) [hostOps1] c main_v6
      = fun j => shapeCast S2x32x32x16 (Gout m c) shapeCasts_S2x1024x16_S2x32x32x16 j := by
  have hw : Pipeline.withArrays spec0 c (V0 m c) (fun w => (dats m 0 c).arrAt w cfg0.N) (Proc.devRef .tc main_v5) = Gout m c :=
    (Pipeline.withArrays_arr spec0 launch0.win.arr_inj c _ _ 8).trans (final8 m c)
  unfold Pipeline.afterTail₀
  show StableHlo.after hostOps1 _ (Proc.devRef .tc main_v6) = _
  after_results
  exact funext fun j => congrArg (fun X => shapeCast S2x32x32x16 X shapeCasts_S2x1024x16_S2x32x32x16 j) hw

theorem out_v6_apply (c : Dev nD) (b : Fin 2) (p q : Fin 32) (e : Fin 16) :
    shapeCast S2x32x32x16 (Gout m c) shapeCasts_S2x1024x16_S2x32x32x16 (ix4 b p q e)
      = kout m c (pt b) (ix3 (0 : Fin 1) (⟨p.val * 32 + q.val, by omega⟩ : Fin 1024) e) := by
  refine (shapeCast_apply (s := S2x1024x16) (t := S2x32x32x16) _ _ _ (ix3 b (⟨p.val * 32 + q.val, by omega⟩ : Fin 1024) e) ?_).trans rfl
  rw [Shape.rowMajor_val_three, Shape.rowMajor_val_four]
  show (b.val * 1024 + (p.val * 32 + q.val)) * 16 + e.val = ((b.val * 32 + p.val) * 32 + q.val) * 16 + e.val
  omega

theorem run_out : θ_run defs (onTc (τ := τ) (main (F := F))) ⟨m, fun _ => 0, ρ⟩ (fun r => ∀ c : Dev nD,
      r.2.mem ((c.tc : Thread nD τ).loc main_v6) = (fun j => shapeCast S2x32x32x16 (Gout m c) shapeCasts_S2x1024x16_S2x32x32x16 j)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨((h c).2 main_v6 (Pipeline.mem_restRefs_of main_v6 (by decide) (by decide))).trans (tail_v6 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).1 4).trans (((dats m 0 c).arrAt_in 4 rfl _).trans ((A_eq m c 4).trans (V_main_arg4 m c))),
      ((h c).2 main_arg5 (Pipeline.mem_restRefs_of main_arg5 (by decide) (by decide))).trans (W_main_arg5 m (dats m) c),
      ((h c).1 6).trans (((dats m 0 c).arrAt_in 6 rfl _).trans ((A_eq m c 6).trans (V_main_arg6 m c))),
      ((h c).2 main_arg7 (Pipeline.mem_restRefs_of main_arg7 (by decide) (by decide))).trans (W_main_arg7 m (dats m) c)⟩)
    (run_main m ρ)

end Generic

theorem out_eq_of_blocks (m : (ℓ : Loc nD τ sig) → Buf (Elt Ideal) ℓ) (c : Dev nD) (G : S2x32x32x16.Idx → EReal)
    (hG : ∀ (t : Fin cfg0.N) (n : Fin 1024) (e : Fin 16),
        out0_8 (F := Ideal) (iblk m c 0 t) (iblk m c 1 t) (iblk m c 2 t) (iblk m c 3 t) (iblk m c 4 t) (iblk m c 5 t) (iblk m c 6 t) (iblk m c 7 t) (ix3 (0 : Fin 1) n e)
          = G (ix4 (⟨t.val, t_lt t⟩ : Fin 2) (⟨n.val / 32, div32_lt n⟩ : Fin 32) (⟨n.val % 32, mod32_lt n⟩ : Fin 32) e)) :
    (fun j => shapeCast S2x32x32x16 (Gout m c) shapeCasts_S2x1024x16_S2x32x32x16 j) = G := by
  funext j
  obtain ⟨b, p, q, e, rfl⟩ : ∃ (b : Fin 2) (p q : Fin 32) (e : Fin 16), j = ix4 b p q e := ⟨j 0, j 1, j 2, j 3, eq_ix4 j⟩
  refine (out_v6_apply m c b p q e).trans ((hG (pt b) ⟨p.val * 32 + q.val, by omega⟩ e).trans (congrArg G ?_))
  funext a
  apply Fin.ext
  match a with
  | ⟨0, _⟩ => rfl
  | ⟨1, _⟩ => show (p.val * 32 + q.val) / 32 = p.val; omega
  | ⟨2, _⟩ => show (p.val * 32 + q.val) % 32 = q.val; omega
  | ⟨3, _⟩ => rfl

theorem run (m : (ℓ : Loc nD τ sig) → Buf (Elt Ideal) ℓ) (ρ : Dev nD → PrngReg)
    (G : Dev nD → S2x32x32x16.Idx → EReal)
    (hG : ∀ (c : Dev nD) (t : Fin cfg0.N) (n : Fin 1024) (e : Fin 16),
        out0_8 (F := Ideal) (iblk m c 0 t) (iblk m c 1 t) (iblk m c 2 t) (iblk m c 3 t) (iblk m c 4 t) (iblk m c 5 t) (iblk m c 6 t) (iblk m c 7 t) (ix3 (0 : Fin 1) n e)
          = G c (ix4 (⟨t.val, t_lt t⟩ : Fin 2) (⟨n.val / 32, div32_lt n⟩ : Fin 32) (⟨n.val % 32, mod32_lt n⟩ : Fin 32) e)) :
    θ_run (defs (F := Ideal)) (onTc (τ := τ) (main (F := Ideal))) ⟨m, fun _ => 0, ρ⟩ (fun r => ∀ c : Dev nD,
      r.2.mem ((c.tc : Thread nD τ).loc main_v6) = G c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c).1.trans (out_eq_of_blocks m c (G c) (hG c)), (h c).2⟩) (run_out m ρ)

end Cert.KernelIdeal.KValue

end
-- ==== Proof.RefFn.lean ====
import proofs.«138489_g81887846466032_cont_9to1c4b_857_5_alg».proof.ReferenceIdeal

noncomputable section

namespace Cert.ReferenceIdeal.RefFn

open Idealize.ShloMosaic Idealize.SL.Sem Cert.ReferenceIdeal

variable [Facts]
open Facts₀ Facts

variable {F : FTy → Type} [FloatOps F]

def flow0E (a0 : (⟨S2x24x32x32, .f32⟩ : BufTy).Contents (Elt F)) :
    (⟨S24x1024, .f32⟩ : BufTy).Contents (Elt F) :=
  (shapeCast _ (shapeCast _ (((extractStridedSlice S1x24x32x32 ![0, 0, 0, 0] · slices_S2x24x32x32_S1x24x32x32_0_0_0_0) : (⟨S2x24x32x32, .f32⟩ : BufTy).Contents (Elt F) → (⟨S1x24x32x32, .f32⟩ : BufTy).Contents (Elt F)) a0) shapeCasts_S1x24x32x32_S24x32x32) shapeCasts_S24x32x32_S24x1024)

def edge0E (a1 : (⟨S2x32x32x16, .f32⟩ : BufTy).Contents (Elt F)) :
    (⟨S1024x16, .f32⟩ : BufTy).Contents (Elt F) :=
  (shapeCast _ (shapeCast _ (((extractStridedSlice S1x32x32x16 ![0, 0, 0, 0] · slices_S2x32x32x16_S1x32x32x16_0_0_0_0) : (⟨S2x32x32x16, .f32⟩ : BufTy).Contents (Elt F) → (⟨S1x32x32x16, .f32⟩ : BufTy).Contents (Elt F)) a1) shapeCasts_S1x32x32x16_S32x32x16) shapeCasts_S32x32x16_S1024x16)

def flow1E (a0 : (⟨S2x24x32x32, .f32⟩ : BufTy).Contents (Elt F)) :
    (⟨S24x1024, .f32⟩ : BufTy).Contents (Elt F) :=
  (shapeCast _ (shapeCast _ (((extractStridedSlice S1x24x32x32 ![1, 0, 0, 0] · slices_S2x24x32x32_S1x24x32x32_1_0_0_0) : (⟨S2x24x32x32, .f32⟩ : BufTy).Contents (Elt F) → (⟨S1x24x32x32, .f32⟩ : BufTy).Contents (Elt F)) a0) shapeCasts_S1x24x32x32_S24x32x32) shapeCasts_S24x32x32_S24x1024)

def edge1E (a1 : (⟨S2x32x32x16, .f32⟩ : BufTy).Contents (Elt F)) :
    (⟨S1024x16, .f32⟩ : BufTy).Contents (Elt F) :=
  (shapeCast _ (shapeCast _ (((extractStridedSlice S1x32x32x16 ![1, 0, 0, 0] · slices_S2x32x32x16_S1x32x32x16_1_0_0_0) : (⟨S2x32x32x16, .f32⟩ : BufTy).Contents (Elt F) → (⟨S1x32x32x16, .f32⟩ : BufTy).Contents (Elt F)) a1) shapeCasts_S1x32x32x16_S32x32x16) shapeCasts_S32x32x16_S1024x16)

def nxE (f : (⟨S24x1024, .f32⟩ : BufTy).Contents (Elt F)) :
    (⟨S24x1024, .f32⟩ : BufTy).Contents (Elt F) :=
  ((Host.divf : (⟨S24x1024, .f32⟩ : BufTy).Contents (Elt F) → (⟨S24x1024, .f32⟩ : BufTy).Contents (Elt F) → (⟨S24x1024, .f32⟩ : BufTy).Contents (Elt F)) f ((broadcastInDim S24x1024 ![0, 1] bcast_S24x1_S24x1024_0_1 : (⟨S24x1, .f32⟩ : BufTy).Contents (Elt F) → (⟨S24x1024, .f32⟩ : BufTy).Contents (Elt F)) ((maximumf : (⟨S24x1, .f32⟩ : BufTy).Contents (Elt F) → (⟨S24x1, .f32⟩ : BufTy).Contents (Elt F) → (⟨S24x1, .f32⟩ : BufTy).Contents (Elt F)) (Host.sqrt ((broadcastInDim S24x1 ![0] bcast_S24_S24x1_0) ((fun x v => Host.reduceAdd x v reducesTo_S24x1024_S24_d1 h_S_) (mulf f f) (constant S_ .f32 0x00000000#32)))) ((broadcastInDim S24x1 ![] bcast_S_S24x1 : (⟨S_, .f32⟩ : BufTy).Contents (Elt F) → (⟨S24x1, .f32⟩ : BufTy).Contents (Elt F)) (constant S_ .f32 0x2B8CBCCC#32)))))

def simE (nx : (⟨S24x1024, .f32⟩ : BufTy).Contents (Elt F)) :
    (⟨S1024x1024, .f32⟩ : BufTy).Contents (Elt F) :=
  (((fun l r => Host.dotGeneral dot_S1024x24_S24x1024_S1024x1024_1_0_0_1_n_n none l r) : (⟨S1024x24, .f32⟩ : BufTy).Contents (Elt F) → (⟨S24x1024, .f32⟩ : BufTy).Contents (Elt F) → (⟨S1024x1024, .f32⟩ : BufTy).Contents (Elt F)) (((transpose S1024x24 [1, 0] · transposes_S24x1024_S1024x24_1_0) : (⟨S24x1024, .f32⟩ : BufTy).Contents (Elt F) → (⟨S1024x24, .f32⟩ : BufTy).Contents (Elt F)) nx) nx)

def maskE (sim : (⟨S1024x1024, .f32⟩ : BufTy).Contents (Elt F)) :
    (⟨S1024x1024, .i1⟩ : BufTy).Contents (Elt F) :=
  ((cmpf .une : (⟨S1024x1024, .f32⟩ : BufTy).Contents (Elt F) → (⟨S1024x1024, .f32⟩ : BufTy).Contents (Elt F) → (⟨S1024x1024, .i1⟩ : BufTy).Contents (Elt F)) sim ((broadcastInDim S1024x1024 ![] bcast_S_S1024x1024 : (⟨S_, .f32⟩ : BufTy).Contents (Elt F) → (⟨S1024x1024, .f32⟩ : BufTy).Contents (Elt F)) (constant S_ .f32 0x00000000#32)))

def cntE (mask : (⟨S1024x1024, .i1⟩ : BufTy).Contents (Elt F)) :
    (⟨S1048576, .i32⟩ : BufTy).Contents (Elt F) :=
  ((fun x v => Host.reduceWindow IntOp.addi ![1048576] ![1] ![1048575] ![0] x v reduceWindows_S1048576_S1048576_w1048576s1p1048575_0 h_S_) ((extui 32 · natLt_1_32) (shapeCast _ mask shapeCasts_S1024x1024_S1048576)) ((broadcastInDim S_ ![] bcast_S_S_) (constantI S_ 32 0#32)))

def flatE (cnt : (⟨S1048576, .i32⟩ : BufTy).Contents (Elt F)) :
    (⟨S1048576, .i32⟩ : BufTy).Contents (Elt F) :=
  ((fun x v => Host.reduceWindow IntOp.addi ![1048576] ![1] ![1048575] ![0] x v reduceWindows_S1048576_S1048576_w1048576s1p1048575_0 h_S_) (((fun x i u => Host.scatter scatter_S1048576_S1048576x1_S1048576_n_0_0_1 IntOp.addi x i u) : (⟨S1048576, .i32⟩ : BufTy).Contents (Elt F) → (⟨S1048576x1, .i32⟩ : BufTy).Contents (Elt F) → (⟨S1048576, .i32⟩ : BufTy).Contents (Elt F) → (⟨S1048576, .i32⟩ : BufTy).Contents (Elt F)) ((broadcastInDim S1048576 ![] bcast_S_S1048576 : (⟨S_, .i32⟩ : BufTy).Contents (Elt F) → (⟨S1048576, .i32⟩ : BufTy).Contents (Elt F)) (constantI S_ 32 0#32)) ((broadcastInDim S1048576x1 ![0] bcast_S1048576_S1048576x1_0 : (⟨S1048576, .i32⟩ : BufTy).Contents (Elt F) → (⟨S1048576x1, .i32⟩ : BufTy).Contents (Elt F)) ((select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)) ((cmpi .slt : (⟨S1048576, .i32⟩ : BufTy).Contents (Elt F) → (⟨S1048576, .i32⟩ : BufTy).Contents (Elt F) → (⟨S1048576, .i1⟩ : BufTy).Contents (Elt F)) (maxsi ((broadcastInDim S1048576 ![] bcast_S_S1048576) (id (constantI S_ 32 0#32))) cnt) ((broadcastInDim S1048576 ![] bcast_S_S1048576 : (⟨S_, .i32⟩ : BufTy).Contents (Elt F) → (⟨S1048576, .i32⟩ : BufTy).Contents (Elt F)) (constantI S_ 32 0#32))) ((addi : (⟨S1048576, .i32⟩ : BufTy).Contents (Elt F) → (⟨S1048576, .i32⟩ : BufTy).Contents (Elt F) → (⟨S1048576, .i32⟩ : BufTy).Contents (Elt F)) (maxsi ((broadcastInDim S1048576 ![] bcast_S_S1048576) (id (constantI S_ 32 0#32))) cnt) ((broadcastInDim S1048576 ![] bcast_S_S1048576 : (⟨S_, .i32⟩ : BufTy).Contents (Elt F) → (⟨S1048576, .i32⟩ : BufTy).Contents (Elt F)) (constantI S_ 32 1048576#32))) (maxsi ((broadcastInDim S1048576 ![] bcast_S_S1048576) (id (constantI S_ 32 0#32))) cnt))) ((broadcastInDim S1048576 ![] bcast_S_S1048576 : (⟨S_, .i32⟩ : BufTy).Contents (Elt F) → (⟨S1048576, .i32⟩ : BufTy).Contents (Elt F)) (constantI S_ 32 1#32))) ((broadcastInDim S_ ![] bcast_S_S_) (constantI S_ 32 0#32)))

def floorDivE (x : (⟨S1048576, .i32⟩ : BufTy).Contents (Elt F)) (c : (⟨S_, .i32⟩ : BufTy).Contents (Elt F)) :
    (⟨S1048576, .i32⟩ : BufTy).Contents (Elt F) :=
  (select (andi ((cmpi .ne) (signi x) ((broadcastInDim S1048576 ![] bcast_S_S1048576) (signi c))) ((cmpi .ne) (Host.remsi x ((broadcastInDim S1048576 ![] bcast_S_S1048576) c)) ((broadcastInDim S1048576 ![] bcast_S_S1048576) (constantI S_ 32 0#32)))) (subi (Host.divsi x ((broadcastInDim S1048576 ![] bcast_S_S1048576) c)) ((broadcastInDim S1048576 ![] bcast_S_S1048576) (constantI S_ 32 1#32))) (Host.divsi x ((broadcastInDim S1048576 ![] bcast_S_S1048576) c)))

def remE (x : (⟨S1048576, .i32⟩ : BufTy).Contents (Elt F)) (c : (⟨S_, .i32⟩ : BufTy).Contents (Elt F)) :
    (⟨S1048576, .i32⟩ : BufTy).Contents (Elt F) :=
  (select (andi ((cmpi .ne) ((cmpi .slt) (Host.remsi x ((broadcastInDim S1048576 ![] bcast_S_S1048576) (select ((cmpi .eq) (id c) (constantI S_ 32 0#32)) (constantI S_ 32 1#32) (id c)))) ((broadcastInDim S1048576 ![] bcast_S_S1048576) (constantI S_ 32 0#32))) ((broadcastInDim S1048576 ![] bcast_S_S1048576) ((cmpi .slt) (select ((cmpi .eq) (id c) (constantI S_ 32 0#32)) (constantI S_ 32 1#32) (id c)) (constantI S_ 32 0#32)))) ((cmpi .ne) (Host.remsi x ((broadcastInDim S1048576 ![] bcast_S_S1048576) (select ((cmpi .eq) (id c) (constantI S_ 32 0#32)) (constantI S_ 32 1#32) (id c)))) ((broadcastInDim S1048576 ![] bcast_S_S1048576) (constantI S_ 32 0#32)))) (addi (Host.remsi x ((broadcastInDim S1048576 ![] bcast_S_S1048576) (select ((cmpi .eq) (id c) (constantI S_ 32 0#32)) (constantI S_ 32 1#32) (id c)))) ((broadcastInDim S1048576 ![] bcast_S_S1048576) (select ((cmpi .eq) (id c) (constantI S_ 32 0#32)) (constantI S_ 32 1#32) (id c)))) (Host.remsi x ((broadcastInDim S1048576 ![] bcast_S_S1048576) (select ((cmpi .eq) (id c) (constantI S_ 32 0#32)) (constantI S_ 32 1#32) (id c)))))

def srcOfE (flat : (⟨S1048576, .i32⟩ : BufTy).Contents (Elt F)) :
    (⟨S1048576, .i32⟩ : BufTy).Contents (Elt F) :=
  (select (andi ((cmpi .ne) ((cmpi .slt) (Host.remsi (floorDivE flat (constantI S_ 32 1024#32)) ((broadcastInDim S1048576 ![] bcast_S_S1048576) (select ((cmpi .eq) (id (constantI S_ 32 1024#32)) (constantI S_ 32 0#32)) (constantI S_ 32 1#32) (id (constantI S_ 32 1024#32))))) ((broadcastInDim S1048576 ![] bcast_S_S1048576) (constantI S_ 32 0#32))) ((broadcastInDim S1048576 ![] bcast_S_S1048576) ((cmpi .slt) (select ((cmpi .eq) (id (constantI S_ 32 1024#32)) (constantI S_ 32 0#32)) (constantI S_ 32 1#32) (id (constantI S_ 32 1024#32))) (constantI S_ 32 0#32)))) ((cmpi .ne) (Host.remsi (floorDivE flat (constantI S_ 32 1024#32)) ((broadcastInDim S1048576 ![] bcast_S_S1048576) (select ((cmpi .eq) (id (constantI S_ 32 1024#32)) (constantI S_ 32 0#32)) (constantI S_ 32 1#32) (id (constantI S_ 32 1024#32))))) ((broadcastInDim S1048576 ![] bcast_S_S1048576) (constantI S_ 32 0#32)))) (addi (Host.remsi (floorDivE flat (constantI S_ 32 1024#32)) ((broadcastInDim S1048576 ![] bcast_S_S1048576) (select ((cmpi .eq) (id (constantI S_ 32 1024#32)) (constantI S_ 32 0#32)) (constantI S_ 32 1#32) (id (constantI S_ 32 1024#32))))) ((broadcastInDim S1048576 ![] bcast_S_S1048576) (select ((cmpi .eq) (id (constantI S_ 32 1024#32)) (constantI S_ 32 0#32)) (constantI S_ 32 1#32) (id (constantI S_ 32 1024#32))))) (Host.remsi (floorDivE flat (constantI S_ 32 1024#32)) ((broadcastInDim S1048576 ![] bcast_S_S1048576) (select ((cmpi .eq) (id (constantI S_ 32 1024#32)) (constantI S_ 32 0#32)) (constantI S_ 32 1#32) (id (constantI S_ 32 1024#32))))))

def dstOfE (flat : (⟨S1048576, .i32⟩ : BufTy).Contents (Elt F)) :
    (⟨S1048576, .i32⟩ : BufTy).Contents (Elt F) :=
  (select (andi ((cmpi .ne) ((cmpi .slt) (Host.remsi (floorDivE flat (constantI S_ 32 1#32)) ((broadcastInDim S1048576 ![] bcast_S_S1048576) (select ((cmpi .eq) (id (constantI S_ 32 1024#32)) (constantI S_ 32 0#32)) (constantI S_ 32 1#32) (id (constantI S_ 32 1024#32))))) ((broadcastInDim S1048576 ![] bcast_S_S1048576) (constantI S_ 32 0#32))) ((broadcastInDim S1048576 ![] bcast_S_S1048576) ((cmpi .slt) (select ((cmpi .eq) (id (constantI S_ 32 1024#32)) (constantI S_ 32 0#32)) (constantI S_ 32 1#32) (id (constantI S_ 32 1024#32))) (constantI S_ 32 0#32)))) ((cmpi .ne) (Host.remsi (floorDivE flat (constantI S_ 32 1#32)) ((broadcastInDim S1048576 ![] bcast_S_S1048576) (select ((cmpi .eq) (id (constantI S_ 32 1024#32)) (constantI S_ 32 0#32)) (constantI S_ 32 1#32) (id (constantI S_ 32 1024#32))))) ((broadcastInDim S1048576 ![] bcast_S_S1048576) (constantI S_ 32 0#32)))) (addi (Host.remsi (floorDivE flat (constantI S_ 32 1#32)) ((broadcastInDim S1048576 ![] bcast_S_S1048576) (select ((cmpi .eq) (id (constantI S_ 32 1024#32)) (constantI S_ 32 0#32)) (constantI S_ 32 1#32) (id (constantI S_ 32 1024#32))))) ((broadcastInDim S1048576 ![] bcast_S_S1048576) (select ((cmpi .eq) (id (constantI S_ 32 1024#32)) (constantI S_ 32 0#32)) (constantI S_ 32 1#32) (id (constantI S_ 32 1024#32))))) (Host.remsi (floorDivE flat (constantI S_ 32 1#32)) ((broadcastInDim S1048576 ![] bcast_S_S1048576) (select ((cmpi .eq) (id (constantI S_ 32 1024#32)) (constantI S_ 32 0#32)) (constantI S_ 32 1#32) (id (constantI S_ 32 1024#32))))))

def colE (i : (⟨S1048576, .i32⟩ : BufTy).Contents (Elt F)) :
    (⟨S1048576x1, .i32⟩ : BufTy).Contents (Elt F) :=
  ((broadcastInDim S1048576x1 ![0] bcast_S1048576_S1048576x1_0 : (⟨S1048576, .i32⟩ : BufTy).Contents (Elt F) → (⟨S1048576x1, .i32⟩ : BufTy).Contents (Elt F)) ((select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)) ((cmpi .slt : (⟨S1048576, .i32⟩ : BufTy).Contents (Elt F) → (⟨S1048576, .i32⟩ : BufTy).Contents (Elt F) → (⟨S1048576, .i1⟩ : BufTy).Contents (Elt F)) i ((broadcastInDim S1048576 ![] bcast_S_S1048576 : (⟨S_, .i32⟩ : BufTy).Contents (Elt F) → (⟨S1048576, .i32⟩ : BufTy).Contents (Elt F)) (constantI S_ 32 0#32))) ((addi : (⟨S1048576, .i32⟩ : BufTy).Contents (Elt F) → (⟨S1048576, .i32⟩ : BufTy).Contents (Elt F) → (⟨S1048576, .i32⟩ : BufTy).Contents (Elt F)) i ((broadcastInDim S1048576 ![] bcast_S_S1048576 : (⟨S_, .i32⟩ : BufTy).Contents (Elt F) → (⟨S1048576, .i32⟩ : BufTy).Contents (Elt F)) (constantI S_ 32 1024#32))) i))

def gatherE (sim : (⟨S1024x1024, .f32⟩ : BufTy).Contents (Elt F)) (a : (⟨S1048576x1, .i32⟩ : BufTy).Contents (Elt F)) (b : (⟨S1048576x1, .i32⟩ : BufTy).Contents (Elt F)) :
    (⟨S1048576, .f32⟩ : BufTy).Contents (Elt F) :=
  (((fun x i => Host.gather gather_S1024x1024_S1048576x2_S1048576_n_01_n_n_01_1_11 x i) : (⟨S1024x1024, .f32⟩ : BufTy).Contents (Elt F) → (⟨S1048576x2, .i32⟩ : BufTy).Contents (Elt F) → (⟨S1048576, .f32⟩ : BufTy).Contents (Elt F)) sim (((fun a b => concatenate S1048576x2 1 [⟨S1048576x1, a⟩, ⟨S1048576x1, b⟩] concatenates_S1048576x1_S1048576x1_S1048576x2_d1) : (⟨S1048576x1, .i32⟩ : BufTy).Contents (Elt F) → (⟨S1048576x1, .i32⟩ : BufTy).Contents (Elt F) → (⟨S1048576x2, .i32⟩ : BufTy).Contents (Elt F)) a b))

def loopIdxE (i : (⟨S1048576, .i32⟩ : BufTy).Contents (Elt F)) :
    (⟨S1049600, .i32⟩ : BufTy).Contents (Elt F) :=
  (((fun a b => concatenate S1049600 0 [⟨S1048576, a⟩, ⟨S1024, b⟩] concatenates_S1048576_S1024_S1049600_d0) : (⟨S1048576, .i32⟩ : BufTy).Contents (Elt F) → (⟨S1024, .i32⟩ : BufTy).Contents (Elt F) → (⟨S1049600, .i32⟩ : BufTy).Contents (Elt F)) i (iotaInDim S1024 32 0))

def loopWE (ew : (⟨S1048576, .f32⟩ : BufTy).Contents (Elt F)) :
    (⟨S1049600, .f32⟩ : BufTy).Contents (Elt F) :=
  (((fun a b => concatenate S1049600 0 [⟨S1048576, a⟩, ⟨S1024, b⟩] concatenates_S1048576_S1024_S1049600_d0) : (⟨S1048576, .f32⟩ : BufTy).Contents (Elt F) → (⟨S1024, .f32⟩ : BufTy).Contents (Elt F) → (⟨S1049600, .f32⟩ : BufTy).Contents (Elt F)) ew ((broadcastInDim S1024 ![] bcast_S_S1024 : (⟨S_, .f32⟩ : BufTy).Contents (Elt F) → (⟨S1024, .f32⟩ : BufTy).Contents (Elt F)) (constant S_ .f32 0x3F800000#32)))

def wrapE (i : (⟨S1049600, .i32⟩ : BufTy).Contents (Elt F)) :
    (⟨S1049600, .i32⟩ : BufTy).Contents (Elt F) :=
  ((select : (⟨S1049600, .i1⟩ : BufTy).Contents (Elt F) → (⟨S1049600, .i32⟩ : BufTy).Contents (Elt F) → (⟨S1049600, .i32⟩ : BufTy).Contents (Elt F) → (⟨S1049600, .i32⟩ : BufTy).Contents (Elt F)) ((cmpi .slt : (⟨S1049600, .i32⟩ : BufTy).Contents (Elt F) → (⟨S1049600, .i32⟩ : BufTy).Contents (Elt F) → (⟨S1049600, .i1⟩ : BufTy).Contents (Elt F)) i ((broadcastInDim S1049600 ![] bcast_S_S1049600 : (⟨S_, .i32⟩ : BufTy).Contents (Elt F) → (⟨S1049600, .i32⟩ : BufTy).Contents (Elt F)) (constantI S_ 32 0#32))) ((addi : (⟨S1049600, .i32⟩ : BufTy).Contents (Elt F) → (⟨S1049600, .i32⟩ : BufTy).Contents (Elt F) → (⟨S1049600, .i32⟩ : BufTy).Contents (Elt F)) i ((broadcastInDim S1049600 ![] bcast_S_S1049600 : (⟨S_, .i32⟩ : BufTy).Contents (Elt F) → (⟨S1049600, .i32⟩ : BufTy).Contents (Elt F)) (constantI S_ 32 1024#32))) i)

def degE (d : (⟨S1049600, .i32⟩ : BufTy).Contents (Elt F)) (w : (⟨S1049600, .f32⟩ : BufTy).Contents (Elt F)) :
    (⟨S1024, .f32⟩ : BufTy).Contents (Elt F) :=
  (((fun x i u => Host.scatterAdd scatter_S1024_S1049600x1_S1049600_n_0_0_1 x i u) : (⟨S1024, .f32⟩ : BufTy).Contents (Elt F) → (⟨S1049600x1, .i32⟩ : BufTy).Contents (Elt F) → (⟨S1049600, .f32⟩ : BufTy).Contents (Elt F) → (⟨S1024, .f32⟩ : BufTy).Contents (Elt F)) ((broadcastInDim S1024 ![] bcast_S_S1024 : (⟨S_, .f32⟩ : BufTy).Contents (Elt F) → (⟨S1024, .f32⟩ : BufTy).Contents (Elt F)) (constant S_ .f32 0x00000000#32)) ((broadcastInDim S1049600x1 ![0] bcast_S1049600_S1049600x1_0 : (⟨S1049600, .i32⟩ : BufTy).Contents (Elt F) → (⟨S1049600x1, .i32⟩ : BufTy).Contents (Elt F)) (wrapE d)) w)

def dinvE (deg : (⟨S1024, .f32⟩ : BufTy).Contents (Elt F)) :
    (⟨S1024, .f32⟩ : BufTy).Contents (Elt F) :=
  (select ((cmpf .ogt : (⟨S1024, .f32⟩ : BufTy).Contents (Elt F) → (⟨S1024, .f32⟩ : BufTy).Contents (Elt F) → (⟨S1024, .i1⟩ : BufTy).Contents (Elt F)) deg ((broadcastInDim S1024 ![] bcast_S_S1024 : (⟨S_, .f32⟩ : BufTy).Contents (Elt F) → (⟨S1024, .f32⟩ : BufTy).Contents (Elt F)) (constant S_ .f32 0x00000000#32))) ((Host.rsqrt : (⟨S1024, .f32⟩ : BufTy).Contents (Elt F) → (⟨S1024, .f32⟩ : BufTy).Contents (Elt F)) deg) ((broadcastInDim S1024 ![] bcast_S_S1024) (id (constant S_ .f32 0x00000000#32))))

def normE (s : (⟨S1049600, .i32⟩ : BufTy).Contents (Elt F)) (d : (⟨S1049600, .i32⟩ : BufTy).Contents (Elt F)) (w : (⟨S1049600, .f32⟩ : BufTy).Contents (Elt F)) (dinv : (⟨S1024, .f32⟩ : BufTy).Contents (Elt F)) :
    (⟨S1049600, .f32⟩ : BufTy).Contents (Elt F) :=
  ((mulf : (⟨S1049600, .f32⟩ : BufTy).Contents (Elt F) → (⟨S1049600, .f32⟩ : BufTy).Contents (Elt F) → (⟨S1049600, .f32⟩ : BufTy).Contents (Elt F)) ((mulf : (⟨S1049600, .f32⟩ : BufTy).Contents (Elt F) → (⟨S1049600, .f32⟩ : BufTy).Contents (Elt F) → (⟨S1049600, .f32⟩ : BufTy).Contents (Elt F)) (((fun x i => Host.gather gather_S1024_S1049600x1_S1049600_n_0_n_n_0_1_1 x i) : (⟨S1024, .f32⟩ : BufTy).Contents (Elt F) → (⟨S1049600x1, .i32⟩ : BufTy).Contents (Elt F) → (⟨S1049600, .f32⟩ : BufTy).Contents (Elt F)) dinv ((broadcastInDim S1049600x1 ![0] bcast_S1049600_S1049600x1_0 : (⟨S1049600, .i32⟩ : BufTy).Contents (Elt F) → (⟨S1049600x1, .i32⟩ : BufTy).Contents (Elt F)) (wrapE s))) w) (((fun x i => Host.gather gather_S1024_S1049600x1_S1049600_n_0_n_n_0_1_1 x i) : (⟨S1024, .f32⟩ : BufTy).Contents (Elt F) → (⟨S1049600x1, .i32⟩ : BufTy).Contents (Elt F) → (⟨S1049600, .f32⟩ : BufTy).Contents (Elt F)) dinv ((broadcastInDim S1049600x1 ![0] bcast_S1049600_S1049600x1_0 : (⟨S1049600, .i32⟩ : BufTy).Contents (Elt F) → (⟨S1049600x1, .i32⟩ : BufTy).Contents (Elt F)) (wrapE d))))

def xwE (x : (⟨S1024x16, .f32⟩ : BufTy).Contents (Elt F)) (W : (⟨S16x16, .f32⟩ : BufTy).Contents (Elt F)) :
    (⟨S1024x16, .f32⟩ : BufTy).Contents (Elt F) :=
  (((fun l r => Host.dotGeneral dot_S1024x16_S16x16_S1024x16_1_0_0_1_n_n none l r) : (⟨S1024x16, .f32⟩ : BufTy).Contents (Elt F) → (⟨S16x16, .f32⟩ : BufTy).Contents (Elt F) → (⟨S1024x16, .f32⟩ : BufTy).Contents (Elt F)) x W)

def msgE (xw : (⟨S1024x16, .f32⟩ : BufTy).Contents (Elt F)) (s : (⟨S1049600, .i32⟩ : BufTy).Contents (Elt F)) (norm : (⟨S1049600, .f32⟩ : BufTy).Contents (Elt F)) :
    (⟨S1049600x16, .f32⟩ : BufTy).Contents (Elt F) :=
  ((mulf : (⟨S1049600x16, .f32⟩ : BufTy).Contents (Elt F) → (⟨S1049600x16, .f32⟩ : BufTy).Contents (Elt F) → (⟨S1049600x16, .f32⟩ : BufTy).Contents (Elt F)) (((fun x i => Host.gather gather_S1024x16_S1049600x1_S1049600x16_1_0_n_n_0_1_116 x i) : (⟨S1024x16, .f32⟩ : BufTy).Contents (Elt F) → (⟨S1049600x1, .i32⟩ : BufTy).Contents (Elt F) → (⟨S1049600x16, .f32⟩ : BufTy).Contents (Elt F)) xw ((broadcastInDim S1049600x1 ![0] bcast_S1049600_S1049600x1_0 : (⟨S1049600, .i32⟩ : BufTy).Contents (Elt F) → (⟨S1049600x1, .i32⟩ : BufTy).Contents (Elt F)) (wrapE s))) ((broadcastInDim S1049600x16 ![0, 1] bcast_S1049600x1_S1049600x16_0_1 : (⟨S1049600x1, .f32⟩ : BufTy).Contents (Elt F) → (⟨S1049600x16, .f32⟩ : BufTy).Contents (Elt F)) ((broadcastInDim S1049600x1 ![0] bcast_S1049600_S1049600x1_0 : (⟨S1049600, .f32⟩ : BufTy).Contents (Elt F) → (⟨S1049600x1, .f32⟩ : BufTy).Contents (Elt F)) norm)))

def aggE (d : (⟨S1049600, .i32⟩ : BufTy).Contents (Elt F)) (msg : (⟨S1049600x16, .f32⟩ : BufTy).Contents (Elt F)) :
    (⟨S1024x16, .f32⟩ : BufTy).Contents (Elt F) :=
  (((fun x i u => Host.scatterAdd scatter_S1024x16_S1049600x1_S1049600x16_1_0_0_1 x i u) : (⟨S1024x16, .f32⟩ : BufTy).Contents (Elt F) → (⟨S1049600x1, .i32⟩ : BufTy).Contents (Elt F) → (⟨S1049600x16, .f32⟩ : BufTy).Contents (Elt F) → (⟨S1024x16, .f32⟩ : BufTy).Contents (Elt F)) ((broadcastInDim S1024x16 ![] bcast_S_S1024x16 : (⟨S_, .f32⟩ : BufTy).Contents (Elt F) → (⟨S1024x16, .f32⟩ : BufTy).Contents (Elt F)) (constant S_ .f32 0x00000000#32)) ((broadcastInDim S1049600x1 ![0] bcast_S1049600_S1049600x1_0 : (⟨S1049600, .i32⟩ : BufTy).Contents (Elt F) → (⟨S1049600x1, .i32⟩ : BufTy).Contents (Elt F)) (wrapE d)) msg)

def layerMainE (s : (⟨S1049600, .i32⟩ : BufTy).Contents (Elt F)) (d : (⟨S1049600, .i32⟩ : BufTy).Contents (Elt F)) (w : (⟨S1049600, .f32⟩ : BufTy).Contents (Elt F)) (x : (⟨S1024x16, .f32⟩ : BufTy).Contents (Elt F)) (W : (⟨S16x16, .f32⟩ : BufTy).Contents (Elt F)) (b : (⟨S16, .f32⟩ : BufTy).Contents (Elt F)) :
    (⟨S1024x16, .f32⟩ : BufTy).Contents (Elt F) :=
  (maximumf ((addf : (⟨S1024x16, .f32⟩ : BufTy).Contents (Elt F) → (⟨S1024x16, .f32⟩ : BufTy).Contents (Elt F) → (⟨S1024x16, .f32⟩ : BufTy).Contents (Elt F)) (aggE d (msgE (xwE x W) s (normE s d w (dinvE (degE d w))))) ((broadcastInDim S1024x16 ![0, 1] bcast_S1x16_S1024x16_0_1 : (⟨S1x16, .f32⟩ : BufTy).Contents (Elt F) → (⟨S1024x16, .f32⟩ : BufTy).Contents (Elt F)) ((broadcastInDim S1x16 ![1] bcast_S16_S1x16_1 : (⟨S16, .f32⟩ : BufTy).Contents (Elt F) → (⟨S1x16, .f32⟩ : BufTy).Contents (Elt F)) b))) ((broadcastInDim S1024x16 ![] bcast_S_S1024x16) (constant S_ .f32 0x00000000#32)))

def packE (x : (⟨S1024x16, .f32⟩ : BufTy).Contents (Elt F)) :
    (⟨S1x32x32x16, .f32⟩ : BufTy).Contents (Elt F) :=
  (shapeCast _ x shapeCasts_S1024x16_S1x32x32x16)

def catE (p : (⟨S1x32x32x16, .f32⟩ : BufTy).Contents (Elt F)) (q : (⟨S1x32x32x16, .f32⟩ : BufTy).Contents (Elt F)) :
    (⟨S2x32x32x16, .f32⟩ : BufTy).Contents (Elt F) :=
  (((fun a b => concatenate S2x32x32x16 0 [⟨S1x32x32x16, a⟩, ⟨S1x32x32x16, b⟩] concatenates_S1x32x32x16_S1x32x32x16_S2x32x32x16_d0) : (⟨S1x32x32x16, .f32⟩ : BufTy).Contents (Elt F) → (⟨S1x32x32x16, .f32⟩ : BufTy).Contents (Elt F) → (⟨S2x32x32x16, .f32⟩ : BufTy).Contents (Elt F)) p q)

def srcE (mask : (⟨S1024x1024, .i1⟩ : BufTy).Contents (Elt F)) :
    (⟨S1048576, .i32⟩ : BufTy).Contents (Elt F) :=
  srcOfE (flatE (cntE mask))

def dstE (mask : (⟨S1024x1024, .i1⟩ : BufTy).Contents (Elt F)) :
    (⟨S1048576, .i32⟩ : BufTy).Contents (Elt F) :=
  dstOfE (flatE (cntE mask))

def ewE (sim : (⟨S1024x1024, .f32⟩ : BufTy).Contents (Elt F)) (src dst : (⟨S1048576, .i32⟩ : BufTy).Contents (Elt F)) :
    (⟨S1048576, .f32⟩ : BufTy).Contents (Elt F) :=
  gatherE sim (colE src) (colE dst)

def layerE (src dst : (⟨S1048576, .i32⟩ : BufTy).Contents (Elt F)) (ew : (⟨S1048576, .f32⟩ : BufTy).Contents (Elt F)) (x : (⟨S1024x16, .f32⟩ : BufTy).Contents (Elt F)) (W : (⟨S16x16, .f32⟩ : BufTy).Contents (Elt F)) (b : (⟨S16, .f32⟩ : BufTy).Contents (Elt F)) :
    (⟨S1024x16, .f32⟩ : BufTy).Contents (Elt F) :=
  layerMainE (loopIdxE src) (loopIdxE dst) (loopWE ew) x W b

def batchE (f : (⟨S24x1024, .f32⟩ : BufTy).Contents (Elt F)) (x : (⟨S1024x16, .f32⟩ : BufTy).Contents (Elt F)) (W0 : (⟨S16x16, .f32⟩ : BufTy).Contents (Elt F)) (b0 : (⟨S16, .f32⟩ : BufTy).Contents (Elt F)) (W1 : (⟨S16x16, .f32⟩ : BufTy).Contents (Elt F)) (b1 : (⟨S16, .f32⟩ : BufTy).Contents (Elt F)) (W2 : (⟨S16x16, .f32⟩ : BufTy).Contents (Elt F)) (b2 : (⟨S16, .f32⟩ : BufTy).Contents (Elt F)) :
    (⟨S1024x16, .f32⟩ : BufTy).Contents (Elt F) :=
  layerE (srcE (maskE (simE (nxE f)))) (dstE (maskE (simE (nxE f)))) (ewE (simE (nxE f)) (srcE (maskE (simE (nxE f)))) (dstE (maskE (simE (nxE f)))))
    (layerE (srcE (maskE (simE (nxE f)))) (dstE (maskE (simE (nxE f)))) (ewE (simE (nxE f)) (srcE (maskE (simE (nxE f)))) (dstE (maskE (simE (nxE f)))))
      (layerE (srcE (maskE (simE (nxE f)))) (dstE (maskE (simE (nxE f)))) (ewE (simE (nxE f)) (srcE (maskE (simE (nxE f)))) (dstE (maskE (simE (nxE f))))) x W0 b0) W1 b1) W2 b2

def outE (a0 : (⟨S2x24x32x32, .f32⟩ : BufTy).Contents (Elt F)) (a1 : (⟨S2x32x32x16, .f32⟩ : BufTy).Contents (Elt F)) (a2 : (⟨S16x16, .f32⟩ : BufTy).Contents (Elt F)) (a3 : (⟨S16, .f32⟩ : BufTy).Contents (Elt F)) (a4 : (⟨S16x16, .f32⟩ : BufTy).Contents (Elt F)) (a5 : (⟨S16, .f32⟩ : BufTy).Contents (Elt F)) (a6 : (⟨S16x16, .f32⟩ : BufTy).Contents (Elt F)) (a7 : (⟨S16, .f32⟩ : BufTy).Contents (Elt F)) :
    (⟨S2x32x32x16, .f32⟩ : BufTy).Contents (Elt F) :=
  catE (packE (batchE (flow0E a0) (edge0E a1) a2 a3 a4 a5 a6 a7)) (packE (batchE (flow1E a0) (edge1E a1) a2 a3 a4 a5 a6 a7))

end Cert.ReferenceIdeal.RefFn

end
-- ==== Proof.RefOutRead.lean ====
import Idealize.ShloMosaic.Lib.ValueIdx
import Idealize.ShloMosaic.Lib.Pipeline.Value
import proofs.«138489_g81887846466032_cont_9to1c4b_857_5_alg».proof.Proof.RefFn

noncomputable section

namespace Cert.ReferenceIdeal.RefOutRead

open Idealize.ShloMosaic Idealize.ShloMosaic.ValueIdx Idealize.SL.Sem
open Cert.ReferenceIdeal Cert.ReferenceIdeal.RefFn

variable [Facts]
open Facts₀ Facts

theorem div32_lt (i : Fin 1024) : i.val / 32 < 32 := by have := i.isLt; omega

theorem mod32_lt (i : Fin 1024) : i.val % 32 < 32 := Nat.mod_lt _ (by decide)

theorem pos_lt (p q : Fin 32) : p.val * 32 + q.val < 1024 := by have := p.isLt; have := q.isLt; omega

theorem flow0E_apply (a0 : (⟨S2x24x32x32, .f32⟩ : BufTy).Contents (Elt Ideal)) (t : Fin 24) (i : Fin 1024) :
    flow0E a0 (ix2 t i) = a0 (ix4 (0 : Fin 2) t ⟨i.val / 32, div32_lt i⟩ ⟨i.val % 32, mod32_lt i⟩) := by
  unfold flow0E
  refine (shapeCast_apply _ shapeCasts_S24x32x32_S24x1024 (ix2 t i)
    (ix3 t ⟨i.val / 32, div32_lt i⟩ ⟨i.val % 32, mod32_lt i⟩) ?_).trans ?_
  · rw [Shape.rowMajor_val_three, Shape.rowMajor_val_two]
    show (t.val * 32 + i.val / 32) * 32 + i.val % 32 = t.val * 1024 + i.val
    omega
  refine (shapeCast_apply _ shapeCasts_S1x24x32x32_S24x32x32 (ix3 t ⟨i.val / 32, div32_lt i⟩ ⟨i.val % 32, mod32_lt i⟩)
    (ix4 (0 : Fin 1) t ⟨i.val / 32, div32_lt i⟩ ⟨i.val % 32, mod32_lt i⟩) ?_).trans ?_
  · rw [Shape.rowMajor_val_four, Shape.rowMajor_val_three]
    show ((0 * 24 + t.val) * 32 + i.val / 32) * 32 + i.val % 32 = (t.val * 32 + i.val / 32) * 32 + i.val % 32
    omega
  exact extractStridedSlice_apply _ a0 slices_S2x24x32x32_S1x24x32x32_0_0_0_0
    (ix4 (0 : Fin 1) t ⟨i.val / 32, div32_lt i⟩ ⟨i.val % 32, mod32_lt i⟩)
    (ix4 (0 : Fin 2) t ⟨i.val / 32, div32_lt i⟩ ⟨i.val % 32, mod32_lt i⟩)
    (fun a => match a with
      | ⟨0, _⟩ => rfl
      | ⟨1, _⟩ => (by show t.val = 0 + t.val; omega)
      | ⟨2, _⟩ => (by show i.val / 32 = 0 + i.val / 32; omega)
      | ⟨3, _⟩ => (by show i.val % 32 = 0 + i.val % 32; omega))

theorem flow1E_apply (a0 : (⟨S2x24x32x32, .f32⟩ : BufTy).Contents (Elt Ideal)) (t : Fin 24) (i : Fin 1024) :
    flow1E a0 (ix2 t i) = a0 (ix4 (1 : Fin 2) t ⟨i.val / 32, div32_lt i⟩ ⟨i.val % 32, mod32_lt i⟩) := by
  unfold flow1E
  refine (shapeCast_apply _ shapeCasts_S24x32x32_S24x1024 (ix2 t i)
    (ix3 t ⟨i.val / 32, div32_lt i⟩ ⟨i.val % 32, mod32_lt i⟩) ?_).trans ?_
  · rw [Shape.rowMajor_val_three, Shape.rowMajor_val_two]
    show (t.val * 32 + i.val / 32) * 32 + i.val % 32 = t.val * 1024 + i.val
    omega
  refine (shapeCast_apply _ shapeCasts_S1x24x32x32_S24x32x32 (ix3 t ⟨i.val / 32, div32_lt i⟩ ⟨i.val % 32, mod32_lt i⟩)
    (ix4 (0 : Fin 1) t ⟨i.val / 32, div32_lt i⟩ ⟨i.val % 32, mod32_lt i⟩) ?_).trans ?_
  · rw [Shape.rowMajor_val_four, Shape.rowMajor_val_three]
    show ((0 * 24 + t.val) * 32 + i.val / 32) * 32 + i.val % 32 = (t.val * 32 + i.val / 32) * 32 + i.val % 32
    omega
  exact extractStridedSlice_apply _ a0 slices_S2x24x32x32_S1x24x32x32_1_0_0_0
    (ix4 (0 : Fin 1) t ⟨i.val / 32, div32_lt i⟩ ⟨i.val % 32, mod32_lt i⟩)
    (ix4 (1 : Fin 2) t ⟨i.val / 32, div32_lt i⟩ ⟨i.val % 32, mod32_lt i⟩)
    (fun a => match a with
      | ⟨0, _⟩ => rfl
      | ⟨1, _⟩ => (by show t.val = 0 + t.val; omega)
      | ⟨2, _⟩ => (by show i.val / 32 = 0 + i.val / 32; omega)
      | ⟨3, _⟩ => (by show i.val % 32 = 0 + i.val % 32; omega))

theorem edge0E_apply (a1 : (⟨S2x32x32x16, .f32⟩ : BufTy).Contents (Elt Ideal)) (n : Fin 1024) (k : Fin 16) :
    edge0E a1 (ix2 n k) = a1 (ix4 (0 : Fin 2) ⟨n.val / 32, div32_lt n⟩ ⟨n.val % 32, mod32_lt n⟩ k) := by
  unfold edge0E
  refine (shapeCast_apply _ shapeCasts_S32x32x16_S1024x16 (ix2 n k)
    (ix3 ⟨n.val / 32, div32_lt n⟩ ⟨n.val % 32, mod32_lt n⟩ k) ?_).trans ?_
  · rw [Shape.rowMajor_val_three, Shape.rowMajor_val_two]
    show (n.val / 32 * 32 + n.val % 32) * 16 + k.val = n.val * 16 + k.val
    omega
  refine (shapeCast_apply _ shapeCasts_S1x32x32x16_S32x32x16 (ix3 ⟨n.val / 32, div32_lt n⟩ ⟨n.val % 32, mod32_lt n⟩ k)
    (ix4 (0 : Fin 1) ⟨n.val / 32, div32_lt n⟩ ⟨n.val % 32, mod32_lt n⟩ k) ?_).trans ?_
  · rw [Shape.rowMajor_val_four, Shape.rowMajor_val_three]
    show ((0 * 32 + n.val / 32) * 32 + n.val % 32) * 16 + k.val = (n.val / 32 * 32 + n.val % 32) * 16 + k.val
    omega
  exact extractStridedSlice_apply _ a1 slices_S2x32x32x16_S1x32x32x16_0_0_0_0
    (ix4 (0 : Fin 1) ⟨n.val / 32, div32_lt n⟩ ⟨n.val % 32, mod32_lt n⟩ k)
    (ix4 (0 : Fin 2) ⟨n.val / 32, div32_lt n⟩ ⟨n.val % 32, mod32_lt n⟩ k)
    (fun a => match a with
      | ⟨0, _⟩ => rfl
      | ⟨1, _⟩ => (by show n.val / 32 = 0 + n.val / 32; omega)
      | ⟨2, _⟩ => (by show n.val % 32 = 0 + n.val % 32; omega)
      | ⟨3, _⟩ => (by show k.val = 0 + k.val; omega))

theorem edge1E_apply (a1 : (⟨S2x32x32x16, .f32⟩ : BufTy).Contents (Elt Ideal)) (n : Fin 1024) (k : Fin 16) :
    edge1E a1 (ix2 n k) = a1 (ix4 (1 : Fin 2) ⟨n.val / 32, div32_lt n⟩ ⟨n.val % 32, mod32_lt n⟩ k) := by
  unfold edge1E
  refine (shapeCast_apply _ shapeCasts_S32x32x16_S1024x16 (ix2 n k)
    (ix3 ⟨n.val / 32, div32_lt n⟩ ⟨n.val % 32, mod32_lt n⟩ k) ?_).trans ?_
  · rw [Shape.rowMajor_val_three, Shape.rowMajor_val_two]
    show (n.val / 32 * 32 + n.val % 32) * 16 + k.val = n.val * 16 + k.val
    omega
  refine (shapeCast_apply _ shapeCasts_S1x32x32x16_S32x32x16 (ix3 ⟨n.val / 32, div32_lt n⟩ ⟨n.val % 32, mod32_lt n⟩ k)
    (ix4 (0 : Fin 1) ⟨n.val / 32, div32_lt n⟩ ⟨n.val % 32, mod32_lt n⟩ k) ?_).trans ?_
  · rw [Shape.rowMajor_val_four, Shape.rowMajor_val_three]
    show ((0 * 32 + n.val / 32) * 32 + n.val % 32) * 16 + k.val = (n.val / 32 * 32 + n.val % 32) * 16 + k.val
    omega
  exact extractStridedSlice_apply _ a1 slices_S2x32x32x16_S1x32x32x16_1_0_0_0
    (ix4 (0 : Fin 1) ⟨n.val / 32, div32_lt n⟩ ⟨n.val % 32, mod32_lt n⟩ k)
    (ix4 (1 : Fin 2) ⟨n.val / 32, div32_lt n⟩ ⟨n.val % 32, mod32_lt n⟩ k)
    (fun a => match a with
      | ⟨0, _⟩ => rfl
      | ⟨1, _⟩ => (by show n.val / 32 = 0 + n.val / 32; omega)
      | ⟨2, _⟩ => (by show n.val % 32 = 0 + n.val % 32; omega)
      | ⟨3, _⟩ => (by show k.val = 0 + k.val; omega))

theorem packE_apply (x : (⟨S1024x16, .f32⟩ : BufTy).Contents (Elt Ideal)) (p q : Fin 32) (e : Fin 16) :
    packE x (ix4 (0 : Fin 1) p q e) = x (ix2 ⟨p.val * 32 + q.val, pos_lt p q⟩ e) := by
  unfold packE
  refine shapeCast_apply _ shapeCasts_S1024x16_S1x32x32x16 (ix4 (0 : Fin 1) p q e) (ix2 ⟨p.val * 32 + q.val, pos_lt p q⟩ e) ?_
  rw [Shape.rowMajor_val_two, Shape.rowMajor_val_four]
  show (p.val * 32 + q.val) * 16 + e.val = ((0 * 32 + p.val) * 32 + q.val) * 16 + e.val
  omega

theorem catE_apply_zero (x y : (⟨S1x32x32x16, .f32⟩ : BufTy).Contents (Elt Ideal)) (p q : Fin 32) (e : Fin 16) :
    catE x y (ix4 (0 : Fin 2) p q e) = x (ix4 (0 : Fin 1) p q e) := by
  unfold catE
  exact concatenate_pair_apply_left (0 : Fin 4) x y concatenates_S1x32x32x16_S1x32x32x16_S2x32x32x16_d0
    (ix4 (0 : Fin 2) p q e) rfl (ix4 (0 : Fin 1) p q e)
    (fun b => match b with | ⟨0, _⟩ => rfl | ⟨1, _⟩ => rfl | ⟨2, _⟩ => rfl | ⟨3, _⟩ => rfl)

theorem catE_apply_one (x y : (⟨S1x32x32x16, .f32⟩ : BufTy).Contents (Elt Ideal)) (p q : Fin 32) (e : Fin 16) :
    catE x y (ix4 (1 : Fin 2) p q e) = y (ix4 (0 : Fin 1) p q e) := by
  unfold catE
  exact concatenate_pair_apply_right (0 : Fin 4) x y concatenates_S1x32x32x16_S1x32x32x16_S2x32x32x16_d0
    (ix4 (1 : Fin 2) p q e) rfl rfl (ix4 (0 : Fin 1) p q e)
    (fun b => match b with
      | ⟨0, _⟩ => fun hb => absurd rfl hb
      | ⟨1, _⟩ => fun _ => rfl | ⟨2, _⟩ => fun _ => rfl | ⟨3, _⟩ => fun _ => rfl)
    rfl

theorem outE_apply_zero (a0 : (⟨S2x24x32x32, .f32⟩ : BufTy).Contents (Elt Ideal)) (a1 : (⟨S2x32x32x16, .f32⟩ : BufTy).Contents (Elt Ideal))
    (a2 : (⟨S16x16, .f32⟩ : BufTy).Contents (Elt Ideal)) (a3 : (⟨S16, .f32⟩ : BufTy).Contents (Elt Ideal))
    (a4 : (⟨S16x16, .f32⟩ : BufTy).Contents (Elt Ideal)) (a5 : (⟨S16, .f32⟩ : BufTy).Contents (Elt Ideal))
    (a6 : (⟨S16x16, .f32⟩ : BufTy).Contents (Elt Ideal)) (a7 : (⟨S16, .f32⟩ : BufTy).Contents (Elt Ideal))
    (p q : Fin 32) (e : Fin 16) :
    outE a0 a1 a2 a3 a4 a5 a6 a7 (ix4 (0 : Fin 2) p q e)
      = batchE (flow0E a0) (edge0E a1) a2 a3 a4 a5 a6 a7 (ix2 ⟨p.val * 32 + q.val, pos_lt p q⟩ e) := by
  unfold outE
  exact (catE_apply_zero _ _ p q e).trans (packE_apply _ p q e)

theorem outE_apply_one (a0 : (⟨S2x24x32x32, .f32⟩ : BufTy).Contents (Elt Ideal)) (a1 : (⟨S2x32x32x16, .f32⟩ : BufTy).Contents (Elt Ideal))
    (a2 : (⟨S16x16, .f32⟩ : BufTy).Contents (Elt Ideal)) (a3 : (⟨S16, .f32⟩ : BufTy).Contents (Elt Ideal))
    (a4 : (⟨S16x16, .f32⟩ : BufTy).Contents (Elt Ideal)) (a5 : (⟨S16, .f32⟩ : BufTy).Contents (Elt Ideal))
    (a6 : (⟨S16x16, .f32⟩ : BufTy).Contents (Elt Ideal)) (a7 : (⟨S16, .f32⟩ : BufTy).Contents (Elt Ideal))
    (p q : Fin 32) (e : Fin 16) :
    outE a0 a1 a2 a3 a4 a5 a6 a7 (ix4 (1 : Fin 2) p q e)
      = batchE (flow1E a0) (edge1E a1) a2 a3 a4 a5 a6 a7 (ix2 ⟨p.val * 32 + q.val, pos_lt p q⟩ e) := by
  unfold outE
  exact (catE_apply_one _ _ p q e).trans (packE_apply _ p q e)

end Cert.ReferenceIdeal.RefOutRead

end
-- ==== Proof.RefSim.lean ====
import proofs.«138489_g81887846466032_cont_9to1c4b_857_5_alg».proof.ReferenceIdeal
import proofs.«138489_g81887846466032_cont_9to1c4b_857_5_alg».proof.Proof.FormFacts
import proofs.«138489_g81887846466032_cont_9to1c4b_857_5_alg».proof.Proof.LibRowDot
import proofs.«138489_g81887846466032_cont_9to1c4b_857_5_alg».proof.Proof.LibIdealReal
import Idealize.ShloMosaic.Lib.ValueIdx
import Idealize.ShloMosaic.Lib.ValueLayout
import Idealize.ShloMosaic.Lib.IdealHost
import Idealize.ShloMosaic.PureOps.Ideal.Laws

noncomputable section

open scoped BigOperators

namespace Cert.ReferenceIdeal.RefSim

open Idealize.ShloMosaic Idealize.ShloMosaic.ValueIdx
open Cert.ReferenceIdeal Cert.ReferenceIdeal.Facts₀ Cert.ReferenceIdeal.Facts
open Cert.LibIdealReal (cval cval_pos)

variable [Cert.ReferenceIdeal.Facts]

def sumsqE (fE : FVec Ideal S24x1024 .f32) : FVec Ideal S24 .f32 :=
  Host.reduceAdd (F := Ideal) (mulf fE fE) (constant (F := Ideal) S_ .f32 0x00000000#32) reducesTo_S24x1024_S24_d1 h_S_

def normE (fE : FVec Ideal S24x1024 .f32) : FVec Ideal S24x1 .f32 :=
  Host.sqrt (F := Ideal) (broadcastInDim S24x1 ![0] bcast_S24_S24x1_0 (sumsqE fE))

def denE (fE : FVec Ideal S24x1024 .f32) : FVec Ideal S24x1 .f32 :=
  maximumf (normE fE) (broadcastInDim S24x1 ![] bcast_S_S24x1 (constant (F := Ideal) S_ .f32 0x2B8CBCCC#32))

def nxE (fE : FVec Ideal S24x1024 .f32) : FVec Ideal S24x1024 .f32 :=
  Host.divf (F := Ideal) fE (broadcastInDim S24x1024 ![0, 1] bcast_S24x1_S24x1024_0_1 (denE fE))

def simE (fE : FVec Ideal S24x1024 .f32) : FVec Ideal S1024x1024 .f32 :=
  Host.dotGeneral (F := Ideal) dot_S1024x24_S24x1024_S1024x1024_1_0_0_1_n_n none
    (transpose S1024x24 [1, 0] (nxE fE) transposes_S24x1024_S1024x24_1_0) (nxE fE)

def maskE (fE : FVec Ideal S24x1024 .f32) : IVec S1024x1024 1 :=
  cmpf .une (simE fE) (broadcastInDim S1024x1024 ![] bcast_S_S1024x1024 (constant (F := Ideal) S_ .f32 0x00000000#32))

theorem reduces_d1 : S24x1024.Reduces [1] S24 := by decide

theorem lift_ix (t : Fin 24) (k : Fin 1024) : reduces_d1.lift (ix1 t) k = ix2 t k := by
  funext a
  apply Fin.ext
  match a with
  | ⟨0, _⟩ => rfl
  | ⟨1, _⟩ => rfl

theorem sumsqE_apply (fE : FVec Ideal S24x1024 .f32) (t : Fin 24) :
    sumsqE fE (ix1 t) = ((0 : ℝ) : EReal) + ∑ i : Fin 1024, fE (ix2 t i) * fE (ix2 t i) := by
  unfold sumsqE
  rw [hostReduceAdd_apply, Ideal.hostReduceAdd_single reducesTo_S24x1024_S24_d1 reduces_d1,
    LibIdealReal.constant_zero_apply]
  refine congrArg _ (Finset.sum_congr rfl fun k _ => ?_)
  rw [mulf_apply]
  exact congrArg (fun x => fE x * fE x) (lift_ix t k)

theorem normE_apply (fE : FVec Ideal S24x1024 .f32) (t : Fin 24) :
    normE fE (ix2 t (0 : Fin 1)) = Ideal.sqrt (sumsqE fE (ix1 t)) := by
  unfold normE
  rw [LibIdealReal.hostSqrt_apply]
  refine congrArg Ideal.sqrt (broadcastInDim_apply _ _ _ _ (ix1 t) fun a => ?_)
  match a with
  | ⟨0, _⟩ => rfl

theorem denE_apply (fE : FVec Ideal S24x1024 .f32) (t : Fin 24) :
    denE fE (ix2 t (0 : Fin 1)) = max (normE fE (ix2 t (0 : Fin 1))) ((cval : ℝ) : EReal) := by
  unfold denE
  rw [maximumf_apply, broadcastInDim_scalar_apply, LibIdealReal.constant_c_apply]

theorem nxE_apply (fE : FVec Ideal S24x1024 .f32) (t : Fin 24) (i : Fin 1024) :
    nxE fE (ix2 t i) = Ideal.div (fE (ix2 t i)) (denE fE (ix2 t (0 : Fin 1))) := by
  unfold nxE
  rw [hostDivf_apply]
  refine congrArg (Ideal.div _) (broadcastInDim_apply _ _ _ _ (ix2 t (0 : Fin 1)) fun a => ?_)
  match a with
  | ⟨0, _⟩ => rfl
  | ⟨1, _⟩ => rfl

theorem simE_apply (fE : FVec Ideal S24x1024 .f32) (i j : Fin 1024) :
    simE fE (ix2 i j) = ∑ t : Fin 24, nxE fE (ix2 t i) * nxE fE (ix2 t j) := by
  unfold simE
  simp only [Host.dotGeneral]
  rw [LibRowDot.dotGeneral_apply dot_S1024x24_S24x1024_S1024x1024_1_0_0_1_n_n rfl rfl rfl rfl rfl rfl]
  unfold LibRowDot.rowDot
  refine Finset.sum_congr rfl fun t _ => ?_
  rw [transpose_ix2_apply]

theorem maskE_apply (fE : FVec Ideal S24x1024 .f32) (i j : Fin 1024) :
    maskE fE (ix2 i j) = Ideal.cmp .une (simE fE (ix2 i j)) ((0 : ℝ) : EReal) := by
  unfold maskE
  rw [LibIdealReal.cmpf_apply, broadcastInDim_scalar_apply, LibIdealReal.constant_zero_apply]

section Real

variable (fE : FVec Ideal S24x1024 .f32) (f : Cert.Gcn.FlowM) (h : ∀ t i, fE (ix2 t i) = ((f t i : ℝ) : EReal))
include h

theorem sumsqE_coe (t : Fin 24) : sumsqE fE (ix1 t) = ((∑ i, f t i * f t i : ℝ) : EReal) := by
  rw [sumsqE_apply]
  simp only [h, LibIdealReal.coe_mul]
  rw [LibIdealReal.coe_sum, LibIdealReal.coe_add, zero_add]

theorem normE_coe (t : Fin 24) :
    normE fE (ix2 t (0 : Fin 1)) = ((Real.sqrt (∑ i, f t i * f t i) : ℝ) : EReal) := by
  rw [normE_apply, sumsqE_coe fE f h, LibIdealReal.sqrt_coe_of_nonneg (Cert.Gcn.sumsq_nonneg f t)]

theorem denE_coe (t : Fin 24) : denE fE (ix2 t (0 : Fin 1)) = ((Cert.Gcn.den cval f t : ℝ) : EReal) := by
  rw [denE_apply, normE_coe fE f h, LibIdealReal.coe_max]
  rfl

theorem nxE_coe (t : Fin 24) (i : Fin 1024) : nxE fE (ix2 t i) = ((Cert.Gcn.nx cval f t i : ℝ) : EReal) := by
  rw [nxE_apply, denE_coe fE f h, h, LibIdealReal.div_coe_coe _ (Cert.Gcn.den_ne_zero cval f cval_pos t)]
  rfl

theorem simE_coe (i j : Fin 1024) : simE fE (ix2 i j) = ((Cert.Gcn.sim cval f i j : ℝ) : EReal) := by
  rw [simE_apply]
  simp only [nxE_coe fE f h, LibIdealReal.coe_mul]
  rw [LibIdealReal.coe_sum]
  rfl

theorem maskE_eq_one (hf : ∀ t i, 0 < f t i) : maskE fE = fun _ => 1#1 := by
  funext j
  obtain ⟨p, q, rfl⟩ : ∃ (p : Fin 1024) (q : Fin 1024), j = ix2 p q := ⟨j 0, j 1, eq_ix2 j⟩
  rw [maskE_apply, simE_coe fE f h]
  exact (LibIdealReal.cmp_une_coe _ _).mpr (ne_of_gt (Cert.Gcn.sim_pos cval f cval_pos hf _ _))

end Real

end Cert.ReferenceIdeal.RefSim

end
-- ==== Proof.RefSimFn.lean ====
import proofs.«138489_g81887846466032_cont_9to1c4b_857_5_alg».proof.Proof.RefFn
import proofs.«138489_g81887846466032_cont_9to1c4b_857_5_alg».proof.Proof.RefSim

noncomputable section

namespace Cert.ReferenceIdeal.RefSim

open Idealize.ShloMosaic Idealize.ShloMosaic.ValueIdx
open Cert.ReferenceIdeal
open Cert.LibIdealReal (cval)

variable [Cert.ReferenceIdeal.Facts]

theorem fn_simE (fE : FVec Ideal S24x1024 .f32) : RefFn.simE (F := Ideal) (RefFn.nxE (F := Ideal) fE) = simE fE := rfl

theorem fn_maskE (fE : FVec Ideal S24x1024 .f32) :
    RefFn.maskE (F := Ideal) (RefFn.simE (F := Ideal) (RefFn.nxE (F := Ideal) fE)) = maskE fE := rfl

section Real

variable (fE : FVec Ideal S24x1024 .f32) (f : Cert.Gcn.FlowM) (h : ∀ t i, fE (ix2 t i) = ((f t i : ℝ) : EReal))
include h

theorem fn_simE_coe (i j : Fin 1024) :
    RefFn.simE (F := Ideal) (RefFn.nxE (F := Ideal) fE) (ix2 i j) = ((Cert.Gcn.sim cval f i j : ℝ) : EReal) := by
  rw [fn_simE]
  exact simE_coe fE f h i j

theorem fn_maskE_eq_one (hf : ∀ t i, 0 < f t i) :
    RefFn.maskE (F := Ideal) (RefFn.simE (F := Ideal) (RefFn.nxE (F := Ideal) fE)) = fun _ => 1#1 := by
  rw [fn_maskE]
  exact maskE_eq_one fE f h hf

end Real

end Cert.ReferenceIdeal.RefSim

end
-- ==== Proof.LibIntFold.lean ====
import Idealize.ShloMosaic.PureOps.Contract

namespace Cert.LibIntFold

open Idealize.ShloMosaic

theorem foldl_add_ofNat {β : Type} (c : β → Nat) (L : List β) (a : Nat) :
    L.foldl (fun r n => r + BitVec.ofNat 32 (c n)) (BitVec.ofNat 32 a) = BitVec.ofNat 32 (a + (L.map c).sum) := by
  induction L generalizing a with
  | nil => simp
  | cons b L ih =>
    rw [List.foldl_cons, ← BitVec.ofNat_add, ih]
    simp [Nat.add_assoc]

theorem rowMajor_symm_one {d : Fin 1 → Nat} (k : Fin (⟨1, d⟩ : Shape).numel) :
    (((⟨1, d⟩ : Shape).rowMajor.symm k) 0).val = k.val := by
  have h := Shape.rowMajor_val_one ((⟨1, d⟩ : Shape).rowMajor.symm k)
  rw [Equiv.apply_symm_apply] at h
  exact h.symm

theorem sum_finRange_val (m : Nat) (g : Nat → Nat) :
    ((List.finRange m).map fun k => g k.val).sum = ((List.range m).map g).sum := by
  induction m generalizing g with
  | zero => simp
  | succ m ih =>
    rw [List.finRange_succ, List.range_succ_eq_map, List.map_cons, List.map_cons, List.map_map, List.map_map,
      List.sum_cons, List.sum_cons]
    have := ih (fun p => g (p + 1))
    simpa [Function.comp_def] using this

theorem reduceWindow_addi_one {n m w l h' : Nat} (x : (⟨1, ![n]⟩ : Shape).Idx → BitVec 32) (cx : Nat → Nat)
    (hx : ∀ i, x i = BitVec.ofNat 32 (cx (i 0).val))
    (init : (⟨0, ![]⟩ : Shape).Idx → BitVec 32) (hinit : ∀ i, init i = 0#32)
    (h : (⟨1, ![n]⟩ : Shape).ReduceWindows ![w] ![1] ![l] ![h'] ⟨1, ![m]⟩) (hu : 0 < (⟨0, ![]⟩ : Shape).numel)
    (j : (⟨1, ![m]⟩ : Shape).Idx) :
    Host.reduceWindow (s := ⟨1, ![n]⟩) (t := ⟨1, ![m]⟩) (u := ⟨0, ![]⟩) IntOp.addi ![w] ![1] ![l] ![h'] x init h hu j
      = BitVec.ofNat 32 (((List.range w).map fun p =>
          if l ≤ (j 0).val + p ∧ (j 0).val + p - l < n then cx ((j 0).val + p - l) else 0).sum) := by
  unfold Host.reduceWindow
  simp only [hinit]
  have hW : (⟨1, ![w]⟩ : Shape).numel = w := Shape.numel_rank1 _
  have hR : ∀ g : Nat → Nat, BitVec.ofNat 32 (((List.range w).map g).sum)
      = (List.finRange (⟨1, ![w]⟩ : Shape).numel).foldl (fun r k => r + BitVec.ofNat 32 (g k.val)) (BitVec.ofNat 32 0) := by
    intro g
    rw [foldl_add_ofNat (fun k : Fin (⟨1, ![w]⟩ : Shape).numel => g k.val), sum_finRange_val, hW, Nat.zero_add]
  rw [hR]
  congr 1
  funext r k
  show r + _ = r + _
  congr 1
  have hk := rowMajor_symm_one (d := ![w]) k
  split
  · rename_i hin
    have h0 := hin 0
    simp only [Matrix.cons_val_zero, Fin.cast_eq_self, hk, Nat.mul_one] at h0
    rw [hx]
    simp only [Matrix.cons_val_zero, Fin.cast_eq_self, hk, Nat.mul_one]
    rw [if_pos h0]
  · rename_i hin
    rw [if_neg]
    intro hc
    apply hin
    intro a
    obtain rfl : a = 0 := Subsingleton.elim _ _
    simpa only [Matrix.cons_val_zero, Fin.cast_eq_self, hk, Nat.mul_one] using hc

theorem sum_window_prefix (n l j : Nat) (hl : l + 1 = n) (hj : j < n) (cx : Nat → Nat) :
    ((List.range n).map fun p => if l ≤ j + p ∧ j + p - l < n then cx (j + p - l) else 0).sum
      = ((List.range (j + 1)).map cx).sum := by
  obtain ⟨a, rfl⟩ : ∃ a, l = a + j := ⟨l - j, by omega⟩
  subst hl
  rw [show a + j + 1 = a + (j + 1) by omega, List.range_add, List.map_append, List.sum_append, List.map_map]
  have h1 : ((List.range a).map fun p =>
      if a + j ≤ j + p ∧ j + p - (a + j) < a + (j + 1) then cx (j + p - (a + j)) else 0).sum = 0 := by
    apply List.sum_eq_zero
    intro y hy
    obtain ⟨p, hp, rfl⟩ := List.mem_map.1 hy
    have := List.mem_range.1 hp
    rw [if_neg (by omega)]
  rw [h1, Nat.zero_add]
  congr 1
  apply List.map_congr_left
  intro i hi
  have := List.mem_range.1 hi
  show (if a + j ≤ j + (a + i) ∧ j + (a + i) - (a + j) < a + (j + 1) then cx (j + (a + i) - (a + j)) else 0) = cx i
  rw [if_pos (by omega), show j + (a + i) - (a + j) = i by omega]

theorem cumsum_eq {n l : Nat} (hl : l + 1 = n) (x : (⟨1, ![n]⟩ : Shape).Idx → BitVec 32) (cx : Nat → Nat)
    (hx : ∀ i, x i = BitVec.ofNat 32 (cx (i 0).val))
    (init : (⟨0, ![]⟩ : Shape).Idx → BitVec 32) (hinit : ∀ i, init i = 0#32)
    (h : (⟨1, ![n]⟩ : Shape).ReduceWindows ![n] ![1] ![l] ![0] ⟨1, ![n]⟩) (hu : 0 < (⟨0, ![]⟩ : Shape).numel)
    (j : (⟨1, ![n]⟩ : Shape).Idx) :
    Host.reduceWindow (s := ⟨1, ![n]⟩) (t := ⟨1, ![n]⟩) (u := ⟨0, ![]⟩) IntOp.addi ![n] ![1] ![l] ![0] x init h hu j
      = BitVec.ofNat 32 (((List.range ((j 0).val + 1)).map cx).sum) := by
  rw [reduceWindow_addi_one x cx hx init hinit h hu j, sum_window_prefix n l (j 0).val hl (j 0).isLt cx]

theorem sum_ones (j : Nat) : ((List.range (j + 1)).map fun _ => 1).sum = j + 1 := by
  simp

theorem sum_zero_ones (j : Nat) : ((List.range (j + 1)).map fun i => if i = 0 then 0 else 1).sum = j := by
  induction j with
  | zero => simp
  | succ j ih =>
    rw [List.range_succ, List.map_append, List.sum_append, ih]
    simp

theorem cumsum_ones {n l : Nat} (hl : l + 1 = n) (x : (⟨1, ![n]⟩ : Shape).Idx → BitVec 32) (hx : ∀ i, x i = 1#32)
    (init : (⟨0, ![]⟩ : Shape).Idx → BitVec 32) (hinit : ∀ i, init i = 0#32)
    (h : (⟨1, ![n]⟩ : Shape).ReduceWindows ![n] ![1] ![l] ![0] ⟨1, ![n]⟩) (hu : 0 < (⟨0, ![]⟩ : Shape).numel)
    (j : (⟨1, ![n]⟩ : Shape).Idx) :
    Host.reduceWindow (s := ⟨1, ![n]⟩) (t := ⟨1, ![n]⟩) (u := ⟨0, ![]⟩) IntOp.addi ![n] ![1] ![l] ![0] x init h hu j
      = BitVec.ofNat 32 ((j 0).val + 1) := by
  rw [cumsum_eq hl x (fun _ => 1) (fun i => by rw [hx i]) init hinit h hu j, sum_ones]

theorem cumsum_zero_ones {n l : Nat} (hl : l + 1 = n) (x : (⟨1, ![n]⟩ : Shape).Idx → BitVec 32)
    (hx : ∀ i, x i = if (i 0).val = 0 then 0#32 else 1#32)
    (init : (⟨0, ![]⟩ : Shape).Idx → BitVec 32) (hinit : ∀ i, init i = 0#32)
    (h : (⟨1, ![n]⟩ : Shape).ReduceWindows ![n] ![1] ![l] ![0] ⟨1, ![n]⟩) (hu : 0 < (⟨0, ![]⟩ : Shape).numel)
    (j : (⟨1, ![n]⟩ : Shape).Idx) :
    Host.reduceWindow (s := ⟨1, ![n]⟩) (t := ⟨1, ![n]⟩) (u := ⟨0, ![]⟩) IntOp.addi ![n] ![1] ![l] ![0] x init h hu j
      = BitVec.ofNat 32 (j 0).val := by
  rw [cumsum_eq hl x (fun i => if i = 0 then 0 else 1) (fun i => by rw [hx i]; split <;> rfl) init hinit h hu j,
    sum_zero_ones]

theorem foldl_keyed_add {β ι : Type} [DecidableEq ι] (key : β → Option ι) (c : β → Nat)
    (step : (ι → BitVec 32) → β → ι → BitVec 32)
    (hstep : ∀ r b i', step r b i' = if key b = some i' then r i' + BitVec.ofNat 32 (c b) else r i')
    (L : List β) (x : ι → BitVec 32) (i : ι) (a : Nat) (hx : x i = BitVec.ofNat 32 a) :
    L.foldl step x i = BitVec.ofNat 32 (a + (L.map fun b => if key b = some i then c b else 0).sum) := by
  induction L generalizing x a with
  | nil => simp [hx]
  | cons b L ih =>
    rw [List.foldl_cons, ih (step x b) (a + if key b = some i then c b else 0) ?_, List.map_cons, List.sum_cons,
      Nat.add_assoc]
    rw [hstep]
    by_cases hk : key b = some i
    · rw [if_pos hk, if_pos hk, hx, BitVec.ofNat_add]
    · rw [if_neg hk, if_neg hk, hx, Nat.add_zero]

theorem sum_succ_eq (n t : Nat) :
    ((List.range n).map fun k => if k + 1 = t then 1 else 0).sum = if 0 < t ∧ t ≤ n then 1 else 0 := by
  induction n with
  | zero => simp; omega
  | succ n ih =>
    rw [List.range_succ, List.map_append, List.sum_append, ih]
    simp only [List.map_cons, List.map_nil, List.sum_cons, List.sum_nil, Nat.add_zero]
    split_ifs <;> omega

theorem scatter_addi_apply {s si u : Shape} {w : Nat} (d : ScatterDims s si u) (x : s.Idx → BitVec 32)
    (idx : IVec si w) (upd : u.Idx → BitVec 32) (c : u.Idx → Nat) (hupd : ∀ k, upd k = BitVec.ofNat 32 (c k))
    (i : s.Idx) (a : Nat) (hx : x i = BitVec.ofNat 32 a) :
    Host.scatter d IntOp.addi x idx upd i
      = BitVec.ofNat 32 (a + ((List.finRange u.numel).map fun m =>
          if d.resultIdx? (u.rowMajor.symm m) idx = some i then c (u.rowMajor.symm m) else 0).sum) := by
  unfold Host.scatter
  refine foldl_keyed_add (fun m => d.resultIdx? (u.rowMajor.symm m) idx) (fun m => c (u.rowMajor.symm m)) _ ?_ _ x i a hx
  intro r m i'
  beta_reduce
  cases hres : d.resultIdx? (u.rowMajor.symm m) idx with
  | none => rw [if_neg (by simp)]
  | some i₀ =>
    show (if i' = i₀ then IntOp.addi (r i₀) (upd (u.rowMajor.symm m)) else r i') = _
    by_cases h : i' = i₀
    · subst h
      rw [if_pos rfl, if_pos rfl, hupd]; rfl
    · rw [if_neg h, if_neg (fun e => h (Option.some.inj e).symm)]

abbrev binDims (n : Nat) (wf : ScatterDims.WF ⟨1, ![n]⟩ ⟨2, ![n, 1]⟩ ⟨1, ![n]⟩ [] [0] [0] 1) :
    ScatterDims ⟨1, ![n]⟩ ⟨2, ![n, 1]⟩ ⟨1, ![n]⟩ where
  updateWindowDims := []
  insertedWindowDims := [0]
  scatterDimsToOperandDims := [0]
  indexVectorDim := 1
  wf := wf

abbrev binIdx {n : Nat} (j : (⟨1, ![n]⟩ : Shape).Idx) : (⟨2, ![n, 1]⟩ : Shape).Idx :=
  fun a => match a with | ⟨0, _⟩ => ⟨(j 0).val, (j 0).isLt⟩ | ⟨1, _⟩ => ⟨0, Nat.one_pos⟩

variable {n w : Nat} (wf : ScatterDims.WF ⟨1, ![n]⟩ ⟨2, ![n, 1]⟩ ⟨1, ![n]⟩ [] [0] [0] 1)

theorem binDims_start (idx : IVec ⟨2, ![n, 1]⟩ w) (j : (⟨1, ![n]⟩ : Shape).Idx) :
    (binDims n wf).start j idx 0 = (idx (binIdx j)).toInt := by
  unfold ScatterDims.start
  rw [dif_pos (show (0 : Fin 1) ∈ (binDims n wf).scatterDimsToOperandDims from List.mem_singleton.mpr rfl)]
  congr 2
  funext b
  refine Fin.ext ?_
  match b with
  | ⟨0, _⟩ => rfl
  | ⟨1, _⟩ => rfl

theorem binDims_window (j : (⟨1, ![n]⟩ : Shape).Idx) : (binDims n wf).window j 0 = 0 := by
  unfold ScatterDims.window
  rw [dif_neg]
  intro h
  have hk : (binDims n wf).sKept = [] := rfl
  rw [hk] at h
  exact List.not_mem_nil h

theorem binDims_resultIdx (idx : IVec ⟨2, ![n, 1]⟩ w) (j i : (⟨1, ![n]⟩ : Shape).Idx) :
    (binDims n wf).resultIdx? j idx = some i ↔ (idx (binIdx j)).toInt = ((i 0).val : Int) := by
  have hs : ∀ a : Fin 1, (binDims n wf).start j idx a + ((binDims n wf).window j a : Nat) = (idx (binIdx j)).toInt := by
    intro a
    obtain rfl : a = 0 := Subsingleton.elim _ _
    rw [binDims_start, binDims_window]; simp
  unfold ScatterDims.resultIdx?
  constructor
  · intro h
    split at h
    · rename_i hc
      have := congrFun (Option.some.inj h) 0
      have h2 := congrArg Fin.val this
      simp only [hs] at h2
      have h0 := (hc 0).1
      rw [hs] at h0
      omega
    · exact absurd h (by simp)
  · intro h
    have hi : (i 0).val < n := (i 0).isLt
    rw [dif_pos]
    · congr 1
      funext a
      obtain rfl : a = 0 := Subsingleton.elim _ _
      refine Fin.ext ?_
      simp only [hs]
      omega
    · intro a
      obtain rfl : a = 0 := Subsingleton.elim _ _
      rw [hs]
      refine ⟨by omega, ?_⟩
      show (idx (binIdx j)).toInt < ((n : Nat) : Int)
      omega

theorem bincount_succ (x : (⟨1, ![n]⟩ : Shape).Idx → BitVec 32) (hx : ∀ i, x i = 0#32)
    (idx : IVec ⟨2, ![n, 1]⟩ w)
    (hidx : ∀ j : (⟨1, ![n]⟩ : Shape).Idx, (idx (binIdx j)).toInt = (((j 0).val + 1 : Nat) : Int))
    (upd : (⟨1, ![n]⟩ : Shape).Idx → BitVec 32) (hupd : ∀ k, upd k = 1#32) (i : (⟨1, ![n]⟩ : Shape).Idx) :
    Host.scatter (binDims n wf) IntOp.addi x idx upd i = if (i 0).val = 0 then 0#32 else 1#32 := by
  rw [scatter_addi_apply (binDims n wf) x idx upd (fun _ => 1) (fun k => by rw [hupd k]) i 0 (by rw [hx i])]
  have hf : (fun m : Fin (⟨1, ![n]⟩ : Shape).numel =>
        if (binDims n wf).resultIdx? ((⟨1, ![n]⟩ : Shape).rowMajor.symm m) idx = some i then 1 else 0)
      = fun m => if m.val + 1 = (i 0).val then 1 else 0 := by
    funext m
    have hm := rowMajor_symm_one (d := ![n]) m
    refine if_congr ?_ rfl rfl
    rw [binDims_resultIdx, hidx, hm]
    exact Int.ofNat_inj
  rw [hf, sum_finRange_val _ (fun k => if k + 1 = (i 0).val then 1 else 0), Shape.numel_rank1]
  show BitVec.ofNat 32 (0 + ((List.range n).map fun k => if k + 1 = (i 0).val then 1 else 0).sum) = _
  rw [sum_succ_eq, Nat.zero_add]
  have hi : (i 0).val < n := (i 0).isLt
  by_cases h0 : (i 0).val = 0
  · rw [if_pos h0, if_neg (by omega)]
  · rw [if_neg h0, if_pos (by omega)]

end Cert.LibIntFold
-- ==== Proof.LibDivRem.lean ====
import Idealize.ShloMosaic.PureOps.Vector

namespace Cert.LibDivRem

open Idealize.ShloMosaic

theorem toNat_ofNat_small {k : Nat} (hk : k < 2 ^ 31) : (BitVec.ofNat 32 k).toNat = k := by
  rw [BitVec.toNat_ofNat]; exact Nat.mod_eq_of_lt (by omega)

theorem msb_ofNat_small {k : Nat} (hk : k < 2 ^ 31) : (BitVec.ofNat 32 k).msb = false := by
  rw [BitVec.msb_eq_false_iff_two_mul_lt, toNat_ofNat_small hk]; omega

theorem toInt_ofNat_small {k : Nat} (hk : k < 2 ^ 31) : (BitVec.ofNat 32 k).toInt = (k : Int) := by
  rw [BitVec.toInt_eq_toNat_of_msb (msb_ofNat_small hk), toNat_ofNat_small hk]

theorem slt_zero_ofNat_small {k : Nat} (hk : k < 2 ^ 31) : (BitVec.ofNat 32 k).slt 0#32 = false := by
  rw [BitVec.slt_eq_decide, toInt_ofNat_small hk]
  simp

theorem ofNat_small_eq_zero_iff {k : Nat} (hk : k < 2 ^ 31) : BitVec.ofNat 32 k = 0#32 ↔ k = 0 := by
  rw [BitVec.toNat_eq, toNat_ofNat_small hk]; simp

theorem sdiv_ofNat_small {k d : Nat} (hk : k < 2 ^ 31) (hd : d < 2 ^ 31) :
    (BitVec.ofNat 32 k).sdiv (BitVec.ofNat 32 d) = BitVec.ofNat 32 (k / d) := by
  rw [BitVec.sdiv_eq, msb_ofNat_small hk, msb_ofNat_small hd]
  show (BitVec.ofNat 32 k).udiv (BitVec.ofNat 32 d) = _
  rw [BitVec.udiv_eq, BitVec.udiv_def, toNat_ofNat_small hk, toNat_ofNat_small hd]

theorem srem_ofNat_small {k d : Nat} (hk : k < 2 ^ 31) (hd : d < 2 ^ 31) :
    (BitVec.ofNat 32 k).srem (BitVec.ofNat 32 d) = BitVec.ofNat 32 (k % d) := by
  rw [BitVec.srem_eq, msb_ofNat_small hk, msb_ofNat_small hd]
  show (BitVec.ofNat 32 k) % (BitVec.ofNat 32 d) = _
  rw [BitVec.umod_def, toNat_ofNat_small hk, toNat_ofNat_small hd]

theorem not_corner {d : Nat} (hd0 : 0 < d) (hd : d < 2 ^ 31) (x : BitVec 32) :
    ¬ IntOp.SDivCorner x (BitVec.ofNat 32 d) := by
  rintro (h | ⟨_, h⟩)
  · have h' : BitVec.ofNat 32 d = 0#32 := h
    rw [ofNat_small_eq_zero_iff hd] at h'; omega
  · have := msb_ofNat_small hd
    rw [h] at this
    exact absurd this (by decide)

theorem divsi_ofNat_small (u : ArithUnit) {k d : Nat} (hk : k < 2 ^ 31) (hd0 : 0 < d) (hd : d < 2 ^ 31) :
    IntOp.divsi u (BitVec.ofNat 32 k) (BitVec.ofNat 32 d) = BitVec.ofNat 32 (k / d) := by
  unfold IntOp.divsi
  rw [if_neg (not_corner hd0 hd _), sdiv_ofNat_small hk hd]

theorem remsi_ofNat_small (u : ArithUnit) {k d : Nat} (hk : k < 2 ^ 31) (hd0 : 0 < d) (hd : d < 2 ^ 31) :
    IntOp.remsi u (BitVec.ofNat 32 k) (BitVec.ofNat 32 d) = BitVec.ofNat 32 (k % d) := by
  unfold IntOp.remsi
  rw [if_neg (not_corner hd0 hd _), srem_ofNat_small hk hd]

def sgn {w : Nat} (x : BitVec w) : BitVec w := if x = 0 then 0 else if x.msb then -1 else 1

theorem sgn_ofNat_zero : sgn (BitVec.ofNat 32 0) = 0 := by decide

theorem sgn_ofNat_pos {k : Nat} (hk0 : 0 < k) (hk : k < 2 ^ 31) : sgn (BitVec.ofNat 32 k) = 1 := by
  have hne : ¬ BitVec.ofNat 32 k = 0 := by
    intro h
    have h' : BitVec.ofNat 32 k = 0#32 := h
    rw [ofNat_small_eq_zero_iff hk] at h'; omega
  unfold sgn
  rw [if_neg hne, msb_ofNat_small hk]
  rfl

theorem cmpi_slt_zero {k : Nat} (hk : k < 2 ^ 31) : IntOp.cmpi .slt (BitVec.ofNat 32 k) 0#32 = 0#1 := by
  show BitVec.ofBool ((BitVec.ofNat 32 k).slt 0#32) = 0#1
  rw [slt_zero_ofNat_small hk]; rfl

theorem cmpi_eq_zero_of_pos {d : Nat} (hd0 : 0 < d) (hd : d < 2 ^ 31) :
    IntOp.cmpi .eq (BitVec.ofNat 32 d) 0#32 = 0#1 := by
  show BitVec.ofBool (BitVec.ofNat 32 d == 0#32) = 0#1
  have : (BitVec.ofNat 32 d == 0#32) = false := by
    rw [beq_eq_false_iff_ne]
    intro h; rw [ofNat_small_eq_zero_iff hd] at h; omega
  rw [this]; rfl

theorem select_zero {α : Type} (a b : α) : Scalar.select 0#1 a b = b := if_neg (by decide)

theorem clip_zero {k : Nat} (hk : k < 2 ^ 31) : IntOp.maxsi 0#32 (BitVec.ofNat 32 k) = BitVec.ofNat 32 k := by
  unfold IntOp.maxsi
  rw [slt_zero_ofNat_small hk]; rfl

theorem wrap_small (N : BitVec 32) {k : Nat} (hk : k < 2 ^ 31) :
    Scalar.select (IntOp.cmpi .slt (BitVec.ofNat 32 k) 0#32) (IntOp.addi (BitVec.ofNat 32 k) N) (BitVec.ofNat 32 k)
      = BitVec.ofNat 32 k := by
  rw [cmpi_slt_zero hk, select_zero]

def floorDivWord (x D : BitVec 32) : BitVec 32 :=
  Scalar.select
    (IntOp.andi (IntOp.cmpi .ne (sgn x) (sgn D)) (IntOp.cmpi .ne (IntOp.remsi .host x D) 0#32))
    (IntOp.subi (IntOp.divsi .host x D) 1#32)
    (IntOp.divsi .host x D)

private theorem andi_zero_left (c : BitVec 1) : IntOp.andi 0#1 c = 0#1 := by
  unfold IntOp.andi; exact BitVec.zero_and

theorem floorDiv_cond {k d : Nat} (hk : k < 2 ^ 31) (hd0 : 0 < d) (hd : d < 2 ^ 31) :
    IntOp.andi (IntOp.cmpi .ne (sgn (BitVec.ofNat 32 k)) (sgn (BitVec.ofNat 32 d)))
      (IntOp.cmpi .ne (IntOp.remsi .host (BitVec.ofNat 32 k) (BitVec.ofNat 32 d)) 0#32) = 0#1 := by
  rcases Nat.eq_zero_or_pos k with rfl | hk0
  · rw [remsi_ofNat_small .host hk hd0 hd, Nat.zero_mod, sgn_ofNat_zero, sgn_ofNat_pos hd0 hd]
    decide
  · rw [sgn_ofNat_pos hk0 hk, sgn_ofNat_pos hd0 hd]
    have : IntOp.cmpi .ne (1 : BitVec 32) 1 = 0#1 := by decide
    rw [this, andi_zero_left]

theorem floorDivWord_small {k d : Nat} (hk : k < 2 ^ 31) (hd0 : 0 < d) (hd : d < 2 ^ 31) :
    floorDivWord (BitVec.ofNat 32 k) (BitVec.ofNat 32 d) = BitVec.ofNat 32 (k / d) := by
  unfold floorDivWord
  rw [floorDiv_cond hk hd0 hd, select_zero, divsi_ofNat_small .host hk hd0 hd]

theorem floorDivWord_1024 {k : Nat} (hk : k ≤ 1048576) :
    floorDivWord (BitVec.ofNat 32 k) 1024#32 = BitVec.ofNat 32 (k / 1024) :=
  floorDivWord_small (by omega) (by omega) (by omega)

theorem floorDivWord_one {k : Nat} (hk : k ≤ 1048576) : floorDivWord (BitVec.ofNat 32 k) 1#32 = BitVec.ofNat 32 k := by
  have h := floorDivWord_small (k := k) (d := 1) (by omega) (by omega) (by omega)
  rwa [Nat.div_one] at h

def remGuard (D : BitVec 32) : BitVec 32 := Scalar.select (IntOp.cmpi .eq D 0#32) 1#32 D

def remainderWord (y D : BitVec 32) : BitVec 32 :=
  Scalar.select
    (IntOp.andi
      (IntOp.cmpi .ne (IntOp.cmpi .slt (IntOp.remsi .host y (remGuard D)) 0#32) (IntOp.cmpi .slt (remGuard D) 0#32))
      (IntOp.cmpi .ne (IntOp.remsi .host y (remGuard D)) 0#32))
    (IntOp.addi (IntOp.remsi .host y (remGuard D)) (remGuard D))
    (IntOp.remsi .host y (remGuard D))

theorem remGuard_of_pos {d : Nat} (hd0 : 0 < d) (hd : d < 2 ^ 31) :
    remGuard (BitVec.ofNat 32 d) = BitVec.ofNat 32 d := by
  unfold remGuard
  rw [cmpi_eq_zero_of_pos hd0 hd, select_zero]

theorem remainderWord_small {j d : Nat} (hj : j < 2 ^ 31) (hd0 : 0 < d) (hd : d < 2 ^ 31) :
    remainderWord (BitVec.ofNat 32 j) (BitVec.ofNat 32 d) = BitVec.ofNat 32 (j % d) := by
  have hr : j % d < 2 ^ 31 := Nat.lt_trans (Nat.mod_lt j hd0) hd
  unfold remainderWord
  rw [remGuard_of_pos hd0 hd, remsi_ofNat_small .host hj hd0 hd, cmpi_slt_zero hr, cmpi_slt_zero hd]
  have : IntOp.cmpi .ne (0#1) 0#1 = 0#1 := by decide
  rw [this, andi_zero_left, select_zero]

theorem remainderWord_1024 {j : Nat} (hj : j ≤ 1048576) :
    remainderWord (BitVec.ofNat 32 j) 1024#32 = BitVec.ofNat 32 (j % 1024) :=
  remainderWord_small (by omega) (by omega) (by omega)

section Vec

variable {s : Shape}

end Vec

end Cert.LibDivRem
-- ==== Proof.RefEdges.lean ====
import proofs.«138489_g81887846466032_cont_9to1c4b_857_5_alg».proof.Proof.RefFn
import proofs.«138489_g81887846466032_cont_9to1c4b_857_5_alg».proof.Proof.LibIntFold
import proofs.«138489_g81887846466032_cont_9to1c4b_857_5_alg».proof.Proof.LibDivRem

namespace Cert.ReferenceIdeal.RefEdges

open Idealize.ShloMosaic Cert.ReferenceIdeal Cert.ReferenceIdeal.RefFn Cert.LibIntFold Cert.LibDivRem

variable [Facts]
open Facts₀ Facts

variable {F : FTy → Type} [FloatOps F]

theorem cntE_full (mask : (⟨S1024x1024, .i1⟩ : BufTy).Contents (Elt F)) (hm : ∀ i, mask i = 1#1)
    (k : S1048576.Idx) : cntE mask k = BitVec.ofNat 32 ((k 0).val + 1) := by
  unfold cntE
  refine cumsum_ones (n := 1048576) (l := 1048575) rfl _ (fun i => ?_) _ (fun _ => rfl) _ _ k
  show (mask _).setWidth 32 = 1#32
  rw [hm]; rfl

theorem flatE_succ (cnt : (⟨S1048576, .i32⟩ : BufTy).Contents (Elt F))
    (hc : ∀ k : S1048576.Idx, cnt k = BitVec.ofNat 32 ((k 0).val + 1)) (k : S1048576.Idx) :
    flatE cnt k = BitVec.ofNat 32 (k 0).val := by
  unfold flatE
  refine cumsum_zero_ones (n := 1048576) (l := 1048575) rfl _ (fun i => ?_) _ (fun _ => rfl) _ _ k
  refine bincount_succ (n := 1048576) scatter_S1048576_S1048576x1_S1048576_n_0_0_1_wf _ (fun _ => rfl) _ (fun j => ?_) _
    (fun _ => rfl) i
  have hj : (j 0).val + 1 < 2 ^ 31 := by
    have h : (j 0).val < 1048576 := (j 0).isLt
    omega
  have key : ∀ j' : S1048576.Idx, (j' 0).val = (j 0).val →
      (Scalar.select (IntOp.cmpi .slt (IntOp.maxsi 0#32 (cnt j')) 0#32)
          (IntOp.addi (IntOp.maxsi 0#32 (cnt j')) 1048576#32) (IntOp.maxsi 0#32 (cnt j'))).toInt
        = (((j 0).val + 1 : Nat) : Int) := by
    intro j' h
    rw [hc, h, clip_zero hj, wrap_small _ hj, toInt_ofNat_small hj]
  exact key _ rfl

theorem srcOfE_apply (flat : (⟨S1048576, .i32⟩ : BufTy).Contents (Elt F)) (k : S1048576.Idx) :
    srcOfE flat k = remainderWord (floorDivWord (flat k) 1024#32) 1024#32 := rfl

theorem dstOfE_apply (flat : (⟨S1048576, .i32⟩ : BufTy).Contents (Elt F)) (k : S1048576.Idx) :
    dstOfE flat k = remainderWord (floorDivWord (flat k) 1#32) 1024#32 := rfl

-- With no zero in the mask the k-th listed pair is (k / 1024, k % 1024).
theorem srcE_full (mask : (⟨S1024x1024, .i1⟩ : BufTy).Contents (Elt F)) (hm : ∀ i, mask i = 1#1) :
    srcE mask = fun k => BitVec.ofNat 32 ((k 0).val / 1024) := by
  funext k
  have hk : (k 0).val < 1048576 := (k 0).isLt
  unfold srcE
  rw [srcOfE_apply, flatE_succ _ (cntE_full mask hm) k, floorDivWord_1024 (by omega), remainderWord_1024 (by omega),
    Nat.mod_eq_of_lt (by omega)]

theorem dstE_full (mask : (⟨S1024x1024, .i1⟩ : BufTy).Contents (Elt F)) (hm : ∀ i, mask i = 1#1) :
    dstE mask = fun k => BitVec.ofNat 32 ((k 0).val % 1024) := by
  funext k
  have hk : (k 0).val < 1048576 := (k 0).isLt
  unfold dstE
  rw [dstOfE_apply, flatE_succ _ (cntE_full mask hm) k, floorDivWord_one (by omega), remainderWord_1024 (by omega)]

end Cert.ReferenceIdeal.RefEdges
-- ==== Proof.LibGatherScatter.lean ====
import Idealize.ShloMosaic.Lib.ValueIdx
import Idealize.ShloMosaic.Lib.Pipeline.Value

noncomputable section

open scoped BigOperators

namespace Cert.LibGatherScatter

open Idealize.ShloMosaic Idealize.ShloMosaic.ValueIdx

theorem toInt_ofNat (m : ℕ) (h : m < 2 ^ 31) : (BitVec.ofNat 32 m).toInt = (m : ℤ) := by
  have h1 : (BitVec.ofNat 32 m).toNat = m := by
    rw [BitVec.toNat_ofNat]; exact Nat.mod_eq_of_lt (by omega)
  rw [BitVec.toInt_eq_toNat_cond, h1]
  split <;> omega

theorem toInt_toNat_ofNat (m : ℕ) (h : m < 2 ^ 31) : (BitVec.ofNat 32 m).toInt.toNat = m := by
  rw [toInt_ofNat m h]; exact Int.toNat_natCast m

private theorem coord_congr {r : ℕ} {sz : Fin r → ℕ} (j : (a : Fin r) → Fin (sz a)) (p q : Fin r) (e : p = q) :
    (j p).val = (j q).val := by subst e; rfl

private theorem not_mem_of_mem_kept {s : Shape} {l : List (Fin s.rank)} {x : Fin s.rank} (h : x ∈ s.kept l) : x ∉ l := by
  simpa [Shape.kept] using h

private theorem mem_kept_of_not_mem {s : Shape} {l : List (Fin s.rank)} {x : Fin s.rank} (h : x ∉ l) : x ∈ s.kept l := by
  simpa [Shape.kept] using h

private theorem getElem_kept_ne {s : Shape} {l : List (Fin s.rank)} (i : ℕ) (h : i < (s.kept l).length) {x : Fin s.rank}
    (hx : x ∈ l) : (s.kept l)[i] ≠ x := fun e => not_mem_of_mem_kept (e ▸ List.getElem_mem h) hx

private theorem val_eq_zero_of_length_one {β : Type} {l : List β} (c : Fin l.length) (h : l.length = 1) : c.val = 0 := by
  have := c.isLt; omega

private theorem fin2_eq_zero {x : Fin 2} (h : x ≠ 1) : x = 0 := by
  match x with
  | ⟨0, _⟩ => rfl
  | ⟨1, _⟩ => exact absurd rfl h

section Take
variable {α : Type} {N n : ℕ} (D : GatherDims ⟨1, ![N]⟩ ⟨2, ![n, 1]⟩ ⟨1, ![n]⟩)

theorem take_siIdx (hsim : D.startIndexMap = [0]) (hivd : D.indexVectorDim = 1) (k : Fin n)
    (c : Fin D.startIndexMap.length) : D.siIdx (ix1 k) c = ix2 k 0 := by
  funext b
  apply Fin.ext
  match b with
  | ⟨0, _⟩ =>
    unfold GatherDims.siIdx
    rw [dif_neg (by rw [hivd]; simp)]
    unfold GatherDims.siCoord
    simp only [Fin.val_cast]
    exact coord_congr (ix1 k) _ 0 (Subsingleton.elim _ _)
  | ⟨1, _⟩ =>
    unfold GatherDims.siIdx
    rw [dif_pos (by rw [hivd])]
    exact val_eq_zero_of_length_one c (by rw [hsim]; rfl)

theorem gather_take_ofNat (hcoll : D.collapsedSliceDims = [0]) (hob : D.operandBatchingDims = [])
    (hsim : D.startIndexMap = [0]) (hivd : D.indexVectorDim = 1)
    (x : (⟨1, ![N]⟩ : Shape).Idx → α) (idx : IVec ⟨2, ![n, 1]⟩ 32) (k : Fin n) (m : ℕ) (hm : m < N) (hN : N ≤ 2 ^ 31)
    (hidx : idx (ix2 k 0) = BitVec.ofNat 32 m) :
    Host.gather D x idx (ix1 k) = x (ix1 ⟨m, hm⟩) := by
  unfold Host.gather
  congr 1
  funext a
  obtain rfl : a = 0 := Subsingleton.elim _ _
  apply Fin.ext
  have hb : (0 : Fin 1) ∉ D.operandBatchingDims := by rw [hob]; exact List.not_mem_nil
  have hk : (0 : Fin 1) ∉ D.sKept := by rw [GatherDims.mem_sKept, hcoll]; simp
  have hmem : (0 : Fin 1) ∈ D.startIndexMap := by rw [hsim]; exact List.mem_singleton.mpr rfl
  have hsl : D.sliceSizes 0 = 1 := D.slice_collapsed 0 (by rw [hcoll]; exact List.mem_singleton.mpr rfl)
  show D.start (ix1 k) idx 0 + D.batchCoord (ix1 k) 0 + D.offCoord (ix1 k) 0 = m
  rw [D.batchCoord_eq_zero _ _ hb, D.offCoord_eq_zero _ _ hk]
  simp only [Nat.add_zero]
  unfold GatherDims.start
  rw [dif_pos hmem, take_siIdx D hsim hivd k, hidx, toInt_toNat_ofNat m (by omega), hsl]
  show min m (N - 1) = m
  omega

end Take

section Rows
variable {α : Type} {N C n : ℕ} (D : GatherDims ⟨2, ![N, C]⟩ ⟨2, ![n, 1]⟩ ⟨2, ![n, C]⟩)

theorem rows_siIdx (hoff : D.offsetDims = [1]) (hsim : D.startIndexMap = [0]) (hivd : D.indexVectorDim = 1)
    (k : Fin n) (e : Fin C) (c : Fin D.startIndexMap.length) : D.siIdx (ix2 k e) c = ix2 k 0 := by
  funext b
  apply Fin.ext
  match b with
  | ⟨0, _⟩ =>
    unfold GatherDims.siIdx
    rw [dif_neg (by rw [hivd]; simp)]
    unfold GatherDims.siCoord
    simp only [Fin.val_cast]
    exact coord_congr (ix2 k e) _ 0
      (fin2_eq_zero (getElem_kept_ne _ _ (by rw [hoff]; exact List.mem_singleton.mpr rfl)))
  | ⟨1, _⟩ =>
    unfold GatherDims.siIdx
    rw [dif_pos (by rw [hivd])]
    exact val_eq_zero_of_length_one c (by rw [hsim]; rfl)

theorem gather_rows_ofNat (hoff : D.offsetDims = [1]) (hcoll : D.collapsedSliceDims = [0])
    (hob : D.operandBatchingDims = []) (hsim : D.startIndexMap = [0]) (hivd : D.indexVectorDim = 1)
    (x : (⟨2, ![N, C]⟩ : Shape).Idx → α) (idx : IVec ⟨2, ![n, 1]⟩ 32) (k : Fin n) (e : Fin C) (m : ℕ) (hm : m < N)
    (hN : N ≤ 2 ^ 31) (hidx : idx (ix2 k 0) = BitVec.ofNat 32 m) :
    Host.gather D x idx (ix2 k e) = x (ix2 ⟨m, hm⟩ e) := by
  unfold Host.gather
  congr 1
  funext a
  apply Fin.ext
  have hb : ∀ a, a ∉ D.operandBatchingDims := fun a => by rw [hob]; exact List.not_mem_nil
  match a with
  | ⟨0, _⟩ =>
    have hk : (0 : Fin 2) ∉ D.sKept := by rw [GatherDims.mem_sKept, hcoll]; simp
    have hmem : (0 : Fin 2) ∈ D.startIndexMap := by rw [hsim]; exact List.mem_singleton.mpr rfl
    have hsl : D.sliceSizes 0 = 1 := D.slice_collapsed 0 (by rw [hcoll]; exact List.mem_singleton.mpr rfl)
    show D.start (ix2 k e) idx 0 + D.batchCoord (ix2 k e) 0 + D.offCoord (ix2 k e) 0 = m
    rw [D.batchCoord_eq_zero _ _ (hb _), D.offCoord_eq_zero _ _ hk]
    simp only [Nat.add_zero]
    unfold GatherDims.start
    rw [dif_pos hmem, rows_siIdx D hoff hsim hivd k e, hidx, toInt_toNat_ofNat m (by omega), hsl]
    show min m (N - 1) = m
    omega
  | ⟨1, _⟩ =>
    have hk : (1 : Fin 2) ∈ D.sKept := by rw [GatherDims.mem_sKept, hcoll, hob]; simp
    have hmem : (1 : Fin 2) ∉ D.startIndexMap := by rw [hsim]; simp
    show D.start (ix2 k e) idx 1 + D.batchCoord (ix2 k e) 1 + D.offCoord (ix2 k e) 1 = e.val
    rw [D.batchCoord_eq_zero _ _ (hb _)]
    unfold GatherDims.start GatherDims.offCoord
    rw [dif_neg hmem, dif_pos hk]
    simp only [Nat.add_zero, Nat.zero_add]
    refine coord_congr (ix2 k e) _ 1 ?_
    exact List.mem_singleton.1 (by rw [← hoff]; exact List.getElem_mem _)

end Rows

section Pairs
variable {α : Type} {N0 N1 n : ℕ} (D : GatherDims ⟨2, ![N0, N1]⟩ ⟨2, ![n, 2]⟩ ⟨1, ![n]⟩)

theorem pairs_siIdx (hivd : D.indexVectorDim = 1) (k : Fin n) (c : Fin D.startIndexMap.length) (c' : Fin 2)
    (hc : c.val = c'.val) : D.siIdx (ix1 k) c = ix2 k c' := by
  funext b
  apply Fin.ext
  match b with
  | ⟨0, _⟩ =>
    unfold GatherDims.siIdx
    rw [dif_neg (by rw [hivd]; simp)]
    unfold GatherDims.siCoord
    simp only [Fin.val_cast]
    exact coord_congr (ix1 k) _ 0 (Subsingleton.elim _ _)
  | ⟨1, _⟩ =>
    unfold GatherDims.siIdx
    rw [dif_pos (by rw [hivd])]
    exact hc

theorem gather_pairs_ofNat (hcoll : D.collapsedSliceDims = [0, 1]) (hob : D.operandBatchingDims = [])
    (hsim : D.startIndexMap = [0, 1]) (hivd : D.indexVectorDim = 1)
    (x : (⟨2, ![N0, N1]⟩ : Shape).Idx → α) (idx : IVec ⟨2, ![n, 2]⟩ 32) (k : Fin n) (m0 m1 : ℕ) (hm0 : m0 < N0)
    (hm1 : m1 < N1) (hN0 : N0 ≤ 2 ^ 31) (hN1 : N1 ≤ 2 ^ 31)
    (hidx0 : idx (ix2 k 0) = BitVec.ofNat 32 m0) (hidx1 : idx (ix2 k 1) = BitVec.ofNat 32 m1) :
    Host.gather D x idx (ix1 k) = x (ix2 ⟨m0, hm0⟩ ⟨m1, hm1⟩) := by
  unfold Host.gather
  congr 1
  funext a
  apply Fin.ext
  have hb : ∀ a, a ∉ D.operandBatchingDims := fun a => by rw [hob]; exact List.not_mem_nil
  match a with
  | ⟨0, _⟩ =>
    have hk : (0 : Fin 2) ∉ D.sKept := by rw [GatherDims.mem_sKept, hcoll]; simp
    have hmem : (0 : Fin 2) ∈ D.startIndexMap := by rw [hsim]; simp
    have hsl : D.sliceSizes 0 = 1 := D.slice_collapsed 0 (by rw [hcoll]; simp)
    show D.start (ix1 k) idx 0 + D.batchCoord (ix1 k) 0 + D.offCoord (ix1 k) 0 = m0
    rw [D.batchCoord_eq_zero _ _ (hb _), D.offCoord_eq_zero _ _ hk]
    simp only [Nat.add_zero]
    unfold GatherDims.start
    rw [dif_pos hmem, pairs_siIdx D hivd k _ 0 (by show List.idxOf (0 : Fin 2) D.startIndexMap = 0; rw [hsim]; simp),
      hidx0, toInt_toNat_ofNat m0 (by omega), hsl]
    show min m0 (N0 - 1) = m0
    omega
  | ⟨1, _⟩ =>
    have hk : (1 : Fin 2) ∉ D.sKept := by rw [GatherDims.mem_sKept, hcoll]; simp
    have hmem : (1 : Fin 2) ∈ D.startIndexMap := by rw [hsim]; simp
    have hsl : D.sliceSizes 1 = 1 := D.slice_collapsed 1 (by rw [hcoll]; simp)
    show D.start (ix1 k) idx 1 + D.batchCoord (ix1 k) 1 + D.offCoord (ix1 k) 1 = m1
    rw [D.batchCoord_eq_zero _ _ (hb _), D.offCoord_eq_zero _ _ hk]
    simp only [Nat.add_zero]
    unfold GatherDims.start
    rw [dif_pos hmem, pairs_siIdx D hivd k _ 1 (by show List.idxOf (1 : Fin 2) D.startIndexMap = 1; rw [hsim]; simp),
      hidx1, toInt_toNat_ofNat m1 (by omega), hsl]
    show min m1 (N1 - 1) = m1
    omega

end Pairs

section ScatterVec
variable {N n : ℕ} (D : ScatterDims ⟨1, ![N]⟩ ⟨2, ![n, 1]⟩ ⟨1, ![n]⟩)

theorem svec_siIdx (hsd : D.scatterDimsToOperandDims = [0]) (hivd : D.indexVectorDim = 1) (k : Fin n)
    (c : Fin D.scatterDimsToOperandDims.length) : D.siIdx (ix1 k) c = ix2 k 0 := by
  funext b
  apply Fin.ext
  match b with
  | ⟨0, _⟩ =>
    unfold ScatterDims.siIdx
    rw [dif_neg (by rw [hivd]; simp)]
    unfold ScatterDims.siCoord
    simp only [Fin.val_cast]
    exact coord_congr (ix1 k) _ 0 (Subsingleton.elim _ _)
  | ⟨1, _⟩ =>
    unfold ScatterDims.siIdx
    rw [dif_pos (by rw [hivd])]
    exact val_eq_zero_of_length_one c (by rw [hsd]; rfl)

theorem svec_resultIdx (hiw : D.insertedWindowDims = [0]) (hsd : D.scatterDimsToOperandDims = [0])
    (hivd : D.indexVectorDim = 1) (idx : IVec ⟨2, ![n, 1]⟩ 32) (k : Fin n) (m : ℕ) (hm : m < N) (hN : N ≤ 2 ^ 31)
    (hidx : idx (ix2 k 0) = BitVec.ofNat 32 m) : D.resultIdx? (ix1 k) idx = some (ix1 ⟨m, hm⟩) := by
  have hs : ∀ a, D.start (ix1 k) idx a + (D.window (ix1 k) a : ℤ) = (m : ℤ) := fun a => by
    obtain rfl : a = 0 := Subsingleton.elim _ _
    have hmem : (0 : Fin 1) ∈ D.scatterDimsToOperandDims := by rw [hsd]; exact List.mem_singleton.mpr rfl
    have hk : (0 : Fin 1) ∉ D.sKept := fun h => not_mem_of_mem_kept h (by rw [hiw]; exact List.mem_singleton.mpr rfl)
    unfold ScatterDims.start ScatterDims.window
    rw [dif_pos hmem, dif_neg hk, svec_siIdx D hsd hivd k, hidx, toInt_ofNat m (by omega)]
    simp
  unfold ScatterDims.resultIdx?
  rw [dif_pos (fun a => by
    obtain rfl : a = 0 := Subsingleton.elim _ _
    rw [hs 0]
    exact ⟨by omega, by show (m : ℤ) < ((N : ℕ) : ℤ); exact_mod_cast hm⟩)]
  congr 1
  funext a
  apply Fin.ext
  show (D.start (ix1 k) idx a + (D.window (ix1 k) a : ℤ)).toNat = (ix1 (⟨m, hm⟩ : Fin N) a).val
  rw [hs a]
  obtain rfl : a = 0 := Subsingleton.elim _ _
  rfl

theorem hostScatterAdd_vec (hiw : D.insertedWindowDims = [0]) (hsd : D.scatterDimsToOperandDims = [0])
    (hivd : D.indexVectorDim = 1) (x : (⟨1, ![N]⟩ : Shape).Idx → EReal) (idx : IVec ⟨2, ![n, 1]⟩ 32)
    (upd : (⟨1, ![n]⟩ : Shape).Idx → EReal) (ixN : Fin n → ℕ) (hix : ∀ k, ixN k < N) (hN : N ≤ 2 ^ 31)
    (hidx : ∀ k, idx (ix2 k 0) = BitVec.ofNat 32 (ixN k)) (d : Fin N) :
    Ideal.hostScatterAdd D x idx upd (ix1 d)
      = x (ix1 d) + ∑ k ∈ Finset.univ.filter (fun k : Fin n => ixN k = d.val), upd (ix1 k) := by
  unfold Ideal.hostScatterAdd
  congr 1
  have hiff : ∀ k : Fin n, D.resultIdx? (ix1 k) idx = some (ix1 d) ↔ ixN k = d.val := fun k => by
    rw [svec_resultIdx D hiw hsd hivd idx k (ixN k) (hix k) hN (hidx k)]
    constructor
    · intro h
      have := congrArg (fun i : (⟨1, ![N]⟩ : Shape).Idx => (i 0).val) (Option.some.inj h)
      exact this
    · intro h
      exact congrArg some (congrArg ix1 (Fin.ext h))
  refine Finset.sum_nbij' (fun j => (⟨(j 0).val, (j 0).isLt⟩ : Fin n)) (fun k => ix1 k) ?_ ?_ ?_ ?_ ?_
  · intro j hj
    have h2 := (Finset.mem_filter.mp hj).2
    rw [eq_ix1 j] at h2
    exact Finset.mem_filter.mpr ⟨Finset.mem_univ _, (hiff _).1 h2⟩
  · intro k hk
    exact Finset.mem_filter.mpr ⟨Finset.mem_univ _, (hiff k).2 (Finset.mem_filter.mp hk).2⟩
  · intro j _
    exact (eq_ix1 j).symm
  · intro k _
    rfl
  · intro j _
    exact congrArg upd (eq_ix1 j)

end ScatterVec

section ScatterRows
variable {N C n : ℕ} (D : ScatterDims ⟨2, ![N, C]⟩ ⟨2, ![n, 1]⟩ ⟨2, ![n, C]⟩)

theorem srows_siIdx (huw : D.updateWindowDims = [1]) (hsd : D.scatterDimsToOperandDims = [0])
    (hivd : D.indexVectorDim = 1) (k : Fin n) (e : Fin C) (c : Fin D.scatterDimsToOperandDims.length) :
    D.siIdx (ix2 k e) c = ix2 k 0 := by
  funext b
  apply Fin.ext
  match b with
  | ⟨0, _⟩ =>
    unfold ScatterDims.siIdx
    rw [dif_neg (by rw [hivd]; simp)]
    unfold ScatterDims.siCoord
    simp only [Fin.val_cast]
    exact coord_congr (ix2 k e) _ 0
      (fin2_eq_zero (getElem_kept_ne _ _ (by rw [huw]; exact List.mem_singleton.mpr rfl)))
  | ⟨1, _⟩ =>
    unfold ScatterDims.siIdx
    rw [dif_pos (by rw [hivd])]
    exact val_eq_zero_of_length_one c (by rw [hsd]; rfl)

theorem srows_resultIdx (huw : D.updateWindowDims = [1]) (hiw : D.insertedWindowDims = [0])
    (hsd : D.scatterDimsToOperandDims = [0]) (hivd : D.indexVectorDim = 1) (idx : IVec ⟨2, ![n, 1]⟩ 32) (k : Fin n)
    (e : Fin C) (m : ℕ) (hm : m < N) (hN : N ≤ 2 ^ 31) (hidx : idx (ix2 k 0) = BitVec.ofNat 32 m) :
    D.resultIdx? (ix2 k e) idx = some (ix2 ⟨m, hm⟩ e) := by
  have hs : ∀ a, D.start (ix2 k e) idx a + (D.window (ix2 k e) a : ℤ) = ((ix2 (⟨m, hm⟩ : Fin N) e a).val : ℤ) := fun a => by
    match a with
    | ⟨0, _⟩ =>
      have hmem : (0 : Fin 2) ∈ D.scatterDimsToOperandDims := by rw [hsd]; exact List.mem_singleton.mpr rfl
      have hk : (0 : Fin 2) ∉ D.sKept := fun h => not_mem_of_mem_kept h (by rw [hiw]; exact List.mem_singleton.mpr rfl)
      show D.start (ix2 k e) idx 0 + (D.window (ix2 k e) 0 : ℤ) = (m : ℤ)
      unfold ScatterDims.start ScatterDims.window
      rw [dif_pos hmem, dif_neg hk, srows_siIdx D huw hsd hivd k e, hidx, toInt_ofNat m (by omega)]
      show (m : ℤ) + ((0 : ℕ) : ℤ) = (m : ℤ)
      simp
    | ⟨1, _⟩ =>
      have hmem : (1 : Fin 2) ∉ D.scatterDimsToOperandDims := by rw [hsd]; simp
      have hk : (1 : Fin 2) ∈ D.sKept := mem_kept_of_not_mem (by rw [hiw]; simp)
      show D.start (ix2 k e) idx 1 + (D.window (ix2 k e) 1 : ℤ) = (e.val : ℤ)
      unfold ScatterDims.start ScatterDims.window
      rw [dif_neg hmem, dif_pos hk]
      show (0 : ℤ) + ((ix2 k e (D.updateWindowDims[List.idxOf (1 : Fin 2) D.sKept]'_)).val : ℤ) = (e.val : ℤ)
      rw [coord_congr (ix2 k e) _ 1 (List.mem_singleton.1 (by rw [← huw]; exact List.getElem_mem _))]
      exact zero_add _
  unfold ScatterDims.resultIdx?
  rw [dif_pos (fun a => by
    rw [hs a]
    exact ⟨by omega, by exact_mod_cast (ix2 (⟨m, hm⟩ : Fin N) e a).isLt⟩)]
  congr 1
  funext a
  apply Fin.ext
  show (D.start (ix2 k e) idx a + (D.window (ix2 k e) a : ℤ)).toNat = (ix2 (⟨m, hm⟩ : Fin N) e a).val
  rw [hs a]
  exact Int.toNat_natCast _

theorem hostScatterAdd_rows (huw : D.updateWindowDims = [1]) (hiw : D.insertedWindowDims = [0])
    (hsd : D.scatterDimsToOperandDims = [0]) (hivd : D.indexVectorDim = 1)
    (x : (⟨2, ![N, C]⟩ : Shape).Idx → EReal) (idx : IVec ⟨2, ![n, 1]⟩ 32) (upd : (⟨2, ![n, C]⟩ : Shape).Idx → EReal)
    (ixN : Fin n → ℕ) (hix : ∀ k, ixN k < N) (hN : N ≤ 2 ^ 31) (hidx : ∀ k, idx (ix2 k 0) = BitVec.ofNat 32 (ixN k))
    (d : Fin N) (e : Fin C) :
    Ideal.hostScatterAdd D x idx upd (ix2 d e)
      = x (ix2 d e) + ∑ k ∈ Finset.univ.filter (fun k : Fin n => ixN k = d.val), upd (ix2 k e) := by
  unfold Ideal.hostScatterAdd
  congr 1
  have hiff : ∀ (k : Fin n) (e' : Fin C), D.resultIdx? (ix2 k e') idx = some (ix2 d e) ↔ ixN k = d.val ∧ e' = e :=
    fun k e' => by
    rw [srows_resultIdx D huw hiw hsd hivd idx k e' (ixN k) (hix k) hN (hidx k)]
    constructor
    · intro h
      have h0 := congrArg (fun i : (⟨2, ![N, C]⟩ : Shape).Idx => (i 0).val) (Option.some.inj h)
      have h1 := congrArg (fun i : (⟨2, ![N, C]⟩ : Shape).Idx => (i 1).val) (Option.some.inj h)
      exact ⟨h0, Fin.ext h1⟩
    · rintro ⟨h0, rfl⟩
      exact congrArg some (congrArg (fun r => ix2 r e') (Fin.ext h0))
  have hmem : ∀ j : (⟨2, ![n, C]⟩ : Shape).Idx, D.resultIdx? j idx = some (ix2 d e) →
      ixN ⟨(j 0).val, idx2_lt0 j⟩ = d.val ∧ j = ix2 ⟨(j 0).val, idx2_lt0 j⟩ e := fun j hj => by
    rw [eq_ix2 j] at hj
    have := (hiff ⟨(j 0).val, idx2_lt0 j⟩ ⟨(j 1).val, idx2_lt1 j⟩).1 hj
    refine ⟨this.1, ?_⟩
    rw [← this.2]
    exact eq_ix2 j
  refine Finset.sum_nbij' (fun j => (⟨(j 0).val, idx2_lt0 j⟩ : Fin n)) (fun k => ix2 k e) ?_ ?_ ?_ ?_ ?_
  · intro j hj
    exact Finset.mem_filter.mpr ⟨Finset.mem_univ _, (hmem j (Finset.mem_filter.mp hj).2).1⟩
  · intro k hk
    exact Finset.mem_filter.mpr ⟨Finset.mem_univ _, (hiff k e).2 ⟨(Finset.mem_filter.mp hk).2, rfl⟩⟩
  · intro j hj
    exact ((hmem j (Finset.mem_filter.mp hj).2).2).symm
  · intro k _
    rfl
  · intro j hj
    exact congrArg upd (hmem j (Finset.mem_filter.mp hj).2).2

end ScatterRows

section Edges

def edgeInto (d : Fin 1024) : Option (Fin 1024) → Fin 1049600
  | some s => ⟨s.val * 1024 + d.val, by omega⟩
  | none => ⟨1048576 + d.val, by omega⟩

theorem sum_edges_into {M : Type*} [AddCommMonoid M] (g : Fin 1049600 → M) (d : Fin 1024) :
    ∑ k ∈ Finset.univ.filter
        (fun k : Fin 1049600 => (if k.val < 1048576 then k.val % 1024 else k.val - 1048576) = d.val), g k
      = (∑ s : Fin 1024, g ⟨s.val * 1024 + d.val, by omega⟩) + g ⟨1048576 + d.val, by omega⟩ := by
  have key : ∑ k ∈ Finset.univ.filter
        (fun k : Fin 1049600 => (if k.val < 1048576 then k.val % 1024 else k.val - 1048576) = d.val), g k
      = ∑ o : Option (Fin 1024), g (edgeInto d o) := by
    refine Finset.sum_nbij'
      (fun k : Fin 1049600 => if h : k.val < 1048576 then some (⟨k.val / 1024, by omega⟩ : Fin 1024) else none)
      (edgeInto d) ?_ ?_ ?_ ?_ ?_
    · intro k _
      exact Finset.mem_univ _
    · intro o _
      refine Finset.mem_filter.mpr ⟨Finset.mem_univ _, ?_⟩
      match o with
      | some s =>
        show (if s.val * 1024 + d.val < 1048576 then (s.val * 1024 + d.val) % 1024 else s.val * 1024 + d.val - 1048576) = d.val
        rw [if_pos (by omega)]; omega
      | none =>
        show (if 1048576 + d.val < 1048576 then (1048576 + d.val) % 1024 else 1048576 + d.val - 1048576) = d.val
        rw [if_neg (by omega)]; omega
    · intro k hk
      have hk2 := (Finset.mem_filter.mp hk).2
      by_cases h : k.val < 1048576
      · rw [if_pos h] at hk2
        simp only [dif_pos h]
        exact Fin.ext (by show k.val / 1024 * 1024 + d.val = k.val; omega)
      · rw [if_neg h] at hk2
        simp only [dif_neg h]
        exact Fin.ext (by show 1048576 + d.val = k.val; omega)
    · intro o _
      match o with
      | some s =>
        have h : (edgeInto d (some s)).val < 1048576 := by show s.val * 1024 + d.val < 1048576; omega
        simp only [dif_pos h]
        exact congrArg some (Fin.ext (by show (s.val * 1024 + d.val) / 1024 = s.val; omega))
      | none =>
        have h : ¬ (edgeInto d none).val < 1048576 := by show ¬ 1048576 + d.val < 1048576; omega
        simp only [dif_neg h]
    · intro k hk
      have hk2 := (Finset.mem_filter.mp hk).2
      by_cases h : k.val < 1048576
      · rw [if_pos h] at hk2
        simp only [dif_pos h]
        exact congrArg g (Fin.ext (by show k.val = k.val / 1024 * 1024 + d.val; omega))
      · rw [if_neg h] at hk2
        simp only [dif_neg h]
        exact congrArg g (Fin.ext (by show k.val = 1048576 + d.val; omega))
  rw [key, Fintype.sum_option, add_comm]
  rfl

end Edges

section Concat
variable {α : Type} {n m t : ℕ}

theorem concatenate_vec_left (a : (⟨1, ![n]⟩ : Shape).Idx → α) (b : (⟨1, ![m]⟩ : Shape).Idx → α)
    (h : Shape.Concatenates [⟨1, ![n]⟩, ⟨1, ![m]⟩] ⟨1, ![t]⟩ 0) (k : Fin t) (hk : k.val < n) :
    concatenate ⟨1, ![t]⟩ 0 [⟨⟨1, ![n]⟩, a⟩, ⟨⟨1, ![m]⟩, b⟩] h (ix1 k) = a (ix1 ⟨k.val, hk⟩) :=
  concatenate_pair_apply_left 0 a b h (ix1 k) rfl (ix1 ⟨k.val, hk⟩) (fun c => by
    obtain rfl : c = 0 := Subsingleton.elim _ _
    rfl)

theorem concatenate_vec_right (a : (⟨1, ![n]⟩ : Shape).Idx → α) (b : (⟨1, ![m]⟩ : Shape).Idx → α)
    (h : Shape.Concatenates [⟨1, ![n]⟩, ⟨1, ![m]⟩] ⟨1, ![t]⟩ 0) (k : Fin t) (hk : n ≤ k.val) (hk' : k.val - n < m) :
    concatenate ⟨1, ![t]⟩ 0 [⟨⟨1, ![n]⟩, a⟩, ⟨⟨1, ![m]⟩, b⟩] h (ix1 k) = b (ix1 ⟨k.val - n, hk'⟩) :=
  concatenate_pair_apply_right 0 a b h (ix1 k) rfl rfl (ix1 ⟨k.val - n, hk'⟩)
    (fun c hc => absurd (Subsingleton.elim _ _) hc) (by show k.val - n + n = k.val; omega)

end Concat

end Cert.LibGatherScatter

end
-- ==== Proof.RefLayer.lean ====
import proofs.«138489_g81887846466032_cont_9to1c4b_857_5_alg».proof.ReferenceIdeal
import proofs.«138489_g81887846466032_cont_9to1c4b_857_5_alg».proof.Proof.RefFn
import proofs.«138489_g81887846466032_cont_9to1c4b_857_5_alg».proof.Proof.RefForm
import proofs.«138489_g81887846466032_cont_9to1c4b_857_5_alg».proof.Proof.LibGatherScatter
import proofs.«138489_g81887846466032_cont_9to1c4b_857_5_alg».proof.Proof.LibIdealReal
import proofs.«138489_g81887846466032_cont_9to1c4b_857_5_alg».proof.Proof.LibRowDot
import Idealize.ShloMosaic.Lib.ValueIdx
import Idealize.ShloMosaic.Lib.IdealHost
import Idealize.ShloMosaic.PureOps.Ideal.Laws

noncomputable section

open scoped BigOperators

namespace Cert.ReferenceIdeal.RefLayer

open Idealize.ShloMosaic Idealize.ShloMosaic.ValueIdx
open Cert.ReferenceIdeal Cert.ReferenceIdeal.Facts₀ Cert.ReferenceIdeal.Facts
open Cert.LibIdealReal Cert.LibGatherScatter

variable [Cert.ReferenceIdeal.Facts]

def srcN (k : ℕ) : ℕ := if k < 1048576 then k / 1024 else k - 1048576

def dstN (k : ℕ) : ℕ := if k < 1048576 then k % 1024 else k - 1048576

theorem dstN_lt (k : Fin 1049600) : dstN k.val < 1024 := by unfold dstN; split <;> omega

def edge (s d : Fin 1024) : Fin 1049600 := ⟨s.val * 1024 + d.val, by omega⟩

def loop (d : Fin 1024) : Fin 1049600 := ⟨1048576 + d.val, by omega⟩

theorem slt_zero_ofNat (m : ℕ) (h : m < 2 ^ 31) : IntOp.cmpi .slt (BitVec.ofNat 32 m) 0#32 = 0#1 := by
  have h0 : (BitVec.ofNat 32 m).slt 0#32 = false := by
    rw [BitVec.slt, toInt_ofNat m h]
    simp
  show BitVec.ofBool ((BitVec.ofNat 32 m).slt 0#32) = 0#1
  rw [h0]; rfl

theorem wrap_ofNat (m : ℕ) (h : m < 2 ^ 31) (c : BitVec 32) :
    Scalar.select (IntOp.cmpi .slt (BitVec.ofNat 32 m) 0#32) (IntOp.addi (BitVec.ofNat 32 m) c) (BitVec.ofNat 32 m)
      = BitVec.ofNat 32 m := by
  rw [slt_zero_ofNat m h]; exact if_neg (by decide)

theorem bcast_col_apply {α : Type} {n : ℕ} (hn : n ≠ 1) (h : (⟨1, ![n]⟩ : Shape).BroadcastsInDim ⟨2, ![n, 1]⟩ ![0])
    (x : (⟨1, ![n]⟩ : Shape).Idx → α) (k : Fin n) (z : Fin 1) :
    broadcastInDim ⟨2, ![n, 1]⟩ ![0] h x (ix2 k z) = x (ix1 k) :=
  broadcastInDim_apply ![0] h x (ix2 k z) (ix1 k) (fun a => by
    obtain rfl : a = 0 := Subsingleton.elim _ _
    show k.val = if n = 1 then 0 else k.val
    rw [if_neg hn])

theorem bcast_col_mat_apply {α : Type} {n C : ℕ} (hn : n ≠ 1)
    (h : (⟨2, ![n, 1]⟩ : Shape).BroadcastsInDim ⟨2, ![n, C]⟩ ![0, 1]) (x : (⟨2, ![n, 1]⟩ : Shape).Idx → α) (k : Fin n)
    (e : Fin C) : broadcastInDim ⟨2, ![n, C]⟩ ![0, 1] h x (ix2 k e) = x (ix2 k 0) :=
  broadcastInDim_apply ![0, 1] h x (ix2 k e) (ix2 k 0) (fun a => by
    match a with
    | ⟨0, _⟩ =>
      show k.val = if n = 1 then 0 else k.val
      rw [if_neg hn]
    | ⟨1, _⟩ =>
      show (0 : ℕ) = if (1 : ℕ) = 1 then 0 else e.val
      rw [if_pos rfl])

theorem bcast_row_apply {α : Type} {C : ℕ} (hC : C ≠ 1) (h : (⟨1, ![C]⟩ : Shape).BroadcastsInDim ⟨2, ![1, C]⟩ ![1])
    (x : (⟨1, ![C]⟩ : Shape).Idx → α) (z : Fin 1) (e : Fin C) :
    broadcastInDim ⟨2, ![1, C]⟩ ![1] h x (ix2 z e) = x (ix1 e) :=
  broadcastInDim_apply ![1] h x (ix2 z e) (ix1 e) (fun a => by
    obtain rfl : a = 0 := Subsingleton.elim _ _
    show e.val = if C = 1 then 0 else e.val
    rw [if_neg hC])

theorem bcast_row_mat_apply {α : Type} {n C : ℕ} (hC : C ≠ 1)
    (h : (⟨2, ![1, C]⟩ : Shape).BroadcastsInDim ⟨2, ![n, C]⟩ ![0, 1]) (x : (⟨2, ![1, C]⟩ : Shape).Idx → α) (k : Fin n)
    (e : Fin C) : broadcastInDim ⟨2, ![n, C]⟩ ![0, 1] h x (ix2 k e) = x (ix2 0 e) :=
  broadcastInDim_apply ![0, 1] h x (ix2 k e) (ix2 0 e) (fun a => by
    match a with
    | ⟨0, _⟩ =>
      show (0 : ℕ) = if (1 : ℕ) = 1 then 0 else k.val
      rw [if_pos rfl]
    | ⟨1, _⟩ =>
      show e.val = if C = 1 then 0 else e.val
      rw [if_neg hC])

section Lists
variable (src dst : IVec S1048576 32)

theorem colE_apply (i : IVec S1048576 32) (k : Fin 1048576) (m : ℕ) (hm : m < 2 ^ 31)
    (hi : i (ix1 k) = BitVec.ofNat 32 m) : RefFn.colE (F := Ideal) i (ix2 k 0) = BitVec.ofNat 32 m := by
  unfold RefFn.colE
  rw [bcast_col_apply (by decide)]
  show Scalar.select (IntOp.cmpi .slt (i (ix1 k)) 0#32) (IntOp.addi (i (ix1 k)) 1024#32) (i (ix1 k)) = _
  rw [hi]; exact wrap_ofNat m hm _

theorem loopIdxE_edge (i : IVec S1048576 32) (k : Fin 1049600) (hk : k.val < 1048576) :
    RefFn.loopIdxE (F := Ideal) i (ix1 k) = i (ix1 ⟨k.val, hk⟩) := by
  unfold RefFn.loopIdxE
  exact concatenate_vec_left _ _ _ k hk

theorem loopIdxE_loop (i : IVec S1048576 32) (k : Fin 1049600) (hk : 1048576 ≤ k.val) :
    RefFn.loopIdxE (F := Ideal) i (ix1 k) = BitVec.ofNat 32 (k.val - 1048576) := by
  unfold RefFn.loopIdxE
  exact concatenate_vec_right _ _ _ k hk (by omega)

theorem loopIdxE_src (hsrc : ∀ k : Fin 1048576, src (ix1 k) = BitVec.ofNat 32 (k.val / 1024)) (k : Fin 1049600) :
    RefFn.loopIdxE (F := Ideal) src (ix1 k) = BitVec.ofNat 32 (srcN k.val) := by
  unfold srcN
  by_cases hk : k.val < 1048576
  · rw [loopIdxE_edge src k hk, hsrc, if_pos hk]
  · rw [loopIdxE_loop src k (by omega), if_neg hk]

theorem loopIdxE_dst (hdst : ∀ k : Fin 1048576, dst (ix1 k) = BitVec.ofNat 32 (k.val % 1024)) (k : Fin 1049600) :
    RefFn.loopIdxE (F := Ideal) dst (ix1 k) = BitVec.ofNat 32 (dstN k.val) := by
  unfold dstN
  by_cases hk : k.val < 1048576
  · rw [loopIdxE_edge dst k hk, hdst, if_pos hk]
  · rw [loopIdxE_loop dst k (by omega), if_neg hk]

def colL (i : IVec S1049600 32) : IVec S1049600x1 32 :=
  broadcastInDim S1049600x1 ![0] bcast_S1049600_S1049600x1_0 (RefFn.wrapE (F := Ideal) i)

theorem colL_apply (i : IVec S1049600 32) (k : Fin 1049600) (m : ℕ) (hm : m < 2 ^ 31)
    (hi : i (ix1 k) = BitVec.ofNat 32 m) : colL i (ix2 k 0) = BitVec.ofNat 32 m := by
  unfold colL
  rw [bcast_col_apply (by decide)]
  show Scalar.select (IntOp.cmpi .slt (i (ix1 k)) 0#32) (IntOp.addi (i (ix1 k)) 1024#32) (i (ix1 k)) = _
  rw [hi]; exact wrap_ofNat m hm _

end Lists

theorem ewE_apply (simV : FVec Ideal S1024x1024 .f32) (src dst : IVec S1048576 32)
    (hsrc : ∀ k : Fin 1048576, src (ix1 k) = BitVec.ofNat 32 (k.val / 1024))
    (hdst : ∀ k : Fin 1048576, dst (ix1 k) = BitVec.ofNat 32 (k.val % 1024)) (k : Fin 1048576) :
    RefFn.ewE (F := Ideal) simV src dst (ix1 k)
      = simV (ix2 ⟨k.val / 1024, by omega⟩ ⟨k.val % 1024, by omega⟩) := by
  unfold RefFn.ewE RefFn.gatherE
  refine gather_pairs_ofNat gather_S1024x1024_S1048576x2_S1048576_n_01_n_n_01_1_11 rfl rfl rfl rfl simV _ k
    (k.val / 1024) (k.val % 1024) (by omega) (by omega) (by norm_num) (by norm_num) ?_ ?_
  · refine (concatenate_pair_apply_left 1 _ _ concatenates_S1048576x1_S1048576x1_S1048576x2_d1 (ix2 k 0) rfl (ix2 k 0)
      (fun b => by match b with | ⟨0, _⟩ => rfl | ⟨1, _⟩ => rfl)).trans ?_
    exact colE_apply src k _ (by omega) (hsrc k)
  · refine (concatenate_pair_apply_right 1 _ _ concatenates_S1048576x1_S1048576x1_S1048576x2_d1 (ix2 k 1) rfl rfl (ix2 k 0)
      (fun b hb => by
        match b with
        | ⟨0, _⟩ => rfl
        | ⟨1, _⟩ => exact absurd rfl hb)
      (by rfl)).trans ?_
    exact colE_apply dst k _ (by omega) (hdst k)

theorem ewE_edge (simV : FVec Ideal S1024x1024 .f32) (src dst : IVec S1048576 32)
    (hsrc : ∀ k : Fin 1048576, src (ix1 k) = BitVec.ofNat 32 (k.val / 1024))
    (hdst : ∀ k : Fin 1048576, dst (ix1 k) = BitVec.ofNat 32 (k.val % 1024)) (s d : Fin 1024) :
    RefFn.ewE (F := Ideal) simV src dst (ix1 ⟨s.val * 1024 + d.val, by omega⟩) = simV (ix2 s d) := by
  rw [ewE_apply simV src dst hsrc hdst]
  congr 2 <;> exact Fin.ext (by simp only []; omega)

theorem srcN_edge (s d : Fin 1024) : srcN (s.val * 1024 + d.val) = s.val := by
  unfold srcN; rw [if_pos (by omega)]; omega
theorem dstN_edge (s d : Fin 1024) : dstN (s.val * 1024 + d.val) = d.val := by
  unfold dstN; rw [if_pos (by omega)]; omega
theorem srcN_loop (d : Fin 1024) : srcN (1048576 + d.val) = d.val := by
  unfold srcN; rw [if_neg (by omega)]; omega
theorem dstN_loop (d : Fin 1024) : dstN (1048576 + d.val) = d.val := by
  unfold dstN; rw [if_neg (by omega)]; omega

theorem loopWE_edge (ew : FVec Ideal S1048576 .f32) (s d : Fin 1024) (h : s.val * 1024 + d.val < 1049600) :
    RefFn.loopWE (F := Ideal) ew (ix1 ⟨s.val * 1024 + d.val, h⟩) = ew (ix1 ⟨s.val * 1024 + d.val, by omega⟩) := by
  unfold RefFn.loopWE
  exact concatenate_vec_left _ _ _ ⟨s.val * 1024 + d.val, h⟩ (by show s.val * 1024 + d.val < 1048576; omega)

theorem loopWE_loop (ew : FVec Ideal S1048576 .f32) (d : Fin 1024) (h : 1048576 + d.val < 1049600) :
    RefFn.loopWE (F := Ideal) ew (ix1 ⟨1048576 + d.val, h⟩) = ((1 : ℝ) : EReal) := by
  unfold RefFn.loopWE
  refine (concatenate_vec_right _ _ _ ⟨1048576 + d.val, h⟩ (by show 1048576 ≤ 1048576 + d.val; omega)
    (by show 1048576 + d.val - 1048576 < 1024; omega)).trans ?_
  exact ofBits_one

section Stages
variable (f : Cert.Gcn.FlowM)

theorem zeros_apply {T : Shape} (h : (⟨0, ![]⟩ : Shape).BroadcastsInDim T ![]) (j : T.Idx) :
    broadcastInDim T ![] h (constant (F := Ideal) S_ .f32 0x00000000#32) j = ((0 : ℝ) : EReal) :=
  (broadcastInDim_scalar_apply h _ j).trans (constant_zero_apply S_ ix0)

-- What lands on node n: one term from every source node, and n's own loop.
theorem sum_into {M : Type*} [AddCommMonoid M] (g : Fin 1049600 → M) (n : Fin 1024) :
    ∑ k ∈ Finset.univ.filter (fun k : Fin 1049600 => dstN k.val = n.val), g k
      = (∑ s : Fin 1024, g ⟨s.val * 1024 + n.val, by omega⟩) + g ⟨1048576 + n.val, by omega⟩ := by
  unfold dstN
  exact sum_edges_into g n

theorem degE_def (d : IVec S1049600 32) (w : FVec Ideal S1049600 .f32) :
    RefFn.degE (F := Ideal) d w = Ideal.hostScatterAdd scatter_S1024_S1049600x1_S1049600_n_0_0_1
      (broadcastInDim S1024 ![] bcast_S_S1024 (constant (F := Ideal) S_ .f32 0x00000000#32)) (colL d) w := rfl

theorem degE_apply (dst : IVec S1048576 32) (ew : FVec Ideal S1048576 .f32)
    (hdst : ∀ k : Fin 1048576, dst (ix1 k) = BitVec.ofNat 32 (k.val % 1024))
    (hew : ∀ s d : Fin 1024, ew (ix1 ⟨s.val * 1024 + d.val, by omega⟩) = ((Cert.Gcn.sim cval f s d : ℝ) : EReal))
    (n : Fin 1024) :
    RefFn.degE (F := Ideal) (RefFn.loopIdxE (F := Ideal) dst) (RefFn.loopWE (F := Ideal) ew) (ix1 n)
      = ((Cert.Gcn.rdeg cval f n : ℝ) : EReal) := by
  have h1 := hostScatterAdd_vec scatter_S1024_S1049600x1_S1049600_n_0_0_1 rfl rfl rfl
    (broadcastInDim S1024 ![] bcast_S_S1024 (constant (F := Ideal) S_ .f32 0x00000000#32))
    (colL (RefFn.loopIdxE (F := Ideal) dst)) (RefFn.loopWE (F := Ideal) ew)
    (fun k : Fin 1049600 => dstN k.val) dstN_lt (by norm_num)
    (fun k => colL_apply _ k _ (by have := dstN_lt k; omega) (loopIdxE_dst dst hdst k)) n
  rw [degE_def, h1, sum_into, zeros_apply]
  simp only [loopWE_edge, loopWE_loop, hew]
  rw [coe_sum, coe_add, coe_add]
  rfl

theorem dinvE_apply (deg : FVec Ideal S1024 .f32) (hdeg : ∀ n, deg (ix1 n) = ((Cert.Gcn.rdeg cval f n : ℝ) : EReal))
    (n : Fin 1024) : RefFn.dinvE (F := Ideal) deg (ix1 n) = ((Cert.Gcn.rdinv cval f n : ℝ) : EReal) := by
  show Scalar.select (Ideal.cmp .ogt (deg (ix1 n)) (Ideal.ofBits .f32 0x00000000#32)) (Ideal.rsqrt (deg (ix1 n)))
    (Ideal.ofBits .f32 0x00000000#32) = _
  rw [hdeg, ofBits_zero, cmp_ogt_coe_eq]
  unfold Cert.Gcn.rdinv
  by_cases h : 0 < Cert.Gcn.rdeg cval f n
  · rw [if_pos h, if_pos h, rsqrt_coe_of_pos h]
    exact if_pos rfl
  · rw [if_neg h, if_neg h]
    exact if_neg (by decide)

theorem normE_apply (s d : IVec S1049600 32) (w : FVec Ideal S1049600 .f32) (dinv : FVec Ideal S1024 .f32)
    (k : Fin 1049600) (ms md : Fin 1024) (hs : s (ix1 k) = BitVec.ofNat 32 ms.val)
    (hd : d (ix1 k) = BitVec.ofNat 32 md.val) :
    RefFn.normE (F := Ideal) s d w dinv (ix1 k) = dinv (ix1 ms) * w (ix1 k) * dinv (ix1 md) := by
  have e1 := gather_take_ofNat gather_S1024_S1049600x1_S1049600_n_0_n_n_0_1_1 rfl rfl rfl rfl dinv (colL s) k ms.val
    ms.isLt (by norm_num) (colL_apply s k ms.val (by omega) hs)
  have e2 := gather_take_ofNat gather_S1024_S1049600x1_S1049600_n_0_n_n_0_1_1 rfl rfl rfl rfl dinv (colL d) k md.val
    md.isLt (by norm_num) (colL_apply d k md.val (by omega) hd)
  show Host.gather gather_S1024_S1049600x1_S1049600_n_0_n_n_0_1_1 dinv (colL s) (ix1 k) * w (ix1 k)
    * Host.gather gather_S1024_S1049600x1_S1049600_n_0_n_n_0_1_1 dinv (colL d) (ix1 k) = _
  rw [e1, e2]

theorem xwE_apply (xE : FVec Ideal S1024x16 .f32) (WE : FVec Ideal S16x16 .f32) (x : Cert.Gcn.FeatM) (W : Cert.Gcn.WtM)
    (hx : ∀ n k, xE (ix2 n k) = ((x n k : ℝ) : EReal)) (hW : ∀ k e, WE (ix2 k e) = ((W k e : ℝ) : EReal))
    (n : Fin 1024) (e : Fin 16) : RefFn.xwE (F := Ideal) xE WE (ix2 n e) = ((Cert.Gcn.xw x W n e : ℝ) : EReal) := by
  have h := Cert.LibRowDot.dotGeneral_apply dot_S1024x16_S16x16_S1024x16_1_0_0_1_n_n rfl rfl rfl rfl rfl rfl none .single
    xE WE (ix2 n e)
  refine h.trans ?_
  show ∑ k : Fin 16, xE (ix2 n k) * WE (ix2 k e) = _
  simp only [hx, hW, coe_mul]
  rw [coe_sum]
  rfl

theorem msgE_apply (xw : FVec Ideal S1024x16 .f32) (s : IVec S1049600 32) (nrm : FVec Ideal S1049600 .f32)
    (k : Fin 1049600) (e : Fin 16) (ms : Fin 1024) (hs : s (ix1 k) = BitVec.ofNat 32 ms.val) :
    RefFn.msgE (F := Ideal) xw s nrm (ix2 k e) = xw (ix2 ms e) * nrm (ix1 k) := by
  have e1 := gather_rows_ofNat gather_S1024x16_S1049600x1_S1049600x16_1_0_n_n_0_1_116 rfl rfl rfl rfl rfl xw (colL s) k e
    ms.val ms.isLt (by norm_num) (colL_apply s k ms.val (by omega) hs)
  show Host.gather gather_S1024x16_S1049600x1_S1049600x16_1_0_n_n_0_1_116 xw (colL s) (ix2 k e)
    * broadcastInDim S1049600x16 ![0, 1] bcast_S1049600x1_S1049600x16_0_1
        (broadcastInDim S1049600x1 ![0] bcast_S1049600_S1049600x1_0 nrm) (ix2 k e) = _
  rw [e1, bcast_col_mat_apply (by decide), bcast_col_apply (by decide)]

theorem aggE_def (d : IVec S1049600 32) (msg : FVec Ideal S1049600x16 .f32) :
    RefFn.aggE (F := Ideal) d msg = Ideal.hostScatterAdd scatter_S1024x16_S1049600x1_S1049600x16_1_0_0_1
      (broadcastInDim S1024x16 ![] bcast_S_S1024x16 (constant (F := Ideal) S_ .f32 0x00000000#32)) (colL d) msg := rfl

theorem aggE_apply (d : IVec S1049600 32) (hd : ∀ k : Fin 1049600, d (ix1 k) = BitVec.ofNat 32 (dstN k.val))
    (msg : FVec Ideal S1049600x16 .f32) (n : Fin 1024) (e : Fin 16) :
    RefFn.aggE (F := Ideal) d msg (ix2 n e)
      = ((0 : ℝ) : EReal) + ((∑ s : Fin 1024, msg (ix2 ⟨s.val * 1024 + n.val, by omega⟩ e))
          + msg (ix2 ⟨1048576 + n.val, by omega⟩ e)) := by
  have h1 := hostScatterAdd_rows scatter_S1024x16_S1049600x1_S1049600x16_1_0_0_1 rfl rfl rfl rfl
    (broadcastInDim S1024x16 ![] bcast_S_S1024x16 (constant (F := Ideal) S_ .f32 0x00000000#32))
    (colL d) msg (fun k : Fin 1049600 => dstN k.val) dstN_lt (by norm_num)
    (fun k => colL_apply d k _ (by have := dstN_lt k; omega) (hd k)) n e
  rw [aggE_def, h1, sum_into (fun k => msg (ix2 k e)) n, zeros_apply]

end Stages

theorem layerE_apply (f : Cert.Gcn.FlowM) (simV : FVec Ideal S1024x1024 .f32)
    (hs : ∀ i j : Fin 1024, simV (ix2 i j) = ((Cert.Gcn.sim cval f i j : ℝ) : EReal))
    (src dst : IVec S1048576 32)
    (hsrc : ∀ k : Fin 1048576, src (ix1 k) = BitVec.ofNat 32 (k.val / 1024))
    (hdst : ∀ k : Fin 1048576, dst (ix1 k) = BitVec.ofNat 32 (k.val % 1024))
    (xE : FVec Ideal S1024x16 .f32) (WE : FVec Ideal S16x16 .f32) (bE : FVec Ideal S16 .f32)
    (x : Cert.Gcn.FeatM) (W : Cert.Gcn.WtM) (b : Fin 16 → ℝ)
    (hx : ∀ n k, xE (ix2 n k) = ((x n k : ℝ) : EReal)) (hW : ∀ k e, WE (ix2 k e) = ((W k e : ℝ) : EReal))
    (hb : ∀ e, bE (ix1 e) = ((b e : ℝ) : EReal)) (n : Fin 1024) (e : Fin 16) :
    RefFn.layerE (F := Ideal) src dst (RefFn.ewE (F := Ideal) simV src dst) xE WE bE (ix2 n e)
      = ((Cert.Gcn.rlayer cval f x W b n e : ℝ) : EReal) := by

  have hew : ∀ s d : Fin 1024, RefFn.ewE (F := Ideal) simV src dst (ix1 ⟨s.val * 1024 + d.val, by omega⟩)
      = ((Cert.Gcn.sim cval f s d : ℝ) : EReal) := fun s d => (ewE_edge simV src dst hsrc hdst s d).trans (hs s d)
  have hS := loopIdxE_src src hsrc
  have hD := loopIdxE_dst dst hdst
  have hSe : ∀ (s d : Fin 1024) (h : s.val * 1024 + d.val < 1049600),
      RefFn.loopIdxE (F := Ideal) src (ix1 ⟨s.val * 1024 + d.val, h⟩) = BitVec.ofNat 32 s.val := fun s d h =>
    (hS _).trans (congrArg (BitVec.ofNat 32) (srcN_edge s d))
  have hDe : ∀ (s d : Fin 1024) (h : s.val * 1024 + d.val < 1049600),
      RefFn.loopIdxE (F := Ideal) dst (ix1 ⟨s.val * 1024 + d.val, h⟩) = BitVec.ofNat 32 d.val := fun s d h =>
    (hD _).trans (congrArg (BitVec.ofNat 32) (dstN_edge s d))
  have hSl : ∀ (d : Fin 1024) (h : 1048576 + d.val < 1049600),
      RefFn.loopIdxE (F := Ideal) src (ix1 ⟨1048576 + d.val, h⟩) = BitVec.ofNat 32 d.val := fun d h =>
    (hS _).trans (congrArg (BitVec.ofNat 32) (srcN_loop d))
  have hDl : ∀ (d : Fin 1024) (h : 1048576 + d.val < 1049600),
      RefFn.loopIdxE (F := Ideal) dst (ix1 ⟨1048576 + d.val, h⟩) = BitVec.ofNat 32 d.val := fun d h =>
    (hD _).trans (congrArg (BitVec.ofNat 32) (dstN_loop d))

  have hdinv := dinvE_apply f _ (degE_apply f dst (RefFn.ewE (F := Ideal) simV src dst) hdst hew)

  have hxw := xwE_apply xE WE x W hx hW
  have hmsgE : ∀ s : Fin 1024,
      RefFn.msgE (F := Ideal) (RefFn.xwE (F := Ideal) xE WE) (RefFn.loopIdxE (F := Ideal) src)
        (RefFn.normE (F := Ideal) (RefFn.loopIdxE (F := Ideal) src) (RefFn.loopIdxE (F := Ideal) dst)
          (RefFn.loopWE (F := Ideal) (RefFn.ewE (F := Ideal) simV src dst))
          (RefFn.dinvE (F := Ideal) (RefFn.degE (F := Ideal) (RefFn.loopIdxE (F := Ideal) dst)
            (RefFn.loopWE (F := Ideal) (RefFn.ewE (F := Ideal) simV src dst)))))
        (ix2 ⟨s.val * 1024 + n.val, by omega⟩ e)
      = ((Cert.Gcn.xw x W s e * (Cert.Gcn.rdinv cval f s * Cert.Gcn.sim cval f s n * Cert.Gcn.rdinv cval f n) : ℝ) : EReal) :=
    fun s => by
    rw [msgE_apply _ _ _ _ e s (hSe s n _), normE_apply _ _ _ _ _ s n (hSe s n _) (hDe s n _), hxw, hdinv, hdinv,
      loopWE_edge, hew, coe_mul, coe_mul, coe_mul]
  have hmsgL :
      RefFn.msgE (F := Ideal) (RefFn.xwE (F := Ideal) xE WE) (RefFn.loopIdxE (F := Ideal) src)
        (RefFn.normE (F := Ideal) (RefFn.loopIdxE (F := Ideal) src) (RefFn.loopIdxE (F := Ideal) dst)
          (RefFn.loopWE (F := Ideal) (RefFn.ewE (F := Ideal) simV src dst))
          (RefFn.dinvE (F := Ideal) (RefFn.degE (F := Ideal) (RefFn.loopIdxE (F := Ideal) dst)
            (RefFn.loopWE (F := Ideal) (RefFn.ewE (F := Ideal) simV src dst)))))
        (ix2 ⟨1048576 + n.val, by omega⟩ e)
      = ((Cert.Gcn.xw x W n e * (Cert.Gcn.rdinv cval f n * 1 * Cert.Gcn.rdinv cval f n) : ℝ) : EReal) := by
    rw [msgE_apply _ _ _ _ e n (hSl n _), normE_apply _ _ _ _ _ n n (hSl n _) (hDl n _), hxw, hdinv,
      loopWE_loop, coe_mul, coe_mul, coe_mul]

  unfold RefFn.layerE RefFn.layerMainE
  rw [maximumf_apply, addf_apply, zeros_apply, aggE_apply (RefFn.loopIdxE (F := Ideal) dst) hD, hmsgL,
    bcast_row_mat_apply (by decide), bcast_row_apply (by decide), hb]
  simp only [hmsgE]
  rw [coe_sum, coe_add, coe_add, coe_add, coe_max]
  rfl

end Cert.ReferenceIdeal.RefLayer

end
-- ==== Proof.RefBatch.lean ====
import proofs.«138489_g81887846466032_cont_9to1c4b_857_5_alg».proof.Proof.RefFn
import proofs.«138489_g81887846466032_cont_9to1c4b_857_5_alg».proof.Proof.RefSimFn
import proofs.«138489_g81887846466032_cont_9to1c4b_857_5_alg».proof.Proof.RefEdges
import proofs.«138489_g81887846466032_cont_9to1c4b_857_5_alg».proof.Proof.RefLayer
import proofs.«138489_g81887846466032_cont_9to1c4b_857_5_alg».proof.Proof.RefForm
import proofs.«138489_g81887846466032_cont_9to1c4b_857_5_alg».proof.Proof.LibIdealReal
import Idealize.ShloMosaic.Lib.ValueIdx

noncomputable section

namespace Cert.ReferenceIdeal.RefBatch

open Idealize.ShloMosaic Idealize.ShloMosaic.ValueIdx
open Cert.ReferenceIdeal
open Cert.LibIdealReal (cval cval_pos)

variable [Cert.ReferenceIdeal.Facts]

-- One batch element of the reference is the real function `gcn`, entry by entry.
theorem batchE_coe (fE : FVec Ideal S24x1024 .f32) (xE : FVec Ideal S1024x16 .f32) (w0E : FVec Ideal S16x16 .f32) (b0E : FVec Ideal S16 .f32)
    (w1E : FVec Ideal S16x16 .f32) (b1E : FVec Ideal S16 .f32) (w2E : FVec Ideal S16x16 .f32) (b2E : FVec Ideal S16 .f32)
    (f : Cert.Gcn.FlowM) (x : Cert.Gcn.FeatM) (W0 W1 W2 : Cert.Gcn.WtM) (b0 b1 b2 : Fin 16 → ℝ)
    (h0 : ∀ t i, fE (ix2 t i) = ((f t i : ℝ) : EReal)) (h1 : ∀ n k, xE (ix2 n k) = ((x n k : ℝ) : EReal))
    (h2 : ∀ k e, w0E (ix2 k e) = ((W0 k e : ℝ) : EReal)) (h3 : ∀ e, b0E (ix1 e) = ((b0 e : ℝ) : EReal))
    (h4 : ∀ k e, w1E (ix2 k e) = ((W1 k e : ℝ) : EReal)) (h5 : ∀ e, b1E (ix1 e) = ((b1 e : ℝ) : EReal))
    (h6 : ∀ k e, w2E (ix2 k e) = ((W2 k e : ℝ) : EReal)) (h7 : ∀ e, b2E (ix1 e) = ((b2 e : ℝ) : EReal))
    (hf : ∀ t i, 0 < f t i) (n : Fin 1024) (e : Fin 16) :
    RefFn.batchE (F := Ideal) fE xE w0E b0E w1E b1E w2E b2E (ix2 n e)
      = ((Cert.Gcn.gcn cval f x W0 b0 W1 b1 W2 b2 n e : ℝ) : EReal) := by

  have hm : ∀ i, RefFn.maskE (F := Ideal) (RefFn.simE (F := Ideal) (RefFn.nxE (F := Ideal) fE)) i = 1#1 :=
    fun i => congrFun (RefSim.fn_maskE_eq_one fE f h0 hf) i
  have hsrc : ∀ k : Fin 1048576,
      RefFn.srcE (F := Ideal) (RefFn.maskE (F := Ideal) (RefFn.simE (F := Ideal) (RefFn.nxE (F := Ideal) fE))) (ix1 k)
        = BitVec.ofNat 32 (k.val / 1024) :=
    fun k => congrFun (RefEdges.srcE_full (F := Ideal) _ hm) (ix1 k)
  have hdst : ∀ k : Fin 1048576,
      RefFn.dstE (F := Ideal) (RefFn.maskE (F := Ideal) (RefFn.simE (F := Ideal) (RefFn.nxE (F := Ideal) fE))) (ix1 k)
        = BitVec.ofNat 32 (k.val % 1024) :=
    fun k => congrFun (RefEdges.dstE_full (F := Ideal) _ hm) (ix1 k)

  have L1 := RefLayer.layerE_apply f _ (RefSim.fn_simE_coe fE f h0) _ _ hsrc hdst xE w0E b0E x W0 b0 h1 h2 h3
  have L2 := RefLayer.layerE_apply f _ (RefSim.fn_simE_coe fE f h0) _ _ hsrc hdst _ w1E b1E _ W1 b1 L1 h4 h5
  have L3 := RefLayer.layerE_apply f _ (RefSim.fn_simE_coe fE f h0) _ _ hsrc hdst _ w2E b2E _ W2 b2 L2 h6 h7
  unfold RefFn.batchE
  rw [L3 n e]

  exact congrArg (fun r : ℝ => (r : EReal))
    (congrFun (congrFun (Cert.Gcn.rgcn_eq cval f cval_pos hf x W0 b0 W1 b1 W2 b2) n) e)

end Cert.ReferenceIdeal.RefBatch

end
-- ==== Proof.AssemblyRef.lean ====
import proofs.«138489_g81887846466032_cont_9to1c4b_857_5_alg».proof.Proof.Assembly
import proofs.«138489_g81887846466032_cont_9to1c4b_857_5_alg».proof.Proof.RefFn
import proofs.«138489_g81887846466032_cont_9to1c4b_857_5_alg».proof.Proof.RefOutRead
import proofs.«138489_g81887846466032_cont_9to1c4b_857_5_alg».proof.Proof.RefBatch

noncomputable section
open Idealize.ShloMosaic Idealize.SL.Sem Idealize.ShloMosaic.ValueIdx

namespace Cert.Assembly

open Cert.ReferenceIdeal

variable [Cert.ReferenceIdeal.Facts]

-- The reference's result array is the specification.
theorem ref_value {a0 : A0} {a1 : A1} {a2 : AW} {a3 : AB} {a4 : AW} {a5 : AB} {a6 : AW} {a7 : AB} (H : Fin8 a0 a1 a2 a3 a4 a5 a6 a7) :
    RefFn.outE (F := Ideal) a0 a1 a2 a3 a4 a5 a6 a7 = specOut a0 a1 a2 a3 a4 a5 a6 a7 := by
  funext j
  obtain ⟨b, p, q, e, rfl⟩ : ∃ (b : Fin 2) (p q : Fin 32) (e : Fin 16), j = ix4 b p q e := ⟨j 0, j 1, j 2, j 3, eq_ix4 j⟩
  show _ = ((Cert.Gcn.gcn Cert.LibIdealReal.cval (flowR a0 b) (featR a1 b) (wtR a2) (biasR a3) (wtR a4) (biasR a5) (wtR a6) (biasR a7)
      ⟨p.val * 32 + q.val, join32 p q⟩ e : ℝ) : EReal)
  match b with
  | ⟨0, _⟩ =>
    refine (Cert.ReferenceIdeal.RefOutRead.outE_apply_zero a0 a1 a2 a3 a4 a5 a6 a7 p q e).trans ?_
    exact Cert.ReferenceIdeal.RefBatch.batchE_coe _ _ _ _ _ _ _ _ _ _ _ _ _ _ _ _
      (fun t i => (Cert.ReferenceIdeal.RefOutRead.flow0E_apply a0 t i).trans (flow_coe H 0 t i))
      (fun n k => (Cert.ReferenceIdeal.RefOutRead.edge0E_apply a1 n k).trans (feat_coe H 0 n k))
      (fun k e' => wt_coe H.h2 k e') (fun e' => bias_coe H.h3 e')
      (fun k e' => wt_coe H.h4 k e') (fun e' => bias_coe H.h5 e')
      (fun k e' => wt_coe H.h6 k e') (fun e' => bias_coe H.h7 e')
      (fun t i => flow_pos H 0 t i) _ e
  | ⟨1, _⟩ =>
    refine (Cert.ReferenceIdeal.RefOutRead.outE_apply_one a0 a1 a2 a3 a4 a5 a6 a7 p q e).trans ?_
    exact Cert.ReferenceIdeal.RefBatch.batchE_coe _ _ _ _ _ _ _ _ _ _ _ _ _ _ _ _
      (fun t i => (Cert.ReferenceIdeal.RefOutRead.flow1E_apply a0 t i).trans (flow_coe H 1 t i))
      (fun n k => (Cert.ReferenceIdeal.RefOutRead.edge1E_apply a1 n k).trans (feat_coe H 1 n k))
      (fun k e' => wt_coe H.h2 k e') (fun e' => bias_coe H.h3 e')
      (fun k e' => wt_coe H.h4 k e') (fun e' => bias_coe H.h5 e')
      (fun k e' => wt_coe H.h6 k e') (fun e' => bias_coe H.h7 e')
      (fun t i => flow_pos H 1 t i) _ e

end Cert.Assembly
end
-- ==== Proof.RefOps.lean ====
import proofs.«138489_g81887846466032_cont_9to1c4b_857_5_alg».proof.Proof.Gen.ReferenceIdeal
import Idealize.ShloMosaic.Lib.StableHlo.Run

noncomputable section

namespace Cert.ReferenceIdeal.RValue

open Cert.ReferenceIdeal Cert.ReferenceIdeal.Gen Idealize.ShloMosaic Idealize.ShloMosaic.TcCoe Idealize.SL.Sem Idealize.ShloMosaic.StableHlo

variable {F : FTy → Type} [FloatOps F]

/-- An operation that writes one buffer of a list writes inside the list. -/
theorem writes_sub {y : Ref sig .tc} {W : List (Ref sig .tc)} {op : HloOp τ sig (Elt F)} (h : op.writes = {Proc.devRef .tc y}) (hy : y ∈ W) :
    op.writes ⊆ (W.map (Proc.devRef (τ := τ) .tc)).toFinset :=
  h ▸ Finset.singleton_subset_iff.2 (List.mem_toFinset.2 (List.mem_map_of_mem hy))

abbrev sg_flow_0 : List (HloOp τ sig (Elt F)) :=
  [ unary main_arg0 main_v0 ((extractStridedSlice S1x24x32x32 ![0, 0, 0, 0] · slices_S2x24x32x32_S1x24x32x32_0_0_0_0)),
    reshape main_v0 main_v1 rfl shapeCasts_S1x24x32x32_S24x32x32,
    reshape main_v1 main_v2 rfl shapeCasts_S24x32x32_S24x1024 ]
abbrev sg_flow_0_W : List (Ref sig .tc) := [main_v0, main_v1, main_v2]
theorem sg_flow_0_writes : (sg_flow_0 : List (HloOp τ sig (Elt F))).Forall fun op => op.writes ⊆ (sg_flow_0_W.map (Proc.devRef (τ := τ) .tc)).toFinset := by
  simp only [List.Forall]; and_intros <;> exact writes_sub rfl (by decide)
theorem sg_flow_0_sub : (sg_flow_0 : List (HloOp τ sig (Elt F))).Forall fun op => op.bufs ⊆ tcRefs τ sig :=
  ⟨unary_bufs_sub .., reshape_bufs_sub .., reshape_bufs_sub ..⟩
theorem sg_flow_0_fresh : (sg_flow_0 : List (HloOp τ sig (Elt F))).Forall fun op => op.fresh = ∅ :=
  ⟨rfl, rfl, rfl⟩

abbrev sg_nx_0 : List (HloOp τ sig (Elt F)) :=
  [ TRef.binary (.of main_v2 : TRef sig ⟨S24x1024, .f32⟩) (.of main_v2 : TRef sig ⟨S24x1024, .f32⟩) main_call0.v0 mulf,
    TRef.nullary main_call0.cst (constant S_ .f32 0x00000000#32),
    TRef.binary main_call0.v0 main_call0.cst main_call0.v1 (fun x v => Host.reduceAdd x v reducesTo_S24x1024_S24_d1 h_S_),
    TRef.unary main_call0.v1 main_call0.v2 (broadcastInDim S24x1 ![0] bcast_S24_S24x1_0),
    TRef.unary main_call0.v2 main_call0.v3 Host.sqrt,
    nullary main_cst (constant S_ .f32 0x2B8CBCCC#32),
    unary main_cst main_v4 (broadcastInDim S24x1 ![] bcast_S_S24x1),
    binary main_v3 main_v4 main_v5 (maximumf),
    unary main_v5 main_v6 (broadcastInDim S24x1024 ![0, 1] bcast_S24x1_S24x1024_0_1),
    binary main_v2 main_v6 main_v7 (Host.divf) ]
abbrev sg_nx_0_W : List (Ref sig .tc) := [main_call0_v0, main_call0_cst, main_call0_v1, main_call0_v2, main_v3, main_cst, main_v4, main_v5, main_v6, main_v7]
theorem sg_nx_0_writes : (sg_nx_0 : List (HloOp τ sig (Elt F))).Forall fun op => op.writes ⊆ (sg_nx_0_W.map (Proc.devRef (τ := τ) .tc)).toFinset := by
  simp only [List.Forall]; and_intros <;> exact writes_sub rfl (by decide)
theorem sg_nx_0_sub : (sg_nx_0 : List (HloOp τ sig (Elt F))).Forall fun op => op.bufs ⊆ tcRefs τ sig :=
  ⟨binary_bufs_sub .., nullary_bufs_sub .., binary_bufs_sub .., unary_bufs_sub .., unary_bufs_sub .., nullary_bufs_sub .., unary_bufs_sub .., binary_bufs_sub .., unary_bufs_sub .., binary_bufs_sub ..⟩
theorem sg_nx_0_fresh : (sg_nx_0 : List (HloOp τ sig (Elt F))).Forall fun op => op.fresh = ∅ :=
  ⟨rfl, rfl, rfl, rfl, rfl, rfl, rfl, rfl, rfl, rfl⟩

abbrev sg_sim_0 : List (HloOp τ sig (Elt F)) :=
  [ unary main_v7 main_v8 ((transpose S1024x24 [1, 0] · transposes_S24x1024_S1024x24_1_0)),
    binary main_v8 main_v7 main_v9 ((fun l r => Host.dotGeneral dot_S1024x24_S24x1024_S1024x1024_1_0_0_1_n_n none l r)) ]
abbrev sg_sim_0_W : List (Ref sig .tc) := [main_v8, main_v9]
theorem sg_sim_0_writes : (sg_sim_0 : List (HloOp τ sig (Elt F))).Forall fun op => op.writes ⊆ (sg_sim_0_W.map (Proc.devRef (τ := τ) .tc)).toFinset := by
  simp only [List.Forall]; and_intros <;> exact writes_sub rfl (by decide)
theorem sg_sim_0_sub : (sg_sim_0 : List (HloOp τ sig (Elt F))).Forall fun op => op.bufs ⊆ tcRefs τ sig :=
  ⟨unary_bufs_sub .., binary_bufs_sub ..⟩
theorem sg_sim_0_fresh : (sg_sim_0 : List (HloOp τ sig (Elt F))).Forall fun op => op.fresh = ∅ :=
  ⟨rfl, rfl⟩

abbrev sg_mask_0 : List (HloOp τ sig (Elt F)) :=
  [ nullary main_cst_0 (constant S_ .f32 0x00000000#32),
    unary main_cst_0 main_v10 (broadcastInDim S1024x1024 ![] bcast_S_S1024x1024),
    binary main_v9 main_v10 main_v11 (cmpf .une) ]
abbrev sg_mask_0_W : List (Ref sig .tc) := [main_cst_0, main_v10, main_v11]
theorem sg_mask_0_writes : (sg_mask_0 : List (HloOp τ sig (Elt F))).Forall fun op => op.writes ⊆ (sg_mask_0_W.map (Proc.devRef (τ := τ) .tc)).toFinset := by
  simp only [List.Forall]; and_intros <;> exact writes_sub rfl (by decide)
theorem sg_mask_0_sub : (sg_mask_0 : List (HloOp τ sig (Elt F))).Forall fun op => op.bufs ⊆ tcRefs τ sig :=
  ⟨nullary_bufs_sub .., unary_bufs_sub .., binary_bufs_sub ..⟩
theorem sg_mask_0_fresh : (sg_mask_0 : List (HloOp τ sig (Elt F))).Forall fun op => op.fresh = ∅ :=
  ⟨rfl, rfl, rfl⟩

abbrev sg_cnt_0 : List (HloOp τ sig (Elt F)) :=
  [ TRef.reshape (.of main_v11 : TRef sig ⟨S1024x1024, .i1⟩) main_call1.v0 rfl shapeCasts_S1024x1024_S1048576,
    TRef.unary main_call1.v0 main_call1.v1 (extui 32 · natLt_1_32),
    TRef.nullary main_call1.call0.c (constantI S_ 32 0#32),
    TRef.unary main_call1.call0.c main_call1.call0.v0 (broadcastInDim S_ ![] bcast_S_S_),
    TRef.binary main_call1.v1 main_call1.call0.v0 main_call1.call0.v1 (fun x v => Host.reduceWindow IntOp.addi ![1048576] ![1] ![1048575] ![0] x v reduceWindows_S1048576_S1048576_w1048576s1p1048575_0 h_S_) ]
abbrev sg_cnt_0_W : List (Ref sig .tc) := [main_call1_v0, main_call1_v1, main_call1_call0_c, main_call1_call0_v0, main_v12]
theorem sg_cnt_0_writes : (sg_cnt_0 : List (HloOp τ sig (Elt F))).Forall fun op => op.writes ⊆ (sg_cnt_0_W.map (Proc.devRef (τ := τ) .tc)).toFinset := by
  simp only [List.Forall]; and_intros <;> exact writes_sub rfl (by decide)
theorem sg_cnt_0_sub : (sg_cnt_0 : List (HloOp τ sig (Elt F))).Forall fun op => op.bufs ⊆ tcRefs τ sig :=
  ⟨reshape_bufs_sub .., unary_bufs_sub .., nullary_bufs_sub .., unary_bufs_sub .., binary_bufs_sub ..⟩
theorem sg_cnt_0_fresh : (sg_cnt_0 : List (HloOp τ sig (Elt F))).Forall fun op => op.fresh = ∅ :=
  ⟨rfl, rfl, rfl, rfl, rfl⟩

abbrev sg_flA_0 : List (HloOp τ sig (Elt F)) :=
  [ nullary main_c (constantI S_ 32 0#32),
    unary main_c main_v13 (broadcastInDim S1048576 ![] bcast_S_S1048576),
    nullary main_c_1 (constantI S_ 32 0#32),
    TRef.unary (.of main_c_1 : TRef sig ⟨S_, .i32⟩) main_call2.v0 id,
    TRef.unary main_call2.v0 main_call2.v1 (broadcastInDim S1048576 ![] bcast_S_S1048576),
    TRef.binary main_call2.v1 (.of main_v12 : TRef sig ⟨S1048576, .i32⟩) main_call2.v2 maxsi,
    nullary main_c_2 (constantI S_ 32 0#32),
    unary main_c_2 main_v15 (broadcastInDim S1048576 ![] bcast_S_S1048576),
    binary main_v14 main_v15 main_v16 (cmpi .slt),
    nullary main_c_3 (constantI S_ 32 1048576#32),
    unary main_c_3 main_v17 (broadcastInDim S1048576 ![] bcast_S_S1048576),
    binary main_v14 main_v17 main_v18 (addi),
    ternary main_v16 main_v18 main_v14 main_v19 (select) ]
abbrev sg_flA_0_W : List (Ref sig .tc) := [main_c, main_v13, main_c_1, main_call2_v0, main_call2_v1, main_v14, main_c_2, main_v15, main_v16, main_c_3, main_v17, main_v18, main_v19]
theorem sg_flA_0_writes : (sg_flA_0 : List (HloOp τ sig (Elt F))).Forall fun op => op.writes ⊆ (sg_flA_0_W.map (Proc.devRef (τ := τ) .tc)).toFinset := by
  simp only [List.Forall]; and_intros <;> exact writes_sub rfl (by decide)
theorem sg_flA_0_sub : (sg_flA_0 : List (HloOp τ sig (Elt F))).Forall fun op => op.bufs ⊆ tcRefs τ sig :=
  ⟨nullary_bufs_sub .., unary_bufs_sub .., nullary_bufs_sub .., unary_bufs_sub .., unary_bufs_sub .., binary_bufs_sub .., nullary_bufs_sub .., unary_bufs_sub .., binary_bufs_sub .., nullary_bufs_sub .., unary_bufs_sub .., binary_bufs_sub .., ternary_bufs_sub ..⟩
theorem sg_flA_0_fresh : (sg_flA_0 : List (HloOp τ sig (Elt F))).Forall fun op => op.fresh = ∅ :=
  ⟨rfl, rfl, rfl, rfl, rfl, rfl, rfl, rfl, rfl, rfl, rfl, rfl, rfl⟩

abbrev sg_flB_0 : List (HloOp τ sig (Elt F)) :=
  [ unary main_v19 main_v20 (broadcastInDim S1048576x1 ![0] bcast_S1048576_S1048576x1_0),
    nullary main_c_4 (constantI S_ 32 1#32),
    unary main_c_4 main_v21 (broadcastInDim S1048576 ![] bcast_S_S1048576) ]
abbrev sg_flB_0_W : List (Ref sig .tc) := [main_v20, main_c_4, main_v21]
theorem sg_flB_0_writes : (sg_flB_0 : List (HloOp τ sig (Elt F))).Forall fun op => op.writes ⊆ (sg_flB_0_W.map (Proc.devRef (τ := τ) .tc)).toFinset := by
  simp only [List.Forall]; and_intros <;> exact writes_sub rfl (by decide)
theorem sg_flB_0_sub : (sg_flB_0 : List (HloOp τ sig (Elt F))).Forall fun op => op.bufs ⊆ tcRefs τ sig :=
  ⟨unary_bufs_sub .., nullary_bufs_sub .., unary_bufs_sub ..⟩
theorem sg_flB_0_fresh : (sg_flB_0 : List (HloOp τ sig (Elt F))).Forall fun op => op.fresh = ∅ :=
  ⟨rfl, rfl, rfl⟩

abbrev sg_flC_0 : List (HloOp τ sig (Elt F)) :=
  [ ternary main_v13 main_v20 main_v21 main_v22 ((fun x i u => Host.scatter scatter_S1048576_S1048576x1_S1048576_n_0_0_1 IntOp.addi x i u)) ]
abbrev sg_flC_0_W : List (Ref sig .tc) := [main_v22]
theorem sg_flC_0_writes : (sg_flC_0 : List (HloOp τ sig (Elt F))).Forall fun op => op.writes ⊆ (sg_flC_0_W.map (Proc.devRef (τ := τ) .tc)).toFinset := by
  simp only [List.Forall]; and_intros <;> exact writes_sub rfl (by decide)
theorem sg_flC_0_sub : (sg_flC_0 : List (HloOp τ sig (Elt F))).Forall fun op => op.bufs ⊆ tcRefs τ sig :=
  ternary_bufs_sub ..
theorem sg_flC_0_fresh : (sg_flC_0 : List (HloOp τ sig (Elt F))).Forall fun op => op.fresh = ∅ :=
  rfl

abbrev sg_flD_0 : List (HloOp τ sig (Elt F)) :=
  [ TRef.nullary main_call3.call0.c (constantI S_ 32 0#32),
    TRef.unary main_call3.call0.c main_call3.call0.v0 (broadcastInDim S_ ![] bcast_S_S_),
    TRef.binary (.of main_v22 : TRef sig ⟨S1048576, .i32⟩) main_call3.call0.v0 main_call3.call0.v1 (fun x v => Host.reduceWindow IntOp.addi ![1048576] ![1] ![1048575] ![0] x v reduceWindows_S1048576_S1048576_w1048576s1p1048575_0 h_S_) ]
abbrev sg_flD_0_W : List (Ref sig .tc) := [main_call3_call0_c, main_call3_call0_v0, main_v23]
theorem sg_flD_0_writes : (sg_flD_0 : List (HloOp τ sig (Elt F))).Forall fun op => op.writes ⊆ (sg_flD_0_W.map (Proc.devRef (τ := τ) .tc)).toFinset := by
  simp only [List.Forall]; and_intros <;> exact writes_sub rfl (by decide)
theorem sg_flD_0_sub : (sg_flD_0 : List (HloOp τ sig (Elt F))).Forall fun op => op.bufs ⊆ tcRefs τ sig :=
  ⟨nullary_bufs_sub .., unary_bufs_sub .., binary_bufs_sub ..⟩
theorem sg_flD_0_fresh : (sg_flD_0 : List (HloOp τ sig (Elt F))).Forall fun op => op.fresh = ∅ :=
  ⟨rfl, rfl, rfl⟩

abbrev sg_fdS_0 : List (HloOp τ sig (Elt F)) :=
  [ nullary main_c_5 (constantI S_ 32 1024#32),
    TRef.unary (.of main_c_5 : TRef sig ⟨S_, .i32⟩) main_call4.v0 (broadcastInDim S1048576 ![] bcast_S_S1048576),
    TRef.binary (.of main_v23 : TRef sig ⟨S1048576, .i32⟩) main_call4.v0 main_call4.v1 Host.divsi,
    TRef.unary (.of main_v23 : TRef sig ⟨S1048576, .i32⟩) main_call4.v2 signi,
    TRef.unary (.of main_c_5 : TRef sig ⟨S_, .i32⟩) main_call4.v3 signi,
    TRef.unary main_call4.v3 main_call4.v4 (broadcastInDim S1048576 ![] bcast_S_S1048576),
    TRef.binary main_call4.v2 main_call4.v4 main_call4.v5 (cmpi .ne),
    TRef.unary (.of main_c_5 : TRef sig ⟨S_, .i32⟩) main_call4.v6 (broadcastInDim S1048576 ![] bcast_S_S1048576),
    TRef.binary (.of main_v23 : TRef sig ⟨S1048576, .i32⟩) main_call4.v6 main_call4.v7 Host.remsi,
    TRef.nullary main_call4.c (constantI S_ 32 0#32),
    TRef.unary main_call4.c main_call4.v8 (broadcastInDim S1048576 ![] bcast_S_S1048576),
    TRef.binary main_call4.v7 main_call4.v8 main_call4.v9 (cmpi .ne),
    TRef.binary main_call4.v5 main_call4.v9 main_call4.v10 andi,
    TRef.nullary main_call4.c_0 (constantI S_ 32 1#32),
    TRef.unary main_call4.c_0 main_call4.v11 (broadcastInDim S1048576 ![] bcast_S_S1048576),
    TRef.binary main_call4.v1 main_call4.v11 main_call4.v12 subi,
    TRef.ternary main_call4.v10 main_call4.v12 main_call4.v1 main_call4.call0.v0 select ]
abbrev sg_fdS_0_W : List (Ref sig .tc) := [main_c_5, main_call4_v0, main_call4_v1, main_call4_v2, main_call4_v3, main_call4_v4, main_call4_v5, main_call4_v6, main_call4_v7, main_call4_c, main_call4_v8, main_call4_v9, main_call4_v10, main_call4_c_0, main_call4_v11, main_call4_v12, main_v24]
theorem sg_fdS_0_writes : (sg_fdS_0 : List (HloOp τ sig (Elt F))).Forall fun op => op.writes ⊆ (sg_fdS_0_W.map (Proc.devRef (τ := τ) .tc)).toFinset := by
  simp only [List.Forall]; and_intros <;> exact writes_sub rfl (by decide)
theorem sg_fdS_0_sub : (sg_fdS_0 : List (HloOp τ sig (Elt F))).Forall fun op => op.bufs ⊆ tcRefs τ sig :=
  ⟨nullary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub ..⟩
theorem sg_fdS_0_fresh : (sg_fdS_0 : List (HloOp τ sig (Elt F))).Forall fun op => op.fresh = ∅ :=
  ⟨rfl, rfl, rfl, rfl, rfl, rfl, rfl, rfl, rfl, rfl, rfl, rfl, rfl, rfl, rfl, rfl, rfl⟩

abbrev sg_rmS_0 : List (HloOp τ sig (Elt F)) :=
  [ nullary main_c_6 (constantI S_ 32 1024#32),
    TRef.unary (.of main_c_6 : TRef sig ⟨S_, .i32⟩) main_call5.v0 id,
    TRef.nullary main_call5.c (constantI S_ 32 0#32),
    TRef.binary main_call5.v0 main_call5.c main_call5.v1 (cmpi .eq),
    TRef.nullary main_call5.c_0 (constantI S_ 32 1#32),
    TRef.ternary main_call5.v1 main_call5.c_0 main_call5.v0 main_call5.call0.v0 select,
    TRef.unary main_call5.call0.v0 main_call5.v3 (broadcastInDim S1048576 ![] bcast_S_S1048576),
    TRef.binary (.of main_v24 : TRef sig ⟨S1048576, .i32⟩) main_call5.v3 main_call5.v4 Host.remsi,
    TRef.nullary main_call5.c_1 (constantI S_ 32 0#32),
    TRef.unary main_call5.c_1 main_call5.v5 (broadcastInDim S1048576 ![] bcast_S_S1048576),
    TRef.binary main_call5.v4 main_call5.v5 main_call5.v6 (cmpi .ne),
    TRef.nullary main_call5.c_2 (constantI S_ 32 0#32),
    TRef.unary main_call5.c_2 main_call5.v7 (broadcastInDim S1048576 ![] bcast_S_S1048576),
    TRef.binary main_call5.v4 main_call5.v7 main_call5.v8 (cmpi .slt),
    TRef.nullary main_call5.c_3 (constantI S_ 32 0#32),
    TRef.binary main_call5.call0.v0 main_call5.c_3 main_call5.v9 (cmpi .slt),
    TRef.unary main_call5.v9 main_call5.v10 (broadcastInDim S1048576 ![] bcast_S_S1048576),
    TRef.binary main_call5.v8 main_call5.v10 main_call5.v11 (cmpi .ne),
    TRef.binary main_call5.v11 main_call5.v6 main_call5.v12 andi,
    TRef.unary main_call5.call0.v0 main_call5.v13 (broadcastInDim S1048576 ![] bcast_S_S1048576),
    TRef.binary main_call5.v4 main_call5.v13 main_call5.v14 addi,
    TRef.ternary main_call5.v12 main_call5.v14 main_call5.v4 main_call5.v15 select ]
abbrev sg_rmS_0_W : List (Ref sig .tc) := [main_c_6, main_call5_v0, main_call5_c, main_call5_v1, main_call5_c_0, main_call5_v2, main_call5_v3, main_call5_v4, main_call5_c_1, main_call5_v5, main_call5_v6, main_call5_c_2, main_call5_v7, main_call5_v8, main_call5_c_3, main_call5_v9, main_call5_v10, main_call5_v11, main_call5_v12, main_call5_v13, main_call5_v14, main_v25]
theorem sg_rmS_0_writes : (sg_rmS_0 : List (HloOp τ sig (Elt F))).Forall fun op => op.writes ⊆ (sg_rmS_0_W.map (Proc.devRef (τ := τ) .tc)).toFinset := by
  simp only [List.Forall]; and_intros <;> exact writes_sub rfl (by decide)
theorem sg_rmS_0_sub : (sg_rmS_0 : List (HloOp τ sig (Elt F))).Forall fun op => op.bufs ⊆ tcRefs τ sig :=
  ⟨nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩
theorem sg_rmS_0_fresh : (sg_rmS_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩

abbrev sg_fdD_0 : List (HloOp τ sig (Elt F)) :=
  [ nullary main_c_7 (constantI S_ 32 1#32),
    TRef.unary (.of main_c_7 : TRef sig ⟨S_, .i32⟩) main_call6.v0 (broadcastInDim S1048576 ![] bcast_S_S1048576),
    TRef.binary (.of main_v23 : TRef sig ⟨S1048576, .i32⟩) main_call6.v0 main_call6.v1 Host.divsi,
    TRef.unary (.of main_v23 : TRef sig ⟨S1048576, .i32⟩) main_call6.v2 signi,
    TRef.unary (.of main_c_7 : TRef sig ⟨S_, .i32⟩) main_call6.v3 signi,
    TRef.unary main_call6.v3 main_call6.v4 (broadcastInDim S1048576 ![] bcast_S_S1048576),
    TRef.binary main_call6.v2 main_call6.v4 main_call6.v5 (cmpi .ne),
    TRef.unary (.of main_c_7 : TRef sig ⟨S_, .i32⟩) main_call6.v6 (broadcastInDim S1048576 ![] bcast_S_S1048576),
    TRef.binary (.of main_v23 : TRef sig ⟨S1048576, .i32⟩) main_call6.v6 main_call6.v7 Host.remsi,
    TRef.nullary main_call6.c (constantI S_ 32 0#32),
    TRef.unary main_call6.c main_call6.v8 (broadcastInDim S1048576 ![] bcast_S_S1048576),
    TRef.binary main_call6.v7 main_call6.v8 main_call6.v9 (cmpi .ne),
    TRef.binary main_call6.v5 main_call6.v9 main_call6.v10 andi,
    TRef.nullary main_call6.c_0 (constantI S_ 32 1#32),
    TRef.unary main_call6.c_0 main_call6.v11 (broadcastInDim S1048576 ![] bcast_S_S1048576),
    TRef.binary main_call6.v1 main_call6.v11 main_call6.v12 subi,
    TRef.ternary main_call6.v10 main_call6.v12 main_call6.v1 main_call6.call0.v0 select ]
abbrev sg_fdD_0_W : List (Ref sig .tc) := [main_c_7, main_call6_v0, main_call6_v1, main_call6_v2, main_call6_v3, main_call6_v4, main_call6_v5, main_call6_v6, main_call6_v7, main_call6_c, main_call6_v8, main_call6_v9, main_call6_v10, main_call6_c_0, main_call6_v11, main_call6_v12, main_v26]
theorem sg_fdD_0_writes : (sg_fdD_0 : List (HloOp τ sig (Elt F))).Forall fun op => op.writes ⊆ (sg_fdD_0_W.map (Proc.devRef (τ := τ) .tc)).toFinset := by
  simp only [List.Forall]; and_intros <;> exact writes_sub rfl (by decide)
theorem sg_fdD_0_sub : (sg_fdD_0 : List (HloOp τ sig (Elt F))).Forall fun op => op.bufs ⊆ tcRefs τ sig :=
  ⟨nullary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub ..⟩
theorem sg_fdD_0_fresh : (sg_fdD_0 : List (HloOp τ sig (Elt F))).Forall fun op => op.fresh = ∅ :=
  ⟨rfl, rfl, rfl, rfl, rfl, rfl, rfl, rfl, rfl, rfl, rfl, rfl, rfl, rfl, rfl, rfl, rfl⟩

abbrev sg_rmD_0 : List (HloOp τ sig (Elt F)) :=
  [ nullary main_c_8 (constantI S_ 32 1024#32),
    TRef.unary (.of main_c_8 : TRef sig ⟨S_, .i32⟩) main_call7.v0 id,
    TRef.nullary main_call7.c (constantI S_ 32 0#32),
    TRef.binary main_call7.v0 main_call7.c main_call7.v1 (cmpi .eq),
    TRef.nullary main_call7.c_0 (constantI S_ 32 1#32),
    TRef.ternary main_call7.v1 main_call7.c_0 main_call7.v0 main_call7.call0.v0 select,
    TRef.unary main_call7.call0.v0 main_call7.v3 (broadcastInDim S1048576 ![] bcast_S_S1048576),
    TRef.binary (.of main_v26 : TRef sig ⟨S1048576, .i32⟩) main_call7.v3 main_call7.v4 Host.remsi,
    TRef.nullary main_call7.c_1 (constantI S_ 32 0#32),
    TRef.unary main_call7.c_1 main_call7.v5 (broadcastInDim S1048576 ![] bcast_S_S1048576),
    TRef.binary main_call7.v4 main_call7.v5 main_call7.v6 (cmpi .ne),
    TRef.nullary main_call7.c_2 (constantI S_ 32 0#32),
    TRef.unary main_call7.c_2 main_call7.v7 (broadcastInDim S1048576 ![] bcast_S_S1048576),
    TRef.binary main_call7.v4 main_call7.v7 main_call7.v8 (cmpi .slt),
    TRef.nullary main_call7.c_3 (constantI S_ 32 0#32),
    TRef.binary main_call7.call0.v0 main_call7.c_3 main_call7.v9 (cmpi .slt),
    TRef.unary main_call7.v9 main_call7.v10 (broadcastInDim S1048576 ![] bcast_S_S1048576),
    TRef.binary main_call7.v8 main_call7.v10 main_call7.v11 (cmpi .ne),
    TRef.binary main_call7.v11 main_call7.v6 main_call7.v12 andi,
    TRef.unary main_call7.call0.v0 main_call7.v13 (broadcastInDim S1048576 ![] bcast_S_S1048576),
    TRef.binary main_call7.v4 main_call7.v13 main_call7.v14 addi,
    TRef.ternary main_call7.v12 main_call7.v14 main_call7.v4 main_call7.v15 select ]
abbrev sg_rmD_0_W : List (Ref sig .tc) := [main_c_8, main_call7_v0, main_call7_c, main_call7_v1, main_call7_c_0, main_call7_v2, main_call7_v3, main_call7_v4, main_call7_c_1, main_call7_v5, main_call7_v6, main_call7_c_2, main_call7_v7, main_call7_v8, main_call7_c_3, main_call7_v9, main_call7_v10, main_call7_v11, main_call7_v12, main_call7_v13, main_call7_v14, main_v27]
theorem sg_rmD_0_writes : (sg_rmD_0 : List (HloOp τ sig (Elt F))).Forall fun op => op.writes ⊆ (sg_rmD_0_W.map (Proc.devRef (τ := τ) .tc)).toFinset := by
  simp only [List.Forall]; and_intros <;> exact writes_sub rfl (by decide)
theorem sg_rmD_0_sub : (sg_rmD_0 : List (HloOp τ sig (Elt F))).Forall fun op => op.bufs ⊆ tcRefs τ sig :=
  ⟨nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩
theorem sg_rmD_0_fresh : (sg_rmD_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩

abbrev sg_ewA_0 : List (HloOp τ sig (Elt F)) :=
  [ nullary main_c_9 (constantI S_ 32 0#32),
    unary main_c_9 main_v28 (broadcastInDim S1048576 ![] bcast_S_S1048576),
    binary main_v25 main_v28 main_v29 (cmpi .slt),
    nullary main_c_10 (constantI S_ 32 1024#32),
    unary main_c_10 main_v30 (broadcastInDim S1048576 ![] bcast_S_S1048576),
    binary main_v25 main_v30 main_v31 (addi),
    ternary main_v29 main_v31 main_v25 main_v32 (select),
    nullary main_c_11 (constantI S_ 32 0#32),
    unary main_c_11 main_v33 (broadcastInDim S1048576 ![] bcast_S_S1048576),
    binary main_v27 main_v33 main_v34 (cmpi .slt),
    nullary main_c_12 (constantI S_ 32 1024#32),
    unary main_c_12 main_v35 (broadcastInDim S1048576 ![] bcast_S_S1048576),
    binary main_v27 main_v35 main_v36 (addi),
    ternary main_v34 main_v36 main_v27 main_v37 (select),
    unary main_v32 main_v38 (broadcastInDim S1048576x1 ![0] bcast_S1048576_S1048576x1_0),
    unary main_v37 main_v39 (broadcastInDim S1048576x1 ![0] bcast_S1048576_S1048576x1_0) ]
abbrev sg_ewA_0_W : List (Ref sig .tc) := [main_c_9, main_v28, main_v29, main_c_10, main_v30, main_v31, main_v32, main_c_11, main_v33, main_v34, main_c_12, main_v35, main_v36, main_v37, main_v38, main_v39]
theorem sg_ewA_0_writes : (sg_ewA_0 : List (HloOp τ sig (Elt F))).Forall fun op => op.writes ⊆ (sg_ewA_0_W.map (Proc.devRef (τ := τ) .tc)).toFinset := by
  simp only [List.Forall]; and_intros <;> exact writes_sub rfl (by decide)
theorem sg_ewA_0_sub : (sg_ewA_0 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub ..⟩
theorem sg_ewA_0_fresh : (sg_ewA_0 : List (HloOp τ sig (Elt F))).Forall fun op => op.fresh = ∅ :=
  ⟨rfl, rfl, rfl, rfl, rfl, rfl, rfl, rfl, rfl, rfl, rfl, rfl, rfl, rfl, rfl, rfl⟩

abbrev sg_ewB_0 : List (HloOp τ sig (Elt F)) :=
  [ binary main_v38 main_v39 main_v40 ((fun a b => concatenate S1048576x2 1 [⟨S1048576x1, a⟩, ⟨S1048576x1, b⟩] concatenates_S1048576x1_S1048576x1_S1048576x2_d1)),
    binary main_v9 main_v40 main_v41 ((fun x i => Host.gather gather_S1024x1024_S1048576x2_S1048576_n_01_n_n_01_1_11 x i)) ]
abbrev sg_ewB_0_W : List (Ref sig .tc) := [main_v40, main_v41]
theorem sg_ewB_0_writes : (sg_ewB_0 : List (HloOp τ sig (Elt F))).Forall fun op => op.writes ⊆ (sg_ewB_0_W.map (Proc.devRef (τ := τ) .tc)).toFinset := by
  simp only [List.Forall]; and_intros <;> exact writes_sub rfl (by decide)
theorem sg_ewB_0_sub : (sg_ewB_0 : List (HloOp τ sig (Elt F))).Forall fun op => op.bufs ⊆ tcRefs τ sig :=
  ⟨binary_bufs_sub .., binary_bufs_sub ..⟩
theorem sg_ewB_0_fresh : (sg_ewB_0 : List (HloOp τ sig (Elt F))).Forall fun op => op.fresh = ∅ :=
  ⟨rfl, rfl⟩

abbrev sg_edge_0 : List (HloOp τ sig (Elt F)) :=
  [ unary main_arg1 main_v42 ((extractStridedSlice S1x32x32x16 ![0, 0, 0, 0] · slices_S2x32x32x16_S1x32x32x16_0_0_0_0)),
    reshape main_v42 main_v43 rfl shapeCasts_S1x32x32x16_S32x32x16,
    reshape main_v43 main_v44 rfl shapeCasts_S32x32x16_S1024x16 ]
abbrev sg_edge_0_W : List (Ref sig .tc) := [main_v42, main_v43, main_v44]
theorem sg_edge_0_writes : (sg_edge_0 : List (HloOp τ sig (Elt F))).Forall fun op => op.writes ⊆ (sg_edge_0_W.map (Proc.devRef (τ := τ) .tc)).toFinset := by
  simp only [List.Forall]; and_intros <;> exact writes_sub rfl (by decide)
theorem sg_edge_0_sub : (sg_edge_0 : List (HloOp τ sig (Elt F))).Forall fun op => op.bufs ⊆ tcRefs τ sig :=
  ⟨unary_bufs_sub .., reshape_bufs_sub .., reshape_bufs_sub ..⟩
theorem sg_edge_0_fresh : (sg_edge_0 : List (HloOp τ sig (Elt F))).Forall fun op => op.fresh = ∅ :=
  ⟨rfl, rfl, rfl⟩

abbrev sg_l1p_0 : List (HloOp τ sig (Elt F)) :=
  [ nullary main_v45 (iotaInDim S1024 32 0),
    binary main_v25 main_v45 main_v46 ((fun a b => concatenate S1049600 0 [⟨S1048576, a⟩, ⟨S1024, b⟩] concatenates_S1048576_S1024_S1049600_d0)),
    binary main_v27 main_v45 main_v47 ((fun a b => concatenate S1049600 0 [⟨S1048576, a⟩, ⟨S1024, b⟩] concatenates_S1048576_S1024_S1049600_d0)),
    nullary main_cst_13 (constant S_ .f32 0x3F800000#32),
    unary main_cst_13 main_v48 (broadcastInDim S1024 ![] bcast_S_S1024),
    binary main_v41 main_v48 main_v49 ((fun a b => concatenate S1049600 0 [⟨S1048576, a⟩, ⟨S1024, b⟩] concatenates_S1048576_S1024_S1049600_d0)) ]
abbrev sg_l1p_0_W : List (Ref sig .tc) := [main_v45, main_v46, main_v47, main_cst_13, main_v48, main_v49]
theorem sg_l1p_0_writes : (sg_l1p_0 : List (HloOp τ sig (Elt F))).Forall fun op => op.writes ⊆ (sg_l1p_0_W.map (Proc.devRef (τ := τ) .tc)).toFinset := by
  simp only [List.Forall]; and_intros <;> exact writes_sub rfl (by decide)
theorem sg_l1p_0_sub : (sg_l1p_0 : List (HloOp τ sig (Elt F))).Forall fun op => op.bufs ⊆ tcRefs τ sig :=
  ⟨nullary_bufs_sub .., binary_bufs_sub .., binary_bufs_sub .., nullary_bufs_sub .., unary_bufs_sub .., binary_bufs_sub ..⟩
theorem sg_l1p_0_fresh : (sg_l1p_0 : List (HloOp τ sig (Elt F))).Forall fun op => op.fresh = ∅ :=
  ⟨rfl, rfl, rfl, rfl, rfl, rfl⟩

abbrev sg_l1_0 : List (HloOp τ sig (Elt F)) :=
  [ nullary main_cst_14 (constant S_ .f32 0x00000000#32),
    unary main_cst_14 main_v50 (broadcastInDim S1024 ![] bcast_S_S1024),
    nullary main_c_15 (constantI S_ 32 0#32),
    unary main_c_15 main_v51 (broadcastInDim S1049600 ![] bcast_S_S1049600),
    binary main_v47 main_v51 main_v52 (cmpi .slt),
    nullary main_c_16 (constantI S_ 32 1024#32),
    unary main_c_16 main_v53 (broadcastInDim S1049600 ![] bcast_S_S1049600),
    binary main_v47 main_v53 main_v54 (addi),
    ternary main_v52 main_v54 main_v47 main_v55 (select),
    unary main_v55 main_v56 (broadcastInDim S1049600x1 ![0] bcast_S1049600_S1049600x1_0),
    ternary main_v50 main_v56 main_v49 main_v57 ((fun x i u => Host.scatterAdd scatter_S1024_S1049600x1_S1049600_n_0_0_1 x i u)),
    nullary main_cst_17 (constant S_ .f32 0x00000000#32),
    unary main_cst_17 main_v58 (broadcastInDim S1024 ![] bcast_S_S1024),
    binary main_v57 main_v58 main_v59 (cmpf .ogt),
    unary main_v57 main_v60 (Host.rsqrt),
    nullary main_cst_18 (constant S_ .f32 0x00000000#32),
    TRef.unary (.of main_cst_18 : TRef sig ⟨S_, .f32⟩) main_call8.v0 id,
    TRef.unary main_call8.v0 main_call8.v1 (broadcastInDim S1024 ![] bcast_S_S1024),
    TRef.ternary (.of main_v59 : TRef sig ⟨S1024, .i1⟩) (.of main_v60 : TRef sig ⟨S1024, .f32⟩) main_call8.v1 main_call8.v2 select,
    nullary main_c_19 (constantI S_ 32 0#32),
    unary main_c_19 main_v62 (broadcastInDim S1049600 ![] bcast_S_S1049600),
    binary main_v46 main_v62 main_v63 (cmpi .slt),
    nullary main_c_20 (constantI S_ 32 1024#32),
    unary main_c_20 main_v64 (broadcastInDim S1049600 ![] bcast_S_S1049600),
    binary main_v46 main_v64 main_v65 (addi),
    ternary main_v63 main_v65 main_v46 main_v66 (select),
    unary main_v66 main_v67 (broadcastInDim S1049600x1 ![0] bcast_S1049600_S1049600x1_0),
    binary main_v61 main_v67 main_v68 ((fun x i => Host.gather gather_S1024_S1049600x1_S1049600_n_0_n_n_0_1_1 x i)),
    binary main_v68 main_v49 main_v69 (mulf),
    nullary main_c_21 (constantI S_ 32 0#32),
    unary main_c_21 main_v70 (broadcastInDim S1049600 ![] bcast_S_S1049600),
    binary main_v47 main_v70 main_v71 (cmpi .slt),
    nullary main_c_22 (constantI S_ 32 1024#32),
    unary main_c_22 main_v72 (broadcastInDim S1049600 ![] bcast_S_S1049600),
    binary main_v47 main_v72 main_v73 (addi),
    ternary main_v71 main_v73 main_v47 main_v74 (select),
    unary main_v74 main_v75 (broadcastInDim S1049600x1 ![0] bcast_S1049600_S1049600x1_0),
    binary main_v61 main_v75 main_v76 ((fun x i => Host.gather gather_S1024_S1049600x1_S1049600_n_0_n_n_0_1_1 x i)),
    binary main_v69 main_v76 main_v77 (mulf),
    binary main_v44 main_arg2 main_v78 ((fun l r => Host.dotGeneral dot_S1024x16_S16x16_S1024x16_1_0_0_1_n_n none l r)),
    nullary main_cst_23 (constant S_ .f32 0x00000000#32),
    unary main_cst_23 main_v79 (broadcastInDim S1024x16 ![] bcast_S_S1024x16),
    nullary main_c_24 (constantI S_ 32 0#32),
    unary main_c_24 main_v80 (broadcastInDim S1049600 ![] bcast_S_S1049600),
    binary main_v46 main_v80 main_v81 (cmpi .slt),
    nullary main_c_25 (constantI S_ 32 1024#32),
    unary main_c_25 main_v82 (broadcastInDim S1049600 ![] bcast_S_S1049600),
    binary main_v46 main_v82 main_v83 (addi),
    ternary main_v81 main_v83 main_v46 main_v84 (select),
    unary main_v84 main_v85 (broadcastInDim S1049600x1 ![0] bcast_S1049600_S1049600x1_0),
    binary main_v78 main_v85 main_v86 ((fun x i => Host.gather gather_S1024x16_S1049600x1_S1049600x16_1_0_n_n_0_1_116 x i)),
    unary main_v77 main_v87 (broadcastInDim S1049600x1 ![0] bcast_S1049600_S1049600x1_0),
    unary main_v87 main_v88 (broadcastInDim S1049600x16 ![0, 1] bcast_S1049600x1_S1049600x16_0_1),
    binary main_v86 main_v88 main_v89 (mulf),
    nullary main_c_26 (constantI S_ 32 0#32),
    unary main_c_26 main_v90 (broadcastInDim S1049600 ![] bcast_S_S1049600),
    binary main_v47 main_v90 main_v91 (cmpi .slt),
    nullary main_c_27 (constantI S_ 32 1024#32),
    unary main_c_27 main_v92 (broadcastInDim S1049600 ![] bcast_S_S1049600),
    binary main_v47 main_v92 main_v93 (addi),
    ternary main_v91 main_v93 main_v47 main_v94 (select),
    unary main_v94 main_v95 (broadcastInDim S1049600x1 ![0] bcast_S1049600_S1049600x1_0),
    ternary main_v79 main_v95 main_v89 main_v96 ((fun x i u => Host.scatterAdd scatter_S1024x16_S1049600x1_S1049600x16_1_0_0_1 x i u)),
    unary main_arg3 main_v97 (broadcastInDim S1x16 ![1] bcast_S16_S1x16_1),
    unary main_v97 main_v98 (broadcastInDim S1024x16 ![0, 1] bcast_S1x16_S1024x16_0_1),
    binary main_v96 main_v98 main_v99 (addf),
    TRef.nullary main_call9.cst (constant S_ .f32 0x00000000#32),
    TRef.unary main_call9.cst main_call9.v0 (broadcastInDim S1024x16 ![] bcast_S_S1024x16),
    TRef.binary (.of main_v99 : TRef sig ⟨S1024x16, .f32⟩) main_call9.v0 main_call9.v1 maximumf ]
abbrev sg_l1_0_W : List (Ref sig .tc) := [main_cst_14, main_v50, main_c_15, main_v51, main_v52, main_c_16, main_v53, main_v54, main_v55, main_v56, main_v57, main_cst_17, main_v58, main_v59, main_v60, main_cst_18, main_call8_v0, main_call8_v1, main_v61, main_c_19, main_v62, main_v63, main_c_20, main_v64, main_v65, main_v66, main_v67, main_v68, main_v69, main_c_21, main_v70, main_v71, main_c_22, main_v72, main_v73, main_v74, main_v75, main_v76, main_v77, main_v78, main_cst_23, main_v79, main_c_24, main_v80, main_v81, main_c_25, main_v82, main_v83, main_v84, main_v85, main_v86, main_v87, main_v88, main_v89, main_c_26, main_v90, main_v91, main_c_27, main_v92, main_v93, main_v94, main_v95, main_v96, main_v97, main_v98, main_v99, main_call9_cst, main_call9_v0, main_v100]
theorem sg_l1_0_writes : (sg_l1_0 : List (HloOp τ sig (Elt F))).Forall fun op => op.writes ⊆ (sg_l1_0_W.map (Proc.devRef (τ := τ) .tc)).toFinset := by
  simp only [List.Forall]; and_intros <;> exact writes_sub rfl (by decide)
theorem sg_l1_0_sub : (sg_l1_0 : List (HloOp τ sig (Elt F))).Forall fun op => op.bufs ⊆ tcRefs τ sig :=
  ⟨nullary_bufs_sub .., unary_bufs_sub .., nullary_bufs_sub .., unary_bufs_sub .., binary_bufs_sub .., nullary_bufs_sub .., unary_bufs_sub .., binary_bufs_sub .., ternary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., ternary_bufs_sub .., unary_bufs_sub .., unary_bufs_sub .., binary_bufs_sub .., nullary_bufs_sub .., unary_bufs_sub .., binary_bufs_sub ..⟩
theorem sg_l1_0_fresh : (sg_l1_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

abbrev sg_l2p_0 : List (HloOp τ sig (Elt F)) :=
  [ nullary main_v101 (iotaInDim S1024 32 0),
    binary main_v25 main_v101 main_v102 ((fun a b => concatenate S1049600 0 [⟨S1048576, a⟩, ⟨S1024, b⟩] concatenates_S1048576_S1024_S1049600_d0)),
    binary main_v27 main_v101 main_v103 ((fun a b => concatenate S1049600 0 [⟨S1048576, a⟩, ⟨S1024, b⟩] concatenates_S1048576_S1024_S1049600_d0)),
    nullary main_cst_28 (constant S_ .f32 0x3F800000#32),
    unary main_cst_28 main_v104 (broadcastInDim S1024 ![] bcast_S_S1024),
    binary main_v41 main_v104 main_v105 ((fun a b => concatenate S1049600 0 [⟨S1048576, a⟩, ⟨S1024, b⟩] concatenates_S1048576_S1024_S1049600_d0)) ]
abbrev sg_l2p_0_W : List (Ref sig .tc) := [main_v101, main_v102, main_v103, main_cst_28, main_v104, main_v105]
theorem sg_l2p_0_writes : (sg_l2p_0 : List (HloOp τ sig (Elt F))).Forall fun op => op.writes ⊆ (sg_l2p_0_W.map (Proc.devRef (τ := τ) .tc)).toFinset := by
  simp only [List.Forall]; and_intros <;> exact writes_sub rfl (by decide)
theorem sg_l2p_0_sub : (sg_l2p_0 : List (HloOp τ sig (Elt F))).Forall fun op => op.bufs ⊆ tcRefs τ sig :=
  ⟨nullary_bufs_sub .., binary_bufs_sub .., binary_bufs_sub .., nullary_bufs_sub .., unary_bufs_sub .., binary_bufs_sub ..⟩
theorem sg_l2p_0_fresh : (sg_l2p_0 : List (HloOp τ sig (Elt F))).Forall fun op => op.fresh = ∅ :=
  ⟨rfl, rfl, rfl, rfl, rfl, rfl⟩

abbrev sg_l2_0 : List (HloOp τ sig (Elt F)) :=
  [ nullary main_cst_29 (constant S_ .f32 0x00000000#32),
    unary main_cst_29 main_v106 (broadcastInDim S1024 ![] bcast_S_S1024),
    nullary main_c_30 (constantI S_ 32 0#32),
    unary main_c_30 main_v107 (broadcastInDim S1049600 ![] bcast_S_S1049600),
    binary main_v103 main_v107 main_v108 (cmpi .slt),
    nullary main_c_31 (constantI S_ 32 1024#32),
    unary main_c_31 main_v109 (broadcastInDim S1049600 ![] bcast_S_S1049600),
    binary main_v103 main_v109 main_v110 (addi),
    ternary main_v108 main_v110 main_v103 main_v111 (select),
    unary main_v111 main_v112 (broadcastInDim S1049600x1 ![0] bcast_S1049600_S1049600x1_0),
    ternary main_v106 main_v112 main_v105 main_v113 ((fun x i u => Host.scatterAdd scatter_S1024_S1049600x1_S1049600_n_0_0_1 x i u)),
    nullary main_cst_32 (constant S_ .f32 0x00000000#32),
    unary main_cst_32 main_v114 (broadcastInDim S1024 ![] bcast_S_S1024),
    binary main_v113 main_v114 main_v115 (cmpf .ogt),
    unary main_v113 main_v116 (Host.rsqrt),
    nullary main_cst_33 (constant S_ .f32 0x00000000#32),
    TRef.unary (.of main_cst_33 : TRef sig ⟨S_, .f32⟩) main_call10.v0 id,
    TRef.unary main_call10.v0 main_call10.v1 (broadcastInDim S1024 ![] bcast_S_S1024),
    TRef.ternary (.of main_v115 : TRef sig ⟨S1024, .i1⟩) (.of main_v116 : TRef sig ⟨S1024, .f32⟩) main_call10.v1 main_call10.v2 select,
    nullary main_c_34 (constantI S_ 32 0#32),
    unary main_c_34 main_v118 (broadcastInDim S1049600 ![] bcast_S_S1049600),
    binary main_v102 main_v118 main_v119 (cmpi .slt),
    nullary main_c_35 (constantI S_ 32 1024#32),
    unary main_c_35 main_v120 (broadcastInDim S1049600 ![] bcast_S_S1049600),
    binary main_v102 main_v120 main_v121 (addi),
    ternary main_v119 main_v121 main_v102 main_v122 (select),
    unary main_v122 main_v123 (broadcastInDim S1049600x1 ![0] bcast_S1049600_S1049600x1_0),
    binary main_v117 main_v123 main_v124 ((fun x i => Host.gather gather_S1024_S1049600x1_S1049600_n_0_n_n_0_1_1 x i)),
    binary main_v124 main_v105 main_v125 (mulf),
    nullary main_c_36 (constantI S_ 32 0#32),
    unary main_c_36 main_v126 (broadcastInDim S1049600 ![] bcast_S_S1049600),
    binary main_v103 main_v126 main_v127 (cmpi .slt),
    nullary main_c_37 (constantI S_ 32 1024#32),
    unary main_c_37 main_v128 (broadcastInDim S1049600 ![] bcast_S_S1049600),
    binary main_v103 main_v128 main_v129 (addi),
    ternary main_v127 main_v129 main_v103 main_v130 (select),
    unary main_v130 main_v131 (broadcastInDim S1049600x1 ![0] bcast_S1049600_S1049600x1_0),
    binary main_v117 main_v131 main_v132 ((fun x i => Host.gather gather_S1024_S1049600x1_S1049600_n_0_n_n_0_1_1 x i)),
    binary main_v125 main_v132 main_v133 (mulf),
    binary main_v100 main_arg4 main_v134 ((fun l r => Host.dotGeneral dot_S1024x16_S16x16_S1024x16_1_0_0_1_n_n none l r)),
    nullary main_cst_38 (constant S_ .f32 0x00000000#32),
    unary main_cst_38 main_v135 (broadcastInDim S1024x16 ![] bcast_S_S1024x16),
    nullary main_c_39 (constantI S_ 32 0#32),
    unary main_c_39 main_v136 (broadcastInDim S1049600 ![] bcast_S_S1049600),
    binary main_v102 main_v136 main_v137 (cmpi .slt),
    nullary main_c_40 (constantI S_ 32 1024#32),
    unary main_c_40 main_v138 (broadcastInDim S1049600 ![] bcast_S_S1049600),
    binary main_v102 main_v138 main_v139 (addi),
    ternary main_v137 main_v139 main_v102 main_v140 (select),
    unary main_v140 main_v141 (broadcastInDim S1049600x1 ![0] bcast_S1049600_S1049600x1_0),
    binary main_v134 main_v141 main_v142 ((fun x i => Host.gather gather_S1024x16_S1049600x1_S1049600x16_1_0_n_n_0_1_116 x i)),
    unary main_v133 main_v143 (broadcastInDim S1049600x1 ![0] bcast_S1049600_S1049600x1_0),
    unary main_v143 main_v144 (broadcastInDim S1049600x16 ![0, 1] bcast_S1049600x1_S1049600x16_0_1),
    binary main_v142 main_v144 main_v145 (mulf),
    nullary main_c_41 (constantI S_ 32 0#32),
    unary main_c_41 main_v146 (broadcastInDim S1049600 ![] bcast_S_S1049600),
    binary main_v103 main_v146 main_v147 (cmpi .slt),
    nullary main_c_42 (constantI S_ 32 1024#32),
    unary main_c_42 main_v148 (broadcastInDim S1049600 ![] bcast_S_S1049600),
    binary main_v103 main_v148 main_v149 (addi),
    ternary main_v147 main_v149 main_v103 main_v150 (select),
    unary main_v150 main_v151 (broadcastInDim S1049600x1 ![0] bcast_S1049600_S1049600x1_0),
    ternary main_v135 main_v151 main_v145 main_v152 ((fun x i u => Host.scatterAdd scatter_S1024x16_S1049600x1_S1049600x16_1_0_0_1 x i u)),
    unary main_arg5 main_v153 (broadcastInDim S1x16 ![1] bcast_S16_S1x16_1),
    unary main_v153 main_v154 (broadcastInDim S1024x16 ![0, 1] bcast_S1x16_S1024x16_0_1),
    binary main_v152 main_v154 main_v155 (addf),
    TRef.nullary main_call11.cst (constant S_ .f32 0x00000000#32),
    TRef.unary main_call11.cst main_call11.v0 (broadcastInDim S1024x16 ![] bcast_S_S1024x16),
    TRef.binary (.of main_v155 : TRef sig ⟨S1024x16, .f32⟩) main_call11.v0 main_call11.v1 maximumf ]
abbrev sg_l2_0_W : List (Ref sig .tc) := [main_cst_29, main_v106, main_c_30, main_v107, main_v108, main_c_31, main_v109, main_v110, main_v111, main_v112, main_v113, main_cst_32, main_v114, main_v115, main_v116, main_cst_33, main_call10_v0, main_call10_v1, main_v117, main_c_34, main_v118, main_v119, main_c_35, main_v120, main_v121, main_v122, main_v123, main_v124, main_v125, main_c_36, main_v126, main_v127, main_c_37, main_v128, main_v129, main_v130, main_v131, main_v132, main_v133, main_v134, main_cst_38, main_v135, main_c_39, main_v136, main_v137, main_c_40, main_v138, main_v139, main_v140, main_v141, main_v142, main_v143, main_v144, main_v145, main_c_41, main_v146, main_v147, main_c_42, main_v148, main_v149, main_v150, main_v151, main_v152, main_v153, main_v154, main_v155, main_call11_cst, main_call11_v0, main_v156]
theorem sg_l2_0_writes : (sg_l2_0 : List (HloOp τ sig (Elt F))).Forall fun op => op.writes ⊆ (sg_l2_0_W.map (Proc.devRef (τ := τ) .tc)).toFinset := by
  simp only [List.Forall]; and_intros <;> exact writes_sub rfl (by decide)
theorem sg_l2_0_sub : (sg_l2_0 : List (HloOp τ sig (Elt F))).Forall fun op => op.bufs ⊆ tcRefs τ sig :=
  ⟨nullary_bufs_sub .., unary_bufs_sub .., nullary_bufs_sub .., unary_bufs_sub .., binary_bufs_sub .., nullary_bufs_sub .., unary_bufs_sub .., binary_bufs_sub .., ternary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., ternary_bufs_sub .., unary_bufs_sub .., unary_bufs_sub .., binary_bufs_sub .., nullary_bufs_sub .., unary_bufs_sub .., binary_bufs_sub ..⟩
theorem sg_l2_0_fresh : (sg_l2_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

abbrev sg_l3p_0 : List (HloOp τ sig (Elt F)) :=
  [ nullary main_v157 (iotaInDim S1024 32 0),
    binary main_v25 main_v157 main_v158 ((fun a b => concatenate S1049600 0 [⟨S1048576, a⟩, ⟨S1024, b⟩] concatenates_S1048576_S1024_S1049600_d0)),
    binary main_v27 main_v157 main_v159 ((fun a b => concatenate S1049600 0 [⟨S1048576, a⟩, ⟨S1024, b⟩] concatenates_S1048576_S1024_S1049600_d0)),
    nullary main_cst_43 (constant S_ .f32 0x3F800000#32),
    unary main_cst_43 main_v160 (broadcastInDim S1024 ![] bcast_S_S1024),
    binary main_v41 main_v160 main_v161 ((fun a b => concatenate S1049600 0 [⟨S1048576, a⟩, ⟨S1024, b⟩] concatenates_S1048576_S1024_S1049600_d0)) ]
abbrev sg_l3p_0_W : List (Ref sig .tc) := [main_v157, main_v158, main_v159, main_cst_43, main_v160, main_v161]
theorem sg_l3p_0_writes : (sg_l3p_0 : List (HloOp τ sig (Elt F))).Forall fun op => op.writes ⊆ (sg_l3p_0_W.map (Proc.devRef (τ := τ) .tc)).toFinset := by
  simp only [List.Forall]; and_intros <;> exact writes_sub rfl (by decide)
theorem sg_l3p_0_sub : (sg_l3p_0 : List (HloOp τ sig (Elt F))).Forall fun op => op.bufs ⊆ tcRefs τ sig :=
  ⟨nullary_bufs_sub .., binary_bufs_sub .., binary_bufs_sub .., nullary_bufs_sub .., unary_bufs_sub .., binary_bufs_sub ..⟩
theorem sg_l3p_0_fresh : (sg_l3p_0 : List (HloOp τ sig (Elt F))).Forall fun op => op.fresh = ∅ :=
  ⟨rfl, rfl, rfl, rfl, rfl, rfl⟩

abbrev sg_l3_0 : List (HloOp τ sig (Elt F)) :=
  [ nullary main_cst_44 (constant S_ .f32 0x00000000#32),
    unary main_cst_44 main_v162 (broadcastInDim S1024 ![] bcast_S_S1024),
    nullary main_c_45 (constantI S_ 32 0#32),
    unary main_c_45 main_v163 (broadcastInDim S1049600 ![] bcast_S_S1049600),
    binary main_v159 main_v163 main_v164 (cmpi .slt),
    nullary main_c_46 (constantI S_ 32 1024#32),
    unary main_c_46 main_v165 (broadcastInDim S1049600 ![] bcast_S_S1049600),
    binary main_v159 main_v165 main_v166 (addi),
    ternary main_v164 main_v166 main_v159 main_v167 (select),
    unary main_v167 main_v168 (broadcastInDim S1049600x1 ![0] bcast_S1049600_S1049600x1_0),
    ternary main_v162 main_v168 main_v161 main_v169 ((fun x i u => Host.scatterAdd scatter_S1024_S1049600x1_S1049600_n_0_0_1 x i u)),
    nullary main_cst_47 (constant S_ .f32 0x00000000#32),
    unary main_cst_47 main_v170 (broadcastInDim S1024 ![] bcast_S_S1024),
    binary main_v169 main_v170 main_v171 (cmpf .ogt),
    unary main_v169 main_v172 (Host.rsqrt),
    nullary main_cst_48 (constant S_ .f32 0x00000000#32),
    TRef.unary (.of main_cst_48 : TRef sig ⟨S_, .f32⟩) main_call12.v0 id,
    TRef.unary main_call12.v0 main_call12.v1 (broadcastInDim S1024 ![] bcast_S_S1024),
    TRef.ternary (.of main_v171 : TRef sig ⟨S1024, .i1⟩) (.of main_v172 : TRef sig ⟨S1024, .f32⟩) main_call12.v1 main_call12.v2 select,
    nullary main_c_49 (constantI S_ 32 0#32),
    unary main_c_49 main_v174 (broadcastInDim S1049600 ![] bcast_S_S1049600),
    binary main_v158 main_v174 main_v175 (cmpi .slt),
    nullary main_c_50 (constantI S_ 32 1024#32),
    unary main_c_50 main_v176 (broadcastInDim S1049600 ![] bcast_S_S1049600),
    binary main_v158 main_v176 main_v177 (addi),
    ternary main_v175 main_v177 main_v158 main_v178 (select),
    unary main_v178 main_v179 (broadcastInDim S1049600x1 ![0] bcast_S1049600_S1049600x1_0),
    binary main_v173 main_v179 main_v180 ((fun x i => Host.gather gather_S1024_S1049600x1_S1049600_n_0_n_n_0_1_1 x i)),
    binary main_v180 main_v161 main_v181 (mulf),
    nullary main_c_51 (constantI S_ 32 0#32),
    unary main_c_51 main_v182 (broadcastInDim S1049600 ![] bcast_S_S1049600),
    binary main_v159 main_v182 main_v183 (cmpi .slt),
    nullary main_c_52 (constantI S_ 32 1024#32),
    unary main_c_52 main_v184 (broadcastInDim S1049600 ![] bcast_S_S1049600),
    binary main_v159 main_v184 main_v185 (addi),
    ternary main_v183 main_v185 main_v159 main_v186 (select),
    unary main_v186 main_v187 (broadcastInDim S1049600x1 ![0] bcast_S1049600_S1049600x1_0),
    binary main_v173 main_v187 main_v188 ((fun x i => Host.gather gather_S1024_S1049600x1_S1049600_n_0_n_n_0_1_1 x i)),
    binary main_v181 main_v188 main_v189 (mulf),
    binary main_v156 main_arg6 main_v190 ((fun l r => Host.dotGeneral dot_S1024x16_S16x16_S1024x16_1_0_0_1_n_n none l r)),
    nullary main_cst_53 (constant S_ .f32 0x00000000#32),
    unary main_cst_53 main_v191 (broadcastInDim S1024x16 ![] bcast_S_S1024x16),
    nullary main_c_54 (constantI S_ 32 0#32),
    unary main_c_54 main_v192 (broadcastInDim S1049600 ![] bcast_S_S1049600),
    binary main_v158 main_v192 main_v193 (cmpi .slt),
    nullary main_c_55 (constantI S_ 32 1024#32),
    unary main_c_55 main_v194 (broadcastInDim S1049600 ![] bcast_S_S1049600),
    binary main_v158 main_v194 main_v195 (addi),
    ternary main_v193 main_v195 main_v158 main_v196 (select),
    unary main_v196 main_v197 (broadcastInDim S1049600x1 ![0] bcast_S1049600_S1049600x1_0),
    binary main_v190 main_v197 main_v198 ((fun x i => Host.gather gather_S1024x16_S1049600x1_S1049600x16_1_0_n_n_0_1_116 x i)),
    unary main_v189 main_v199 (broadcastInDim S1049600x1 ![0] bcast_S1049600_S1049600x1_0),
    unary main_v199 main_v200 (broadcastInDim S1049600x16 ![0, 1] bcast_S1049600x1_S1049600x16_0_1),
    binary main_v198 main_v200 main_v201 (mulf),
    nullary main_c_56 (constantI S_ 32 0#32),
    unary main_c_56 main_v202 (broadcastInDim S1049600 ![] bcast_S_S1049600),
    binary main_v159 main_v202 main_v203 (cmpi .slt),
    nullary main_c_57 (constantI S_ 32 1024#32),
    unary main_c_57 main_v204 (broadcastInDim S1049600 ![] bcast_S_S1049600),
    binary main_v159 main_v204 main_v205 (addi),
    ternary main_v203 main_v205 main_v159 main_v206 (select),
    unary main_v206 main_v207 (broadcastInDim S1049600x1 ![0] bcast_S1049600_S1049600x1_0),
    ternary main_v191 main_v207 main_v201 main_v208 ((fun x i u => Host.scatterAdd scatter_S1024x16_S1049600x1_S1049600x16_1_0_0_1 x i u)),
    unary main_arg7 main_v209 (broadcastInDim S1x16 ![1] bcast_S16_S1x16_1),
    unary main_v209 main_v210 (broadcastInDim S1024x16 ![0, 1] bcast_S1x16_S1024x16_0_1),
    binary main_v208 main_v210 main_v211 (addf),
    TRef.nullary main_call13.cst (constant S_ .f32 0x00000000#32),
    TRef.unary main_call13.cst main_call13.v0 (broadcastInDim S1024x16 ![] bcast_S_S1024x16),
    TRef.binary (.of main_v211 : TRef sig ⟨S1024x16, .f32⟩) main_call13.v0 main_call13.v1 maximumf ]
abbrev sg_l3_0_W : List (Ref sig .tc) := [main_cst_44, main_v162, main_c_45, main_v163, main_v164, main_c_46, main_v165, main_v166, main_v167, main_v168, main_v169, main_cst_47, main_v170, main_v171, main_v172, main_cst_48, main_call12_v0, main_call12_v1, main_v173, main_c_49, main_v174, main_v175, main_c_50, main_v176, main_v177, main_v178, main_v179, main_v180, main_v181, main_c_51, main_v182, main_v183, main_c_52, main_v184, main_v185, main_v186, main_v187, main_v188, main_v189, main_v190, main_cst_53, main_v191, main_c_54, main_v192, main_v193, main_c_55, main_v194, main_v195, main_v196, main_v197, main_v198, main_v199, main_v200, main_v201, main_c_56, main_v202, main_v203, main_c_57, main_v204, main_v205, main_v206, main_v207, main_v208, main_v209, main_v210, main_v211, main_call13_cst, main_call13_v0, main_v212]
theorem sg_l3_0_writes : (sg_l3_0 : List (HloOp τ sig (Elt F))).Forall fun op => op.writes ⊆ (sg_l3_0_W.map (Proc.devRef (τ := τ) .tc)).toFinset := by
  simp only [List.Forall]; and_intros <;> exact writes_sub rfl (by decide)
theorem sg_l3_0_sub : (sg_l3_0 : List (HloOp τ sig (Elt F))).Forall fun op => op.bufs ⊆ tcRefs τ sig :=
  ⟨nullary_bufs_sub .., unary_bufs_sub .., nullary_bufs_sub .., unary_bufs_sub .., binary_bufs_sub .., nullary_bufs_sub .., unary_bufs_sub .., binary_bufs_sub .., ternary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., ternary_bufs_sub .., unary_bufs_sub .., unary_bufs_sub .., binary_bufs_sub .., nullary_bufs_sub .., unary_bufs_sub .., binary_bufs_sub ..⟩
theorem sg_l3_0_fresh : (sg_l3_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

abbrev sg_pack_0 : List (HloOp τ sig (Elt F)) :=
  [ reshape main_v212 main_v213 rfl shapeCasts_S1024x16_S1x32x32x16 ]
abbrev sg_pack_0_W : List (Ref sig .tc) := [main_v213]
theorem sg_pack_0_writes : (sg_pack_0 : List (HloOp τ sig (Elt F))).Forall fun op => op.writes ⊆ (sg_pack_0_W.map (Proc.devRef (τ := τ) .tc)).toFinset := by
  simp only [List.Forall]; and_intros <;> exact writes_sub rfl (by decide)
theorem sg_pack_0_sub : (sg_pack_0 : List (HloOp τ sig (Elt F))).Forall fun op => op.bufs ⊆ tcRefs τ sig :=
  reshape_bufs_sub ..
theorem sg_pack_0_fresh : (sg_pack_0 : List (HloOp τ sig (Elt F))).Forall fun op => op.fresh = ∅ :=
  rfl

abbrev sg_flow_1 : List (HloOp τ sig (Elt F)) :=
  [ unary main_arg0 main_v214 ((extractStridedSlice S1x24x32x32 ![1, 0, 0, 0] · slices_S2x24x32x32_S1x24x32x32_1_0_0_0)),
    reshape main_v214 main_v215 rfl shapeCasts_S1x24x32x32_S24x32x32,
    reshape main_v215 main_v216 rfl shapeCasts_S24x32x32_S24x1024 ]
abbrev sg_flow_1_W : List (Ref sig .tc) := [main_v214, main_v215, main_v216]
theorem sg_flow_1_writes : (sg_flow_1 : List (HloOp τ sig (Elt F))).Forall fun op => op.writes ⊆ (sg_flow_1_W.map (Proc.devRef (τ := τ) .tc)).toFinset := by
  simp only [List.Forall]; and_intros <;> exact writes_sub rfl (by decide)
theorem sg_flow_1_sub : (sg_flow_1 : List (HloOp τ sig (Elt F))).Forall fun op => op.bufs ⊆ tcRefs τ sig :=
  ⟨unary_bufs_sub .., reshape_bufs_sub .., reshape_bufs_sub ..⟩
theorem sg_flow_1_fresh : (sg_flow_1 : List (HloOp τ sig (Elt F))).Forall fun op => op.fresh = ∅ :=
  ⟨rfl, rfl, rfl⟩

abbrev sg_nx_1 : List (HloOp τ sig (Elt F)) :=
  [ TRef.binary (.of main_v216 : TRef sig ⟨S24x1024, .f32⟩) (.of main_v216 : TRef sig ⟨S24x1024, .f32⟩) main_call14.v0 mulf,
    TRef.nullary main_call14.cst (constant S_ .f32 0x00000000#32),
    TRef.binary main_call14.v0 main_call14.cst main_call14.v1 (fun x v => Host.reduceAdd x v reducesTo_S24x1024_S24_d1 h_S_),
    TRef.unary main_call14.v1 main_call14.v2 (broadcastInDim S24x1 ![0] bcast_S24_S24x1_0),
    TRef.unary main_call14.v2 main_call14.v3 Host.sqrt,
    nullary main_cst_58 (constant S_ .f32 0x2B8CBCCC#32),
    unary main_cst_58 main_v218 (broadcastInDim S24x1 ![] bcast_S_S24x1),
    binary main_v217 main_v218 main_v219 (maximumf),
    unary main_v219 main_v220 (broadcastInDim S24x1024 ![0, 1] bcast_S24x1_S24x1024_0_1),
    binary main_v216 main_v220 main_v221 (Host.divf) ]
abbrev sg_nx_1_W : List (Ref sig .tc) := [main_call14_v0, main_call14_cst, main_call14_v1, main_call14_v2, main_v217, main_cst_58, main_v218, main_v219, main_v220, main_v221]
theorem sg_nx_1_writes : (sg_nx_1 : List (HloOp τ sig (Elt F))).Forall fun op => op.writes ⊆ (sg_nx_1_W.map (Proc.devRef (τ := τ) .tc)).toFinset := by
  simp only [List.Forall]; and_intros <;> exact writes_sub rfl (by decide)
theorem sg_nx_1_sub : (sg_nx_1 : List (HloOp τ sig (Elt F))).Forall fun op => op.bufs ⊆ tcRefs τ sig :=
  ⟨binary_bufs_sub .., nullary_bufs_sub .., binary_bufs_sub .., unary_bufs_sub .., unary_bufs_sub .., nullary_bufs_sub .., unary_bufs_sub .., binary_bufs_sub .., unary_bufs_sub .., binary_bufs_sub ..⟩
theorem sg_nx_1_fresh : (sg_nx_1 : List (HloOp τ sig (Elt F))).Forall fun op => op.fresh = ∅ :=
  ⟨rfl, rfl, rfl, rfl, rfl, rfl, rfl, rfl, rfl, rfl⟩

abbrev sg_sim_1 : List (HloOp τ sig (Elt F)) :=
  [ unary main_v221 main_v222 ((transpose S1024x24 [1, 0] · transposes_S24x1024_S1024x24_1_0)),
    binary main_v222 main_v221 main_v223 ((fun l r => Host.dotGeneral dot_S1024x24_S24x1024_S1024x1024_1_0_0_1_n_n none l r)) ]
abbrev sg_sim_1_W : List (Ref sig .tc) := [main_v222, main_v223]
theorem sg_sim_1_writes : (sg_sim_1 : List (HloOp τ sig (Elt F))).Forall fun op => op.writes ⊆ (sg_sim_1_W.map (Proc.devRef (τ := τ) .tc)).toFinset := by
  simp only [List.Forall]; and_intros <;> exact writes_sub rfl (by decide)
theorem sg_sim_1_sub : (sg_sim_1 : List (HloOp τ sig (Elt F))).Forall fun op => op.bufs ⊆ tcRefs τ sig :=
  ⟨unary_bufs_sub .., binary_bufs_sub ..⟩
theorem sg_sim_1_fresh : (sg_sim_1 : List (HloOp τ sig (Elt F))).Forall fun op => op.fresh = ∅ :=
  ⟨rfl, rfl⟩

abbrev sg_mask_1 : List (HloOp τ sig (Elt F)) :=
  [ nullary main_cst_59 (constant S_ .f32 0x00000000#32),
    unary main_cst_59 main_v224 (broadcastInDim S1024x1024 ![] bcast_S_S1024x1024),
    binary main_v223 main_v224 main_v225 (cmpf .une) ]
abbrev sg_mask_1_W : List (Ref sig .tc) := [main_cst_59, main_v224, main_v225]
theorem sg_mask_1_writes : (sg_mask_1 : List (HloOp τ sig (Elt F))).Forall fun op => op.writes ⊆ (sg_mask_1_W.map (Proc.devRef (τ := τ) .tc)).toFinset := by
  simp only [List.Forall]; and_intros <;> exact writes_sub rfl (by decide)
theorem sg_mask_1_sub : (sg_mask_1 : List (HloOp τ sig (Elt F))).Forall fun op => op.bufs ⊆ tcRefs τ sig :=
  ⟨nullary_bufs_sub .., unary_bufs_sub .., binary_bufs_sub ..⟩
theorem sg_mask_1_fresh : (sg_mask_1 : List (HloOp τ sig (Elt F))).Forall fun op => op.fresh = ∅ :=
  ⟨rfl, rfl, rfl⟩

abbrev sg_cnt_1 : List (HloOp τ sig (Elt F)) :=
  [ TRef.reshape (.of main_v225 : TRef sig ⟨S1024x1024, .i1⟩) main_call15.v0 rfl shapeCasts_S1024x1024_S1048576,
    TRef.unary main_call15.v0 main_call15.v1 (extui 32 · natLt_1_32),
    TRef.nullary main_call15.call0.c (constantI S_ 32 0#32),
    TRef.unary main_call15.call0.c main_call15.call0.v0 (broadcastInDim S_ ![] bcast_S_S_),
    TRef.binary main_call15.v1 main_call15.call0.v0 main_call15.call0.v1 (fun x v => Host.reduceWindow IntOp.addi ![1048576] ![1] ![1048575] ![0] x v reduceWindows_S1048576_S1048576_w1048576s1p1048575_0 h_S_) ]
abbrev sg_cnt_1_W : List (Ref sig .tc) := [main_call15_v0, main_call15_v1, main_call15_call0_c, main_call15_call0_v0, main_v226]
theorem sg_cnt_1_writes : (sg_cnt_1 : List (HloOp τ sig (Elt F))).Forall fun op => op.writes ⊆ (sg_cnt_1_W.map (Proc.devRef (τ := τ) .tc)).toFinset := by
  simp only [List.Forall]; and_intros <;> exact writes_sub rfl (by decide)
theorem sg_cnt_1_sub : (sg_cnt_1 : List (HloOp τ sig (Elt F))).Forall fun op => op.bufs ⊆ tcRefs τ sig :=
  ⟨reshape_bufs_sub .., unary_bufs_sub .., nullary_bufs_sub .., unary_bufs_sub .., binary_bufs_sub ..⟩
theorem sg_cnt_1_fresh : (sg_cnt_1 : List (HloOp τ sig (Elt F))).Forall fun op => op.fresh = ∅ :=
  ⟨rfl, rfl, rfl, rfl, rfl⟩

abbrev sg_flA_1 : List (HloOp τ sig (Elt F)) :=
  [ nullary main_c_60 (constantI S_ 32 0#32),
    unary main_c_60 main_v227 (broadcastInDim S1048576 ![] bcast_S_S1048576),
    nullary main_c_61 (constantI S_ 32 0#32),
    TRef.unary (.of main_c_61 : TRef sig ⟨S_, .i32⟩) main_call16.v0 id,
    TRef.unary main_call16.v0 main_call16.v1 (broadcastInDim S1048576 ![] bcast_S_S1048576),
    TRef.binary main_call16.v1 (.of main_v226 : TRef sig ⟨S1048576, .i32⟩) main_call16.v2 maxsi,
    nullary main_c_62 (constantI S_ 32 0#32),
    unary main_c_62 main_v229 (broadcastInDim S1048576 ![] bcast_S_S1048576),
    binary main_v228 main_v229 main_v230 (cmpi .slt),
    nullary main_c_63 (constantI S_ 32 1048576#32),
    unary main_c_63 main_v231 (broadcastInDim S1048576 ![] bcast_S_S1048576),
    binary main_v228 main_v231 main_v232 (addi),
    ternary main_v230 main_v232 main_v228 main_v233 (select) ]
abbrev sg_flA_1_W : List (Ref sig .tc) := [main_c_60, main_v227, main_c_61, main_call16_v0, main_call16_v1, main_v228, main_c_62, main_v229, main_v230, main_c_63, main_v231, main_v232, main_v233]
theorem sg_flA_1_writes : (sg_flA_1 : List (HloOp τ sig (Elt F))).Forall fun op => op.writes ⊆ (sg_flA_1_W.map (Proc.devRef (τ := τ) .tc)).toFinset := by
  simp only [List.Forall]; and_intros <;> exact writes_sub rfl (by decide)
theorem sg_flA_1_sub : (sg_flA_1 : List (HloOp τ sig (Elt F))).Forall fun op => op.bufs ⊆ tcRefs τ sig :=
  ⟨nullary_bufs_sub .., unary_bufs_sub .., nullary_bufs_sub .., unary_bufs_sub .., unary_bufs_sub .., binary_bufs_sub .., nullary_bufs_sub .., unary_bufs_sub .., binary_bufs_sub .., nullary_bufs_sub .., unary_bufs_sub .., binary_bufs_sub .., ternary_bufs_sub ..⟩
theorem sg_flA_1_fresh : (sg_flA_1 : List (HloOp τ sig (Elt F))).Forall fun op => op.fresh = ∅ :=
  ⟨rfl, rfl, rfl, rfl, rfl, rfl, rfl, rfl, rfl, rfl, rfl, rfl, rfl⟩

abbrev sg_flB_1 : List (HloOp τ sig (Elt F)) :=
  [ unary main_v233 main_v234 (broadcastInDim S1048576x1 ![0] bcast_S1048576_S1048576x1_0),
    nullary main_c_64 (constantI S_ 32 1#32),
    unary main_c_64 main_v235 (broadcastInDim S1048576 ![] bcast_S_S1048576) ]
abbrev sg_flB_1_W : List (Ref sig .tc) := [main_v234, main_c_64, main_v235]
theorem sg_flB_1_writes : (sg_flB_1 : List (HloOp τ sig (Elt F))).Forall fun op => op.writes ⊆ (sg_flB_1_W.map (Proc.devRef (τ := τ) .tc)).toFinset := by
  simp only [List.Forall]; and_intros <;> exact writes_sub rfl (by decide)
theorem sg_flB_1_sub : (sg_flB_1 : List (HloOp τ sig (Elt F))).Forall fun op => op.bufs ⊆ tcRefs τ sig :=
  ⟨unary_bufs_sub .., nullary_bufs_sub .., unary_bufs_sub ..⟩
theorem sg_flB_1_fresh : (sg_flB_1 : List (HloOp τ sig (Elt F))).Forall fun op => op.fresh = ∅ :=
  ⟨rfl, rfl, rfl⟩

abbrev sg_flC_1 : List (HloOp τ sig (Elt F)) :=
  [ ternary main_v227 main_v234 main_v235 main_v236 ((fun x i u => Host.scatter scatter_S1048576_S1048576x1_S1048576_n_0_0_1 IntOp.addi x i u)) ]
abbrev sg_flC_1_W : List (Ref sig .tc) := [main_v236]
theorem sg_flC_1_writes : (sg_flC_1 : List (HloOp τ sig (Elt F))).Forall fun op => op.writes ⊆ (sg_flC_1_W.map (Proc.devRef (τ := τ) .tc)).toFinset := by
  simp only [List.Forall]; and_intros <;> exact writes_sub rfl (by decide)
theorem sg_flC_1_sub : (sg_flC_1 : List (HloOp τ sig (Elt F))).Forall fun op => op.bufs ⊆ tcRefs τ sig :=
  ternary_bufs_sub ..
theorem sg_flC_1_fresh : (sg_flC_1 : List (HloOp τ sig (Elt F))).Forall fun op => op.fresh = ∅ :=
  rfl

abbrev sg_flD_1 : List (HloOp τ sig (Elt F)) :=
  [ TRef.nullary main_call17.call0.c (constantI S_ 32 0#32),
    TRef.unary main_call17.call0.c main_call17.call0.v0 (broadcastInDim S_ ![] bcast_S_S_),
    TRef.binary (.of main_v236 : TRef sig ⟨S1048576, .i32⟩) main_call17.call0.v0 main_call17.call0.v1 (fun x v => Host.reduceWindow IntOp.addi ![1048576] ![1] ![1048575] ![0] x v reduceWindows_S1048576_S1048576_w1048576s1p1048575_0 h_S_) ]
abbrev sg_flD_1_W : List (Ref sig .tc) := [main_call17_call0_c, main_call17_call0_v0, main_v237]
theorem sg_flD_1_writes : (sg_flD_1 : List (HloOp τ sig (Elt F))).Forall fun op => op.writes ⊆ (sg_flD_1_W.map (Proc.devRef (τ := τ) .tc)).toFinset := by
  simp only [List.Forall]; and_intros <;> exact writes_sub rfl (by decide)
theorem sg_flD_1_sub : (sg_flD_1 : List (HloOp τ sig (Elt F))).Forall fun op => op.bufs ⊆ tcRefs τ sig :=
  ⟨nullary_bufs_sub .., unary_bufs_sub .., binary_bufs_sub ..⟩
theorem sg_flD_1_fresh : (sg_flD_1 : List (HloOp τ sig (Elt F))).Forall fun op => op.fresh = ∅ :=
  ⟨rfl, rfl, rfl⟩

abbrev sg_fdS_1 : List (HloOp τ sig (Elt F)) :=
  [ nullary main_c_65 (constantI S_ 32 1024#32),
    TRef.unary (.of main_c_65 : TRef sig ⟨S_, .i32⟩) main_call18.v0 (broadcastInDim S1048576 ![] bcast_S_S1048576),
    TRef.binary (.of main_v237 : TRef sig ⟨S1048576, .i32⟩) main_call18.v0 main_call18.v1 Host.divsi,
    TRef.unary (.of main_v237 : TRef sig ⟨S1048576, .i32⟩) main_call18.v2 signi,
    TRef.unary (.of main_c_65 : TRef sig ⟨S_, .i32⟩) main_call18.v3 signi,
    TRef.unary main_call18.v3 main_call18.v4 (broadcastInDim S1048576 ![] bcast_S_S1048576),
    TRef.binary main_call18.v2 main_call18.v4 main_call18.v5 (cmpi .ne),
    TRef.unary (.of main_c_65 : TRef sig ⟨S_, .i32⟩) main_call18.v6 (broadcastInDim S1048576 ![] bcast_S_S1048576),
    TRef.binary (.of main_v237 : TRef sig ⟨S1048576, .i32⟩) main_call18.v6 main_call18.v7 Host.remsi,
    TRef.nullary main_call18.c (constantI S_ 32 0#32),
    TRef.unary main_call18.c main_call18.v8 (broadcastInDim S1048576 ![] bcast_S_S1048576),
    TRef.binary main_call18.v7 main_call18.v8 main_call18.v9 (cmpi .ne),
    TRef.binary main_call18.v5 main_call18.v9 main_call18.v10 andi,
    TRef.nullary main_call18.c_0 (constantI S_ 32 1#32),
    TRef.unary main_call18.c_0 main_call18.v11 (broadcastInDim S1048576 ![] bcast_S_S1048576),
    TRef.binary main_call18.v1 main_call18.v11 main_call18.v12 subi,
    TRef.ternary main_call18.v10 main_call18.v12 main_call18.v1 main_call18.call0.v0 select ]
abbrev sg_fdS_1_W : List (Ref sig .tc) := [main_c_65, main_call18_v0, main_call18_v1, main_call18_v2, main_call18_v3, main_call18_v4, main_call18_v5, main_call18_v6, main_call18_v7, main_call18_c, main_call18_v8, main_call18_v9, main_call18_v10, main_call18_c_0, main_call18_v11, main_call18_v12, main_v238]
theorem sg_fdS_1_writes : (sg_fdS_1 : List (HloOp τ sig (Elt F))).Forall fun op => op.writes ⊆ (sg_fdS_1_W.map (Proc.devRef (τ := τ) .tc)).toFinset := by
  simp only [List.Forall]; and_intros <;> exact writes_sub rfl (by decide)
theorem sg_fdS_1_sub : (sg_fdS_1 : List (HloOp τ sig (Elt F))).Forall fun op => op.bufs ⊆ tcRefs τ sig :=
  ⟨nullary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub ..⟩
theorem sg_fdS_1_fresh : (sg_fdS_1 : List (HloOp τ sig (Elt F))).Forall fun op => op.fresh = ∅ :=
  ⟨rfl, rfl, rfl, rfl, rfl, rfl, rfl, rfl, rfl, rfl, rfl, rfl, rfl, rfl, rfl, rfl, rfl⟩

abbrev sg_rmS_1 : List (HloOp τ sig (Elt F)) :=
  [ nullary main_c_66 (constantI S_ 32 1024#32),
    TRef.unary (.of main_c_66 : TRef sig ⟨S_, .i32⟩) main_call19.v0 id,
    TRef.nullary main_call19.c (constantI S_ 32 0#32),
    TRef.binary main_call19.v0 main_call19.c main_call19.v1 (cmpi .eq),
    TRef.nullary main_call19.c_0 (constantI S_ 32 1#32),
    TRef.ternary main_call19.v1 main_call19.c_0 main_call19.v0 main_call19.call0.v0 select,
    TRef.unary main_call19.call0.v0 main_call19.v3 (broadcastInDim S1048576 ![] bcast_S_S1048576),
    TRef.binary (.of main_v238 : TRef sig ⟨S1048576, .i32⟩) main_call19.v3 main_call19.v4 Host.remsi,
    TRef.nullary main_call19.c_1 (constantI S_ 32 0#32),
    TRef.unary main_call19.c_1 main_call19.v5 (broadcastInDim S1048576 ![] bcast_S_S1048576),
    TRef.binary main_call19.v4 main_call19.v5 main_call19.v6 (cmpi .ne),
    TRef.nullary main_call19.c_2 (constantI S_ 32 0#32),
    TRef.unary main_call19.c_2 main_call19.v7 (broadcastInDim S1048576 ![] bcast_S_S1048576),
    TRef.binary main_call19.v4 main_call19.v7 main_call19.v8 (cmpi .slt),
    TRef.nullary main_call19.c_3 (constantI S_ 32 0#32),
    TRef.binary main_call19.call0.v0 main_call19.c_3 main_call19.v9 (cmpi .slt),
    TRef.unary main_call19.v9 main_call19.v10 (broadcastInDim S1048576 ![] bcast_S_S1048576),
    TRef.binary main_call19.v8 main_call19.v10 main_call19.v11 (cmpi .ne),
    TRef.binary main_call19.v11 main_call19.v6 main_call19.v12 andi,
    TRef.unary main_call19.call0.v0 main_call19.v13 (broadcastInDim S1048576 ![] bcast_S_S1048576),
    TRef.binary main_call19.v4 main_call19.v13 main_call19.v14 addi,
    TRef.ternary main_call19.v12 main_call19.v14 main_call19.v4 main_call19.v15 select ]
abbrev sg_rmS_1_W : List (Ref sig .tc) := [main_c_66, main_call19_v0, main_call19_c, main_call19_v1, main_call19_c_0, main_call19_v2, main_call19_v3, main_call19_v4, main_call19_c_1, main_call19_v5, main_call19_v6, main_call19_c_2, main_call19_v7, main_call19_v8, main_call19_c_3, main_call19_v9, main_call19_v10, main_call19_v11, main_call19_v12, main_call19_v13, main_call19_v14, main_v239]
theorem sg_rmS_1_writes : (sg_rmS_1 : List (HloOp τ sig (Elt F))).Forall fun op => op.writes ⊆ (sg_rmS_1_W.map (Proc.devRef (τ := τ) .tc)).toFinset := by
  simp only [List.Forall]; and_intros <;> exact writes_sub rfl (by decide)
theorem sg_rmS_1_sub : (sg_rmS_1 : List (HloOp τ sig (Elt F))).Forall fun op => op.bufs ⊆ tcRefs τ sig :=
  ⟨nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩
theorem sg_rmS_1_fresh : (sg_rmS_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩

abbrev sg_fdD_1 : List (HloOp τ sig (Elt F)) :=
  [ nullary main_c_67 (constantI S_ 32 1#32),
    TRef.unary (.of main_c_67 : TRef sig ⟨S_, .i32⟩) main_call20.v0 (broadcastInDim S1048576 ![] bcast_S_S1048576),
    TRef.binary (.of main_v237 : TRef sig ⟨S1048576, .i32⟩) main_call20.v0 main_call20.v1 Host.divsi,
    TRef.unary (.of main_v237 : TRef sig ⟨S1048576, .i32⟩) main_call20.v2 signi,
    TRef.unary (.of main_c_67 : TRef sig ⟨S_, .i32⟩) main_call20.v3 signi,
    TRef.unary main_call20.v3 main_call20.v4 (broadcastInDim S1048576 ![] bcast_S_S1048576),
    TRef.binary main_call20.v2 main_call20.v4 main_call20.v5 (cmpi .ne),
    TRef.unary (.of main_c_67 : TRef sig ⟨S_, .i32⟩) main_call20.v6 (broadcastInDim S1048576 ![] bcast_S_S1048576),
    TRef.binary (.of main_v237 : TRef sig ⟨S1048576, .i32⟩) main_call20.v6 main_call20.v7 Host.remsi,
    TRef.nullary main_call20.c (constantI S_ 32 0#32),
    TRef.unary main_call20.c main_call20.v8 (broadcastInDim S1048576 ![] bcast_S_S1048576),
    TRef.binary main_call20.v7 main_call20.v8 main_call20.v9 (cmpi .ne),
    TRef.binary main_call20.v5 main_call20.v9 main_call20.v10 andi,
    TRef.nullary main_call20.c_0 (constantI S_ 32 1#32),
    TRef.unary main_call20.c_0 main_call20.v11 (broadcastInDim S1048576 ![] bcast_S_S1048576),
    TRef.binary main_call20.v1 main_call20.v11 main_call20.v12 subi,
    TRef.ternary main_call20.v10 main_call20.v12 main_call20.v1 main_call20.call0.v0 select ]
abbrev sg_fdD_1_W : List (Ref sig .tc) := [main_c_67, main_call20_v0, main_call20_v1, main_call20_v2, main_call20_v3, main_call20_v4, main_call20_v5, main_call20_v6, main_call20_v7, main_call20_c, main_call20_v8, main_call20_v9, main_call20_v10, main_call20_c_0, main_call20_v11, main_call20_v12, main_v240]
theorem sg_fdD_1_writes : (sg_fdD_1 : List (HloOp τ sig (Elt F))).Forall fun op => op.writes ⊆ (sg_fdD_1_W.map (Proc.devRef (τ := τ) .tc)).toFinset := by
  simp only [List.Forall]; and_intros <;> exact writes_sub rfl (by decide)
theorem sg_fdD_1_sub : (sg_fdD_1 : List (HloOp τ sig (Elt F))).Forall fun op => op.bufs ⊆ tcRefs τ sig :=
  ⟨nullary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub ..⟩
theorem sg_fdD_1_fresh : (sg_fdD_1 : List (HloOp τ sig (Elt F))).Forall fun op => op.fresh = ∅ :=
  ⟨rfl, rfl, rfl, rfl, rfl, rfl, rfl, rfl, rfl, rfl, rfl, rfl, rfl, rfl, rfl, rfl, rfl⟩

abbrev sg_rmD_1 : List (HloOp τ sig (Elt F)) :=
  [ nullary main_c_68 (constantI S_ 32 1024#32),
    TRef.unary (.of main_c_68 : TRef sig ⟨S_, .i32⟩) main_call21.v0 id,
    TRef.nullary main_call21.c (constantI S_ 32 0#32),
    TRef.binary main_call21.v0 main_call21.c main_call21.v1 (cmpi .eq),
    TRef.nullary main_call21.c_0 (constantI S_ 32 1#32),
    TRef.ternary main_call21.v1 main_call21.c_0 main_call21.v0 main_call21.call0.v0 select,
    TRef.unary main_call21.call0.v0 main_call21.v3 (broadcastInDim S1048576 ![] bcast_S_S1048576),
    TRef.binary (.of main_v240 : TRef sig ⟨S1048576, .i32⟩) main_call21.v3 main_call21.v4 Host.remsi,
    TRef.nullary main_call21.c_1 (constantI S_ 32 0#32),
    TRef.unary main_call21.c_1 main_call21.v5 (broadcastInDim S1048576 ![] bcast_S_S1048576),
    TRef.binary main_call21.v4 main_call21.v5 main_call21.v6 (cmpi .ne),
    TRef.nullary main_call21.c_2 (constantI S_ 32 0#32),
    TRef.unary main_call21.c_2 main_call21.v7 (broadcastInDim S1048576 ![] bcast_S_S1048576),
    TRef.binary main_call21.v4 main_call21.v7 main_call21.v8 (cmpi .slt),
    TRef.nullary main_call21.c_3 (constantI S_ 32 0#32),
    TRef.binary main_call21.call0.v0 main_call21.c_3 main_call21.v9 (cmpi .slt),
    TRef.unary main_call21.v9 main_call21.v10 (broadcastInDim S1048576 ![] bcast_S_S1048576),
    TRef.binary main_call21.v8 main_call21.v10 main_call21.v11 (cmpi .ne),
    TRef.binary main_call21.v11 main_call21.v6 main_call21.v12 andi,
    TRef.unary main_call21.call0.v0 main_call21.v13 (broadcastInDim S1048576 ![] bcast_S_S1048576),
    TRef.binary main_call21.v4 main_call21.v13 main_call21.v14 addi,
    TRef.ternary main_call21.v12 main_call21.v14 main_call21.v4 main_call21.v15 select ]
abbrev sg_rmD_1_W : List (Ref sig .tc) := [main_c_68, main_call21_v0, main_call21_c, main_call21_v1, main_call21_c_0, main_call21_v2, main_call21_v3, main_call21_v4, main_call21_c_1, main_call21_v5, main_call21_v6, main_call21_c_2, main_call21_v7, main_call21_v8, main_call21_c_3, main_call21_v9, main_call21_v10, main_call21_v11, main_call21_v12, main_call21_v13, main_call21_v14, main_v241]
theorem sg_rmD_1_writes : (sg_rmD_1 : List (HloOp τ sig (Elt F))).Forall fun op => op.writes ⊆ (sg_rmD_1_W.map (Proc.devRef (τ := τ) .tc)).toFinset := by
  simp only [List.Forall]; and_intros <;> exact writes_sub rfl (by decide)
theorem sg_rmD_1_sub : (sg_rmD_1 : List (HloOp τ sig (Elt F))).Forall fun op => op.bufs ⊆ tcRefs τ sig :=
  ⟨nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩
theorem sg_rmD_1_fresh : (sg_rmD_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩

abbrev sg_ewA_1 : List (HloOp τ sig (Elt F)) :=
  [ nullary main_c_69 (constantI S_ 32 0#32),
    unary main_c_69 main_v242 (broadcastInDim S1048576 ![] bcast_S_S1048576),
    binary main_v239 main_v242 main_v243 (cmpi .slt),
    nullary main_c_70 (constantI S_ 32 1024#32),
    unary main_c_70 main_v244 (broadcastInDim S1048576 ![] bcast_S_S1048576),
    binary main_v239 main_v244 main_v245 (addi),
    ternary main_v243 main_v245 main_v239 main_v246 (select),
    nullary main_c_71 (constantI S_ 32 0#32),
    unary main_c_71 main_v247 (broadcastInDim S1048576 ![] bcast_S_S1048576),
    binary main_v241 main_v247 main_v248 (cmpi .slt),
    nullary main_c_72 (constantI S_ 32 1024#32),
    unary main_c_72 main_v249 (broadcastInDim S1048576 ![] bcast_S_S1048576),
    binary main_v241 main_v249 main_v250 (addi),
    ternary main_v248 main_v250 main_v241 main_v251 (select),
    unary main_v246 main_v252 (broadcastInDim S1048576x1 ![0] bcast_S1048576_S1048576x1_0),
    unary main_v251 main_v253 (broadcastInDim S1048576x1 ![0] bcast_S1048576_S1048576x1_0) ]
abbrev sg_ewA_1_W : List (Ref sig .tc) := [main_c_69, main_v242, main_v243, main_c_70, main_v244, main_v245, main_v246, main_c_71, main_v247, main_v248, main_c_72, main_v249, main_v250, main_v251, main_v252, main_v253]
theorem sg_ewA_1_writes : (sg_ewA_1 : List (HloOp τ sig (Elt F))).Forall fun op => op.writes ⊆ (sg_ewA_1_W.map (Proc.devRef (τ := τ) .tc)).toFinset := by
  simp only [List.Forall]; and_intros <;> exact writes_sub rfl (by decide)
theorem sg_ewA_1_sub : (sg_ewA_1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub ..⟩
theorem sg_ewA_1_fresh : (sg_ewA_1 : List (HloOp τ sig (Elt F))).Forall fun op => op.fresh = ∅ :=
  ⟨rfl, rfl, rfl, rfl, rfl, rfl, rfl, rfl, rfl, rfl, rfl, rfl, rfl, rfl, rfl, rfl⟩

abbrev sg_ewB_1 : List (HloOp τ sig (Elt F)) :=
  [ binary main_v252 main_v253 main_v254 ((fun a b => concatenate S1048576x2 1 [⟨S1048576x1, a⟩, ⟨S1048576x1, b⟩] concatenates_S1048576x1_S1048576x1_S1048576x2_d1)),
    binary main_v223 main_v254 main_v255 ((fun x i => Host.gather gather_S1024x1024_S1048576x2_S1048576_n_01_n_n_01_1_11 x i)) ]
abbrev sg_ewB_1_W : List (Ref sig .tc) := [main_v254, main_v255]
theorem sg_ewB_1_writes : (sg_ewB_1 : List (HloOp τ sig (Elt F))).Forall fun op => op.writes ⊆ (sg_ewB_1_W.map (Proc.devRef (τ := τ) .tc)).toFinset := by
  simp only [List.Forall]; and_intros <;> exact writes_sub rfl (by decide)
theorem sg_ewB_1_sub : (sg_ewB_1 : List (HloOp τ sig (Elt F))).Forall fun op => op.bufs ⊆ tcRefs τ sig :=
  ⟨binary_bufs_sub .., binary_bufs_sub ..⟩
theorem sg_ewB_1_fresh : (sg_ewB_1 : List (HloOp τ sig (Elt F))).Forall fun op => op.fresh = ∅ :=
  ⟨rfl, rfl⟩

abbrev sg_edge_1 : List (HloOp τ sig (Elt F)) :=
  [ unary main_arg1 main_v256 ((extractStridedSlice S1x32x32x16 ![1, 0, 0, 0] · slices_S2x32x32x16_S1x32x32x16_1_0_0_0)),
    reshape main_v256 main_v257 rfl shapeCasts_S1x32x32x16_S32x32x16,
    reshape main_v257 main_v258 rfl shapeCasts_S32x32x16_S1024x16 ]
abbrev sg_edge_1_W : List (Ref sig .tc) := [main_v256, main_v257, main_v258]
theorem sg_edge_1_writes : (sg_edge_1 : List (HloOp τ sig (Elt F))).Forall fun op => op.writes ⊆ (sg_edge_1_W.map (Proc.devRef (τ := τ) .tc)).toFinset := by
  simp only [List.Forall]; and_intros <;> exact writes_sub rfl (by decide)
theorem sg_edge_1_sub : (sg_edge_1 : List (HloOp τ sig (Elt F))).Forall fun op => op.bufs ⊆ tcRefs τ sig :=
  ⟨unary_bufs_sub .., reshape_bufs_sub .., reshape_bufs_sub ..⟩
theorem sg_edge_1_fresh : (sg_edge_1 : List (HloOp τ sig (Elt F))).Forall fun op => op.fresh = ∅ :=
  ⟨rfl, rfl, rfl⟩

abbrev sg_l1p_1 : List (HloOp τ sig (Elt F)) :=
  [ nullary main_v259 (iotaInDim S1024 32 0),
    binary main_v239 main_v259 main_v260 ((fun a b => concatenate S1049600 0 [⟨S1048576, a⟩, ⟨S1024, b⟩] concatenates_S1048576_S1024_S1049600_d0)),
    binary main_v241 main_v259 main_v261 ((fun a b => concatenate S1049600 0 [⟨S1048576, a⟩, ⟨S1024, b⟩] concatenates_S1048576_S1024_S1049600_d0)),
    nullary main_cst_73 (constant S_ .f32 0x3F800000#32),
    unary main_cst_73 main_v262 (broadcastInDim S1024 ![] bcast_S_S1024),
    binary main_v255 main_v262 main_v263 ((fun a b => concatenate S1049600 0 [⟨S1048576, a⟩, ⟨S1024, b⟩] concatenates_S1048576_S1024_S1049600_d0)) ]
abbrev sg_l1p_1_W : List (Ref sig .tc) := [main_v259, main_v260, main_v261, main_cst_73, main_v262, main_v263]
theorem sg_l1p_1_writes : (sg_l1p_1 : List (HloOp τ sig (Elt F))).Forall fun op => op.writes ⊆ (sg_l1p_1_W.map (Proc.devRef (τ := τ) .tc)).toFinset := by
  simp only [List.Forall]; and_intros <;> exact writes_sub rfl (by decide)
theorem sg_l1p_1_sub : (sg_l1p_1 : List (HloOp τ sig (Elt F))).Forall fun op => op.bufs ⊆ tcRefs τ sig :=
  ⟨nullary_bufs_sub .., binary_bufs_sub .., binary_bufs_sub .., nullary_bufs_sub .., unary_bufs_sub .., binary_bufs_sub ..⟩
theorem sg_l1p_1_fresh : (sg_l1p_1 : List (HloOp τ sig (Elt F))).Forall fun op => op.fresh = ∅ :=
  ⟨rfl, rfl, rfl, rfl, rfl, rfl⟩

abbrev sg_l1_1 : List (HloOp τ sig (Elt F)) :=
  [ nullary main_cst_74 (constant S_ .f32 0x00000000#32),
    unary main_cst_74 main_v264 (broadcastInDim S1024 ![] bcast_S_S1024),
    nullary main_c_75 (constantI S_ 32 0#32),
    unary main_c_75 main_v265 (broadcastInDim S1049600 ![] bcast_S_S1049600),
    binary main_v261 main_v265 main_v266 (cmpi .slt),
    nullary main_c_76 (constantI S_ 32 1024#32),
    unary main_c_76 main_v267 (broadcastInDim S1049600 ![] bcast_S_S1049600),
    binary main_v261 main_v267 main_v268 (addi),
    ternary main_v266 main_v268 main_v261 main_v269 (select),
    unary main_v269 main_v270 (broadcastInDim S1049600x1 ![0] bcast_S1049600_S1049600x1_0),
    ternary main_v264 main_v270 main_v263 main_v271 ((fun x i u => Host.scatterAdd scatter_S1024_S1049600x1_S1049600_n_0_0_1 x i u)),
    nullary main_cst_77 (constant S_ .f32 0x00000000#32),
    unary main_cst_77 main_v272 (broadcastInDim S1024 ![] bcast_S_S1024),
    binary main_v271 main_v272 main_v273 (cmpf .ogt),
    unary main_v271 main_v274 (Host.rsqrt),
    nullary main_cst_78 (constant S_ .f32 0x00000000#32),
    TRef.unary (.of main_cst_78 : TRef sig ⟨S_, .f32⟩) main_call22.v0 id,
    TRef.unary main_call22.v0 main_call22.v1 (broadcastInDim S1024 ![] bcast_S_S1024),
    TRef.ternary (.of main_v273 : TRef sig ⟨S1024, .i1⟩) (.of main_v274 : TRef sig ⟨S1024, .f32⟩) main_call22.v1 main_call22.v2 select,
    nullary main_c_79 (constantI S_ 32 0#32),
    unary main_c_79 main_v276 (broadcastInDim S1049600 ![] bcast_S_S1049600),
    binary main_v260 main_v276 main_v277 (cmpi .slt),
    nullary main_c_80 (constantI S_ 32 1024#32),
    unary main_c_80 main_v278 (broadcastInDim S1049600 ![] bcast_S_S1049600),
    binary main_v260 main_v278 main_v279 (addi),
    ternary main_v277 main_v279 main_v260 main_v280 (select),
    unary main_v280 main_v281 (broadcastInDim S1049600x1 ![0] bcast_S1049600_S1049600x1_0),
    binary main_v275 main_v281 main_v282 ((fun x i => Host.gather gather_S1024_S1049600x1_S1049600_n_0_n_n_0_1_1 x i)),
    binary main_v282 main_v263 main_v283 (mulf),
    nullary main_c_81 (constantI S_ 32 0#32),
    unary main_c_81 main_v284 (broadcastInDim S1049600 ![] bcast_S_S1049600),
    binary main_v261 main_v284 main_v285 (cmpi .slt),
    nullary main_c_82 (constantI S_ 32 1024#32),
    unary main_c_82 main_v286 (broadcastInDim S1049600 ![] bcast_S_S1049600),
    binary main_v261 main_v286 main_v287 (addi),
    ternary main_v285 main_v287 main_v261 main_v288 (select),
    unary main_v288 main_v289 (broadcastInDim S1049600x1 ![0] bcast_S1049600_S1049600x1_0),
    binary main_v275 main_v289 main_v290 ((fun x i => Host.gather gather_S1024_S1049600x1_S1049600_n_0_n_n_0_1_1 x i)),
    binary main_v283 main_v290 main_v291 (mulf),
    binary main_v258 main_arg2 main_v292 ((fun l r => Host.dotGeneral dot_S1024x16_S16x16_S1024x16_1_0_0_1_n_n none l r)),
    nullary main_cst_83 (constant S_ .f32 0x00000000#32),
    unary main_cst_83 main_v293 (broadcastInDim S1024x16 ![] bcast_S_S1024x16),
    nullary main_c_84 (constantI S_ 32 0#32),
    unary main_c_84 main_v294 (broadcastInDim S1049600 ![] bcast_S_S1049600),
    binary main_v260 main_v294 main_v295 (cmpi .slt),
    nullary main_c_85 (constantI S_ 32 1024#32),
    unary main_c_85 main_v296 (broadcastInDim S1049600 ![] bcast_S_S1049600),
    binary main_v260 main_v296 main_v297 (addi),
    ternary main_v295 main_v297 main_v260 main_v298 (select),
    unary main_v298 main_v299 (broadcastInDim S1049600x1 ![0] bcast_S1049600_S1049600x1_0),
    binary main_v292 main_v299 main_v300 ((fun x i => Host.gather gather_S1024x16_S1049600x1_S1049600x16_1_0_n_n_0_1_116 x i)),
    unary main_v291 main_v301 (broadcastInDim S1049600x1 ![0] bcast_S1049600_S1049600x1_0),
    unary main_v301 main_v302 (broadcastInDim S1049600x16 ![0, 1] bcast_S1049600x1_S1049600x16_0_1),
    binary main_v300 main_v302 main_v303 (mulf),
    nullary main_c_86 (constantI S_ 32 0#32),
    unary main_c_86 main_v304 (broadcastInDim S1049600 ![] bcast_S_S1049600),
    binary main_v261 main_v304 main_v305 (cmpi .slt),
    nullary main_c_87 (constantI S_ 32 1024#32),
    unary main_c_87 main_v306 (broadcastInDim S1049600 ![] bcast_S_S1049600),
    binary main_v261 main_v306 main_v307 (addi),
    ternary main_v305 main_v307 main_v261 main_v308 (select),
    unary main_v308 main_v309 (broadcastInDim S1049600x1 ![0] bcast_S1049600_S1049600x1_0),
    ternary main_v293 main_v309 main_v303 main_v310 ((fun x i u => Host.scatterAdd scatter_S1024x16_S1049600x1_S1049600x16_1_0_0_1 x i u)),
    unary main_arg3 main_v311 (broadcastInDim S1x16 ![1] bcast_S16_S1x16_1),
    unary main_v311 main_v312 (broadcastInDim S1024x16 ![0, 1] bcast_S1x16_S1024x16_0_1),
    binary main_v310 main_v312 main_v313 (addf),
    TRef.nullary main_call23.cst (constant S_ .f32 0x00000000#32),
    TRef.unary main_call23.cst main_call23.v0 (broadcastInDim S1024x16 ![] bcast_S_S1024x16),
    TRef.binary (.of main_v313 : TRef sig ⟨S1024x16, .f32⟩) main_call23.v0 main_call23.v1 maximumf ]
abbrev sg_l1_1_W : List (Ref sig .tc) := [main_cst_74, main_v264, main_c_75, main_v265, main_v266, main_c_76, main_v267, main_v268, main_v269, main_v270, main_v271, main_cst_77, main_v272, main_v273, main_v274, main_cst_78, main_call22_v0, main_call22_v1, main_v275, main_c_79, main_v276, main_v277, main_c_80, main_v278, main_v279, main_v280, main_v281, main_v282, main_v283, main_c_81, main_v284, main_v285, main_c_82, main_v286, main_v287, main_v288, main_v289, main_v290, main_v291, main_v292, main_cst_83, main_v293, main_c_84, main_v294, main_v295, main_c_85, main_v296, main_v297, main_v298, main_v299, main_v300, main_v301, main_v302, main_v303, main_c_86, main_v304, main_v305, main_c_87, main_v306, main_v307, main_v308, main_v309, main_v310, main_v311, main_v312, main_v313, main_call23_cst, main_call23_v0, main_v314]
theorem sg_l1_1_writes : (sg_l1_1 : List (HloOp τ sig (Elt F))).Forall fun op => op.writes ⊆ (sg_l1_1_W.map (Proc.devRef (τ := τ) .tc)).toFinset := by
  simp only [List.Forall]; and_intros <;> exact writes_sub rfl (by decide)
theorem sg_l1_1_sub : (sg_l1_1 : List (HloOp τ sig (Elt F))).Forall fun op => op.bufs ⊆ tcRefs τ sig :=
  ⟨nullary_bufs_sub .., unary_bufs_sub .., nullary_bufs_sub .., unary_bufs_sub .., binary_bufs_sub .., nullary_bufs_sub .., unary_bufs_sub .., binary_bufs_sub .., ternary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., ternary_bufs_sub .., unary_bufs_sub .., unary_bufs_sub .., binary_bufs_sub .., nullary_bufs_sub .., unary_bufs_sub .., binary_bufs_sub ..⟩
theorem sg_l1_1_fresh : (sg_l1_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

abbrev sg_l2p_1 : List (HloOp τ sig (Elt F)) :=
  [ nullary main_v315 (iotaInDim S1024 32 0),
    binary main_v239 main_v315 main_v316 ((fun a b => concatenate S1049600 0 [⟨S1048576, a⟩, ⟨S1024, b⟩] concatenates_S1048576_S1024_S1049600_d0)),
    binary main_v241 main_v315 main_v317 ((fun a b => concatenate S1049600 0 [⟨S1048576, a⟩, ⟨S1024, b⟩] concatenates_S1048576_S1024_S1049600_d0)),
    nullary main_cst_88 (constant S_ .f32 0x3F800000#32),
    unary main_cst_88 main_v318 (broadcastInDim S1024 ![] bcast_S_S1024),
    binary main_v255 main_v318 main_v319 ((fun a b => concatenate S1049600 0 [⟨S1048576, a⟩, ⟨S1024, b⟩] concatenates_S1048576_S1024_S1049600_d0)) ]
abbrev sg_l2p_1_W : List (Ref sig .tc) := [main_v315, main_v316, main_v317, main_cst_88, main_v318, main_v319]
theorem sg_l2p_1_writes : (sg_l2p_1 : List (HloOp τ sig (Elt F))).Forall fun op => op.writes ⊆ (sg_l2p_1_W.map (Proc.devRef (τ := τ) .tc)).toFinset := by
  simp only [List.Forall]; and_intros <;> exact writes_sub rfl (by decide)
theorem sg_l2p_1_sub : (sg_l2p_1 : List (HloOp τ sig (Elt F))).Forall fun op => op.bufs ⊆ tcRefs τ sig :=
  ⟨nullary_bufs_sub .., binary_bufs_sub .., binary_bufs_sub .., nullary_bufs_sub .., unary_bufs_sub .., binary_bufs_sub ..⟩
theorem sg_l2p_1_fresh : (sg_l2p_1 : List (HloOp τ sig (Elt F))).Forall fun op => op.fresh = ∅ :=
  ⟨rfl, rfl, rfl, rfl, rfl, rfl⟩

abbrev sg_l2_1 : List (HloOp τ sig (Elt F)) :=
  [ nullary main_cst_89 (constant S_ .f32 0x00000000#32),
    unary main_cst_89 main_v320 (broadcastInDim S1024 ![] bcast_S_S1024),
    nullary main_c_90 (constantI S_ 32 0#32),
    unary main_c_90 main_v321 (broadcastInDim S1049600 ![] bcast_S_S1049600),
    binary main_v317 main_v321 main_v322 (cmpi .slt),
    nullary main_c_91 (constantI S_ 32 1024#32),
    unary main_c_91 main_v323 (broadcastInDim S1049600 ![] bcast_S_S1049600),
    binary main_v317 main_v323 main_v324 (addi),
    ternary main_v322 main_v324 main_v317 main_v325 (select),
    unary main_v325 main_v326 (broadcastInDim S1049600x1 ![0] bcast_S1049600_S1049600x1_0),
    ternary main_v320 main_v326 main_v319 main_v327 ((fun x i u => Host.scatterAdd scatter_S1024_S1049600x1_S1049600_n_0_0_1 x i u)),
    nullary main_cst_92 (constant S_ .f32 0x00000000#32),
    unary main_cst_92 main_v328 (broadcastInDim S1024 ![] bcast_S_S1024),
    binary main_v327 main_v328 main_v329 (cmpf .ogt),
    unary main_v327 main_v330 (Host.rsqrt),
    nullary main_cst_93 (constant S_ .f32 0x00000000#32),
    TRef.unary (.of main_cst_93 : TRef sig ⟨S_, .f32⟩) main_call24.v0 id,
    TRef.unary main_call24.v0 main_call24.v1 (broadcastInDim S1024 ![] bcast_S_S1024),
    TRef.ternary (.of main_v329 : TRef sig ⟨S1024, .i1⟩) (.of main_v330 : TRef sig ⟨S1024, .f32⟩) main_call24.v1 main_call24.v2 select,
    nullary main_c_94 (constantI S_ 32 0#32),
    unary main_c_94 main_v332 (broadcastInDim S1049600 ![] bcast_S_S1049600),
    binary main_v316 main_v332 main_v333 (cmpi .slt),
    nullary main_c_95 (constantI S_ 32 1024#32),
    unary main_c_95 main_v334 (broadcastInDim S1049600 ![] bcast_S_S1049600),
    binary main_v316 main_v334 main_v335 (addi),
    ternary main_v333 main_v335 main_v316 main_v336 (select),
    unary main_v336 main_v337 (broadcastInDim S1049600x1 ![0] bcast_S1049600_S1049600x1_0),
    binary main_v331 main_v337 main_v338 ((fun x i => Host.gather gather_S1024_S1049600x1_S1049600_n_0_n_n_0_1_1 x i)),
    binary main_v338 main_v319 main_v339 (mulf),
    nullary main_c_96 (constantI S_ 32 0#32),
    unary main_c_96 main_v340 (broadcastInDim S1049600 ![] bcast_S_S1049600),
    binary main_v317 main_v340 main_v341 (cmpi .slt),
    nullary main_c_97 (constantI S_ 32 1024#32),
    unary main_c_97 main_v342 (broadcastInDim S1049600 ![] bcast_S_S1049600),
    binary main_v317 main_v342 main_v343 (addi),
    ternary main_v341 main_v343 main_v317 main_v344 (select),
    unary main_v344 main_v345 (broadcastInDim S1049600x1 ![0] bcast_S1049600_S1049600x1_0),
    binary main_v331 main_v345 main_v346 ((fun x i => Host.gather gather_S1024_S1049600x1_S1049600_n_0_n_n_0_1_1 x i)),
    binary main_v339 main_v346 main_v347 (mulf),
    binary main_v314 main_arg4 main_v348 ((fun l r => Host.dotGeneral dot_S1024x16_S16x16_S1024x16_1_0_0_1_n_n none l r)),
    nullary main_cst_98 (constant S_ .f32 0x00000000#32),
    unary main_cst_98 main_v349 (broadcastInDim S1024x16 ![] bcast_S_S1024x16),
    nullary main_c_99 (constantI S_ 32 0#32),
    unary main_c_99 main_v350 (broadcastInDim S1049600 ![] bcast_S_S1049600),
    binary main_v316 main_v350 main_v351 (cmpi .slt),
    nullary main_c_100 (constantI S_ 32 1024#32),
    unary main_c_100 main_v352 (broadcastInDim S1049600 ![] bcast_S_S1049600),
    binary main_v316 main_v352 main_v353 (addi),
    ternary main_v351 main_v353 main_v316 main_v354 (select),
    unary main_v354 main_v355 (broadcastInDim S1049600x1 ![0] bcast_S1049600_S1049600x1_0),
    binary main_v348 main_v355 main_v356 ((fun x i => Host.gather gather_S1024x16_S1049600x1_S1049600x16_1_0_n_n_0_1_116 x i)),
    unary main_v347 main_v357 (broadcastInDim S1049600x1 ![0] bcast_S1049600_S1049600x1_0),
    unary main_v357 main_v358 (broadcastInDim S1049600x16 ![0, 1] bcast_S1049600x1_S1049600x16_0_1),
    binary main_v356 main_v358 main_v359 (mulf),
    nullary main_c_101 (constantI S_ 32 0#32),
    unary main_c_101 main_v360 (broadcastInDim S1049600 ![] bcast_S_S1049600),
    binary main_v317 main_v360 main_v361 (cmpi .slt),
    nullary main_c_102 (constantI S_ 32 1024#32),
    unary main_c_102 main_v362 (broadcastInDim S1049600 ![] bcast_S_S1049600),
    binary main_v317 main_v362 main_v363 (addi),
    ternary main_v361 main_v363 main_v317 main_v364 (select),
    unary main_v364 main_v365 (broadcastInDim S1049600x1 ![0] bcast_S1049600_S1049600x1_0),
    ternary main_v349 main_v365 main_v359 main_v366 ((fun x i u => Host.scatterAdd scatter_S1024x16_S1049600x1_S1049600x16_1_0_0_1 x i u)),
    unary main_arg5 main_v367 (broadcastInDim S1x16 ![1] bcast_S16_S1x16_1),
    unary main_v367 main_v368 (broadcastInDim S1024x16 ![0, 1] bcast_S1x16_S1024x16_0_1),
    binary main_v366 main_v368 main_v369 (addf),
    TRef.nullary main_call25.cst (constant S_ .f32 0x00000000#32),
    TRef.unary main_call25.cst main_call25.v0 (broadcastInDim S1024x16 ![] bcast_S_S1024x16),
    TRef.binary (.of main_v369 : TRef sig ⟨S1024x16, .f32⟩) main_call25.v0 main_call25.v1 maximumf ]
abbrev sg_l2_1_W : List (Ref sig .tc) := [main_cst_89, main_v320, main_c_90, main_v321, main_v322, main_c_91, main_v323, main_v324, main_v325, main_v326, main_v327, main_cst_92, main_v328, main_v329, main_v330, main_cst_93, main_call24_v0, main_call24_v1, main_v331, main_c_94, main_v332, main_v333, main_c_95, main_v334, main_v335, main_v336, main_v337, main_v338, main_v339, main_c_96, main_v340, main_v341, main_c_97, main_v342, main_v343, main_v344, main_v345, main_v346, main_v347, main_v348, main_cst_98, main_v349, main_c_99, main_v350, main_v351, main_c_100, main_v352, main_v353, main_v354, main_v355, main_v356, main_v357, main_v358, main_v359, main_c_101, main_v360, main_v361, main_c_102, main_v362, main_v363, main_v364, main_v365, main_v366, main_v367, main_v368, main_v369, main_call25_cst, main_call25_v0, main_v370]
theorem sg_l2_1_writes : (sg_l2_1 : List (HloOp τ sig (Elt F))).Forall fun op => op.writes ⊆ (sg_l2_1_W.map (Proc.devRef (τ := τ) .tc)).toFinset := by
  simp only [List.Forall]; and_intros <;> exact writes_sub rfl (by decide)
theorem sg_l2_1_sub : (sg_l2_1 : List (HloOp τ sig (Elt F))).Forall fun op => op.bufs ⊆ tcRefs τ sig :=
  ⟨nullary_bufs_sub .., unary_bufs_sub .., nullary_bufs_sub .., unary_bufs_sub .., binary_bufs_sub .., nullary_bufs_sub .., unary_bufs_sub .., binary_bufs_sub .., ternary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., ternary_bufs_sub .., unary_bufs_sub .., unary_bufs_sub .., binary_bufs_sub .., nullary_bufs_sub .., unary_bufs_sub .., binary_bufs_sub ..⟩
theorem sg_l2_1_fresh : (sg_l2_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

abbrev sg_l3p_1 : List (HloOp τ sig (Elt F)) :=
  [ nullary main_v371 (iotaInDim S1024 32 0),
    binary main_v239 main_v371 main_v372 ((fun a b => concatenate S1049600 0 [⟨S1048576, a⟩, ⟨S1024, b⟩] concatenates_S1048576_S1024_S1049600_d0)),
    binary main_v241 main_v371 main_v373 ((fun a b => concatenate S1049600 0 [⟨S1048576, a⟩, ⟨S1024, b⟩] concatenates_S1048576_S1024_S1049600_d0)),
    nullary main_cst_103 (constant S_ .f32 0x3F800000#32),
    unary main_cst_103 main_v374 (broadcastInDim S1024 ![] bcast_S_S1024),
    binary main_v255 main_v374 main_v375 ((fun a b => concatenate S1049600 0 [⟨S1048576, a⟩, ⟨S1024, b⟩] concatenates_S1048576_S1024_S1049600_d0)) ]
abbrev sg_l3p_1_W : List (Ref sig .tc) := [main_v371, main_v372, main_v373, main_cst_103, main_v374, main_v375]
theorem sg_l3p_1_writes : (sg_l3p_1 : List (HloOp τ sig (Elt F))).Forall fun op => op.writes ⊆ (sg_l3p_1_W.map (Proc.devRef (τ := τ) .tc)).toFinset := by
  simp only [List.Forall]; and_intros <;> exact writes_sub rfl (by decide)
theorem sg_l3p_1_sub : (sg_l3p_1 : List (HloOp τ sig (Elt F))).Forall fun op => op.bufs ⊆ tcRefs τ sig :=
  ⟨nullary_bufs_sub .., binary_bufs_sub .., binary_bufs_sub .., nullary_bufs_sub .., unary_bufs_sub .., binary_bufs_sub ..⟩
theorem sg_l3p_1_fresh : (sg_l3p_1 : List (HloOp τ sig (Elt F))).Forall fun op => op.fresh = ∅ :=
  ⟨rfl, rfl, rfl, rfl, rfl, rfl⟩

abbrev sg_l3_1 : List (HloOp τ sig (Elt F)) :=
  [ nullary main_cst_104 (constant S_ .f32 0x00000000#32),
    unary main_cst_104 main_v376 (broadcastInDim S1024 ![] bcast_S_S1024),
    nullary main_c_105 (constantI S_ 32 0#32),
    unary main_c_105 main_v377 (broadcastInDim S1049600 ![] bcast_S_S1049600),
    binary main_v373 main_v377 main_v378 (cmpi .slt),
    nullary main_c_106 (constantI S_ 32 1024#32),
    unary main_c_106 main_v379 (broadcastInDim S1049600 ![] bcast_S_S1049600),
    binary main_v373 main_v379 main_v380 (addi),
    ternary main_v378 main_v380 main_v373 main_v381 (select),
    unary main_v381 main_v382 (broadcastInDim S1049600x1 ![0] bcast_S1049600_S1049600x1_0),
    ternary main_v376 main_v382 main_v375 main_v383 ((fun x i u => Host.scatterAdd scatter_S1024_S1049600x1_S1049600_n_0_0_1 x i u)),
    nullary main_cst_107 (constant S_ .f32 0x00000000#32),
    unary main_cst_107 main_v384 (broadcastInDim S1024 ![] bcast_S_S1024),
    binary main_v383 main_v384 main_v385 (cmpf .ogt),
    unary main_v383 main_v386 (Host.rsqrt),
    nullary main_cst_108 (constant S_ .f32 0x00000000#32),
    TRef.unary (.of main_cst_108 : TRef sig ⟨S_, .f32⟩) main_call26.v0 id,
    TRef.unary main_call26.v0 main_call26.v1 (broadcastInDim S1024 ![] bcast_S_S1024),
    TRef.ternary (.of main_v385 : TRef sig ⟨S1024, .i1⟩) (.of main_v386 : TRef sig ⟨S1024, .f32⟩) main_call26.v1 main_call26.v2 select,
    nullary main_c_109 (constantI S_ 32 0#32),
    unary main_c_109 main_v388 (broadcastInDim S1049600 ![] bcast_S_S1049600),
    binary main_v372 main_v388 main_v389 (cmpi .slt),
    nullary main_c_110 (constantI S_ 32 1024#32),
    unary main_c_110 main_v390 (broadcastInDim S1049600 ![] bcast_S_S1049600),
    binary main_v372 main_v390 main_v391 (addi),
    ternary main_v389 main_v391 main_v372 main_v392 (select),
    unary main_v392 main_v393 (broadcastInDim S1049600x1 ![0] bcast_S1049600_S1049600x1_0),
    binary main_v387 main_v393 main_v394 ((fun x i => Host.gather gather_S1024_S1049600x1_S1049600_n_0_n_n_0_1_1 x i)),
    binary main_v394 main_v375 main_v395 (mulf),
    nullary main_c_111 (constantI S_ 32 0#32),
    unary main_c_111 main_v396 (broadcastInDim S1049600 ![] bcast_S_S1049600),
    binary main_v373 main_v396 main_v397 (cmpi .slt),
    nullary main_c_112 (constantI S_ 32 1024#32),
    unary main_c_112 main_v398 (broadcastInDim S1049600 ![] bcast_S_S1049600),
    binary main_v373 main_v398 main_v399 (addi),
    ternary main_v397 main_v399 main_v373 main_v400 (select),
    unary main_v400 main_v401 (broadcastInDim S1049600x1 ![0] bcast_S1049600_S1049600x1_0),
    binary main_v387 main_v401 main_v402 ((fun x i => Host.gather gather_S1024_S1049600x1_S1049600_n_0_n_n_0_1_1 x i)),
    binary main_v395 main_v402 main_v403 (mulf),
    binary main_v370 main_arg6 main_v404 ((fun l r => Host.dotGeneral dot_S1024x16_S16x16_S1024x16_1_0_0_1_n_n none l r)),
    nullary main_cst_113 (constant S_ .f32 0x00000000#32),
    unary main_cst_113 main_v405 (broadcastInDim S1024x16 ![] bcast_S_S1024x16),
    nullary main_c_114 (constantI S_ 32 0#32),
    unary main_c_114 main_v406 (broadcastInDim S1049600 ![] bcast_S_S1049600),
    binary main_v372 main_v406 main_v407 (cmpi .slt),
    nullary main_c_115 (constantI S_ 32 1024#32),
    unary main_c_115 main_v408 (broadcastInDim S1049600 ![] bcast_S_S1049600),
    binary main_v372 main_v408 main_v409 (addi),
    ternary main_v407 main_v409 main_v372 main_v410 (select),
    unary main_v410 main_v411 (broadcastInDim S1049600x1 ![0] bcast_S1049600_S1049600x1_0),
    binary main_v404 main_v411 main_v412 ((fun x i => Host.gather gather_S1024x16_S1049600x1_S1049600x16_1_0_n_n_0_1_116 x i)),
    unary main_v403 main_v413 (broadcastInDim S1049600x1 ![0] bcast_S1049600_S1049600x1_0),
    unary main_v413 main_v414 (broadcastInDim S1049600x16 ![0, 1] bcast_S1049600x1_S1049600x16_0_1),
    binary main_v412 main_v414 main_v415 (mulf),
    nullary main_c_116 (constantI S_ 32 0#32),
    unary main_c_116 main_v416 (broadcastInDim S1049600 ![] bcast_S_S1049600),
    binary main_v373 main_v416 main_v417 (cmpi .slt),
    nullary main_c_117 (constantI S_ 32 1024#32),
    unary main_c_117 main_v418 (broadcastInDim S1049600 ![] bcast_S_S1049600),
    binary main_v373 main_v418 main_v419 (addi),
    ternary main_v417 main_v419 main_v373 main_v420 (select),
    unary main_v420 main_v421 (broadcastInDim S1049600x1 ![0] bcast_S1049600_S1049600x1_0),
    ternary main_v405 main_v421 main_v415 main_v422 ((fun x i u => Host.scatterAdd scatter_S1024x16_S1049600x1_S1049600x16_1_0_0_1 x i u)),
    unary main_arg7 main_v423 (broadcastInDim S1x16 ![1] bcast_S16_S1x16_1),
    unary main_v423 main_v424 (broadcastInDim S1024x16 ![0, 1] bcast_S1x16_S1024x16_0_1),
    binary main_v422 main_v424 main_v425 (addf),
    TRef.nullary main_call27.cst (constant S_ .f32 0x00000000#32),
    TRef.unary main_call27.cst main_call27.v0 (broadcastInDim S1024x16 ![] bcast_S_S1024x16),
    TRef.binary (.of main_v425 : TRef sig ⟨S1024x16, .f32⟩) main_call27.v0 main_call27.v1 maximumf ]
abbrev sg_l3_1_W : List (Ref sig .tc) := [main_cst_104, main_v376, main_c_105, main_v377, main_v378, main_c_106, main_v379, main_v380, main_v381, main_v382, main_v383, main_cst_107, main_v384, main_v385, main_v386, main_cst_108, main_call26_v0, main_call26_v1, main_v387, main_c_109, main_v388, main_v389, main_c_110, main_v390, main_v391, main_v392, main_v393, main_v394, main_v395, main_c_111, main_v396, main_v397, main_c_112, main_v398, main_v399, main_v400, main_v401, main_v402, main_v403, main_v404, main_cst_113, main_v405, main_c_114, main_v406, main_v407, main_c_115, main_v408, main_v409, main_v410, main_v411, main_v412, main_v413, main_v414, main_v415, main_c_116, main_v416, main_v417, main_c_117, main_v418, main_v419, main_v420, main_v421, main_v422, main_v423, main_v424, main_v425, main_call27_cst, main_call27_v0, main_v426]
theorem sg_l3_1_writes : (sg_l3_1 : List (HloOp τ sig (Elt F))).Forall fun op => op.writes ⊆ (sg_l3_1_W.map (Proc.devRef (τ := τ) .tc)).toFinset := by
  simp only [List.Forall]; and_intros <;> exact writes_sub rfl (by decide)
theorem sg_l3_1_sub : (sg_l3_1 : List (HloOp τ sig (Elt F))).Forall fun op => op.bufs ⊆ tcRefs τ sig :=
  ⟨nullary_bufs_sub .., unary_bufs_sub .., nullary_bufs_sub .., unary_bufs_sub .., binary_bufs_sub .., nullary_bufs_sub .., unary_bufs_sub .., binary_bufs_sub .., ternary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., ternary_bufs_sub .., unary_bufs_sub .., unary_bufs_sub .., binary_bufs_sub .., nullary_bufs_sub .., unary_bufs_sub .., binary_bufs_sub ..⟩
theorem sg_l3_1_fresh : (sg_l3_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

abbrev sg_pack_1 : List (HloOp τ sig (Elt F)) :=
  [ reshape main_v426 main_v427 rfl shapeCasts_S1024x16_S1x32x32x16 ]
abbrev sg_pack_1_W : List (Ref sig .tc) := [main_v427]
theorem sg_pack_1_writes : (sg_pack_1 : List (HloOp τ sig (Elt F))).Forall fun op => op.writes ⊆ (sg_pack_1_W.map (Proc.devRef (τ := τ) .tc)).toFinset := by
  simp only [List.Forall]; and_intros <;> exact writes_sub rfl (by decide)
theorem sg_pack_1_sub : (sg_pack_1 : List (HloOp τ sig (Elt F))).Forall fun op => op.bufs ⊆ tcRefs τ sig :=
  reshape_bufs_sub ..
theorem sg_pack_1_fresh : (sg_pack_1 : List (HloOp τ sig (Elt F))).Forall fun op => op.fresh = ∅ :=
  rfl

abbrev sg_cat : List (HloOp τ sig (Elt F)) :=
  [ binary main_v213 main_v427 main_v428 ((fun a b => concatenate S2x32x32x16 0 [⟨S1x32x32x16, a⟩, ⟨S1x32x32x16, b⟩] concatenates_S1x32x32x16_S1x32x32x16_S2x32x32x16_d0)) ]
abbrev sg_cat_W : List (Ref sig .tc) := [main_v428]
theorem sg_cat_writes : (sg_cat : List (HloOp τ sig (Elt F))).Forall fun op => op.writes ⊆ (sg_cat_W.map (Proc.devRef (τ := τ) .tc)).toFinset := by
  simp only [List.Forall]; and_intros <;> exact writes_sub rfl (by decide)
theorem sg_cat_sub : (sg_cat : List (HloOp τ sig (Elt F))).Forall fun op => op.bufs ⊆ tcRefs τ sig :=
  binary_bufs_sub ..
theorem sg_cat_fresh : (sg_cat : List (HloOp τ sig (Elt F))).Forall fun op => op.fresh = ∅ :=
  rfl

abbrev ops : List (HloOp τ sig (Elt F)) :=
  sg_flow_0 ++ (sg_nx_0 ++ (sg_sim_0 ++ (sg_mask_0 ++ (sg_cnt_0 ++ (sg_flA_0 ++ (sg_flB_0 ++ (sg_flC_0 ++ (sg_flD_0 ++ (sg_fdS_0 ++ (sg_rmS_0 ++ (sg_fdD_0 ++ (sg_rmD_0 ++ (sg_ewA_0 ++ (sg_ewB_0 ++ (sg_edge_0 ++ (sg_l1p_0 ++ (sg_l1_0 ++ (sg_l2p_0 ++ (sg_l2_0 ++ (sg_l3p_0 ++ (sg_l3_0 ++ (sg_pack_0 ++ (sg_flow_1 ++ (sg_nx_1 ++ (sg_sim_1 ++ (sg_mask_1 ++ (sg_cnt_1 ++ (sg_flA_1 ++ (sg_flB_1 ++ (sg_flC_1 ++ (sg_flD_1 ++ (sg_fdS_1 ++ (sg_rmS_1 ++ (sg_fdD_1 ++ (sg_rmD_1 ++ (sg_ewA_1 ++ (sg_ewB_1 ++ (sg_edge_1 ++ (sg_l1p_1 ++ (sg_l1_1 ++ (sg_l2p_1 ++ (sg_l2_1 ++ (sg_l3p_1 ++ (sg_l3_1 ++ (sg_pack_1 ++ (sg_cat))))))))))))))))))))))))))))))))))))))))))))))

theorem ops_sub : (ops : List (HloOp τ sig (Elt F))).Forall fun op => op.bufs ⊆ tcRefs τ sig :=
  List.forall_append.2 ⟨sg_flow_0_sub, List.forall_append.2 ⟨sg_nx_0_sub, List.forall_append.2 ⟨sg_sim_0_sub, List.forall_append.2 ⟨sg_mask_0_sub, List.forall_append.2 ⟨sg_cnt_0_sub, List.forall_append.2 ⟨sg_flA_0_sub, List.forall_append.2 ⟨sg_flB_0_sub, List.forall_append.2 ⟨sg_flC_0_sub, List.forall_append.2 ⟨sg_flD_0_sub, List.forall_append.2 ⟨sg_fdS_0_sub, List.forall_append.2 ⟨sg_rmS_0_sub, List.forall_append.2 ⟨sg_fdD_0_sub, List.forall_append.2 ⟨sg_rmD_0_sub, List.forall_append.2 ⟨sg_ewA_0_sub, List.forall_append.2 ⟨sg_ewB_0_sub, List.forall_append.2 ⟨sg_edge_0_sub, List.forall_append.2 ⟨sg_l1p_0_sub, List.forall_append.2 ⟨sg_l1_0_sub, List.forall_append.2 ⟨sg_l2p_0_sub, List.forall_append.2 ⟨sg_l2_0_sub, List.forall_append.2 ⟨sg_l3p_0_sub, List.forall_append.2 ⟨sg_l3_0_sub, List.forall_append.2 ⟨sg_pack_0_sub, List.forall_append.2 ⟨sg_flow_1_sub, List.forall_append.2 ⟨sg_nx_1_sub, List.forall_append.2 ⟨sg_sim_1_sub, List.forall_append.2 ⟨sg_mask_1_sub, List.forall_append.2 ⟨sg_cnt_1_sub, List.forall_append.2 ⟨sg_flA_1_sub, List.forall_append.2 ⟨sg_flB_1_sub, List.forall_append.2 ⟨sg_flC_1_sub, List.forall_append.2 ⟨sg_flD_1_sub, List.forall_append.2 ⟨sg_fdS_1_sub, List.forall_append.2 ⟨sg_rmS_1_sub, List.forall_append.2 ⟨sg_fdD_1_sub, List.forall_append.2 ⟨sg_rmD_1_sub, List.forall_append.2 ⟨sg_ewA_1_sub, List.forall_append.2 ⟨sg_ewB_1_sub, List.forall_append.2 ⟨sg_edge_1_sub, List.forall_append.2 ⟨sg_l1p_1_sub, List.forall_append.2 ⟨sg_l1_1_sub, List.forall_append.2 ⟨sg_l2p_1_sub, List.forall_append.2 ⟨sg_l2_1_sub, List.forall_append.2 ⟨sg_l3p_1_sub, List.forall_append.2 ⟨sg_l3_1_sub, List.forall_append.2 ⟨sg_pack_1_sub, sg_cat_sub⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩

theorem ops_fresh : ∀ op ∈ (ops : List (HloOp τ sig (Elt F))), op.fresh = ∅ :=
  List.forall_iff_forall_mem.1 (List.forall_append.2 ⟨sg_flow_0_fresh, List.forall_append.2 ⟨sg_nx_0_fresh, List.forall_append.2 ⟨sg_sim_0_fresh, List.forall_append.2 ⟨sg_mask_0_fresh, List.forall_append.2 ⟨sg_cnt_0_fresh, List.forall_append.2 ⟨sg_flA_0_fresh, List.forall_append.2 ⟨sg_flB_0_fresh, List.forall_append.2 ⟨sg_flC_0_fresh, List.forall_append.2 ⟨sg_flD_0_fresh, List.forall_append.2 ⟨sg_fdS_0_fresh, List.forall_append.2 ⟨sg_rmS_0_fresh, List.forall_append.2 ⟨sg_fdD_0_fresh, List.forall_append.2 ⟨sg_rmD_0_fresh, List.forall_append.2 ⟨sg_ewA_0_fresh, List.forall_append.2 ⟨sg_ewB_0_fresh, List.forall_append.2 ⟨sg_edge_0_fresh, List.forall_append.2 ⟨sg_l1p_0_fresh, List.forall_append.2 ⟨sg_l1_0_fresh, List.forall_append.2 ⟨sg_l2p_0_fresh, List.forall_append.2 ⟨sg_l2_0_fresh, List.forall_append.2 ⟨sg_l3p_0_fresh, List.forall_append.2 ⟨sg_l3_0_fresh, List.forall_append.2 ⟨sg_pack_0_fresh, List.forall_append.2 ⟨sg_flow_1_fresh, List.forall_append.2 ⟨sg_nx_1_fresh, List.forall_append.2 ⟨sg_sim_1_fresh, List.forall_append.2 ⟨sg_mask_1_fresh, List.forall_append.2 ⟨sg_cnt_1_fresh, List.forall_append.2 ⟨sg_flA_1_fresh, List.forall_append.2 ⟨sg_flB_1_fresh, List.forall_append.2 ⟨sg_flC_1_fresh, List.forall_append.2 ⟨sg_flD_1_fresh, List.forall_append.2 ⟨sg_fdS_1_fresh, List.forall_append.2 ⟨sg_rmS_1_fresh, List.forall_append.2 ⟨sg_fdD_1_fresh, List.forall_append.2 ⟨sg_rmD_1_fresh, List.forall_append.2 ⟨sg_ewA_1_fresh, List.forall_append.2 ⟨sg_ewB_1_fresh, List.forall_append.2 ⟨sg_edge_1_fresh, List.forall_append.2 ⟨sg_l1p_1_fresh, List.forall_append.2 ⟨sg_l1_1_fresh, List.forall_append.2 ⟨sg_l2p_1_fresh, List.forall_append.2 ⟨sg_l2_1_fresh, List.forall_append.2 ⟨sg_l3p_1_fresh, List.forall_append.2 ⟨sg_l3_1_fresh, List.forall_append.2 ⟨sg_pack_1_fresh, sg_cat_fresh⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩)

end Cert.ReferenceIdeal.RValue

end
-- ==== Proof.RefMain.lean ====
import proofs.«138489_g81887846466032_cont_9to1c4b_857_5_alg».proof.Proof.RefOps

noncomputable section

namespace Cert.ReferenceIdeal.RValue

open Cert.ReferenceIdeal Cert.ReferenceIdeal.Gen Idealize.ShloMosaic Idealize.ShloMosaic.TcCoe Idealize.SL.Sem Idealize.ShloMosaic.StableHlo

variable {F : FTy → Type} [FloatOps F]

/-- The program is the straight line of its operations, each outlined function unfolded where it is called. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-- Hence every run ends with each buffer at the fold of the operations over the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

end Cert.ReferenceIdeal.RValue

end
-- ==== Proof.RefSeg_small_0.lean ====
import proofs.«138489_g81887846466032_cont_9to1c4b_857_5_alg».proof.Proof.RefOps
import proofs.«138489_g81887846466032_cont_9to1c4b_857_5_alg».proof.Proof.RefFn

noncomputable section

namespace Cert.ReferenceIdeal.RValue

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.reduceWindow Host.reduceAdd Host.scatterAdd Host.gather Host.scatter Host.divsi Host.remsi Host.divf Host.sqrt Host.rsqrt

theorem sg_flow_0_main_v2 (V : Valuation τ sig (Elt F)) :
    after sg_flow_0 V (Proc.devRef .tc main_v2) = RefFn.flow0E (V (Proc.devRef .tc main_arg0)) := by
  simp only [sg_flow_0]
  after_results_simp
  all_goals rfl

theorem sg_nx_0_main_v7 (V : Valuation τ sig (Elt F)) :
    after sg_nx_0 V (Proc.devRef .tc main_v7) = RefFn.nxE (V (Proc.devRef .tc main_v2)) := by
  simp only [sg_nx_0]
  after_results_simp
  all_goals rfl

theorem sg_sim_0_main_v9 (V : Valuation τ sig (Elt F)) :
    after sg_sim_0 V (Proc.devRef .tc main_v9) = RefFn.simE (V (Proc.devRef .tc main_v7)) := by
  simp only [sg_sim_0]
  after_results_simp
  all_goals rfl

theorem sg_mask_0_main_v11 (V : Valuation τ sig (Elt F)) :
    after sg_mask_0 V (Proc.devRef .tc main_v11) = RefFn.maskE (V (Proc.devRef .tc main_v9)) := by
  simp only [sg_mask_0]
  after_results_simp
  all_goals rfl

theorem sg_cnt_0_main_v12 (V : Valuation τ sig (Elt F)) :
    after sg_cnt_0 V (Proc.devRef .tc main_v12) = RefFn.cntE (V (Proc.devRef .tc main_v11)) := by
  simp only [sg_cnt_0]
  after_results_simp
  all_goals rfl

theorem sg_ewA_0_main_v38 (V : Valuation τ sig (Elt F)) :
    after sg_ewA_0 V (Proc.devRef .tc main_v38) = RefFn.colE (V (Proc.devRef .tc main_v25)) := by
  simp only [sg_ewA_0]
  after_results_simp
  all_goals rfl

theorem sg_ewA_0_main_v39 (V : Valuation τ sig (Elt F)) :
    after sg_ewA_0 V (Proc.devRef .tc main_v39) = RefFn.colE (V (Proc.devRef .tc main_v27)) := by
  simp only [sg_ewA_0]
  after_results_simp
  all_goals rfl

theorem sg_ewB_0_main_v41 (V : Valuation τ sig (Elt F)) :
    after sg_ewB_0 V (Proc.devRef .tc main_v41) = RefFn.gatherE (V (Proc.devRef .tc main_v9)) (V (Proc.devRef .tc main_v38)) (V (Proc.devRef .tc main_v39)) := by
  simp only [sg_ewB_0]
  after_results_simp
  all_goals rfl

theorem sg_edge_0_main_v44 (V : Valuation τ sig (Elt F)) :
    after sg_edge_0 V (Proc.devRef .tc main_v44) = RefFn.edge0E (V (Proc.devRef .tc main_arg1)) := by
  simp only [sg_edge_0]
  after_results_simp
  all_goals rfl

theorem sg_l1p_0_main_v46 (V : Valuation τ sig (Elt F)) :
    after sg_l1p_0 V (Proc.devRef .tc main_v46) = RefFn.loopIdxE (V (Proc.devRef .tc main_v25)) := by
  simp only [sg_l1p_0]
  after_results
  all_goals rfl

theorem sg_l1p_0_main_v47 (V : Valuation τ sig (Elt F)) :
    after sg_l1p_0 V (Proc.devRef .tc main_v47) = RefFn.loopIdxE (V (Proc.devRef .tc main_v27)) := by
  simp only [sg_l1p_0]
  after_results
  all_goals rfl

theorem sg_l1p_0_main_v49 (V : Valuation τ sig (Elt F)) :
    after sg_l1p_0 V (Proc.devRef .tc main_v49) = RefFn.loopWE (V (Proc.devRef .tc main_v41)) := by
  simp only [sg_l1p_0]
  after_results
  all_goals rfl

theorem sg_l2p_0_main_v102 (V : Valuation τ sig (Elt F)) :
    after sg_l2p_0 V (Proc.devRef .tc main_v102) = RefFn.loopIdxE (V (Proc.devRef .tc main_v25)) := by
  simp only [sg_l2p_0]
  after_results
  all_goals rfl

theorem sg_l2p_0_main_v103 (V : Valuation τ sig (Elt F)) :
    after sg_l2p_0 V (Proc.devRef .tc main_v103) = RefFn.loopIdxE (V (Proc.devRef .tc main_v27)) := by
  simp only [sg_l2p_0]
  after_results
  all_goals rfl

theorem sg_l2p_0_main_v105 (V : Valuation τ sig (Elt F)) :
    after sg_l2p_0 V (Proc.devRef .tc main_v105) = RefFn.loopWE (V (Proc.devRef .tc main_v41)) := by
  simp only [sg_l2p_0]
  after_results
  all_goals rfl

theorem sg_l3p_0_main_v158 (V : Valuation τ sig (Elt F)) :
    after sg_l3p_0 V (Proc.devRef .tc main_v158) = RefFn.loopIdxE (V (Proc.devRef .tc main_v25)) := by
  simp only [sg_l3p_0]
  after_results
  all_goals rfl

theorem sg_l3p_0_main_v159 (V : Valuation τ sig (Elt F)) :
    after sg_l3p_0 V (Proc.devRef .tc main_v159) = RefFn.loopIdxE (V (Proc.devRef .tc main_v27)) := by
  simp only [sg_l3p_0]
  after_results
  all_goals rfl

theorem sg_l3p_0_main_v161 (V : Valuation τ sig (Elt F)) :
    after sg_l3p_0 V (Proc.devRef .tc main_v161) = RefFn.loopWE (V (Proc.devRef .tc main_v41)) := by
  simp only [sg_l3p_0]
  after_results
  all_goals rfl

theorem sg_pack_0_main_v213 (V : Valuation τ sig (Elt F)) :
    after sg_pack_0 V (Proc.devRef .tc main_v213) = RefFn.packE (V (Proc.devRef .tc main_v212)) := by
  simp only [sg_pack_0]
  after_results_simp
  all_goals rfl

end Cert.ReferenceIdeal.RValue

end
-- ==== Proof.RefSeg_flA_0.lean ====
import proofs.«138489_g81887846466032_cont_9to1c4b_857_5_alg».proof.Proof.RefOps
import proofs.«138489_g81887846466032_cont_9to1c4b_857_5_alg».proof.Proof.RefFn

noncomputable section

namespace Cert.ReferenceIdeal.RValue

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.reduceWindow Host.reduceAdd Host.scatterAdd Host.gather Host.scatter Host.divsi Host.remsi Host.divf Host.sqrt Host.rsqrt

theorem sg_flA_0_main_v13 (V : Valuation τ sig (Elt F)) :
    after sg_flA_0 V (Proc.devRef .tc main_v13) = ((broadcastInDim S1048576 ![] bcast_S_S1048576 : (⟨S_, .i32⟩ : BufTy).Contents (Elt F) → (⟨S1048576, .i32⟩ : BufTy).Contents (Elt F)) (constantI S_ 32 0#32)) := by
  simp only [sg_flA_0]
  after_results_simp
  all_goals rfl

theorem sg_flA_0_main_v19 (V : Valuation τ sig (Elt F)) :
    after sg_flA_0 V (Proc.devRef .tc main_v19) = ((select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)) ((cmpi .slt : (⟨S1048576, .i32⟩ : BufTy).Contents (Elt F) → (⟨S1048576, .i32⟩ : BufTy).Contents (Elt F) → (⟨S1048576, .i1⟩ : BufTy).Contents (Elt F)) (maxsi ((broadcastInDim S1048576 ![] bcast_S_S1048576) (id (constantI S_ 32 0#32))) (V (Proc.devRef .tc main_v12))) ((broadcastInDim S1048576 ![] bcast_S_S1048576 : (⟨S_, .i32⟩ : BufTy).Contents (Elt F) → (⟨S1048576, .i32⟩ : BufTy).Contents (Elt F)) (constantI S_ 32 0#32))) ((addi : (⟨S1048576, .i32⟩ : BufTy).Contents (Elt F) → (⟨S1048576, .i32⟩ : BufTy).Contents (Elt F) → (⟨S1048576, .i32⟩ : BufTy).Contents (Elt F)) (maxsi ((broadcastInDim S1048576 ![] bcast_S_S1048576) (id (constantI S_ 32 0#32))) (V (Proc.devRef .tc main_v12))) ((broadcastInDim S1048576 ![] bcast_S_S1048576 : (⟨S_, .i32⟩ : BufTy).Contents (Elt F) → (⟨S1048576, .i32⟩ : BufTy).Contents (Elt F)) (constantI S_ 32 1048576#32))) (maxsi ((broadcastInDim S1048576 ![] bcast_S_S1048576) (id (constantI S_ 32 0#32))) (V (Proc.devRef .tc main_v12)))) := by
  simp only [sg_flA_0]
  after_results_simp
  all_goals rfl

end Cert.ReferenceIdeal.RValue

end
-- ==== Proof.RefSeg_flB_0.lean ====
import proofs.«138489_g81887846466032_cont_9to1c4b_857_5_alg».proof.Proof.RefOps
import proofs.«138489_g81887846466032_cont_9to1c4b_857_5_alg».proof.Proof.RefFn

noncomputable section

namespace Cert.ReferenceIdeal.RValue

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.reduceWindow Host.reduceAdd Host.scatterAdd Host.gather Host.scatter Host.divsi Host.remsi Host.divf Host.sqrt Host.rsqrt

theorem sg_flB_0_main_v20 (V : Valuation τ sig (Elt F)) :
    after sg_flB_0 V (Proc.devRef .tc main_v20) = ((broadcastInDim S1048576x1 ![0] bcast_S1048576_S1048576x1_0 : (⟨S1048576, .i32⟩ : BufTy).Contents (Elt F) → (⟨S1048576x1, .i32⟩ : BufTy).Contents (Elt F)) (V (Proc.devRef .tc main_v19))) := by
  simp only [sg_flB_0]
  after_results_simp
  all_goals rfl

theorem sg_flB_0_main_v21 (V : Valuation τ sig (Elt F)) :
    after sg_flB_0 V (Proc.devRef .tc main_v21) = ((broadcastInDim S1048576 ![] bcast_S_S1048576 : (⟨S_, .i32⟩ : BufTy).Contents (Elt F) → (⟨S1048576, .i32⟩ : BufTy).Contents (Elt F)) (constantI S_ 32 1#32)) := by
  simp only [sg_flB_0]
  after_results_simp
  all_goals rfl

end Cert.ReferenceIdeal.RValue

end
-- ==== Proof.RefSeg_flC_0.lean ====
import proofs.«138489_g81887846466032_cont_9to1c4b_857_5_alg».proof.Proof.RefOps
import proofs.«138489_g81887846466032_cont_9to1c4b_857_5_alg».proof.Proof.RefFn

noncomputable section

namespace Cert.ReferenceIdeal.RValue

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.reduceWindow Host.reduceAdd Host.scatterAdd Host.gather Host.scatter Host.divsi Host.remsi Host.divf Host.sqrt Host.rsqrt

theorem sg_flC_0_main_v22 (V : Valuation τ sig (Elt F)) :
    after sg_flC_0 V (Proc.devRef .tc main_v22) = (((fun x i u => Host.scatter scatter_S1048576_S1048576x1_S1048576_n_0_0_1 IntOp.addi x i u) : (⟨S1048576, .i32⟩ : BufTy).Contents (Elt F) → (⟨S1048576x1, .i32⟩ : BufTy).Contents (Elt F) → (⟨S1048576, .i32⟩ : BufTy).Contents (Elt F) → (⟨S1048576, .i32⟩ : BufTy).Contents (Elt F)) (V (Proc.devRef .tc main_v13)) (V (Proc.devRef .tc main_v20)) (V (Proc.devRef .tc main_v21))) := by
  simp only [sg_flC_0]
  after_results_simp
  all_goals rfl

end Cert.ReferenceIdeal.RValue

end
-- ==== Proof.RefSeg_flD_0.lean ====
import proofs.«138489_g81887846466032_cont_9to1c4b_857_5_alg».proof.Proof.RefOps
import proofs.«138489_g81887846466032_cont_9to1c4b_857_5_alg».proof.Proof.RefFn

noncomputable section

namespace Cert.ReferenceIdeal.RValue

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.reduceWindow Host.reduceAdd Host.scatterAdd Host.gather Host.scatter Host.divsi Host.remsi Host.divf Host.sqrt Host.rsqrt

theorem sg_flD_0_main_v23 (V : Valuation τ sig (Elt F)) :
    after sg_flD_0 V (Proc.devRef .tc main_v23) = ((fun x v => Host.reduceWindow IntOp.addi ![1048576] ![1] ![1048575] ![0] x v reduceWindows_S1048576_S1048576_w1048576s1p1048575_0 h_S_) (V (Proc.devRef .tc main_v22)) ((broadcastInDim S_ ![] bcast_S_S_) (constantI S_ 32 0#32))) := by
  simp only [sg_flD_0]
  after_results_simp
  all_goals rfl

end Cert.ReferenceIdeal.RValue

end
-- ==== Proof.RefSeg_fdS_0.lean ====
import proofs.«138489_g81887846466032_cont_9to1c4b_857_5_alg».proof.Proof.RefOps
import proofs.«138489_g81887846466032_cont_9to1c4b_857_5_alg».proof.Proof.RefFn

noncomputable section

namespace Cert.ReferenceIdeal.RValue

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.reduceWindow Host.reduceAdd Host.scatterAdd Host.gather Host.scatter Host.divsi Host.remsi Host.divf Host.sqrt Host.rsqrt

theorem sg_fdS_0_main_v24 (V : Valuation τ sig (Elt F)) :
    after sg_fdS_0 V (Proc.devRef .tc main_v24) = RefFn.floorDivE (V (Proc.devRef .tc main_v23)) (constantI S_ 32 1024#32) := by
  simp only [sg_fdS_0]
  after_results_simp
  all_goals rfl

end Cert.ReferenceIdeal.RValue

end
-- ==== Proof.RefSeg_rmS_0.lean ====
import proofs.«138489_g81887846466032_cont_9to1c4b_857_5_alg».proof.Proof.RefOps
import proofs.«138489_g81887846466032_cont_9to1c4b_857_5_alg».proof.Proof.RefFn

noncomputable section

namespace Cert.ReferenceIdeal.RValue

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.reduceWindow Host.reduceAdd Host.scatterAdd Host.gather Host.scatter Host.divsi Host.remsi Host.divf Host.sqrt Host.rsqrt

theorem sg_rmS_0_main_v25 (V : Valuation τ sig (Elt F)) :
    after sg_rmS_0 V (Proc.devRef .tc main_v25) = RefFn.remE (V (Proc.devRef .tc main_v24)) (constantI S_ 32 1024#32) := by
  simp only [sg_rmS_0]
  after_results_simp
  all_goals rfl

end Cert.ReferenceIdeal.RValue

end
-- ==== Proof.RefSeg_fdD_0.lean ====
import proofs.«138489_g81887846466032_cont_9to1c4b_857_5_alg».proof.Proof.RefOps
import proofs.«138489_g81887846466032_cont_9to1c4b_857_5_alg».proof.Proof.RefFn

noncomputable section

namespace Cert.ReferenceIdeal.RValue

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.reduceWindow Host.reduceAdd Host.scatterAdd Host.gather Host.scatter Host.divsi Host.remsi Host.divf Host.sqrt Host.rsqrt

theorem sg_fdD_0_main_v26 (V : Valuation τ sig (Elt F)) :
    after sg_fdD_0 V (Proc.devRef .tc main_v26) = RefFn.floorDivE (V (Proc.devRef .tc main_v23)) (constantI S_ 32 1#32) := by
  simp only [sg_fdD_0]
  after_results_simp
  all_goals rfl

end Cert.ReferenceIdeal.RValue

end
-- ==== Proof.RefSeg_rmD_0.lean ====
import proofs.«138489_g81887846466032_cont_9to1c4b_857_5_alg».proof.Proof.RefOps
import proofs.«138489_g81887846466032_cont_9to1c4b_857_5_alg».proof.Proof.RefFn

noncomputable section

namespace Cert.ReferenceIdeal.RValue

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.reduceWindow Host.reduceAdd Host.scatterAdd Host.gather Host.scatter Host.divsi Host.remsi Host.divf Host.sqrt Host.rsqrt

theorem sg_rmD_0_main_v27 (V : Valuation τ sig (Elt F)) :
    after sg_rmD_0 V (Proc.devRef .tc main_v27) = RefFn.remE (V (Proc.devRef .tc main_v26)) (constantI S_ 32 1024#32) := by
  simp only [sg_rmD_0]
  after_results_simp
  all_goals rfl

end Cert.ReferenceIdeal.RValue

end
-- ==== Proof.RefSeg_l1_0.lean ====
import proofs.«138489_g81887846466032_cont_9to1c4b_857_5_alg».proof.Proof.RefOps
import proofs.«138489_g81887846466032_cont_9to1c4b_857_5_alg».proof.Proof.RefFn

noncomputable section

namespace Cert.ReferenceIdeal.RValue

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.reduceWindow Host.reduceAdd Host.scatterAdd Host.gather Host.scatter Host.divsi Host.remsi Host.divf Host.sqrt Host.rsqrt

set_option maxHeartbeats 4000000 in
theorem sg_l1_0_main_v100 (V : Valuation τ sig (Elt F)) :
    after sg_l1_0 V (Proc.devRef .tc main_v100) = RefFn.layerMainE (V (Proc.devRef .tc main_v46)) (V (Proc.devRef .tc main_v47)) (V (Proc.devRef .tc main_v49)) (V (Proc.devRef .tc main_v44)) (V (Proc.devRef .tc main_arg2)) (V (Proc.devRef .tc main_arg3)) := by
  simp only [sg_l1_0]
  after_results_simp
  all_goals rfl

end Cert.ReferenceIdeal.RValue

end
-- ==== Proof.RefSeg_l2_0.lean ====
import proofs.«138489_g81887846466032_cont_9to1c4b_857_5_alg».proof.Proof.RefOps
import proofs.«138489_g81887846466032_cont_9to1c4b_857_5_alg».proof.Proof.RefFn

noncomputable section

namespace Cert.ReferenceIdeal.RValue

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.reduceWindow Host.reduceAdd Host.scatterAdd Host.gather Host.scatter Host.divsi Host.remsi Host.divf Host.sqrt Host.rsqrt

set_option maxHeartbeats 4000000 in
theorem sg_l2_0_main_v156 (V : Valuation τ sig (Elt F)) :
    after sg_l2_0 V (Proc.devRef .tc main_v156) = RefFn.layerMainE (V (Proc.devRef .tc main_v102)) (V (Proc.devRef .tc main_v103)) (V (Proc.devRef .tc main_v105)) (V (Proc.devRef .tc main_v100)) (V (Proc.devRef .tc main_arg4)) (V (Proc.devRef .tc main_arg5)) := by
  simp only [sg_l2_0]
  after_results_simp
  all_goals rfl

end Cert.ReferenceIdeal.RValue

end
-- ==== Proof.RefSeg_l3_0.lean ====
import proofs.«138489_g81887846466032_cont_9to1c4b_857_5_alg».proof.Proof.RefOps
import proofs.«138489_g81887846466032_cont_9to1c4b_857_5_alg».proof.Proof.RefFn

noncomputable section

namespace Cert.ReferenceIdeal.RValue

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.reduceWindow Host.reduceAdd Host.scatterAdd Host.gather Host.scatter Host.divsi Host.remsi Host.divf Host.sqrt Host.rsqrt

set_option maxHeartbeats 4000000 in
theorem sg_l3_0_main_v212 (V : Valuation τ sig (Elt F)) :
    after sg_l3_0 V (Proc.devRef .tc main_v212) = RefFn.layerMainE (V (Proc.devRef .tc main_v158)) (V (Proc.devRef .tc main_v159)) (V (Proc.devRef .tc main_v161)) (V (Proc.devRef .tc main_v156)) (V (Proc.devRef .tc main_arg6)) (V (Proc.devRef .tc main_arg7)) := by
  simp only [sg_l3_0]
  after_results_simp
  all_goals rfl

end Cert.ReferenceIdeal.RValue

end
-- ==== Proof.RefSeg_small_1.lean ====
import proofs.«138489_g81887846466032_cont_9to1c4b_857_5_alg».proof.Proof.RefOps
import proofs.«138489_g81887846466032_cont_9to1c4b_857_5_alg».proof.Proof.RefFn

noncomputable section

namespace Cert.ReferenceIdeal.RValue

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.reduceWindow Host.reduceAdd Host.scatterAdd Host.gather Host.scatter Host.divsi Host.remsi Host.divf Host.sqrt Host.rsqrt

theorem sg_flow_1_main_v216 (V : Valuation τ sig (Elt F)) :
    after sg_flow_1 V (Proc.devRef .tc main_v216) = RefFn.flow1E (V (Proc.devRef .tc main_arg0)) := by
  simp only [sg_flow_1]
  after_results_simp
  all_goals rfl

theorem sg_nx_1_main_v221 (V : Valuation τ sig (Elt F)) :
    after sg_nx_1 V (Proc.devRef .tc main_v221) = RefFn.nxE (V (Proc.devRef .tc main_v216)) := by
  simp only [sg_nx_1]
  after_results_simp
  all_goals rfl

theorem sg_sim_1_main_v223 (V : Valuation τ sig (Elt F)) :
    after sg_sim_1 V (Proc.devRef .tc main_v223) = RefFn.simE (V (Proc.devRef .tc main_v221)) := by
  simp only [sg_sim_1]
  after_results_simp
  all_goals rfl

theorem sg_mask_1_main_v225 (V : Valuation τ sig (Elt F)) :
    after sg_mask_1 V (Proc.devRef .tc main_v225) = RefFn.maskE (V (Proc.devRef .tc main_v223)) := by
  simp only [sg_mask_1]
  after_results_simp
  all_goals rfl

theorem sg_cnt_1_main_v226 (V : Valuation τ sig (Elt F)) :
    after sg_cnt_1 V (Proc.devRef .tc main_v226) = RefFn.cntE (V (Proc.devRef .tc main_v225)) := by
  simp only [sg_cnt_1]
  after_results_simp
  all_goals rfl

theorem sg_ewA_1_main_v252 (V : Valuation τ sig (Elt F)) :
    after sg_ewA_1 V (Proc.devRef .tc main_v252) = RefFn.colE (V (Proc.devRef .tc main_v239)) := by
  simp only [sg_ewA_1]
  after_results_simp
  all_goals rfl

theorem sg_ewA_1_main_v253 (V : Valuation τ sig (Elt F)) :
    after sg_ewA_1 V (Proc.devRef .tc main_v253) = RefFn.colE (V (Proc.devRef .tc main_v241)) := by
  simp only [sg_ewA_1]
  after_results_simp
  all_goals rfl

theorem sg_ewB_1_main_v255 (V : Valuation τ sig (Elt F)) :
    after sg_ewB_1 V (Proc.devRef .tc main_v255) = RefFn.gatherE (V (Proc.devRef .tc main_v223)) (V (Proc.devRef .tc main_v252)) (V (Proc.devRef .tc main_v253)) := by
  simp only [sg_ewB_1]
  after_results_simp
  all_goals rfl

theorem sg_edge_1_main_v258 (V : Valuation τ sig (Elt F)) :
    after sg_edge_1 V (Proc.devRef .tc main_v258) = RefFn.edge1E (V (Proc.devRef .tc main_arg1)) := by
  simp only [sg_edge_1]
  after_results_simp
  all_goals rfl

theorem sg_l1p_1_main_v260 (V : Valuation τ sig (Elt F)) :
    after sg_l1p_1 V (Proc.devRef .tc main_v260) = RefFn.loopIdxE (V (Proc.devRef .tc main_v239)) := by
  simp only [sg_l1p_1]
  after_results
  all_goals rfl

theorem sg_l1p_1_main_v261 (V : Valuation τ sig (Elt F)) :
    after sg_l1p_1 V (Proc.devRef .tc main_v261) = RefFn.loopIdxE (V (Proc.devRef .tc main_v241)) := by
  simp only [sg_l1p_1]
  after_results
  all_goals rfl

theorem sg_l1p_1_main_v263 (V : Valuation τ sig (Elt F)) :
    after sg_l1p_1 V (Proc.devRef .tc main_v263) = RefFn.loopWE (V (Proc.devRef .tc main_v255)) := by
  simp only [sg_l1p_1]
  after_results
  all_goals rfl

theorem sg_l2p_1_main_v316 (V : Valuation τ sig (Elt F)) :
    after sg_l2p_1 V (Proc.devRef .tc main_v316) = RefFn.loopIdxE (V (Proc.devRef .tc main_v239)) := by
  simp only [sg_l2p_1]
  after_results
  all_goals rfl

theorem sg_l2p_1_main_v317 (V : Valuation τ sig (Elt F)) :
    after sg_l2p_1 V (Proc.devRef .tc main_v317) = RefFn.loopIdxE (V (Proc.devRef .tc main_v241)) := by
  simp only [sg_l2p_1]
  after_results
  all_goals rfl

theorem sg_l2p_1_main_v319 (V : Valuation τ sig (Elt F)) :
    after sg_l2p_1 V (Proc.devRef .tc main_v319) = RefFn.loopWE (V (Proc.devRef .tc main_v255)) := by
  simp only [sg_l2p_1]
  after_results
  all_goals rfl

theorem sg_l3p_1_main_v372 (V : Valuation τ sig (Elt F)) :
    after sg_l3p_1 V (Proc.devRef .tc main_v372) = RefFn.loopIdxE (V (Proc.devRef .tc main_v239)) := by
  simp only [sg_l3p_1]
  after_results
  all_goals rfl

theorem sg_l3p_1_main_v373 (V : Valuation τ sig (Elt F)) :
    after sg_l3p_1 V (Proc.devRef .tc main_v373) = RefFn.loopIdxE (V (Proc.devRef .tc main_v241)) := by
  simp only [sg_l3p_1]
  after_results
  all_goals rfl

theorem sg_l3p_1_main_v375 (V : Valuation τ sig (Elt F)) :
    after sg_l3p_1 V (Proc.devRef .tc main_v375) = RefFn.loopWE (V (Proc.devRef .tc main_v255)) := by
  simp only [sg_l3p_1]
  after_results
  all_goals rfl

theorem sg_pack_1_main_v427 (V : Valuation τ sig (Elt F)) :
    after sg_pack_1 V (Proc.devRef .tc main_v427) = RefFn.packE (V (Proc.devRef .tc main_v426)) := by
  simp only [sg_pack_1]
  after_results_simp
  all_goals rfl

theorem sg_cat_main_v428 (V : Valuation τ sig (Elt F)) :
    after sg_cat V (Proc.devRef .tc main_v428) = RefFn.catE (V (Proc.devRef .tc main_v213)) (V (Proc.devRef .tc main_v427)) := by
  simp only [sg_cat]
  after_results
  all_goals rfl

end Cert.ReferenceIdeal.RValue

end
-- ==== Proof.RefSeg_flA_1.lean ====
import proofs.«138489_g81887846466032_cont_9to1c4b_857_5_alg».proof.Proof.RefOps
import proofs.«138489_g81887846466032_cont_9to1c4b_857_5_alg».proof.Proof.RefFn

noncomputable section

namespace Cert.ReferenceIdeal.RValue

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.reduceWindow Host.reduceAdd Host.scatterAdd Host.gather Host.scatter Host.divsi Host.remsi Host.divf Host.sqrt Host.rsqrt

theorem sg_flA_1_main_v227 (V : Valuation τ sig (Elt F)) :
    after sg_flA_1 V (Proc.devRef .tc main_v227) = ((broadcastInDim S1048576 ![] bcast_S_S1048576 : (⟨S_, .i32⟩ : BufTy).Contents (Elt F) → (⟨S1048576, .i32⟩ : BufTy).Contents (Elt F)) (constantI S_ 32 0#32)) := by
  simp only [sg_flA_1]
  after_results_simp
  all_goals rfl

theorem sg_flA_1_main_v233 (V : Valuation τ sig (Elt F)) :
    after sg_flA_1 V (Proc.devRef .tc main_v233) = ((select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)) ((cmpi .slt : (⟨S1048576, .i32⟩ : BufTy).Contents (Elt F) → (⟨S1048576, .i32⟩ : BufTy).Contents (Elt F) → (⟨S1048576, .i1⟩ : BufTy).Contents (Elt F)) (maxsi ((broadcastInDim S1048576 ![] bcast_S_S1048576) (id (constantI S_ 32 0#32))) (V (Proc.devRef .tc main_v226))) ((broadcastInDim S1048576 ![] bcast_S_S1048576 : (⟨S_, .i32⟩ : BufTy).Contents (Elt F) → (⟨S1048576, .i32⟩ : BufTy).Contents (Elt F)) (constantI S_ 32 0#32))) ((addi : (⟨S1048576, .i32⟩ : BufTy).Contents (Elt F) → (⟨S1048576, .i32⟩ : BufTy).Contents (Elt F) → (⟨S1048576, .i32⟩ : BufTy).Contents (Elt F)) (maxsi ((broadcastInDim S1048576 ![] bcast_S_S1048576) (id (constantI S_ 32 0#32))) (V (Proc.devRef .tc main_v226))) ((broadcastInDim S1048576 ![] bcast_S_S1048576 : (⟨S_, .i32⟩ : BufTy).Contents (Elt F) → (⟨S1048576, .i32⟩ : BufTy).Contents (Elt F)) (constantI S_ 32 1048576#32))) (maxsi ((broadcastInDim S1048576 ![] bcast_S_S1048576) (id (constantI S_ 32 0#32))) (V (Proc.devRef .tc main_v226)))) := by
  simp only [sg_flA_1]
  after_results_simp
  all_goals rfl

end Cert.ReferenceIdeal.RValue

end
-- ==== Proof.RefSeg_flB_1.lean ====
import proofs.«138489_g81887846466032_cont_9to1c4b_857_5_alg».proof.Proof.RefOps
import proofs.«138489_g81887846466032_cont_9to1c4b_857_5_alg».proof.Proof.RefFn

noncomputable section

namespace Cert.ReferenceIdeal.RValue

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.reduceWindow Host.reduceAdd Host.scatterAdd Host.gather Host.scatter Host.divsi Host.remsi Host.divf Host.sqrt Host.rsqrt

theorem sg_flB_1_main_v234 (V : Valuation τ sig (Elt F)) :
    after sg_flB_1 V (Proc.devRef .tc main_v234) = ((broadcastInDim S1048576x1 ![0] bcast_S1048576_S1048576x1_0 : (⟨S1048576, .i32⟩ : BufTy).Contents (Elt F) → (⟨S1048576x1, .i32⟩ : BufTy).Contents (Elt F)) (V (Proc.devRef .tc main_v233))) := by
  simp only [sg_flB_1]
  after_results_simp
  all_goals rfl

theorem sg_flB_1_main_v235 (V : Valuation τ sig (Elt F)) :
    after sg_flB_1 V (Proc.devRef .tc main_v235) = ((broadcastInDim S1048576 ![] bcast_S_S1048576 : (⟨S_, .i32⟩ : BufTy).Contents (Elt F) → (⟨S1048576, .i32⟩ : BufTy).Contents (Elt F)) (constantI S_ 32 1#32)) := by
  simp only [sg_flB_1]
  after_results_simp
  all_goals rfl

end Cert.ReferenceIdeal.RValue

end
-- ==== Proof.RefSeg_flC_1.lean ====
import proofs.«138489_g81887846466032_cont_9to1c4b_857_5_alg».proof.Proof.RefOps
import proofs.«138489_g81887846466032_cont_9to1c4b_857_5_alg».proof.Proof.RefFn

noncomputable section

namespace Cert.ReferenceIdeal.RValue

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.reduceWindow Host.reduceAdd Host.scatterAdd Host.gather Host.scatter Host.divsi Host.remsi Host.divf Host.sqrt Host.rsqrt

theorem sg_flC_1_main_v236 (V : Valuation τ sig (Elt F)) :
    after sg_flC_1 V (Proc.devRef .tc main_v236) = (((fun x i u => Host.scatter scatter_S1048576_S1048576x1_S1048576_n_0_0_1 IntOp.addi x i u) : (⟨S1048576, .i32⟩ : BufTy).Contents (Elt F) → (⟨S1048576x1, .i32⟩ : BufTy).Contents (Elt F) → (⟨S1048576, .i32⟩ : BufTy).Contents (Elt F) → (⟨S1048576, .i32⟩ : BufTy).Contents (Elt F)) (V (Proc.devRef .tc main_v227)) (V (Proc.devRef .tc main_v234)) (V (Proc.devRef .tc main_v235))) := by
  simp only [sg_flC_1]
  after_results_simp
  all_goals rfl

end Cert.ReferenceIdeal.RValue

end
-- ==== Proof.RefSeg_flD_1.lean ====
import proofs.«138489_g81887846466032_cont_9to1c4b_857_5_alg».proof.Proof.RefOps
import proofs.«138489_g81887846466032_cont_9to1c4b_857_5_alg».proof.Proof.RefFn

noncomputable section

namespace Cert.ReferenceIdeal.RValue

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.reduceWindow Host.reduceAdd Host.scatterAdd Host.gather Host.scatter Host.divsi Host.remsi Host.divf Host.sqrt Host.rsqrt

theorem sg_flD_1_main_v237 (V : Valuation τ sig (Elt F)) :
    after sg_flD_1 V (Proc.devRef .tc main_v237) = ((fun x v => Host.reduceWindow IntOp.addi ![1048576] ![1] ![1048575] ![0] x v reduceWindows_S1048576_S1048576_w1048576s1p1048575_0 h_S_) (V (Proc.devRef .tc main_v236)) ((broadcastInDim S_ ![] bcast_S_S_) (constantI S_ 32 0#32))) := by
  simp only [sg_flD_1]
  after_results_simp
  all_goals rfl

end Cert.ReferenceIdeal.RValue

end
-- ==== Proof.RefSeg_fdS_1.lean ====
import proofs.«138489_g81887846466032_cont_9to1c4b_857_5_alg».proof.Proof.RefOps
import proofs.«138489_g81887846466032_cont_9to1c4b_857_5_alg».proof.Proof.RefFn

noncomputable section

namespace Cert.ReferenceIdeal.RValue

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.reduceWindow Host.reduceAdd Host.scatterAdd Host.gather Host.scatter Host.divsi Host.remsi Host.divf Host.sqrt Host.rsqrt

theorem sg_fdS_1_main_v238 (V : Valuation τ sig (Elt F)) :
    after sg_fdS_1 V (Proc.devRef .tc main_v238) = RefFn.floorDivE (V (Proc.devRef .tc main_v237)) (constantI S_ 32 1024#32) := by
  simp only [sg_fdS_1]
  after_results_simp
  all_goals rfl

end Cert.ReferenceIdeal.RValue

end
-- ==== Proof.RefSeg_rmS_1.lean ====
import proofs.«138489_g81887846466032_cont_9to1c4b_857_5_alg».proof.Proof.RefOps
import proofs.«138489_g81887846466032_cont_9to1c4b_857_5_alg».proof.Proof.RefFn

noncomputable section

namespace Cert.ReferenceIdeal.RValue

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.reduceWindow Host.reduceAdd Host.scatterAdd Host.gather Host.scatter Host.divsi Host.remsi Host.divf Host.sqrt Host.rsqrt

theorem sg_rmS_1_main_v239 (V : Valuation τ sig (Elt F)) :
    after sg_rmS_1 V (Proc.devRef .tc main_v239) = RefFn.remE (V (Proc.devRef .tc main_v238)) (constantI S_ 32 1024#32) := by
  simp only [sg_rmS_1]
  after_results_simp
  all_goals rfl

end Cert.ReferenceIdeal.RValue

end
-- ==== Proof.RefSeg_fdD_1.lean ====
import proofs.«138489_g81887846466032_cont_9to1c4b_857_5_alg».proof.Proof.RefOps
import proofs.«138489_g81887846466032_cont_9to1c4b_857_5_alg».proof.Proof.RefFn

noncomputable section

namespace Cert.ReferenceIdeal.RValue

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.reduceWindow Host.reduceAdd Host.scatterAdd Host.gather Host.scatter Host.divsi Host.remsi Host.divf Host.sqrt Host.rsqrt

theorem sg_fdD_1_main_v240 (V : Valuation τ sig (Elt F)) :
    after sg_fdD_1 V (Proc.devRef .tc main_v240) = RefFn.floorDivE (V (Proc.devRef .tc main_v237)) (constantI S_ 32 1#32) := by
  simp only [sg_fdD_1]
  after_results_simp
  all_goals rfl

end Cert.ReferenceIdeal.RValue

end
-- ==== Proof.RefSeg_rmD_1.lean ====
import proofs.«138489_g81887846466032_cont_9to1c4b_857_5_alg».proof.Proof.RefOps
import proofs.«138489_g81887846466032_cont_9to1c4b_857_5_alg».proof.Proof.RefFn

noncomputable section

namespace Cert.ReferenceIdeal.RValue

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.reduceWindow Host.reduceAdd Host.scatterAdd Host.gather Host.scatter Host.divsi Host.remsi Host.divf Host.sqrt Host.rsqrt

theorem sg_rmD_1_main_v241 (V : Valuation τ sig (Elt F)) :
    after sg_rmD_1 V (Proc.devRef .tc main_v241) = RefFn.remE (V (Proc.devRef .tc main_v240)) (constantI S_ 32 1024#32) := by
  simp only [sg_rmD_1]
  after_results_simp
  all_goals rfl

end Cert.ReferenceIdeal.RValue

end
-- ==== Proof.RefSeg_l1_1.lean ====
import proofs.«138489_g81887846466032_cont_9to1c4b_857_5_alg».proof.Proof.RefOps
import proofs.«138489_g81887846466032_cont_9to1c4b_857_5_alg».proof.Proof.RefFn

noncomputable section

namespace Cert.ReferenceIdeal.RValue

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.reduceWindow Host.reduceAdd Host.scatterAdd Host.gather Host.scatter Host.divsi Host.remsi Host.divf Host.sqrt Host.rsqrt

set_option maxHeartbeats 4000000 in
theorem sg_l1_1_main_v314 (V : Valuation τ sig (Elt F)) :
    after sg_l1_1 V (Proc.devRef .tc main_v314) = RefFn.layerMainE (V (Proc.devRef .tc main_v260)) (V (Proc.devRef .tc main_v261)) (V (Proc.devRef .tc main_v263)) (V (Proc.devRef .tc main_v258)) (V (Proc.devRef .tc main_arg2)) (V (Proc.devRef .tc main_arg3)) := by
  simp only [sg_l1_1]
  after_results_simp
  all_goals rfl

end Cert.ReferenceIdeal.RValue

end
-- ==== Proof.RefSeg_l2_1.lean ====
import proofs.«138489_g81887846466032_cont_9to1c4b_857_5_alg».proof.Proof.RefOps
import proofs.«138489_g81887846466032_cont_9to1c4b_857_5_alg».proof.Proof.RefFn

noncomputable section

namespace Cert.ReferenceIdeal.RValue

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.reduceWindow Host.reduceAdd Host.scatterAdd Host.gather Host.scatter Host.divsi Host.remsi Host.divf Host.sqrt Host.rsqrt

set_option maxHeartbeats 4000000 in
theorem sg_l2_1_main_v370 (V : Valuation τ sig (Elt F)) :
    after sg_l2_1 V (Proc.devRef .tc main_v370) = RefFn.layerMainE (V (Proc.devRef .tc main_v316)) (V (Proc.devRef .tc main_v317)) (V (Proc.devRef .tc main_v319)) (V (Proc.devRef .tc main_v314)) (V (Proc.devRef .tc main_arg4)) (V (Proc.devRef .tc main_arg5)) := by
  simp only [sg_l2_1]
  after_results_simp
  all_goals rfl

end Cert.ReferenceIdeal.RValue

end
-- ==== Proof.RefSeg_l3_1.lean ====
import proofs.«138489_g81887846466032_cont_9to1c4b_857_5_alg».proof.Proof.RefOps
import proofs.«138489_g81887846466032_cont_9to1c4b_857_5_alg».proof.Proof.RefFn

noncomputable section

namespace Cert.ReferenceIdeal.RValue

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.reduceWindow Host.reduceAdd Host.scatterAdd Host.gather Host.scatter Host.divsi Host.remsi Host.divf Host.sqrt Host.rsqrt

set_option maxHeartbeats 4000000 in
theorem sg_l3_1_main_v426 (V : Valuation τ sig (Elt F)) :
    after sg_l3_1 V (Proc.devRef .tc main_v426) = RefFn.layerMainE (V (Proc.devRef .tc main_v372)) (V (Proc.devRef .tc main_v373)) (V (Proc.devRef .tc main_v375)) (V (Proc.devRef .tc main_v370)) (V (Proc.devRef .tc main_arg6)) (V (Proc.devRef .tc main_arg7)) := by
  simp only [sg_l3_1]
  after_results_simp
  all_goals rfl

end Cert.ReferenceIdeal.RValue

end
-- ==== Proof.RefRun.lean ====
import proofs.«138489_g81887846466032_cont_9to1c4b_857_5_alg».proof.Proof.RefMain
import proofs.«138489_g81887846466032_cont_9to1c4b_857_5_alg».proof.Proof.RefSeg_small_0
import proofs.«138489_g81887846466032_cont_9to1c4b_857_5_alg».proof.Proof.RefSeg_flA_0
import proofs.«138489_g81887846466032_cont_9to1c4b_857_5_alg».proof.Proof.RefSeg_flB_0
import proofs.«138489_g81887846466032_cont_9to1c4b_857_5_alg».proof.Proof.RefSeg_flC_0
import proofs.«138489_g81887846466032_cont_9to1c4b_857_5_alg».proof.Proof.RefSeg_flD_0
import proofs.«138489_g81887846466032_cont_9to1c4b_857_5_alg».proof.Proof.RefSeg_fdS_0
import proofs.«138489_g81887846466032_cont_9to1c4b_857_5_alg».proof.Proof.RefSeg_rmS_0
import proofs.«138489_g81887846466032_cont_9to1c4b_857_5_alg».proof.Proof.RefSeg_fdD_0
import proofs.«138489_g81887846466032_cont_9to1c4b_857_5_alg».proof.Proof.RefSeg_rmD_0
import proofs.«138489_g81887846466032_cont_9to1c4b_857_5_alg».proof.Proof.RefSeg_l1_0
import proofs.«138489_g81887846466032_cont_9to1c4b_857_5_alg».proof.Proof.RefSeg_l2_0
import proofs.«138489_g81887846466032_cont_9to1c4b_857_5_alg».proof.Proof.RefSeg_l3_0
import proofs.«138489_g81887846466032_cont_9to1c4b_857_5_alg».proof.Proof.RefSeg_small_1
import proofs.«138489_g81887846466032_cont_9to1c4b_857_5_alg».proof.Proof.RefSeg_flA_1
import proofs.«138489_g81887846466032_cont_9to1c4b_857_5_alg».proof.Proof.RefSeg_flB_1
import proofs.«138489_g81887846466032_cont_9to1c4b_857_5_alg».proof.Proof.RefSeg_flC_1
import proofs.«138489_g81887846466032_cont_9to1c4b_857_5_alg».proof.Proof.RefSeg_flD_1
import proofs.«138489_g81887846466032_cont_9to1c4b_857_5_alg».proof.Proof.RefSeg_fdS_1
import proofs.«138489_g81887846466032_cont_9to1c4b_857_5_alg».proof.Proof.RefSeg_rmS_1
import proofs.«138489_g81887846466032_cont_9to1c4b_857_5_alg».proof.Proof.RefSeg_fdD_1
import proofs.«138489_g81887846466032_cont_9to1c4b_857_5_alg».proof.Proof.RefSeg_rmD_1
import proofs.«138489_g81887846466032_cont_9to1c4b_857_5_alg».proof.Proof.RefSeg_l1_1
import proofs.«138489_g81887846466032_cont_9to1c4b_857_5_alg».proof.Proof.RefSeg_l2_1
import proofs.«138489_g81887846466032_cont_9to1c4b_857_5_alg».proof.Proof.RefSeg_l3_1

noncomputable section

namespace Cert.ReferenceIdeal.RValue

open Cert.ReferenceIdeal Cert.ReferenceIdeal.Gen Idealize.ShloMosaic Idealize.ShloMosaic.TcCoe Idealize.SL.Sem Idealize.ShloMosaic.StableHlo

variable {F : FTy → Type} [FloatOps F]

theorem after_append (l₁ l₂ : List (HloOp τ sig (Elt F))) (V : Valuation τ sig (Elt F)) : after (l₁ ++ l₂) V = after l₂ (after l₁ V) := by
  induction l₁ generalizing V with
  | nil => rfl
  | cons op l ih => simp only [List.cons_append, after_cons, ih]

abbrev mainArgs : List (Ref sig .tc) := [main_arg0, main_arg1, main_arg2, main_arg3, main_arg4, main_arg5, main_arg6, main_arg7]
/-- A list of operations that writes no argument keeps every argument at what it was. -/
theorem args_step {l : List (HloOp τ sig (Elt F))} {W : List (Ref sig .tc)} {V V0 : Valuation τ sig (Elt F)}
    (hW : l.Forall fun op => op.writes ⊆ (W.map (Proc.devRef (τ := τ) .tc)).toFinset) (hd : (mainArgs.all fun r => decide (r ∉ W)) = true)
    (hV : ∀ r ∈ mainArgs, V (Proc.devRef .tc r) = V0 (Proc.devRef .tc r)) : ∀ r ∈ mainArgs, after l V (Proc.devRef .tc r) = V0 (Proc.devRef .tc r) :=
  fun r h => (after_of_writes_sub l V hW (of_decide_eq_true (List.all_eq_true.1 hd r h))).trans (hV r h)

/-! `valN V0` is the contents after the first N stages from the launch contents `V0`; `at_b V0` is what buffer `b` holds from the stage that writes it on. -/
variable (V0 : Valuation τ sig (Elt F))

def val0 : Valuation τ sig (Elt F) := V0
theorem val0_args : ∀ r ∈ mainArgs, val0 V0 (Proc.devRef .tc r) = V0 (Proc.devRef .tc r) := fun _ _ => rfl

def val1 : Valuation τ sig (Elt F) := after sg_flow_0 (val0 V0)
theorem val1_args : ∀ r ∈ mainArgs, val1 V0 (Proc.devRef .tc r) = V0 (Proc.devRef .tc r) :=
  args_step sg_flow_0_writes rfl (val0_args V0)
def at_main_v2 := RefFn.flow0E (V0 (Proc.devRef .tc main_arg0))
theorem val1_main_v2 : val1 V0 (Proc.devRef .tc main_v2) = at_main_v2 V0 :=
  (sg_flow_0_main_v2 (val0 V0)).trans (by rw [val0_args V0 main_arg0 (by decide)]; rfl)

def val2 : Valuation τ sig (Elt F) := after sg_nx_0 (val1 V0)
theorem val2_args : ∀ r ∈ mainArgs, val2 V0 (Proc.devRef .tc r) = V0 (Proc.devRef .tc r) :=
  args_step sg_nx_0_writes rfl (val1_args V0)
def at_main_v7 := RefFn.nxE (at_main_v2 V0)
theorem val2_main_v7 : val2 V0 (Proc.devRef .tc main_v7) = at_main_v7 V0 :=
  (sg_nx_0_main_v7 (val1 V0)).trans (by rw [val1_main_v2 V0]; rfl)

def val3 : Valuation τ sig (Elt F) := after sg_sim_0 (val2 V0)
theorem val3_args : ∀ r ∈ mainArgs, val3 V0 (Proc.devRef .tc r) = V0 (Proc.devRef .tc r) :=
  args_step sg_sim_0_writes rfl (val2_args V0)
def at_main_v9 := RefFn.simE (at_main_v7 V0)
theorem val3_main_v9 : val3 V0 (Proc.devRef .tc main_v9) = at_main_v9 V0 :=
  (sg_sim_0_main_v9 (val2 V0)).trans (by rw [val2_main_v7 V0]; rfl)

def val4 : Valuation τ sig (Elt F) := after sg_mask_0 (val3 V0)
theorem val4_args : ∀ r ∈ mainArgs, val4 V0 (Proc.devRef .tc r) = V0 (Proc.devRef .tc r) :=
  args_step sg_mask_0_writes rfl (val3_args V0)
def at_main_v11 := RefFn.maskE (at_main_v9 V0)
theorem val4_main_v11 : val4 V0 (Proc.devRef .tc main_v11) = at_main_v11 V0 :=
  (sg_mask_0_main_v11 (val3 V0)).trans (by rw [val3_main_v9 V0]; rfl)
theorem val4_main_v9 : val4 V0 (Proc.devRef .tc main_v9) = at_main_v9 V0 :=
  (after_of_writes_sub sg_mask_0 _ sg_mask_0_writes (by decide)).trans (val3_main_v9 V0)

def val5 : Valuation τ sig (Elt F) := after sg_cnt_0 (val4 V0)
theorem val5_args : ∀ r ∈ mainArgs, val5 V0 (Proc.devRef .tc r) = V0 (Proc.devRef .tc r) :=
  args_step sg_cnt_0_writes rfl (val4_args V0)
def at_main_v12 := RefFn.cntE (at_main_v11 V0)
theorem val5_main_v12 : val5 V0 (Proc.devRef .tc main_v12) = at_main_v12 V0 :=
  (sg_cnt_0_main_v12 (val4 V0)).trans (by rw [val4_main_v11 V0]; rfl)
theorem val5_main_v9 : val5 V0 (Proc.devRef .tc main_v9) = at_main_v9 V0 :=
  (after_of_writes_sub sg_cnt_0 _ sg_cnt_0_writes (by decide)).trans (val4_main_v9 V0)

def val6 : Valuation τ sig (Elt F) := after sg_flA_0 (val5 V0)
theorem val6_args : ∀ r ∈ mainArgs, val6 V0 (Proc.devRef .tc r) = V0 (Proc.devRef .tc r) :=
  args_step sg_flA_0_writes rfl (val5_args V0)
def at_main_v13 (_ : Valuation τ sig (Elt F)) := (broadcastInDim S1048576 ![] bcast_S_S1048576 : (⟨S_, .i32⟩ : BufTy).Contents (Elt F) → (⟨S1048576, .i32⟩ : BufTy).Contents (Elt F)) (constantI S_ 32 0#32)
theorem val6_main_v13 : val6 V0 (Proc.devRef .tc main_v13) = at_main_v13 V0 :=
  (sg_flA_0_main_v13 (val5 V0)).trans (by rfl)
def at_main_v19 := (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)) ((cmpi .slt : (⟨S1048576, .i32⟩ : BufTy).Contents (Elt F) → (⟨S1048576, .i32⟩ : BufTy).Contents (Elt F) → (⟨S1048576, .i1⟩ : BufTy).Contents (Elt F)) (maxsi ((broadcastInDim S1048576 ![] bcast_S_S1048576) (id (constantI S_ 32 0#32))) (at_main_v12 V0)) (at_main_v13 V0)) ((addi : (⟨S1048576, .i32⟩ : BufTy).Contents (Elt F) → (⟨S1048576, .i32⟩ : BufTy).Contents (Elt F) → (⟨S1048576, .i32⟩ : BufTy).Contents (Elt F)) (maxsi ((broadcastInDim S1048576 ![] bcast_S_S1048576) (id (constantI S_ 32 0#32))) (at_main_v12 V0)) ((broadcastInDim S1048576 ![] bcast_S_S1048576 : (⟨S_, .i32⟩ : BufTy).Contents (Elt F) → (⟨S1048576, .i32⟩ : BufTy).Contents (Elt F)) (constantI S_ 32 1048576#32))) (maxsi ((broadcastInDim S1048576 ![] bcast_S_S1048576) (id (constantI S_ 32 0#32))) (at_main_v12 V0))
theorem val6_main_v19 : val6 V0 (Proc.devRef .tc main_v19) = at_main_v19 V0 :=
  (sg_flA_0_main_v19 (val5 V0)).trans (by rw [val5_main_v12 V0]; rfl)
theorem val6_main_v9 : val6 V0 (Proc.devRef .tc main_v9) = at_main_v9 V0 :=
  (after_of_writes_sub sg_flA_0 _ sg_flA_0_writes (by decide)).trans (val5_main_v9 V0)

def val7 : Valuation τ sig (Elt F) := after sg_flB_0 (val6 V0)
theorem val7_args : ∀ r ∈ mainArgs, val7 V0 (Proc.devRef .tc r) = V0 (Proc.devRef .tc r) :=
  args_step sg_flB_0_writes rfl (val6_args V0)
def at_main_v20 := (broadcastInDim S1048576x1 ![0] bcast_S1048576_S1048576x1_0 : (⟨S1048576, .i32⟩ : BufTy).Contents (Elt F) → (⟨S1048576x1, .i32⟩ : BufTy).Contents (Elt F)) (at_main_v19 V0)
theorem val7_main_v20 : val7 V0 (Proc.devRef .tc main_v20) = at_main_v20 V0 :=
  (sg_flB_0_main_v20 (val6 V0)).trans (by rw [val6_main_v19 V0]; rfl)
def at_main_v21 (_ : Valuation τ sig (Elt F)) := (broadcastInDim S1048576 ![] bcast_S_S1048576 : (⟨S_, .i32⟩ : BufTy).Contents (Elt F) → (⟨S1048576, .i32⟩ : BufTy).Contents (Elt F)) (constantI S_ 32 1#32)
theorem val7_main_v21 : val7 V0 (Proc.devRef .tc main_v21) = at_main_v21 V0 :=
  (sg_flB_0_main_v21 (val6 V0)).trans (by rfl)
theorem val7_main_v9 : val7 V0 (Proc.devRef .tc main_v9) = at_main_v9 V0 :=
  (after_of_writes_sub sg_flB_0 _ sg_flB_0_writes (by decide)).trans (val6_main_v9 V0)
theorem val7_main_v13 : val7 V0 (Proc.devRef .tc main_v13) = at_main_v13 V0 :=
  (after_of_writes_sub sg_flB_0 _ sg_flB_0_writes (by decide)).trans (val6_main_v13 V0)

def val8 : Valuation τ sig (Elt F) := after sg_flC_0 (val7 V0)
theorem val8_args : ∀ r ∈ mainArgs, val8 V0 (Proc.devRef .tc r) = V0 (Proc.devRef .tc r) :=
  args_step sg_flC_0_writes rfl (val7_args V0)
def at_main_v22 := ((fun x i u => Host.scatter scatter_S1048576_S1048576x1_S1048576_n_0_0_1 IntOp.addi x i u) : (⟨S1048576, .i32⟩ : BufTy).Contents (Elt F) → (⟨S1048576x1, .i32⟩ : BufTy).Contents (Elt F) → (⟨S1048576, .i32⟩ : BufTy).Contents (Elt F) → (⟨S1048576, .i32⟩ : BufTy).Contents (Elt F)) (at_main_v13 V0) (at_main_v20 V0) (at_main_v21 V0)
theorem val8_main_v22 : val8 V0 (Proc.devRef .tc main_v22) = at_main_v22 V0 :=
  (sg_flC_0_main_v22 (val7 V0)).trans (by rw [val7_main_v13 V0, val7_main_v20 V0, val7_main_v21 V0]; rfl)
theorem val8_main_v9 : val8 V0 (Proc.devRef .tc main_v9) = at_main_v9 V0 :=
  (after_of_writes_sub sg_flC_0 _ sg_flC_0_writes (by decide)).trans (val7_main_v9 V0)

def val9 : Valuation τ sig (Elt F) := after sg_flD_0 (val8 V0)
theorem val9_args : ∀ r ∈ mainArgs, val9 V0 (Proc.devRef .tc r) = V0 (Proc.devRef .tc r) :=
  args_step sg_flD_0_writes rfl (val8_args V0)
def at_main_v23 := RefFn.flatE (at_main_v12 V0)
theorem val9_main_v23 : val9 V0 (Proc.devRef .tc main_v23) = at_main_v23 V0 :=
  (sg_flD_0_main_v23 (val8 V0)).trans (by rw [val8_main_v22 V0]; rfl)
theorem val9_main_v9 : val9 V0 (Proc.devRef .tc main_v9) = at_main_v9 V0 :=
  (after_of_writes_sub sg_flD_0 _ sg_flD_0_writes (by decide)).trans (val8_main_v9 V0)

def val10 : Valuation τ sig (Elt F) := after sg_fdS_0 (val9 V0)
theorem val10_args : ∀ r ∈ mainArgs, val10 V0 (Proc.devRef .tc r) = V0 (Proc.devRef .tc r) :=
  args_step sg_fdS_0_writes rfl (val9_args V0)
def at_main_v24 := RefFn.floorDivE (at_main_v23 V0) (constantI S_ 32 1024#32)
theorem val10_main_v24 : val10 V0 (Proc.devRef .tc main_v24) = at_main_v24 V0 :=
  (sg_fdS_0_main_v24 (val9 V0)).trans (by rw [val9_main_v23 V0]; rfl)
theorem val10_main_v9 : val10 V0 (Proc.devRef .tc main_v9) = at_main_v9 V0 :=
  (after_of_writes_sub sg_fdS_0 _ sg_fdS_0_writes (by decide)).trans (val9_main_v9 V0)
theorem val10_main_v23 : val10 V0 (Proc.devRef .tc main_v23) = at_main_v23 V0 :=
  (after_of_writes_sub sg_fdS_0 _ sg_fdS_0_writes (by decide)).trans (val9_main_v23 V0)

def val11 : Valuation τ sig (Elt F) := after sg_rmS_0 (val10 V0)
theorem val11_args : ∀ r ∈ mainArgs, val11 V0 (Proc.devRef .tc r) = V0 (Proc.devRef .tc r) :=
  args_step sg_rmS_0_writes rfl (val10_args V0)
def at_main_v25 := RefFn.remE (at_main_v24 V0) (constantI S_ 32 1024#32)
theorem val11_main_v25 : val11 V0 (Proc.devRef .tc main_v25) = at_main_v25 V0 :=
  (sg_rmS_0_main_v25 (val10 V0)).trans (by rw [val10_main_v24 V0]; rfl)
theorem val11_main_v9 : val11 V0 (Proc.devRef .tc main_v9) = at_main_v9 V0 :=
  (after_of_writes_sub sg_rmS_0 _ sg_rmS_0_writes (by decide)).trans (val10_main_v9 V0)
theorem val11_main_v23 : val11 V0 (Proc.devRef .tc main_v23) = at_main_v23 V0 :=
  (after_of_writes_sub sg_rmS_0 _ sg_rmS_0_writes (by decide)).trans (val10_main_v23 V0)

def val12 : Valuation τ sig (Elt F) := after sg_fdD_0 (val11 V0)
theorem val12_args : ∀ r ∈ mainArgs, val12 V0 (Proc.devRef .tc r) = V0 (Proc.devRef .tc r) :=
  args_step sg_fdD_0_writes rfl (val11_args V0)
def at_main_v26 := RefFn.floorDivE (at_main_v23 V0) (constantI S_ 32 1#32)
theorem val12_main_v26 : val12 V0 (Proc.devRef .tc main_v26) = at_main_v26 V0 :=
  (sg_fdD_0_main_v26 (val11 V0)).trans (by rw [val11_main_v23 V0]; rfl)
theorem val12_main_v9 : val12 V0 (Proc.devRef .tc main_v9) = at_main_v9 V0 :=
  (after_of_writes_sub sg_fdD_0 _ sg_fdD_0_writes (by decide)).trans (val11_main_v9 V0)
theorem val12_main_v25 : val12 V0 (Proc.devRef .tc main_v25) = at_main_v25 V0 :=
  (after_of_writes_sub sg_fdD_0 _ sg_fdD_0_writes (by decide)).trans (val11_main_v25 V0)

def val13 : Valuation τ sig (Elt F) := after sg_rmD_0 (val12 V0)
theorem val13_args : ∀ r ∈ mainArgs, val13 V0 (Proc.devRef .tc r) = V0 (Proc.devRef .tc r) :=
  args_step sg_rmD_0_writes rfl (val12_args V0)
def at_main_v27 := RefFn.remE (at_main_v26 V0) (constantI S_ 32 1024#32)
theorem val13_main_v27 : val13 V0 (Proc.devRef .tc main_v27) = at_main_v27 V0 :=
  (sg_rmD_0_main_v27 (val12 V0)).trans (by rw [val12_main_v26 V0]; rfl)
theorem val13_main_v9 : val13 V0 (Proc.devRef .tc main_v9) = at_main_v9 V0 :=
  (after_of_writes_sub sg_rmD_0 _ sg_rmD_0_writes (by decide)).trans (val12_main_v9 V0)
theorem val13_main_v25 : val13 V0 (Proc.devRef .tc main_v25) = at_main_v25 V0 :=
  (after_of_writes_sub sg_rmD_0 _ sg_rmD_0_writes (by decide)).trans (val12_main_v25 V0)

def val14 : Valuation τ sig (Elt F) := after sg_ewA_0 (val13 V0)
theorem val14_args : ∀ r ∈ mainArgs, val14 V0 (Proc.devRef .tc r) = V0 (Proc.devRef .tc r) :=
  args_step sg_ewA_0_writes rfl (val13_args V0)
def at_main_v38 := RefFn.colE (at_main_v25 V0)
theorem val14_main_v38 : val14 V0 (Proc.devRef .tc main_v38) = at_main_v38 V0 :=
  (sg_ewA_0_main_v38 (val13 V0)).trans (by rw [val13_main_v25 V0]; rfl)
def at_main_v39 := RefFn.colE (at_main_v27 V0)
theorem val14_main_v39 : val14 V0 (Proc.devRef .tc main_v39) = at_main_v39 V0 :=
  (sg_ewA_0_main_v39 (val13 V0)).trans (by rw [val13_main_v27 V0]; rfl)
theorem val14_main_v9 : val14 V0 (Proc.devRef .tc main_v9) = at_main_v9 V0 :=
  (after_of_writes_sub sg_ewA_0 _ sg_ewA_0_writes (by decide)).trans (val13_main_v9 V0)
theorem val14_main_v25 : val14 V0 (Proc.devRef .tc main_v25) = at_main_v25 V0 :=
  (after_of_writes_sub sg_ewA_0 _ sg_ewA_0_writes (by decide)).trans (val13_main_v25 V0)
theorem val14_main_v27 : val14 V0 (Proc.devRef .tc main_v27) = at_main_v27 V0 :=
  (after_of_writes_sub sg_ewA_0 _ sg_ewA_0_writes (by decide)).trans (val13_main_v27 V0)

def val15 : Valuation τ sig (Elt F) := after sg_ewB_0 (val14 V0)
theorem val15_args : ∀ r ∈ mainArgs, val15 V0 (Proc.devRef .tc r) = V0 (Proc.devRef .tc r) :=
  args_step sg_ewB_0_writes rfl (val14_args V0)
def at_main_v41 := RefFn.gatherE (at_main_v9 V0) (at_main_v38 V0) (at_main_v39 V0)
theorem val15_main_v41 : val15 V0 (Proc.devRef .tc main_v41) = at_main_v41 V0 :=
  (sg_ewB_0_main_v41 (val14 V0)).trans (by rw [val14_main_v9 V0, val14_main_v38 V0, val14_main_v39 V0]; rfl)
theorem val15_main_v25 : val15 V0 (Proc.devRef .tc main_v25) = at_main_v25 V0 :=
  (after_of_writes_sub sg_ewB_0 _ sg_ewB_0_writes (by decide)).trans (val14_main_v25 V0)
theorem val15_main_v27 : val15 V0 (Proc.devRef .tc main_v27) = at_main_v27 V0 :=
  (after_of_writes_sub sg_ewB_0 _ sg_ewB_0_writes (by decide)).trans (val14_main_v27 V0)

def val16 : Valuation τ sig (Elt F) := after sg_edge_0 (val15 V0)
theorem val16_args : ∀ r ∈ mainArgs, val16 V0 (Proc.devRef .tc r) = V0 (Proc.devRef .tc r) :=
  args_step sg_edge_0_writes rfl (val15_args V0)
def at_main_v44 := RefFn.edge0E (V0 (Proc.devRef .tc main_arg1))
theorem val16_main_v44 : val16 V0 (Proc.devRef .tc main_v44) = at_main_v44 V0 :=
  (sg_edge_0_main_v44 (val15 V0)).trans (by rw [val15_args V0 main_arg1 (by decide)]; rfl)
theorem val16_main_v25 : val16 V0 (Proc.devRef .tc main_v25) = at_main_v25 V0 :=
  (after_of_writes_sub sg_edge_0 _ sg_edge_0_writes (by decide)).trans (val15_main_v25 V0)
theorem val16_main_v27 : val16 V0 (Proc.devRef .tc main_v27) = at_main_v27 V0 :=
  (after_of_writes_sub sg_edge_0 _ sg_edge_0_writes (by decide)).trans (val15_main_v27 V0)
theorem val16_main_v41 : val16 V0 (Proc.devRef .tc main_v41) = at_main_v41 V0 :=
  (after_of_writes_sub sg_edge_0 _ sg_edge_0_writes (by decide)).trans (val15_main_v41 V0)

def val17 : Valuation τ sig (Elt F) := after sg_l1p_0 (val16 V0)
theorem val17_args : ∀ r ∈ mainArgs, val17 V0 (Proc.devRef .tc r) = V0 (Proc.devRef .tc r) :=
  args_step sg_l1p_0_writes rfl (val16_args V0)
def at_main_v46 := RefFn.loopIdxE (at_main_v25 V0)
theorem val17_main_v46 : val17 V0 (Proc.devRef .tc main_v46) = at_main_v46 V0 :=
  (sg_l1p_0_main_v46 (val16 V0)).trans (by rw [val16_main_v25 V0]; rfl)
def at_main_v47 := RefFn.loopIdxE (at_main_v27 V0)
theorem val17_main_v47 : val17 V0 (Proc.devRef .tc main_v47) = at_main_v47 V0 :=
  (sg_l1p_0_main_v47 (val16 V0)).trans (by rw [val16_main_v27 V0]; rfl)
def at_main_v49 := RefFn.loopWE (at_main_v41 V0)
theorem val17_main_v49 : val17 V0 (Proc.devRef .tc main_v49) = at_main_v49 V0 :=
  (sg_l1p_0_main_v49 (val16 V0)).trans (by rw [val16_main_v41 V0]; rfl)
theorem val17_main_v25 : val17 V0 (Proc.devRef .tc main_v25) = at_main_v25 V0 :=
  (after_of_writes_sub sg_l1p_0 _ sg_l1p_0_writes (by decide)).trans (val16_main_v25 V0)
theorem val17_main_v27 : val17 V0 (Proc.devRef .tc main_v27) = at_main_v27 V0 :=
  (after_of_writes_sub sg_l1p_0 _ sg_l1p_0_writes (by decide)).trans (val16_main_v27 V0)
theorem val17_main_v41 : val17 V0 (Proc.devRef .tc main_v41) = at_main_v41 V0 :=
  (after_of_writes_sub sg_l1p_0 _ sg_l1p_0_writes (by decide)).trans (val16_main_v41 V0)
theorem val17_main_v44 : val17 V0 (Proc.devRef .tc main_v44) = at_main_v44 V0 :=
  (after_of_writes_sub sg_l1p_0 _ sg_l1p_0_writes (by decide)).trans (val16_main_v44 V0)

def val18 : Valuation τ sig (Elt F) := after sg_l1_0 (val17 V0)
theorem val18_args : ∀ r ∈ mainArgs, val18 V0 (Proc.devRef .tc r) = V0 (Proc.devRef .tc r) :=
  args_step sg_l1_0_writes rfl (val17_args V0)
def at_main_v100 := RefFn.layerMainE (at_main_v46 V0) (at_main_v47 V0) (at_main_v49 V0) (at_main_v44 V0) (V0 (Proc.devRef .tc main_arg2)) (V0 (Proc.devRef .tc main_arg3))
theorem val18_main_v100 : val18 V0 (Proc.devRef .tc main_v100) = at_main_v100 V0 :=
  (sg_l1_0_main_v100 (val17 V0)).trans (by rw [val17_main_v46 V0, val17_main_v47 V0, val17_main_v49 V0, val17_main_v44 V0, val17_args V0 main_arg2 (by decide), val17_args V0 main_arg3 (by decide)]; rfl)
theorem val18_main_v25 : val18 V0 (Proc.devRef .tc main_v25) = at_main_v25 V0 :=
  (after_of_writes_sub sg_l1_0 _ sg_l1_0_writes (by decide)).trans (val17_main_v25 V0)
theorem val18_main_v27 : val18 V0 (Proc.devRef .tc main_v27) = at_main_v27 V0 :=
  (after_of_writes_sub sg_l1_0 _ sg_l1_0_writes (by decide)).trans (val17_main_v27 V0)
theorem val18_main_v41 : val18 V0 (Proc.devRef .tc main_v41) = at_main_v41 V0 :=
  (after_of_writes_sub sg_l1_0 _ sg_l1_0_writes (by decide)).trans (val17_main_v41 V0)

def val19 : Valuation τ sig (Elt F) := after sg_l2p_0 (val18 V0)
theorem val19_args : ∀ r ∈ mainArgs, val19 V0 (Proc.devRef .tc r) = V0 (Proc.devRef .tc r) :=
  args_step sg_l2p_0_writes rfl (val18_args V0)
theorem val19_main_v102 : val19 V0 (Proc.devRef .tc main_v102) = at_main_v46 V0 :=
  (sg_l2p_0_main_v102 (val18 V0)).trans (by rw [val18_main_v25 V0]; rfl)
theorem val19_main_v103 : val19 V0 (Proc.devRef .tc main_v103) = at_main_v47 V0 :=
  (sg_l2p_0_main_v103 (val18 V0)).trans (by rw [val18_main_v27 V0]; rfl)
theorem val19_main_v105 : val19 V0 (Proc.devRef .tc main_v105) = at_main_v49 V0 :=
  (sg_l2p_0_main_v105 (val18 V0)).trans (by rw [val18_main_v41 V0]; rfl)
theorem val19_main_v25 : val19 V0 (Proc.devRef .tc main_v25) = at_main_v25 V0 :=
  (after_of_writes_sub sg_l2p_0 _ sg_l2p_0_writes (by decide)).trans (val18_main_v25 V0)
theorem val19_main_v27 : val19 V0 (Proc.devRef .tc main_v27) = at_main_v27 V0 :=
  (after_of_writes_sub sg_l2p_0 _ sg_l2p_0_writes (by decide)).trans (val18_main_v27 V0)
theorem val19_main_v41 : val19 V0 (Proc.devRef .tc main_v41) = at_main_v41 V0 :=
  (after_of_writes_sub sg_l2p_0 _ sg_l2p_0_writes (by decide)).trans (val18_main_v41 V0)
theorem val19_main_v100 : val19 V0 (Proc.devRef .tc main_v100) = at_main_v100 V0 :=
  (after_of_writes_sub sg_l2p_0 _ sg_l2p_0_writes (by decide)).trans (val18_main_v100 V0)

def val20 : Valuation τ sig (Elt F) := after sg_l2_0 (val19 V0)
theorem val20_args : ∀ r ∈ mainArgs, val20 V0 (Proc.devRef .tc r) = V0 (Proc.devRef .tc r) :=
  args_step sg_l2_0_writes rfl (val19_args V0)
def at_main_v156 := RefFn.layerMainE (at_main_v46 V0) (at_main_v47 V0) (at_main_v49 V0) (at_main_v100 V0) (V0 (Proc.devRef .tc main_arg4)) (V0 (Proc.devRef .tc main_arg5))
theorem val20_main_v156 : val20 V0 (Proc.devRef .tc main_v156) = at_main_v156 V0 :=
  (sg_l2_0_main_v156 (val19 V0)).trans (by rw [val19_main_v102 V0, val19_main_v103 V0, val19_main_v105 V0, val19_main_v100 V0, val19_args V0 main_arg4 (by decide), val19_args V0 main_arg5 (by decide)]; rfl)
theorem val20_main_v25 : val20 V0 (Proc.devRef .tc main_v25) = at_main_v25 V0 :=
  (after_of_writes_sub sg_l2_0 _ sg_l2_0_writes (by decide)).trans (val19_main_v25 V0)
theorem val20_main_v27 : val20 V0 (Proc.devRef .tc main_v27) = at_main_v27 V0 :=
  (after_of_writes_sub sg_l2_0 _ sg_l2_0_writes (by decide)).trans (val19_main_v27 V0)
theorem val20_main_v41 : val20 V0 (Proc.devRef .tc main_v41) = at_main_v41 V0 :=
  (after_of_writes_sub sg_l2_0 _ sg_l2_0_writes (by decide)).trans (val19_main_v41 V0)

def val21 : Valuation τ sig (Elt F) := after sg_l3p_0 (val20 V0)
theorem val21_args : ∀ r ∈ mainArgs, val21 V0 (Proc.devRef .tc r) = V0 (Proc.devRef .tc r) :=
  args_step sg_l3p_0_writes rfl (val20_args V0)
theorem val21_main_v158 : val21 V0 (Proc.devRef .tc main_v158) = at_main_v46 V0 :=
  (sg_l3p_0_main_v158 (val20 V0)).trans (by rw [val20_main_v25 V0]; rfl)
theorem val21_main_v159 : val21 V0 (Proc.devRef .tc main_v159) = at_main_v47 V0 :=
  (sg_l3p_0_main_v159 (val20 V0)).trans (by rw [val20_main_v27 V0]; rfl)
theorem val21_main_v161 : val21 V0 (Proc.devRef .tc main_v161) = at_main_v49 V0 :=
  (sg_l3p_0_main_v161 (val20 V0)).trans (by rw [val20_main_v41 V0]; rfl)
theorem val21_main_v156 : val21 V0 (Proc.devRef .tc main_v156) = at_main_v156 V0 :=
  (after_of_writes_sub sg_l3p_0 _ sg_l3p_0_writes (by decide)).trans (val20_main_v156 V0)

def val22 : Valuation τ sig (Elt F) := after sg_l3_0 (val21 V0)
theorem val22_args : ∀ r ∈ mainArgs, val22 V0 (Proc.devRef .tc r) = V0 (Proc.devRef .tc r) :=
  args_step sg_l3_0_writes rfl (val21_args V0)
def at_main_v212 := RefFn.layerMainE (at_main_v46 V0) (at_main_v47 V0) (at_main_v49 V0) (at_main_v156 V0) (V0 (Proc.devRef .tc main_arg6)) (V0 (Proc.devRef .tc main_arg7))
theorem val22_main_v212 : val22 V0 (Proc.devRef .tc main_v212) = at_main_v212 V0 :=
  (sg_l3_0_main_v212 (val21 V0)).trans (by rw [val21_main_v158 V0, val21_main_v159 V0, val21_main_v161 V0, val21_main_v156 V0, val21_args V0 main_arg6 (by decide), val21_args V0 main_arg7 (by decide)]; rfl)

def val23 : Valuation τ sig (Elt F) := after sg_pack_0 (val22 V0)
theorem val23_args : ∀ r ∈ mainArgs, val23 V0 (Proc.devRef .tc r) = V0 (Proc.devRef .tc r) :=
  args_step sg_pack_0_writes rfl (val22_args V0)
def at_main_v213 := RefFn.packE (at_main_v212 V0)
theorem val23_main_v213 : val23 V0 (Proc.devRef .tc main_v213) = at_main_v213 V0 :=
  (sg_pack_0_main_v213 (val22 V0)).trans (by rw [val22_main_v212 V0]; rfl)

def val24 : Valuation τ sig (Elt F) := after sg_flow_1 (val23 V0)
theorem val24_args : ∀ r ∈ mainArgs, val24 V0 (Proc.devRef .tc r) = V0 (Proc.devRef .tc r) :=
  args_step sg_flow_1_writes rfl (val23_args V0)
def at_main_v216 := RefFn.flow1E (V0 (Proc.devRef .tc main_arg0))
theorem val24_main_v216 : val24 V0 (Proc.devRef .tc main_v216) = at_main_v216 V0 :=
  (sg_flow_1_main_v216 (val23 V0)).trans (by rw [val23_args V0 main_arg0 (by decide)]; rfl)
theorem val24_main_v213 : val24 V0 (Proc.devRef .tc main_v213) = at_main_v213 V0 :=
  (after_of_writes_sub sg_flow_1 _ sg_flow_1_writes (by decide)).trans (val23_main_v213 V0)

def val25 : Valuation τ sig (Elt F) := after sg_nx_1 (val24 V0)
theorem val25_args : ∀ r ∈ mainArgs, val25 V0 (Proc.devRef .tc r) = V0 (Proc.devRef .tc r) :=
  args_step sg_nx_1_writes rfl (val24_args V0)
def at_main_v221 := RefFn.nxE (at_main_v216 V0)
theorem val25_main_v221 : val25 V0 (Proc.devRef .tc main_v221) = at_main_v221 V0 :=
  (sg_nx_1_main_v221 (val24 V0)).trans (by rw [val24_main_v216 V0]; rfl)
theorem val25_main_v213 : val25 V0 (Proc.devRef .tc main_v213) = at_main_v213 V0 :=
  (after_of_writes_sub sg_nx_1 _ sg_nx_1_writes (by decide)).trans (val24_main_v213 V0)

def val26 : Valuation τ sig (Elt F) := after sg_sim_1 (val25 V0)
theorem val26_args : ∀ r ∈ mainArgs, val26 V0 (Proc.devRef .tc r) = V0 (Proc.devRef .tc r) :=
  args_step sg_sim_1_writes rfl (val25_args V0)
def at_main_v223 := RefFn.simE (at_main_v221 V0)
theorem val26_main_v223 : val26 V0 (Proc.devRef .tc main_v223) = at_main_v223 V0 :=
  (sg_sim_1_main_v223 (val25 V0)).trans (by rw [val25_main_v221 V0]; rfl)
theorem val26_main_v213 : val26 V0 (Proc.devRef .tc main_v213) = at_main_v213 V0 :=
  (after_of_writes_sub sg_sim_1 _ sg_sim_1_writes (by decide)).trans (val25_main_v213 V0)

def val27 : Valuation τ sig (Elt F) := after sg_mask_1 (val26 V0)
theorem val27_args : ∀ r ∈ mainArgs, val27 V0 (Proc.devRef .tc r) = V0 (Proc.devRef .tc r) :=
  args_step sg_mask_1_writes rfl (val26_args V0)
def at_main_v225 := RefFn.maskE (at_main_v223 V0)
theorem val27_main_v225 : val27 V0 (Proc.devRef .tc main_v225) = at_main_v225 V0 :=
  (sg_mask_1_main_v225 (val26 V0)).trans (by rw [val26_main_v223 V0]; rfl)
theorem val27_main_v213 : val27 V0 (Proc.devRef .tc main_v213) = at_main_v213 V0 :=
  (after_of_writes_sub sg_mask_1 _ sg_mask_1_writes (by decide)).trans (val26_main_v213 V0)
theorem val27_main_v223 : val27 V0 (Proc.devRef .tc main_v223) = at_main_v223 V0 :=
  (after_of_writes_sub sg_mask_1 _ sg_mask_1_writes (by decide)).trans (val26_main_v223 V0)

def val28 : Valuation τ sig (Elt F) := after sg_cnt_1 (val27 V0)
theorem val28_args : ∀ r ∈ mainArgs, val28 V0 (Proc.devRef .tc r) = V0 (Proc.devRef .tc r) :=
  args_step sg_cnt_1_writes rfl (val27_args V0)
def at_main_v226 := RefFn.cntE (at_main_v225 V0)
theorem val28_main_v226 : val28 V0 (Proc.devRef .tc main_v226) = at_main_v226 V0 :=
  (sg_cnt_1_main_v226 (val27 V0)).trans (by rw [val27_main_v225 V0]; rfl)
theorem val28_main_v213 : val28 V0 (Proc.devRef .tc main_v213) = at_main_v213 V0 :=
  (after_of_writes_sub sg_cnt_1 _ sg_cnt_1_writes (by decide)).trans (val27_main_v213 V0)
theorem val28_main_v223 : val28 V0 (Proc.devRef .tc main_v223) = at_main_v223 V0 :=
  (after_of_writes_sub sg_cnt_1 _ sg_cnt_1_writes (by decide)).trans (val27_main_v223 V0)

def val29 : Valuation τ sig (Elt F) := after sg_flA_1 (val28 V0)
theorem val29_args : ∀ r ∈ mainArgs, val29 V0 (Proc.devRef .tc r) = V0 (Proc.devRef .tc r) :=
  args_step sg_flA_1_writes rfl (val28_args V0)
theorem val29_main_v227 : val29 V0 (Proc.devRef .tc main_v227) = at_main_v13 V0 :=
  (sg_flA_1_main_v227 (val28 V0)).trans (by rfl)
def at_main_v233 := (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)) ((cmpi .slt : (⟨S1048576, .i32⟩ : BufTy).Contents (Elt F) → (⟨S1048576, .i32⟩ : BufTy).Contents (Elt F) → (⟨S1048576, .i1⟩ : BufTy).Contents (Elt F)) (maxsi ((broadcastInDim S1048576 ![] bcast_S_S1048576) (id (constantI S_ 32 0#32))) (at_main_v226 V0)) (at_main_v13 V0)) ((addi : (⟨S1048576, .i32⟩ : BufTy).Contents (Elt F) → (⟨S1048576, .i32⟩ : BufTy).Contents (Elt F) → (⟨S1048576, .i32⟩ : BufTy).Contents (Elt F)) (maxsi ((broadcastInDim S1048576 ![] bcast_S_S1048576) (id (constantI S_ 32 0#32))) (at_main_v226 V0)) ((broadcastInDim S1048576 ![] bcast_S_S1048576 : (⟨S_, .i32⟩ : BufTy).Contents (Elt F) → (⟨S1048576, .i32⟩ : BufTy).Contents (Elt F)) (constantI S_ 32 1048576#32))) (maxsi ((broadcastInDim S1048576 ![] bcast_S_S1048576) (id (constantI S_ 32 0#32))) (at_main_v226 V0))
theorem val29_main_v233 : val29 V0 (Proc.devRef .tc main_v233) = at_main_v233 V0 :=
  (sg_flA_1_main_v233 (val28 V0)).trans (by rw [val28_main_v226 V0]; rfl)
theorem val29_main_v213 : val29 V0 (Proc.devRef .tc main_v213) = at_main_v213 V0 :=
  (after_of_writes_sub sg_flA_1 _ sg_flA_1_writes (by decide)).trans (val28_main_v213 V0)
theorem val29_main_v223 : val29 V0 (Proc.devRef .tc main_v223) = at_main_v223 V0 :=
  (after_of_writes_sub sg_flA_1 _ sg_flA_1_writes (by decide)).trans (val28_main_v223 V0)

def val30 : Valuation τ sig (Elt F) := after sg_flB_1 (val29 V0)
theorem val30_args : ∀ r ∈ mainArgs, val30 V0 (Proc.devRef .tc r) = V0 (Proc.devRef .tc r) :=
  args_step sg_flB_1_writes rfl (val29_args V0)
def at_main_v234 := (broadcastInDim S1048576x1 ![0] bcast_S1048576_S1048576x1_0 : (⟨S1048576, .i32⟩ : BufTy).Contents (Elt F) → (⟨S1048576x1, .i32⟩ : BufTy).Contents (Elt F)) (at_main_v233 V0)
theorem val30_main_v234 : val30 V0 (Proc.devRef .tc main_v234) = at_main_v234 V0 :=
  (sg_flB_1_main_v234 (val29 V0)).trans (by rw [val29_main_v233 V0]; rfl)
theorem val30_main_v235 : val30 V0 (Proc.devRef .tc main_v235) = at_main_v21 V0 :=
  (sg_flB_1_main_v235 (val29 V0)).trans (by rfl)
theorem val30_main_v213 : val30 V0 (Proc.devRef .tc main_v213) = at_main_v213 V0 :=
  (after_of_writes_sub sg_flB_1 _ sg_flB_1_writes (by decide)).trans (val29_main_v213 V0)
theorem val30_main_v223 : val30 V0 (Proc.devRef .tc main_v223) = at_main_v223 V0 :=
  (after_of_writes_sub sg_flB_1 _ sg_flB_1_writes (by decide)).trans (val29_main_v223 V0)
theorem val30_main_v227 : val30 V0 (Proc.devRef .tc main_v227) = at_main_v13 V0 :=
  (after_of_writes_sub sg_flB_1 _ sg_flB_1_writes (by decide)).trans (val29_main_v227 V0)

def val31 : Valuation τ sig (Elt F) := after sg_flC_1 (val30 V0)
theorem val31_args : ∀ r ∈ mainArgs, val31 V0 (Proc.devRef .tc r) = V0 (Proc.devRef .tc r) :=
  args_step sg_flC_1_writes rfl (val30_args V0)
def at_main_v236 := ((fun x i u => Host.scatter scatter_S1048576_S1048576x1_S1048576_n_0_0_1 IntOp.addi x i u) : (⟨S1048576, .i32⟩ : BufTy).Contents (Elt F) → (⟨S1048576x1, .i32⟩ : BufTy).Contents (Elt F) → (⟨S1048576, .i32⟩ : BufTy).Contents (Elt F) → (⟨S1048576, .i32⟩ : BufTy).Contents (Elt F)) (at_main_v13 V0) (at_main_v234 V0) (at_main_v21 V0)
theorem val31_main_v236 : val31 V0 (Proc.devRef .tc main_v236) = at_main_v236 V0 :=
  (sg_flC_1_main_v236 (val30 V0)).trans (by rw [val30_main_v227 V0, val30_main_v234 V0, val30_main_v235 V0]; rfl)
theorem val31_main_v213 : val31 V0 (Proc.devRef .tc main_v213) = at_main_v213 V0 :=
  (after_of_writes_sub sg_flC_1 _ sg_flC_1_writes (by decide)).trans (val30_main_v213 V0)
theorem val31_main_v223 : val31 V0 (Proc.devRef .tc main_v223) = at_main_v223 V0 :=
  (after_of_writes_sub sg_flC_1 _ sg_flC_1_writes (by decide)).trans (val30_main_v223 V0)

def val32 : Valuation τ sig (Elt F) := after sg_flD_1 (val31 V0)
theorem val32_args : ∀ r ∈ mainArgs, val32 V0 (Proc.devRef .tc r) = V0 (Proc.devRef .tc r) :=
  args_step sg_flD_1_writes rfl (val31_args V0)
def at_main_v237 := RefFn.flatE (at_main_v226 V0)
theorem val32_main_v237 : val32 V0 (Proc.devRef .tc main_v237) = at_main_v237 V0 :=
  (sg_flD_1_main_v237 (val31 V0)).trans (by rw [val31_main_v236 V0]; rfl)
theorem val32_main_v213 : val32 V0 (Proc.devRef .tc main_v213) = at_main_v213 V0 :=
  (after_of_writes_sub sg_flD_1 _ sg_flD_1_writes (by decide)).trans (val31_main_v213 V0)
theorem val32_main_v223 : val32 V0 (Proc.devRef .tc main_v223) = at_main_v223 V0 :=
  (after_of_writes_sub sg_flD_1 _ sg_flD_1_writes (by decide)).trans (val31_main_v223 V0)

def val33 : Valuation τ sig (Elt F) := after sg_fdS_1 (val32 V0)
theorem val33_args : ∀ r ∈ mainArgs, val33 V0 (Proc.devRef .tc r) = V0 (Proc.devRef .tc r) :=
  args_step sg_fdS_1_writes rfl (val32_args V0)
def at_main_v238 := RefFn.floorDivE (at_main_v237 V0) (constantI S_ 32 1024#32)
theorem val33_main_v238 : val33 V0 (Proc.devRef .tc main_v238) = at_main_v238 V0 :=
  (sg_fdS_1_main_v238 (val32 V0)).trans (by rw [val32_main_v237 V0]; rfl)
theorem val33_main_v213 : val33 V0 (Proc.devRef .tc main_v213) = at_main_v213 V0 :=
  (after_of_writes_sub sg_fdS_1 _ sg_fdS_1_writes (by decide)).trans (val32_main_v213 V0)
theorem val33_main_v223 : val33 V0 (Proc.devRef .tc main_v223) = at_main_v223 V0 :=
  (after_of_writes_sub sg_fdS_1 _ sg_fdS_1_writes (by decide)).trans (val32_main_v223 V0)
theorem val33_main_v237 : val33 V0 (Proc.devRef .tc main_v237) = at_main_v237 V0 :=
  (after_of_writes_sub sg_fdS_1 _ sg_fdS_1_writes (by decide)).trans (val32_main_v237 V0)

def val34 : Valuation τ sig (Elt F) := after sg_rmS_1 (val33 V0)
theorem val34_args : ∀ r ∈ mainArgs, val34 V0 (Proc.devRef .tc r) = V0 (Proc.devRef .tc r) :=
  args_step sg_rmS_1_writes rfl (val33_args V0)
def at_main_v239 := RefFn.remE (at_main_v238 V0) (constantI S_ 32 1024#32)
theorem val34_main_v239 : val34 V0 (Proc.devRef .tc main_v239) = at_main_v239 V0 :=
  (sg_rmS_1_main_v239 (val33 V0)).trans (by rw [val33_main_v238 V0]; rfl)
theorem val34_main_v213 : val34 V0 (Proc.devRef .tc main_v213) = at_main_v213 V0 :=
  (after_of_writes_sub sg_rmS_1 _ sg_rmS_1_writes (by decide)).trans (val33_main_v213 V0)
theorem val34_main_v223 : val34 V0 (Proc.devRef .tc main_v223) = at_main_v223 V0 :=
  (after_of_writes_sub sg_rmS_1 _ sg_rmS_1_writes (by decide)).trans (val33_main_v223 V0)
theorem val34_main_v237 : val34 V0 (Proc.devRef .tc main_v237) = at_main_v237 V0 :=
  (after_of_writes_sub sg_rmS_1 _ sg_rmS_1_writes (by decide)).trans (val33_main_v237 V0)

def val35 : Valuation τ sig (Elt F) := after sg_fdD_1 (val34 V0)
theorem val35_args : ∀ r ∈ mainArgs, val35 V0 (Proc.devRef .tc r) = V0 (Proc.devRef .tc r) :=
  args_step sg_fdD_1_writes rfl (val34_args V0)
def at_main_v240 := RefFn.floorDivE (at_main_v237 V0) (constantI S_ 32 1#32)
theorem val35_main_v240 : val35 V0 (Proc.devRef .tc main_v240) = at_main_v240 V0 :=
  (sg_fdD_1_main_v240 (val34 V0)).trans (by rw [val34_main_v237 V0]; rfl)
theorem val35_main_v213 : val35 V0 (Proc.devRef .tc main_v213) = at_main_v213 V0 :=
  (after_of_writes_sub sg_fdD_1 _ sg_fdD_1_writes (by decide)).trans (val34_main_v213 V0)
theorem val35_main_v223 : val35 V0 (Proc.devRef .tc main_v223) = at_main_v223 V0 :=
  (after_of_writes_sub sg_fdD_1 _ sg_fdD_1_writes (by decide)).trans (val34_main_v223 V0)
theorem val35_main_v239 : val35 V0 (Proc.devRef .tc main_v239) = at_main_v239 V0 :=
  (after_of_writes_sub sg_fdD_1 _ sg_fdD_1_writes (by decide)).trans (val34_main_v239 V0)

def val36 : Valuation τ sig (Elt F) := after sg_rmD_1 (val35 V0)
theorem val36_args : ∀ r ∈ mainArgs, val36 V0 (Proc.devRef .tc r) = V0 (Proc.devRef .tc r) :=
  args_step sg_rmD_1_writes rfl (val35_args V0)
def at_main_v241 := RefFn.remE (at_main_v240 V0) (constantI S_ 32 1024#32)
theorem val36_main_v241 : val36 V0 (Proc.devRef .tc main_v241) = at_main_v241 V0 :=
  (sg_rmD_1_main_v241 (val35 V0)).trans (by rw [val35_main_v240 V0]; rfl)
theorem val36_main_v213 : val36 V0 (Proc.devRef .tc main_v213) = at_main_v213 V0 :=
  (after_of_writes_sub sg_rmD_1 _ sg_rmD_1_writes (by decide)).trans (val35_main_v213 V0)
theorem val36_main_v223 : val36 V0 (Proc.devRef .tc main_v223) = at_main_v223 V0 :=
  (after_of_writes_sub sg_rmD_1 _ sg_rmD_1_writes (by decide)).trans (val35_main_v223 V0)
theorem val36_main_v239 : val36 V0 (Proc.devRef .tc main_v239) = at_main_v239 V0 :=
  (after_of_writes_sub sg_rmD_1 _ sg_rmD_1_writes (by decide)).trans (val35_main_v239 V0)

def val37 : Valuation τ sig (Elt F) := after sg_ewA_1 (val36 V0)
theorem val37_args : ∀ r ∈ mainArgs, val37 V0 (Proc.devRef .tc r) = V0 (Proc.devRef .tc r) :=
  args_step sg_ewA_1_writes rfl (val36_args V0)
def at_main_v252 := RefFn.colE (at_main_v239 V0)
theorem val37_main_v252 : val37 V0 (Proc.devRef .tc main_v252) = at_main_v252 V0 :=
  (sg_ewA_1_main_v252 (val36 V0)).trans (by rw [val36_main_v239 V0]; rfl)
def at_main_v253 := RefFn.colE (at_main_v241 V0)
theorem val37_main_v253 : val37 V0 (Proc.devRef .tc main_v253) = at_main_v253 V0 :=
  (sg_ewA_1_main_v253 (val36 V0)).trans (by rw [val36_main_v241 V0]; rfl)
theorem val37_main_v213 : val37 V0 (Proc.devRef .tc main_v213) = at_main_v213 V0 :=
  (after_of_writes_sub sg_ewA_1 _ sg_ewA_1_writes (by decide)).trans (val36_main_v213 V0)
theorem val37_main_v223 : val37 V0 (Proc.devRef .tc main_v223) = at_main_v223 V0 :=
  (after_of_writes_sub sg_ewA_1 _ sg_ewA_1_writes (by decide)).trans (val36_main_v223 V0)
theorem val37_main_v239 : val37 V0 (Proc.devRef .tc main_v239) = at_main_v239 V0 :=
  (after_of_writes_sub sg_ewA_1 _ sg_ewA_1_writes (by decide)).trans (val36_main_v239 V0)
theorem val37_main_v241 : val37 V0 (Proc.devRef .tc main_v241) = at_main_v241 V0 :=
  (after_of_writes_sub sg_ewA_1 _ sg_ewA_1_writes (by decide)).trans (val36_main_v241 V0)

def val38 : Valuation τ sig (Elt F) := after sg_ewB_1 (val37 V0)
theorem val38_args : ∀ r ∈ mainArgs, val38 V0 (Proc.devRef .tc r) = V0 (Proc.devRef .tc r) :=
  args_step sg_ewB_1_writes rfl (val37_args V0)
def at_main_v255 := RefFn.gatherE (at_main_v223 V0) (at_main_v252 V0) (at_main_v253 V0)
theorem val38_main_v255 : val38 V0 (Proc.devRef .tc main_v255) = at_main_v255 V0 :=
  (sg_ewB_1_main_v255 (val37 V0)).trans (by rw [val37_main_v223 V0, val37_main_v252 V0, val37_main_v253 V0]; rfl)
theorem val38_main_v213 : val38 V0 (Proc.devRef .tc main_v213) = at_main_v213 V0 :=
  (after_of_writes_sub sg_ewB_1 _ sg_ewB_1_writes (by decide)).trans (val37_main_v213 V0)
theorem val38_main_v239 : val38 V0 (Proc.devRef .tc main_v239) = at_main_v239 V0 :=
  (after_of_writes_sub sg_ewB_1 _ sg_ewB_1_writes (by decide)).trans (val37_main_v239 V0)
theorem val38_main_v241 : val38 V0 (Proc.devRef .tc main_v241) = at_main_v241 V0 :=
  (after_of_writes_sub sg_ewB_1 _ sg_ewB_1_writes (by decide)).trans (val37_main_v241 V0)

def val39 : Valuation τ sig (Elt F) := after sg_edge_1 (val38 V0)
theorem val39_args : ∀ r ∈ mainArgs, val39 V0 (Proc.devRef .tc r) = V0 (Proc.devRef .tc r) :=
  args_step sg_edge_1_writes rfl (val38_args V0)
def at_main_v258 := RefFn.edge1E (V0 (Proc.devRef .tc main_arg1))
theorem val39_main_v258 : val39 V0 (Proc.devRef .tc main_v258) = at_main_v258 V0 :=
  (sg_edge_1_main_v258 (val38 V0)).trans (by rw [val38_args V0 main_arg1 (by decide)]; rfl)
theorem val39_main_v213 : val39 V0 (Proc.devRef .tc main_v213) = at_main_v213 V0 :=
  (after_of_writes_sub sg_edge_1 _ sg_edge_1_writes (by decide)).trans (val38_main_v213 V0)
theorem val39_main_v239 : val39 V0 (Proc.devRef .tc main_v239) = at_main_v239 V0 :=
  (after_of_writes_sub sg_edge_1 _ sg_edge_1_writes (by decide)).trans (val38_main_v239 V0)
theorem val39_main_v241 : val39 V0 (Proc.devRef .tc main_v241) = at_main_v241 V0 :=
  (after_of_writes_sub sg_edge_1 _ sg_edge_1_writes (by decide)).trans (val38_main_v241 V0)
theorem val39_main_v255 : val39 V0 (Proc.devRef .tc main_v255) = at_main_v255 V0 :=
  (after_of_writes_sub sg_edge_1 _ sg_edge_1_writes (by decide)).trans (val38_main_v255 V0)

def val40 : Valuation τ sig (Elt F) := after sg_l1p_1 (val39 V0)
theorem val40_args : ∀ r ∈ mainArgs, val40 V0 (Proc.devRef .tc r) = V0 (Proc.devRef .tc r) :=
  args_step sg_l1p_1_writes rfl (val39_args V0)
def at_main_v260 := RefFn.loopIdxE (at_main_v239 V0)
theorem val40_main_v260 : val40 V0 (Proc.devRef .tc main_v260) = at_main_v260 V0 :=
  (sg_l1p_1_main_v260 (val39 V0)).trans (by rw [val39_main_v239 V0]; rfl)
def at_main_v261 := RefFn.loopIdxE (at_main_v241 V0)
theorem val40_main_v261 : val40 V0 (Proc.devRef .tc main_v261) = at_main_v261 V0 :=
  (sg_l1p_1_main_v261 (val39 V0)).trans (by rw [val39_main_v241 V0]; rfl)
def at_main_v263 := RefFn.loopWE (at_main_v255 V0)
theorem val40_main_v263 : val40 V0 (Proc.devRef .tc main_v263) = at_main_v263 V0 :=
  (sg_l1p_1_main_v263 (val39 V0)).trans (by rw [val39_main_v255 V0]; rfl)
theorem val40_main_v213 : val40 V0 (Proc.devRef .tc main_v213) = at_main_v213 V0 :=
  (after_of_writes_sub sg_l1p_1 _ sg_l1p_1_writes (by decide)).trans (val39_main_v213 V0)
theorem val40_main_v239 : val40 V0 (Proc.devRef .tc main_v239) = at_main_v239 V0 :=
  (after_of_writes_sub sg_l1p_1 _ sg_l1p_1_writes (by decide)).trans (val39_main_v239 V0)
theorem val40_main_v241 : val40 V0 (Proc.devRef .tc main_v241) = at_main_v241 V0 :=
  (after_of_writes_sub sg_l1p_1 _ sg_l1p_1_writes (by decide)).trans (val39_main_v241 V0)
theorem val40_main_v255 : val40 V0 (Proc.devRef .tc main_v255) = at_main_v255 V0 :=
  (after_of_writes_sub sg_l1p_1 _ sg_l1p_1_writes (by decide)).trans (val39_main_v255 V0)
theorem val40_main_v258 : val40 V0 (Proc.devRef .tc main_v258) = at_main_v258 V0 :=
  (after_of_writes_sub sg_l1p_1 _ sg_l1p_1_writes (by decide)).trans (val39_main_v258 V0)

def val41 : Valuation τ sig (Elt F) := after sg_l1_1 (val40 V0)
theorem val41_args : ∀ r ∈ mainArgs, val41 V0 (Proc.devRef .tc r) = V0 (Proc.devRef .tc r) :=
  args_step sg_l1_1_writes rfl (val40_args V0)
def at_main_v314 := RefFn.layerMainE (at_main_v260 V0) (at_main_v261 V0) (at_main_v263 V0) (at_main_v258 V0) (V0 (Proc.devRef .tc main_arg2)) (V0 (Proc.devRef .tc main_arg3))
theorem val41_main_v314 : val41 V0 (Proc.devRef .tc main_v314) = at_main_v314 V0 :=
  (sg_l1_1_main_v314 (val40 V0)).trans (by rw [val40_main_v260 V0, val40_main_v261 V0, val40_main_v263 V0, val40_main_v258 V0, val40_args V0 main_arg2 (by decide), val40_args V0 main_arg3 (by decide)]; rfl)
theorem val41_main_v213 : val41 V0 (Proc.devRef .tc main_v213) = at_main_v213 V0 :=
  (after_of_writes_sub sg_l1_1 _ sg_l1_1_writes (by decide)).trans (val40_main_v213 V0)
theorem val41_main_v239 : val41 V0 (Proc.devRef .tc main_v239) = at_main_v239 V0 :=
  (after_of_writes_sub sg_l1_1 _ sg_l1_1_writes (by decide)).trans (val40_main_v239 V0)
theorem val41_main_v241 : val41 V0 (Proc.devRef .tc main_v241) = at_main_v241 V0 :=
  (after_of_writes_sub sg_l1_1 _ sg_l1_1_writes (by decide)).trans (val40_main_v241 V0)
theorem val41_main_v255 : val41 V0 (Proc.devRef .tc main_v255) = at_main_v255 V0 :=
  (after_of_writes_sub sg_l1_1 _ sg_l1_1_writes (by decide)).trans (val40_main_v255 V0)

def val42 : Valuation τ sig (Elt F) := after sg_l2p_1 (val41 V0)
theorem val42_args : ∀ r ∈ mainArgs, val42 V0 (Proc.devRef .tc r) = V0 (Proc.devRef .tc r) :=
  args_step sg_l2p_1_writes rfl (val41_args V0)
theorem val42_main_v316 : val42 V0 (Proc.devRef .tc main_v316) = at_main_v260 V0 :=
  (sg_l2p_1_main_v316 (val41 V0)).trans (by rw [val41_main_v239 V0]; rfl)
theorem val42_main_v317 : val42 V0 (Proc.devRef .tc main_v317) = at_main_v261 V0 :=
  (sg_l2p_1_main_v317 (val41 V0)).trans (by rw [val41_main_v241 V0]; rfl)
theorem val42_main_v319 : val42 V0 (Proc.devRef .tc main_v319) = at_main_v263 V0 :=
  (sg_l2p_1_main_v319 (val41 V0)).trans (by rw [val41_main_v255 V0]; rfl)
theorem val42_main_v213 : val42 V0 (Proc.devRef .tc main_v213) = at_main_v213 V0 :=
  (after_of_writes_sub sg_l2p_1 _ sg_l2p_1_writes (by decide)).trans (val41_main_v213 V0)
theorem val42_main_v239 : val42 V0 (Proc.devRef .tc main_v239) = at_main_v239 V0 :=
  (after_of_writes_sub sg_l2p_1 _ sg_l2p_1_writes (by decide)).trans (val41_main_v239 V0)
theorem val42_main_v241 : val42 V0 (Proc.devRef .tc main_v241) = at_main_v241 V0 :=
  (after_of_writes_sub sg_l2p_1 _ sg_l2p_1_writes (by decide)).trans (val41_main_v241 V0)
theorem val42_main_v255 : val42 V0 (Proc.devRef .tc main_v255) = at_main_v255 V0 :=
  (after_of_writes_sub sg_l2p_1 _ sg_l2p_1_writes (by decide)).trans (val41_main_v255 V0)
theorem val42_main_v314 : val42 V0 (Proc.devRef .tc main_v314) = at_main_v314 V0 :=
  (after_of_writes_sub sg_l2p_1 _ sg_l2p_1_writes (by decide)).trans (val41_main_v314 V0)

def val43 : Valuation τ sig (Elt F) := after sg_l2_1 (val42 V0)
theorem val43_args : ∀ r ∈ mainArgs, val43 V0 (Proc.devRef .tc r) = V0 (Proc.devRef .tc r) :=
  args_step sg_l2_1_writes rfl (val42_args V0)
def at_main_v370 := RefFn.layerMainE (at_main_v260 V0) (at_main_v261 V0) (at_main_v263 V0) (at_main_v314 V0) (V0 (Proc.devRef .tc main_arg4)) (V0 (Proc.devRef .tc main_arg5))
theorem val43_main_v370 : val43 V0 (Proc.devRef .tc main_v370) = at_main_v370 V0 :=
  (sg_l2_1_main_v370 (val42 V0)).trans (by rw [val42_main_v316 V0, val42_main_v317 V0, val42_main_v319 V0, val42_main_v314 V0, val42_args V0 main_arg4 (by decide), val42_args V0 main_arg5 (by decide)]; rfl)
theorem val43_main_v213 : val43 V0 (Proc.devRef .tc main_v213) = at_main_v213 V0 :=
  (after_of_writes_sub sg_l2_1 _ sg_l2_1_writes (by decide)).trans (val42_main_v213 V0)
theorem val43_main_v239 : val43 V0 (Proc.devRef .tc main_v239) = at_main_v239 V0 :=
  (after_of_writes_sub sg_l2_1 _ sg_l2_1_writes (by decide)).trans (val42_main_v239 V0)
theorem val43_main_v241 : val43 V0 (Proc.devRef .tc main_v241) = at_main_v241 V0 :=
  (after_of_writes_sub sg_l2_1 _ sg_l2_1_writes (by decide)).trans (val42_main_v241 V0)
theorem val43_main_v255 : val43 V0 (Proc.devRef .tc main_v255) = at_main_v255 V0 :=
  (after_of_writes_sub sg_l2_1 _ sg_l2_1_writes (by decide)).trans (val42_main_v255 V0)

def val44 : Valuation τ sig (Elt F) := after sg_l3p_1 (val43 V0)
theorem val44_args : ∀ r ∈ mainArgs, val44 V0 (Proc.devRef .tc r) = V0 (Proc.devRef .tc r) :=
  args_step sg_l3p_1_writes rfl (val43_args V0)
theorem val44_main_v372 : val44 V0 (Proc.devRef .tc main_v372) = at_main_v260 V0 :=
  (sg_l3p_1_main_v372 (val43 V0)).trans (by rw [val43_main_v239 V0]; rfl)
theorem val44_main_v373 : val44 V0 (Proc.devRef .tc main_v373) = at_main_v261 V0 :=
  (sg_l3p_1_main_v373 (val43 V0)).trans (by rw [val43_main_v241 V0]; rfl)
theorem val44_main_v375 : val44 V0 (Proc.devRef .tc main_v375) = at_main_v263 V0 :=
  (sg_l3p_1_main_v375 (val43 V0)).trans (by rw [val43_main_v255 V0]; rfl)
theorem val44_main_v213 : val44 V0 (Proc.devRef .tc main_v213) = at_main_v213 V0 :=
  (after_of_writes_sub sg_l3p_1 _ sg_l3p_1_writes (by decide)).trans (val43_main_v213 V0)
theorem val44_main_v370 : val44 V0 (Proc.devRef .tc main_v370) = at_main_v370 V0 :=
  (after_of_writes_sub sg_l3p_1 _ sg_l3p_1_writes (by decide)).trans (val43_main_v370 V0)

def val45 : Valuation τ sig (Elt F) := after sg_l3_1 (val44 V0)
theorem val45_args : ∀ r ∈ mainArgs, val45 V0 (Proc.devRef .tc r) = V0 (Proc.devRef .tc r) :=
  args_step sg_l3_1_writes rfl (val44_args V0)
def at_main_v426 := RefFn.layerMainE (at_main_v260 V0) (at_main_v261 V0) (at_main_v263 V0) (at_main_v370 V0) (V0 (Proc.devRef .tc main_arg6)) (V0 (Proc.devRef .tc main_arg7))
theorem val45_main_v426 : val45 V0 (Proc.devRef .tc main_v426) = at_main_v426 V0 :=
  (sg_l3_1_main_v426 (val44 V0)).trans (by rw [val44_main_v372 V0, val44_main_v373 V0, val44_main_v375 V0, val44_main_v370 V0, val44_args V0 main_arg6 (by decide), val44_args V0 main_arg7 (by decide)]; rfl)
theorem val45_main_v213 : val45 V0 (Proc.devRef .tc main_v213) = at_main_v213 V0 :=
  (after_of_writes_sub sg_l3_1 _ sg_l3_1_writes (by decide)).trans (val44_main_v213 V0)

def val46 : Valuation τ sig (Elt F) := after sg_pack_1 (val45 V0)
theorem val46_args : ∀ r ∈ mainArgs, val46 V0 (Proc.devRef .tc r) = V0 (Proc.devRef .tc r) :=
  args_step sg_pack_1_writes rfl (val45_args V0)
def at_main_v427 := RefFn.packE (at_main_v426 V0)
theorem val46_main_v427 : val46 V0 (Proc.devRef .tc main_v427) = at_main_v427 V0 :=
  (sg_pack_1_main_v427 (val45 V0)).trans (by rw [val45_main_v426 V0]; rfl)
theorem val46_main_v213 : val46 V0 (Proc.devRef .tc main_v213) = at_main_v213 V0 :=
  (after_of_writes_sub sg_pack_1 _ sg_pack_1_writes (by decide)).trans (val45_main_v213 V0)

def val47 : Valuation τ sig (Elt F) := after sg_cat (val46 V0)
theorem val47_args : ∀ r ∈ mainArgs, val47 V0 (Proc.devRef .tc r) = V0 (Proc.devRef .tc r) :=
  args_step sg_cat_writes rfl (val46_args V0)
def at_main_v428 := RefFn.catE (at_main_v213 V0) (at_main_v427 V0)
theorem val47_main_v428 : val47 V0 (Proc.devRef .tc main_v428) = at_main_v428 V0 :=
  (sg_cat_main_v428 (val46 V0)).trans (by rw [val46_main_v213 V0, val46_main_v427 V0]; rfl)

theorem ops_val : after ops V0 = val47 V0 := by
  simp only [ops, after_append]
  rfl

theorem value :
    after ops V0 (Proc.devRef .tc main_v428) = RefFn.outE (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) := by
  rw [ops_val]
  exact (val47_main_v428 V0).trans rfl

theorem keep_args : ∀ r ∈ mainArgs, after ops V0 (Proc.devRef .tc r) = V0 (Proc.devRef .tc r) := by
  rw [ops_val]
  exact val47_args V0

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v428) = RefFn.outE (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v428).trans (value _),
      (h c main_arg0).trans (keep_args _ main_arg0 (by decide)),
      (h c main_arg1).trans (keep_args _ main_arg1 (by decide)),
      (h c main_arg2).trans (keep_args _ main_arg2 (by decide)),
      (h c main_arg3).trans (keep_args _ main_arg3 (by decide)),
      (h c main_arg4).trans (keep_args _ main_arg4 (by decide)),
      (h c main_arg5).trans (keep_args _ main_arg5 (by decide)),
      (h c main_arg6).trans (keep_args _ main_arg6 (by decide)),
      (h c main_arg7).trans (keep_args _ main_arg7 (by decide))⟩)
    (run_after m ρ)

end Cert.ReferenceIdeal.RValue

end
-- ==== Proof.lean ====
/-
  For each of the two batch elements both programs divide each of the 24 rows of the flow by its length (by 1e-12 where
  that is larger), take the similarities S of its 1024 columns (the Gram matrix of the scaled columns, of rank at most 24) and apply three layers
  x ↦ max (D^(-1/2) (S + I) D^(-1/2) (x W) + b) 0, where D is the diagonal of the column sums of S + I. The reference
  adds up one term per node pair and per self loop; the kernel never forms S and multiplies by its 24-row factor twice.
  With finite inputs and a positive flow every entry is a real number, all similarities are non-zero, so the reference's
  edge list is all pairs, and both results are the one real function `Cert.Assembly.specOut`, index by index.
-/
import proofs.«138489_g81887846466032_cont_9to1c4b_857_5_alg».proof.Defs
import proofs.«138489_g81887846466032_cont_9to1c4b_857_5_alg».proof.Proof.Gen.Kernel
import proofs.«138489_g81887846466032_cont_9to1c4b_857_5_alg».proof.Proof.Gen.Kernel.Frame
import proofs.«138489_g81887846466032_cont_9to1c4b_857_5_alg».proof.Proof.Gen.KernelIdeal
import proofs.«138489_g81887846466032_cont_9to1c4b_857_5_alg».proof.Proof.Gen.KernelIdeal.Frame
import proofs.«138489_g81887846466032_cont_9to1c4b_857_5_alg».proof.Proof.Gen.ReferenceIdeal
import proofs.«138489_g81887846466032_cont_9to1c4b_857_5_alg».proof.Proof.Gen.Pre_finite_inputs
import proofs.«138489_g81887846466032_cont_9to1c4b_857_5_alg».proof.Proof.AssemblyKernel
import proofs.«138489_g81887846466032_cont_9to1c4b_857_5_alg».proof.Proof.KernelValue
import proofs.«138489_g81887846466032_cont_9to1c4b_857_5_alg».proof.Proof.AssemblyRef
import proofs.«138489_g81887846466032_cont_9to1c4b_857_5_alg».proof.Proof.RefRun

noncomputable section

namespace Cert.Proof

open Idealize.ShloMosaic Idealize.SL.Sem Idealize.ShloMosaic.ValueIdx Idealize.ShloMosaic.TcCoe

attribute [local instance] Cert.Kernel.Gen.facts Cert.KernelIdeal.Gen.facts Cert.ReferenceIdeal.Gen.facts Cert.Pre_finite_inputs.Gen.facts

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RValue.run (F := Ideal) m ρ)

theorem algebraic : Cert.algebraic_KernelIdeal_ReferenceIdeal := by
  intro m ρ m' ρ' hpre hagree
  refine ⟨fun c => Cert.Assembly.specOut
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact Cert.KernelIdeal.KValue.run m ρ _ (fun c t n e => Cert.Assembly.kernel_point m c (Cert.Assembly.fin8_of_pre (hpre c)) t n e)
  · refine (θ_run Cert.ReferenceIdeal.defs _ _).mono (fun _ h c => ⟨(h c).1.trans ?_, (h c).2⟩) (Cert.ReferenceIdeal.RValue.run (F := Ideal) m' ρ')
    obtain ⟨e0, e1, e2, e3, e4, e5, e6, e7⟩ := hagree c
    rw [e0, e1, e2, e3, e4, e5, e6, e7]
    exact Cert.Assembly.ref_value (Cert.Assembly.fin8_of_pre (hpre c))

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
